-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2x262144 : Shape := ⟨2, ![2, 262144]⟩
abbrev S8192x64 : Shape := ⟨2, ![8192, 64]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S2x262144 : S_.BroadcastsInDim S2x262144 (![] : Fin 0 → Fin S2x262144.rank)
  reducesTo_S2x262144_S_d0_1 : S2x262144.ReducesTo [0, 1] S_

variable [Facts]

def fn_part3 {F : FTy → Type} [FloatOps F] (main_arg1 : IVec S2x262144 32) (main_arg12 : FVec F S64 .f32) (main_v48 : IVec S_ 1) (main_v49 : FVec F S256x64 .f32) (main_v50 : FVec F S256x64 .f32) : IVec S_ 1 :=
  let main_v51 : IVec S256x64 1 := cmpf .olt main_v49 main_v50
  let main_c_19 : IVec S_ 1 := constantI S_ 1 1#1
  let main_v52 : IVec S_ 1 := (fun x v => Host.reduce IntOp.andi x v reducesTo_S256x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_c_22 : IVec S_ 32 := constantI S_ 32 0#32
  let main_v59 : IVec S2x262144 32 := broadcastInDim S2x262144 ![] bcast_S_S2x262144 main_c_22
  let main_v60 : IVec S2x262144 1 := cmpi .sge main_arg1 main_v59
  let main_c_23 : IVec S_ 32 := constantI S_ 32 8192#32
  let main_v61 : IVec S2x262144 32 := broadcastInDim S2x262144 ![] bcast_S_S2x262144 main_c_23
  let main_v62 : IVec S2x262144 1 := cmpi .slt main_arg1 main_v61
  let main_v63 : IVec S2x262144 1 := andi main_v60 main_v62
  let main_c_24 : IVec S_ 1 := constantI S_ 1 1#1
  let main_v64 : IVec S_ 1 := (fun x v => Host.reduce IntOp.andi x v reducesTo_S2x262144_S_d0_1 h_S_) main_v63 main_c_24
  let main_v65 : IVec S_ 1 := andi main_v58 main_v64
  main_v65

def fn_part2 {F : FTy → Type} [FloatOps F] (main_arg1 : IVec S2x262144 32) (main_arg8 : FVec F S256 .f32) (main_arg9 : FVec F S256x64 .f32) (main_arg10 : FVec F S64 .f32) (main_arg11 : FVec F S256x64 .f32) (main_arg12 : FVec F S64 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x64 .f32 := Host.absf main_arg9
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S256x64 .f32 := Host.absf main_arg11
  let main_cst_18 : FVec F S_ .f32 := constant S_ .f32 0x7F800000#32
  let main_v50 : FVec F S256x64 .f32 := broadcastInDim S256x64 ![] bcast_S_S256x64 main_cst_18
  fn_part3 (F := F) main_arg1 main_arg12 main_v48 main_v49 main_v50

def fn_part1 {F : FTy → Type} [FloatOps F] (main_arg1 : IVec S2x262144 32) (main_arg5 : FVec F S256x256 .f32) (main_arg6 : FVec F S256 .f32) (main_arg7 : FVec F S256x256 .f32) (main_arg8 : FVec F S256 .f32) (main_arg9 : FVec F S256x64 .f32) (main_arg10 : FVec F S64 .f32) (main_arg11 : FVec F S256x64 .f32) (main_arg12 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S8192x256 .f32) (main_arg1 : IVec S2x262144 32) (main_arg2 : FVec F S8192x64 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x64 .f32) (main_arg10 : FVec F S64 .f32) (main_arg11 : FVec F S256x64 .f32) (main_arg12 : FVec F S64 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x64 .f32 := Host.absf main_arg2
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_arg9 main_arg10 main_arg11 main_arg12 main_v13 main_v16
-- ==== Kernel.lean ====
abbrev S8192x256 : Shape := ⟨2, ![8192, 256]⟩
abbrev S2x262144 : Shape := ⟨2, ![2, 262144]⟩
abbrev S8192x64 : Shape := ⟨2, ![8192, 64]⟩
abbrev S256x256 : Shape := ⟨2, ![256, 256]⟩
abbrev S256 : Shape := ⟨1, ![256]⟩
abbrev S256x64 : Shape := ⟨2, ![256, 64]⟩
abbrev S64 : Shape := ⟨1, ![64]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S8192x8192 : Shape := ⟨2, ![8192, 8192]⟩
abbrev S270336x2 : Shape := ⟨2, ![270336, 2]⟩
abbrev S1x256 : Shape := ⟨2, ![1, 256]⟩
abbrev S1024x256 : Shape := ⟨2, ![1024, 256]⟩
abbrev S512x8192 : Shape := ⟨2, ![512, 8192]⟩
abbrev S512x256 : Shape := ⟨2, ![512, 256]⟩
abbrev S256x128 : Shape := ⟨2, ![256, 128]⟩
abbrev S128 : Shape := ⟨1, ![128]⟩
abbrev S1x128 : Shape := ⟨2, ![1, 128]⟩
abbrev S8192x128 : Shape := ⟨2, ![8192, 128]⟩
abbrev S1024x128 : Shape := ⟨2, ![1024, 128]⟩
abbrev S512x128 : Shape := ⟨2, ![512, 128]⟩
abbrev S1024x64 : Shape := ⟨2, ![1024, 64]⟩
abbrev S1024x1024 : Shape := ⟨2, ![1024, 1024]⟩
abbrev S64x1024 : Shape := ⟨2, ![64, 1024]⟩
abbrev S1024x1 : Shape := ⟨2, ![1024, 1]⟩
abbrev S1x1024 : Shape := ⟨2, ![1, 1024]⟩

abbrev nBuf : Space → Nat
  | .hbm => 99
  | .vmem => 48
  | .smem => 0
  | _ => 0

abbrev bufTy : (tb : Table) → Fin (tcTables nBuf tb) → BufTy
  | .hbm, ⟨0, _⟩ => ⟨S8192x256, .f32⟩
  | .hbm, ⟨1, _⟩ => ⟨S2x262144, .i32⟩
  | .hbm, ⟨2, _⟩ => ⟨S8192x64, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x64, .f32⟩
  | .hbm, ⟨10, _⟩ => ⟨S64, .f32⟩
  | .hbm, ⟨11, _⟩ => ⟨S256x64, .f32⟩
  | .hbm, ⟨12, _⟩ => ⟨S64, .f32⟩
  | .hbm, ⟨13, _⟩ => ⟨S8192, .i32⟩
  | .hbm, ⟨14, _⟩ => ⟨S1x262144, .i32⟩
  | .hbm, ⟨15, _⟩ => ⟨S262144, .i32⟩
  | .hbm, ⟨16, _⟩ => ⟨S270336, .i32⟩
  | .hbm, ⟨17, _⟩ => ⟨S1x262144, .i32⟩
  | .hbm, ⟨18, _⟩ => ⟨S262144, .i32⟩
  | .hbm, ⟨19, _⟩ => ⟨S270336, .i32⟩
  | .hbm, ⟨20, _⟩ => ⟨S_, .f32⟩
  | .hbm, ⟨21, _⟩ => ⟨S270336, .f32⟩
  | .hbm, ⟨22, _⟩ => ⟨S_, .f32⟩
  | .hbm, ⟨23, _⟩ => ⟨S8192, .f32⟩
  | .hbm, ⟨24, _⟩ => ⟨S270336x1, .i32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .i1⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .i32⟩
  | .hbm, ⟨35, _⟩ => ⟨S270336, .i32⟩
  | .hbm, ⟨36, _⟩ => ⟨S270336, .i1⟩
  | .hbm, ⟨37, _⟩ => ⟨S_, .i32⟩
  | .hbm, ⟨38, _⟩ => ⟨S270336, .i32⟩
  | .hbm, ⟨39, _⟩ => ⟨S270336, .i32⟩
  | .hbm, ⟨40, _⟩ => ⟨S270336, .i32⟩
  | .hbm, ⟨41, _⟩ => ⟨S270336x1, .i32⟩
  | .hbm, ⟨42, _⟩ => ⟨S270336, .f32⟩
  | .hbm, ⟨43, _⟩ => ⟨S_, .i32⟩
  | .hbm, ⟨44, _⟩ => ⟨S270336, .i32⟩
  | .hbm, ⟨45, _⟩ => ⟨S270336, .i1⟩
  | .hbm, ⟨46, _⟩ => ⟨S_, .i32⟩
  | .hbm, ⟨47, _⟩ => ⟨S270336, .i32⟩
  | .hbm, ⟨48, _⟩ => ⟨S270336, .i32⟩
  | .hbm, ⟨49, _⟩ => ⟨S270336, .i32⟩
  | .hbm, ⟨50, _⟩ => ⟨S270336x1, .i32⟩
  | .hbm, ⟨51, _⟩ => ⟨S270336, .f32⟩
  | .hbm, ⟨52, _⟩ => ⟨S270336, .f32⟩
  | .hbm, ⟨53, _⟩ => ⟨S_, .f32⟩
  | .hbm, ⟨54, _⟩ => ⟨S8192x8192, .f32⟩
  | .hbm, ⟨55, _⟩ => ⟨S_, .i32⟩
  | .hbm, ⟨56, _⟩ => ⟨S270336, .i32⟩
  | .hbm, ⟨57, _⟩ => ⟨S270336, .i1⟩
  | .hbm, ⟨58, _⟩ => ⟨S_, .i32⟩
  | .hbm, ⟨59, _⟩ => ⟨S270336, .i32⟩
  | .hbm, ⟨60, _⟩ => ⟨S270336, .i32⟩
  | .hbm, ⟨61, _⟩ => ⟨S270336, .i32⟩
  | .hbm, ⟨62, _⟩ => ⟨S_, .i32⟩
  | .hbm, ⟨63, _⟩ => ⟨S270336, .i32⟩
  | .hbm, ⟨64, _⟩ => ⟨S270336, .i1⟩
  | .hbm, ⟨65, _⟩ => ⟨S_, .i32⟩
  | .hbm, ⟨66, _⟩ => ⟨S270336, .i32⟩
  | .hbm, ⟨67, _⟩ => ⟨S270336, .i32⟩
  | .hbm, ⟨68, _⟩ => ⟨S270336, .i32⟩
  | .hbm, ⟨69, _⟩ => ⟨S270336x1, .i32⟩
  | .hbm, ⟨70, _⟩ => ⟨S270336x1, .i32⟩
  | .hbm, ⟨71, _⟩ => ⟨S270336x2, .i32⟩
  | .hbm, ⟨72, _⟩ => ⟨S8192x8192, .f32⟩
  | .hbm, ⟨73, _⟩ => ⟨S8192x8192, .bf16⟩
  | .hbm, ⟨74, _⟩ => ⟨S1x256, .f32⟩
  | .hbm, ⟨75, _⟩ => ⟨S8192x256, .f32⟩
  | .hbm, ⟨76, _⟩ => ⟨S_, .f32⟩
  | .hbm, ⟨77, _⟩ => ⟨S1x256, .f32⟩
  | .hbm, ⟨78, _⟩ => ⟨S8192x256, .f32⟩
  | .hbm, ⟨79, _⟩ => ⟨S1x256, .f32⟩
  | .hbm, ⟨80, _⟩ => ⟨S8192x256, .f32⟩
  | .hbm, ⟨81, _⟩ => ⟨S_, .f32⟩
  | .hbm, ⟨82, _⟩ => ⟨S1x256, .f32⟩
  | .hbm, ⟨83, _⟩ => ⟨S8192x256, .f32⟩
  | .hbm, ⟨84, _⟩ => ⟨S1x256, .f32⟩
  | .hbm, ⟨85, _⟩ => ⟨S8192x256, .f32⟩
  | .hbm, ⟨86, _⟩ => ⟨S256x128, .f32⟩
  | .hbm, ⟨87, _⟩ => ⟨S128, .f32⟩
  | .hbm, ⟨88, _⟩ => ⟨S_, .f32⟩
  | .hbm, ⟨89, _⟩ => ⟨S1x128, .f32⟩
  | .hbm, ⟨90, _⟩ => ⟨S8192x128, .f32⟩
  | .hbm, ⟨91, _⟩ => ⟨S1x128, .f32⟩
  | .hbm, ⟨92, _⟩ => ⟨S8192x128, .f32⟩
  | .hbm, ⟨93, _⟩ => ⟨S8192x64, .f32⟩
  | .hbm, ⟨94, _⟩ => ⟨S8192x64, .f32⟩
  | .hbm, ⟨95, _⟩ => ⟨S8192x64, .f32⟩
  | .hbm, ⟨96, _⟩ => ⟨S8192x64, .f32⟩
  | .hbm, ⟨97, _⟩ => ⟨S8192x64, .f32⟩
  | .hbm, ⟨98, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S1x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S256x256, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | .local _ .vmem, ⟨12, _⟩ => ⟨S512x8192, .bf16⟩
  | .local _ .vmem, ⟨13, _⟩ => ⟨S512x8192, .bf16⟩
  | .local _ .vmem, ⟨14, _⟩ => ⟨S8192x256, .f32⟩
  | .local _ .vmem, ⟨15, _⟩ => ⟨S1x256, .f32⟩
  | .local _ .vmem, ⟨16, _⟩ => ⟨S512x256, .f32⟩
  | .local _ .vmem, ⟨17, _⟩ => ⟨S512x256, .f32⟩
  | .local _ .vmem, ⟨18, _⟩ => ⟨S1024x256, .f32⟩
  | .local _ .vmem, ⟨19, _⟩ => ⟨S1024x256, .f32⟩
  | .local _ .vmem, ⟨20, _⟩ => ⟨S256x256, .f32⟩
  | .local _ .vmem, ⟨21, _⟩ => ⟨S1x256, .f32⟩
  | .local _ .vmem, ⟨22, _⟩ => ⟨S1024x256, .f32⟩
  | .local _ .vmem, ⟨23, _⟩ => ⟨S1024x256, .f32⟩
  | .local _ .vmem, ⟨24, _⟩ => ⟨S512x8192, .bf16⟩
  | .local _ .vmem, ⟨25, _⟩ => ⟨S512x8192, .bf16⟩
  | .local _ .vmem, ⟨26, _⟩ => ⟨S8192x256, .f32⟩
  | .local _ .vmem, ⟨27, _⟩ => ⟨S1x256, .f32⟩
  | .local _ .vmem, ⟨28, _⟩ => ⟨S512x256, .f32⟩
  | .local _ .vmem, ⟨29, _⟩ => ⟨S512x256, .f32⟩
  | .local _ .vmem, ⟨30, _⟩ => ⟨S1024x256, .f32⟩
  | .local _ .vmem, ⟨31, _⟩ => ⟨S1024x256, .f32⟩
  | .local _ .vmem, ⟨32, _⟩ => ⟨S256x128, .f32⟩
  | .local _ .vmem, ⟨33, _⟩ => ⟨S1x128, .f32⟩
  | .local _ .vmem, ⟨34, _⟩ => ⟨S1024x128, .f32⟩
  | .local _ .vmem, ⟨35, _⟩ => ⟨S1024x128, .f32⟩
  | .local _ .vmem, ⟨36, _⟩ => ⟨S512x8192, .bf16⟩
  | .local _ .vmem, ⟨37, _⟩ => ⟨S512x8192, .bf16⟩
  | .local _ .vmem, ⟨38, _⟩ => ⟨S8192x128, .f32⟩
  | .local _ .vmem, ⟨39, _⟩ => ⟨S1x128, .f32⟩
  | .local _ .vmem, ⟨40, _⟩ => ⟨S512x128, .f32⟩
  | .local _ .vmem, ⟨41, _⟩ => ⟨S512x128, .f32⟩
  | .local _ .vmem, ⟨42, _⟩ => ⟨S1024x64, .f32⟩
  | .local _ .vmem, ⟨43, _⟩ => ⟨S1024x64, .f32⟩
  | .local _ .vmem, ⟨44, _⟩ => ⟨S1024x64, .f32⟩
  | .local _ .vmem, ⟨45, _⟩ => ⟨S1024x64, .f32⟩
  | .local _ .vmem, ⟨46, _⟩ => ⟨S1024x1024, .f32⟩
  | .local _ .vmem, ⟨47, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_c_7 : Ref sig .tc := ⟨.hbm, 55, rfl⟩
abbrev main_v31 : Ref sig .tc := ⟨.hbm, 56, rfl⟩
abbrev main_v32 : Ref sig .tc := ⟨.hbm, 57, rfl⟩
abbrev main_c_8 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_9 : Ref sig .tc := ⟨.hbm, 62, rfl⟩
abbrev main_v36 : Ref sig .tc := ⟨.hbm, 63, rfl⟩
abbrev main_v37 : Ref sig .tc := ⟨.hbm, 64, rfl⟩
abbrev main_c_10 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_11 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_12 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_13 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x8192 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8192x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1024x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x8192 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8192x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S512x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨2, ![8, 8], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S1024x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S_S8192x8192 : S_.BroadcastsInDim S8192x8192 (![] : Fin 0 → Fin S8192x8192.rank)
  concatenates_S270336x1_S270336x1_S270336x2_d1 : Shape.Concatenates [S270336x1, S270336x1] S270336x2 1
  bitsLt_bf16_f32 : FTy.bits .bf16 < FTy.bits .f32
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  bcast_S_S1x256 : S_.BroadcastsInDim S1x256 (![] : Fin 0 → Fin S1x256.rank)
  shapeCasts_S1024x256_S1024x256 : S1024x256.ShapeCasts S1024x256
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  broadcasts_S1x256_S512x256 : S1x256.Broadcasts S512x256
  inb_S512x256_S512x256_0_0 : ∀ a, (![0, 0] : Fin 2 → Nat) a + S512x256.size a ≤ S512x256.size a
  h_S512x256 : 0 < S512x256.numel
  concatenates_S256x64_S256x64_S256x128_d1 : Shape.Concatenates [S256x64, S256x64] S256x128 1
  concatenates_S64_S64_S128_d0 : Shape.Concatenates [S64, S64] S128 0
  bcast_S_S1x128 : S_.BroadcastsInDim S1x128 (![] : Fin 0 → Fin S1x128.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  broadcasts_S1x128_S512x128 : S1x128.Broadcasts S512x128
  inb_S512x128_S512x128_0_0 : ∀ a, (![0, 0] : Fin 2 → Nat) a + S512x128.size a ≤ S512x128.size a
  h_S512x128 : 0 < S512x128.numel
  slices_S8192x128_S8192x64_0_0 : S8192x128.Slices ![0, 0] S8192x64
  slices_S8192x128_S8192x64_0_64 : S8192x128.Slices ![0, 64] S8192x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  iota_S1024x1_d0_w32 : S1024x1.Iotas .tc 32 [0]
  iota_S1x1024_d1_w32 : S1x1024.Iotas .tc 32 [1]
  broadcasts_S1x1024_S1024x1024 : S1x1024.Broadcasts S1024x1024
  broadcasts_S1024x1_S1024x1024 : S1024x1.Broadcasts S1024x1024
  inb_S1024x1024_S1024x1024_0_0 : ∀ a, (![0, 0] : Fin 2 → Nat) a + S1024x1024.size a ≤ S1024x1024.size a
  h_S1024x1024 : 0 < S1024x1024.numel
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  scatter_S8192x8192_S270336x2_S270336_n_01_01_1_wf : ScatterDims.WF S8192x8192 S270336x2 S270336 [] [0, 1] [0, 1] 1
  dot_S1024x256_S256x256_S1024x256_1_0_0_1_n_n_wf : DotDims.WF S1024x256 S256x256 S1024x256 [1] [0] [0] [1] [] []
  dot_S512x8192_S8192x256_S512x256_1_0_0_1_n_n_wf : DotDims.WF S512x8192 S8192x256 S512x256 [1] [0] [0] [1] [] []
  dot_S1024x256_S256x128_S1024x128_1_0_0_1_n_n_wf : DotDims.WF S1024x256 S256x128 S1024x128 [1] [0] [0] [1] [] []
  dot_S512x8192_S8192x128_S512x128_1_0_0_1_n_n_wf : DotDims.WF S512x8192 S8192x128 S512x128 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x8192.size a ≤ S8192x8192.size a
  hwx2_0 : ∀ i : grid2.Coords, EltTy.bits .bf16 = 32 ∨ (Rect.block (s := S8192x8192) S512x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x256.size a
  hwx2_1 : ∀ i : grid2.Coords, EltTy.bits .f32 = 32 ∨ (Rect.block (s := S8192x256) S8192x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x256.size a ≤ S8192x256.size a
  hwx2_3 : ∀ i : grid2.Coords, EltTy.bits .f32 = 32 ∨ (Rect.block (s := S8192x256) S512x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S8192x256.size a
  hwx3_0 : ∀ i : grid3.Coords, EltTy.bits .f32 = 32 ∨ (Rect.block (s := S8192x256) S1024x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x256.size a ≤ S8192x256.size a
  hwx3_3 : ∀ i : grid3.Coords, EltTy.bits .f32 = 32 ∨ (Rect.block (s := S8192x256) S1024x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x8192.size a ≤ S8192x8192.size a
  hwx4_0 : ∀ i : grid4.Coords, EltTy.bits .bf16 = 32 ∨ (Rect.block (s := S8192x8192) S512x8192.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x256.size a ≤ S8192x256.size a
  hwx4_1 : ∀ i : grid4.Coords, EltTy.bits .f32 = 32 ∨ (Rect.block (s := S8192x256) S8192x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x256.size a ≤ S8192x256.size a
  hwx4_3 : ∀ i : grid4.Coords, EltTy.bits .f32 = 32 ∨ (Rect.block (s := S8192x256) S512x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x256.size a ≤ S8192x256.size a
  hwx5_0 : ∀ i : grid5.Coords, EltTy.bits .f32 = 32 ∨ (Rect.block (s := S8192x256) S1024x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x128.size a ≤ S256x128.size a
  hwx5_1 : ∀ i : grid5.Coords, EltTy.bits .f32 = 32 ∨ (Rect.block (s := S256x128) S256x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x128.size a ≤ S8192x128.size a
  hwx5_3 : ∀ i : grid5.Coords, EltTy.bits .f32 = 32 ∨ (Rect.block (s := S8192x128) S1024x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x8192.size a ≤ S8192x8192.size a
  hwx6_0 : ∀ i : grid6.Coords, EltTy.bits .bf16 = 32 ∨ (Rect.block (s := S8192x8192) S512x8192.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S8192x128.size a ≤ S8192x128.size a
  hwx6_1 : ∀ i : grid6.Coords, EltTy.bits .f32 = 32 ∨ (Rect.block (s := S8192x128) S8192x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S512x128.size a ≤ S8192x128.size a
  hwx6_3 : ∀ i : grid6.Coords, EltTy.bits .f32 = 32 ∨ (Rect.block (s := S8192x128) S512x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x64.size a ≤ S8192x64.size a
  hwx7_0 : ∀ i : grid7.Coords, EltTy.bits .f32 = 32 ∨ (Rect.block (s := S8192x64) S1024x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x64.size a ≤ S8192x64.size a
  hwx7_1 : ∀ i : grid7.Coords, EltTy.bits .f32 = 32 ∨ (Rect.block (s := S8192x64) S1024x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x1024.size a ≤ S8192x8192.size a
  hwx7_2 : ∀ i : grid7.Coords, EltTy.bits .f32 = 32 ∨ (Rect.block (s := S8192x8192) S1024x1024.size (cc7_transform_2 i) (hinb7_2 i)).WholeWords (EltTy.packing .f32)

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def scatter_S8192x8192_S270336x2_S270336_n_01_01_1 : ScatterDims S8192x8192 S270336x2 S270336 where
  updateWindowDims := []
  insertedWindowDims := [0, 1]
  scatterDimsToOperandDims := [0, 1]
  indexVectorDim := 1
  wf := scatter_S8192x8192_S270336x2_S270336_n_01_01_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S512x8192_S8192x256_S512x256_1_0_0_1_n_n : DotDims S512x8192 S8192x256 S512x256 where
  lhsContracting := [1]
  rhsContracting := [0]
  lhsNonContracting := [0]
  rhsNonContracting := [1]
  lhsBatch := []
  rhsBatch := []
  wf := dot_S512x8192_S8192x256_S512x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S512x8192_S8192x128_S512x128_1_0_0_1_n_n : DotDims S512x8192 S8192x128 S512x128 where
  lhsContracting := [1]
  rhsContracting := [0]
  lhsNonContracting := [0]
  rhsNonContracting := [1]
  lhsBatch := []
  rhsBatch := []
  wf := dot_S512x8192_S8192x128_S512x128_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S512x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S8192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S512x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v51) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1024x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v45) S512x8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S8192x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v54) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v55) S512x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v55) S1024x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v56) S256x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v58) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v59) S1024x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v45) S512x8192.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v59) S8192x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v60) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v61) S512x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v66) S1024x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v66) S1024x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v67) S1024x1024.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S8192x256 : Shape := ⟨2, ![8192, 256]⟩
abbrev S2x262144 : Shape := ⟨2, ![2, 262144]⟩
abbrev S8192x64 : Shape := ⟨2, ![8192, 64]⟩
abbrev S256x256 : Shape := ⟨2, ![256, 256]⟩
abbrev S256 : Shape := ⟨1, ![256]⟩
abbrev S256x64 : Shape := ⟨2, ![256, 64]⟩
abbrev S64 : Shape := ⟨1, ![64]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S1x256 : Shape := ⟨2, ![1, 256]⟩
abbrev S_ : Shape := ⟨0, ![]⟩
abbrev S270336x1 : Shape := ⟨2, ![270336, 1]⟩
abbrev S270336x256 : Shape := ⟨2, ![270336, 256]⟩
abbrev S270336x64 : Shape := ⟨2, ![270336, 64]⟩
abbrev S1x64 : Shape := ⟨2, ![1, 64]⟩
abbrev S64x8192 : Shape := ⟨2, ![64, 8192]⟩
abbrev S8192x8192 : Shape := ⟨2, ![8192, 8192]⟩

abbrev nBuf : Space → Nat
  | .hbm => 270
  | .vmem => 0
  | .smem => 0
  | _ => 0

abbrev hbmTy0_0 (i : Nat) : BufTy := match i % 128 with
  | 0 => ⟨S8192x256, .f32⟩
  | 1 => ⟨S2x262144, .i32⟩
  | 2 => ⟨S8192x64, .f32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x64, .f32⟩
  | 10 => ⟨S64, .f32⟩
  | 11 => ⟨S256x64, .f32⟩
  | 12 => ⟨S64, .f32⟩
  | 13 => ⟨S8192, .i32⟩
  | 14 => ⟨S1x262144, .i32⟩
  | 15 => ⟨S262144, .i32⟩
  | 16 => ⟨S270336, .i32⟩
  | 17 => ⟨S1x262144, .i32⟩
  | 18 => ⟨S262144, .i32⟩
  | 19 => ⟨S270336, .i32⟩
  | 20 => ⟨S8192x256, .f32⟩
  | 21 => ⟨S1x256, .f32⟩
  | 22 => ⟨S8192x256, .f32⟩
  | 23 => ⟨S8192x256, .f32⟩
  | 24 => ⟨S8192x256, .f32⟩
  | 25 => ⟨S_, .f32⟩
  | 26 => ⟨S270336, .f32⟩
  | 27 => ⟨S_, .f32⟩
  | 28 => ⟨S8192, .f32⟩
  | 29 => ⟨S270336x1, .i32⟩
  | 30 => ⟨S8192, .f32⟩
  | 31 => ⟨S_, .f32⟩
  | 32 => ⟨S8192, .f32⟩
  | 33 => ⟨S8192, .i1⟩
  | 34 => ⟨S8192, .f32⟩
  | 35 => ⟨S_, .f32⟩
  | 36 => ⟨S_, .f32⟩
  | 37 => ⟨S8192, .f32⟩
  | 38 => ⟨S8192, .f32⟩
  | 39 => ⟨S_, .i32⟩
  | 40 => ⟨S270336, .i32⟩
  | 41 => ⟨S270336, .i1⟩
  | 42 => ⟨S_, .i32⟩
  | 43 => ⟨S270336, .i32⟩
  | 44 => ⟨S270336, .i32⟩
  | 45 => ⟨S270336, .i32⟩
  | 46 => ⟨S270336x1, .i32⟩
  | 47 => ⟨S270336, .f32⟩
  | 48 => ⟨S_, .i32⟩
  | 49 => ⟨S270336, .i32⟩
  | 50 => ⟨S270336, .i1⟩
  | 51 => ⟨S_, .i32⟩
  | 52 => ⟨S270336, .i32⟩
  | 53 => ⟨S270336, .i32⟩
  | 54 => ⟨S270336, .i32⟩
  | 55 => ⟨S270336x1, .i32⟩
  | 56 => ⟨S270336, .f32⟩
  | 57 => ⟨S270336, .f32⟩
  | 58 => ⟨S_, .i32⟩
  | 59 => ⟨S270336, .i32⟩
  | 60 => ⟨S270336, .i1⟩
  | 61 => ⟨S_, .i32⟩
  | 62 => ⟨S270336, .i32⟩
  | 63 => ⟨S270336, .i32⟩
  | 64 => ⟨S270336, .i32⟩
  | 65 => ⟨S270336x1, .i32⟩
  | 66 => ⟨S270336x256, .f32⟩
  | 67 => ⟨S270336x1, .f32⟩
  | 68 => ⟨S270336x256, .f32⟩
  | 69 => ⟨S270336x256, .f32⟩
  | 70 => ⟨S_, .f32⟩
  | 71 => ⟨S8192x256, .f32⟩
  | 72 => ⟨S270336x1, .i32⟩
  | 73 => ⟨S8192x256, .f32⟩
  | 74 => ⟨S1x256, .f32⟩
  | 75 => ⟨S8192x256, .f32⟩
  | 76 => ⟨S8192x256, .f32⟩
  | 77 => ⟨S_, .f32⟩
  | 78 => ⟨S8192x256, .f32⟩
  | 79 => ⟨S8192x256, .f32⟩
  | 80 => ⟨S8192x256, .f32⟩
  | 81 => ⟨S_, .f32⟩
  | 82 => ⟨S270336, .f32⟩
  | 83 => ⟨S_, .f32⟩
  | 84 => ⟨S8192, .f32⟩
  | 85 => ⟨S270336x1, .i32⟩
  | 86 => ⟨S8192, .f32⟩
  | 87 => ⟨S_, .f32⟩
  | 88 => ⟨S8192, .f32⟩
  | 89 => ⟨S8192, .i1⟩
  | 90 => ⟨S8192, .f32⟩
  | 91 => ⟨S_, .f32⟩
  | 92 => ⟨S_, .f32⟩
  | 93 => ⟨S8192, .f32⟩
  | 94 => ⟨S8192, .f32⟩
  | 95 => ⟨S_, .i32⟩
  | 96 => ⟨S270336, .i32⟩
  | 97 => ⟨S270336, .i1⟩
  | 98 => ⟨S_, .i32⟩
  | 99 => ⟨S270336, .i32⟩
  | 100 => ⟨S270336, .i32⟩
  | 101 => ⟨S270336, .i32⟩
  | 102 => ⟨S270336x1, .i32⟩
  | 103 => ⟨S270336, .f32⟩
  | 104 => ⟨S_, .i32⟩
  | 105 => ⟨S270336, .i32⟩
  | 106 => ⟨S270336, .i1⟩
  | 107 => ⟨S_, .i32⟩
  | 108 => ⟨S270336, .i32⟩
  | 109 => ⟨S270336, .i32⟩
  | 110 => ⟨S270336, .i32⟩
  | 111 => ⟨S270336x1, .i32⟩
  | 112 => ⟨S270336, .f32⟩
  | 113 => ⟨S270336, .f32⟩
  | 114 => ⟨S_, .i32⟩
  | 115 => ⟨S270336, .i32⟩
  | 116 => ⟨S270336, .i1⟩
  | 117 => ⟨S_, .i32⟩
  | 118 => ⟨S270336, .i32⟩
  | 119 => ⟨S270336, .i32⟩
  | 120 => ⟨S270336, .i32⟩
  | 121 => ⟨S270336x1, .i32⟩
  | 122 => ⟨S270336x256, .f32⟩
  | 123 => ⟨S270336x1, .f32⟩
  | 124 => ⟨S270336x256, .f32⟩
  | 125 => ⟨S270336x256, .f32⟩
  | 126 => ⟨S_, .f32⟩
  | 127 => ⟨S8192x256, .f32⟩
  | _ => ⟨S8192x256, .f32⟩

abbrev hbmTy0_1 (i : Nat) : BufTy := match i % 128 with
  | 0 => ⟨S270336x1, .i32⟩
  | 1 => ⟨S8192x256, .f32⟩
  | 2 => ⟨S1x256, .f32⟩
  | 3 => ⟨S8192x256, .f32⟩
  | 4 => ⟨S8192x256, .f32⟩
  | 5 => ⟨S_, .f32⟩
  | 6 => ⟨S8192x256, .f32⟩
  | 7 => ⟨S8192x256, .f32⟩
  | 8 => ⟨S8192x64, .f32⟩
  | 9 => ⟨S_, .f32⟩
  | 10 => ⟨S270336, .f32⟩
  | 11 => ⟨S_, .f32⟩
  | 12 => ⟨S8192, .f32⟩
  | 13 => ⟨S270336x1, .i32⟩
  | 14 => ⟨S8192, .f32⟩
  | 15 => ⟨S_, .f32⟩
  | 16 => ⟨S8192, .f32⟩
  | 17 => ⟨S8192, .i1⟩
  | 18 => ⟨S8192, .f32⟩
  | 19 => ⟨S_, .f32⟩
  | 20 => ⟨S_, .f32⟩
  | 21 => ⟨S8192, .f32⟩
  | 22 => ⟨S8192, .f32⟩
  | 23 => ⟨S_, .i32⟩
  | 24 => ⟨S270336, .i32⟩
  | 25 => ⟨S270336, .i1⟩
  | 26 => ⟨S_, .i32⟩
  | 27 => ⟨S270336, .i32⟩
  | 28 => ⟨S270336, .i32⟩
  | 29 => ⟨S270336, .i32⟩
  | 30 => ⟨S270336x1, .i32⟩
  | 31 => ⟨S270336, .f32⟩
  | 32 => ⟨S_, .i32⟩
  | 33 => ⟨S270336, .i32⟩
  | 34 => ⟨S270336, .i1⟩
  | 35 => ⟨S_, .i32⟩
  | 36 => ⟨S270336, .i32⟩
  | 37 => ⟨S270336, .i32⟩
  | 38 => ⟨S270336, .i32⟩
  | 39 => ⟨S270336x1, .i32⟩
  | 40 => ⟨S270336, .f32⟩
  | 41 => ⟨S270336, .f32⟩
  | 42 => ⟨S_, .i32⟩
  | 43 => ⟨S270336, .i32⟩
  | 44 => ⟨S270336, .i1⟩
  | 45 => ⟨S_, .i32⟩
  | 46 => ⟨S270336, .i32⟩
  | 47 => ⟨S270336, .i32⟩
  | 48 => ⟨S270336, .i32⟩
  | 49 => ⟨S270336x1, .i32⟩
  | 50 => ⟨S270336x64, .f32⟩
  | 51 => ⟨S270336x1, .f32⟩
  | 52 => ⟨S270336x64, .f32⟩
  | 53 => ⟨S270336x64, .f32⟩
  | 54 => ⟨S_, .f32⟩
  | 55 => ⟨S8192x64, .f32⟩
  | 56 => ⟨S270336x1, .i32⟩
  | 57 => ⟨S8192x64, .f32⟩
  | 58 => ⟨S1x64, .f32⟩
  | 59 => ⟨S8192x64, .f32⟩
  | 60 => ⟨S8192x64, .f32⟩
  | 61 => ⟨S_, .f32⟩
  | 62 => ⟨S8192x64, .f32⟩
  | 63 => ⟨S8192x64, .f32⟩
  | 64 => ⟨S8192x64, .f32⟩
  | 65 => ⟨S_, .f32⟩
  | 66 => ⟨S270336, .f32⟩
  | 67 => ⟨S_, .f32⟩
  | 68 => ⟨S8192, .f32⟩
  | 69 => ⟨S270336x1, .i32⟩
  | 70 => ⟨S8192, .f32⟩
  | 71 => ⟨S_, .f32⟩
  | 72 => ⟨S8192, .f32⟩
  | 73 => ⟨S8192, .i1⟩
  | 74 => ⟨S8192, .f32⟩
  | 75 => ⟨S_, .f32⟩
  | 76 => ⟨S_, .f32⟩
  | 77 => ⟨S8192, .f32⟩
  | 78 => ⟨S8192, .f32⟩
  | 79 => ⟨S_, .i32⟩
  | 80 => ⟨S270336, .i32⟩
  | 81 => ⟨S270336, .i1⟩
  | 82 => ⟨S_, .i32⟩
  | 83 => ⟨S270336, .i32⟩
  | 84 => ⟨S270336, .i32⟩
  | 85 => ⟨S270336, .i32⟩
  | 86 => ⟨S270336x1, .i32⟩
  | 87 => ⟨S270336, .f32⟩
  | 88 => ⟨S_, .i32⟩
  | 89 => ⟨S270336, .i32⟩
  | 90 => ⟨S270336, .i1⟩
  | 91 => ⟨S_, .i32⟩
  | 92 => ⟨S270336, .i32⟩
  | 93 => ⟨S270336, .i32⟩
  | 94 => ⟨S270336, .i32⟩
  | 95 => ⟨S270336x1, .i32⟩
  | 96 => ⟨S270336, .f32⟩
  | 97 => ⟨S270336, .f32⟩
  | 98 => ⟨S_, .i32⟩
  | 99 => ⟨S270336, .i32⟩
  | 100 => ⟨S270336, .i1⟩
  | 101 => ⟨S_, .i32⟩
  | 102 => ⟨S270336, .i32⟩
  | 103 => ⟨S270336, .i32⟩
  | 104 => ⟨S270336, .i32⟩
  | 105 => ⟨S270336x1, .i32⟩
  | 106 => ⟨S270336x64, .f32⟩
  | 107 => ⟨S270336x1, .f32⟩
  | 108 => ⟨S270336x64, .f32⟩
  | 109 => ⟨S270336x64, .f32⟩
  | 110 => ⟨S_, .f32⟩
  | 111 => ⟨S8192x64, .f32⟩
  | 112 => ⟨S270336x1, .i32⟩
  | 113 => ⟨S8192x64, .f32⟩
  | 114 => ⟨S1x64, .f32⟩
  | 115 => ⟨S8192x64, .f32⟩
  | 116 => ⟨S8192x64, .f32⟩
  | 117 => ⟨S_, .f32⟩
  | 118 => ⟨S8192x64, .f32⟩
  | 119 => ⟨S8192x64, .f32⟩
  | 120 => ⟨S8192x64, .f32⟩
  | 121 => ⟨S8192x64, .f32⟩
  | 122 => ⟨S8192x64, .f32⟩
  | 123 => ⟨S64x8192, .f32⟩
  | 124 => ⟨S8192x8192, .f32⟩
  | 125 => ⟨S8192x8192, .f32⟩
  | 126 => ⟨S8192x8192, .f32⟩
  | 127 => ⟨S_, .f32⟩
  | _ => ⟨S8192x256, .f32⟩

abbrev hbmTy0_2 (i : Nat) : BufTy := match i % 128 with
  | 0 => ⟨S8192x8192, .f32⟩
  | 1 => ⟨S8192x8192, .f32⟩
  | 2 => ⟨S_, .f32⟩
  | 3 => ⟨S8192x8192, .f32⟩
  | 4 => ⟨S8192x8192, .f32⟩
  | 5 => ⟨S8192x8192, .i32⟩
  | 6 => ⟨S_, .i32⟩
  | 7 => ⟨S8192x8192, .i32⟩
  | 8 => ⟨S8192x8192, .i32⟩
  | 9 => ⟨S8192x8192, .i32⟩
  | 10 => ⟨S8192x8192, .i1⟩
  | 11 => ⟨S_, .f32⟩
  | 12 => ⟨S8192x8192, .f32⟩
  | 13 => ⟨S8192x8192, .f32⟩
  | _ => ⟨S8192x256, .f32⟩

abbrev hbmTy (i : Nat) : BufTy := match i / 128 with
  | 0 => hbmTy0_0 i
  | 1 => hbmTy0_1 i
  | 2 => hbmTy0_2 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_4 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_6 : Ref sig .tc := ⟨.hbm, 58, rfl⟩
abbrev main_v35 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_cst_10 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v60 : Ref sig .tc := ⟨.hbm, 94, rfl⟩
abbrev main_c_13 : Ref sig .tc := ⟨.hbm, 95, rfl⟩
abbrev main_v61 : Ref sig .tc := ⟨.hbm, 96, rfl⟩
abbrev main_v62 : Ref sig .tc := ⟨.hbm, 97, rfl⟩
abbrev main_c_14 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_15 : Ref sig .tc := ⟨.hbm, 104, rfl⟩
abbrev main_v68 : Ref sig .tc := ⟨.hbm, 105, rfl⟩
abbrev main_v69 : Ref sig .tc := ⟨.hbm, 106, rfl⟩
abbrev main_c_16 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_c_17 : Ref sig .tc := ⟨.hbm, 114, rfl⟩
abbrev main_v76 : Ref sig .tc := ⟨.hbm, 115, rfl⟩
abbrev main_v77 : Ref sig .tc := ⟨.hbm, 116, rfl⟩
abbrev main_c_18 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_19 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_call3_cst : Ref sig .tc := ⟨.hbm, 133, rfl⟩
abbrev main_call3_v0 : Ref sig .tc := ⟨.hbm, 134, rfl⟩
abbrev main_v92 : Ref sig .tc := ⟨.hbm, 135, rfl⟩
abbrev main_v93 : Ref sig .tc := ⟨.hbm, 136, rfl⟩
abbrev main_cst_20 : Ref sig .tc := ⟨.hbm, 137, rfl⟩
abbrev main_v94 : Ref sig .tc := ⟨.hbm, 138, rfl⟩
abbrev main_cst_21 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_22 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_23 : Ref sig .tc := ⟨.hbm, 147, rfl⟩
abbrev main_call4_v0 : Ref sig .tc := ⟨.hbm, 148, rfl⟩
abbrev main_call4_v1 : Ref sig .tc := ⟨.hbm, 149, rfl⟩
abbrev main_v101 : Ref sig .tc := ⟨.hbm, 150, rfl⟩
abbrev main_c_24 : Ref sig .tc := ⟨.hbm, 151, rfl⟩
abbrev main_v102 : Ref sig .tc := ⟨.hbm, 152, rfl⟩
abbrev main_v103 : Ref sig .tc := ⟨.hbm, 153, rfl⟩
abbrev main_c_25 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_c_26 : Ref sig .tc := ⟨.hbm, 160, rfl⟩
abbrev main_v109 : Ref sig .tc := ⟨.hbm, 161, rfl⟩
abbrev main_v110 : Ref sig .tc := ⟨.hbm, 162, rfl⟩
abbrev main_c_27 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_c_28 : Ref sig .tc := ⟨.hbm, 170, rfl⟩
abbrev main_v117 : Ref sig .tc := ⟨.hbm, 171, rfl⟩
abbrev main_v118 : Ref sig .tc := ⟨.hbm, 172, rfl⟩
abbrev main_c_29 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_cst_30 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_call5_cst : Ref sig .tc := ⟨.hbm, 189, rfl⟩
abbrev main_call5_v0 : Ref sig .tc := ⟨.hbm, 190, rfl⟩
abbrev main_v133 : Ref sig .tc := ⟨.hbm, 191, rfl⟩
abbrev main_v134 : Ref sig .tc := ⟨.hbm, 192, rfl⟩
abbrev main_cst_31 : Ref sig .tc := ⟨.hbm, 193, rfl⟩
abbrev main_v135 : Ref sig .tc := ⟨.hbm, 194, rfl⟩
abbrev main_cst_32 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_cst_33 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_cst_34 : Ref sig .tc := ⟨.hbm, 203, rfl⟩
abbrev main_call6_v0 : Ref sig .tc := ⟨.hbm, 204, rfl⟩
abbrev main_call6_v1 : Ref sig .tc := ⟨.hbm, 205, rfl⟩
abbrev main_v142 : Ref sig .tc := ⟨.hbm, 206, rfl⟩
abbrev main_c_35 : Ref sig .tc := ⟨.hbm, 207, rfl⟩
abbrev main_v143 : Ref sig .tc := ⟨.hbm, 208, rfl⟩
abbrev main_v144 : Ref sig .tc := ⟨.hbm, 209, rfl⟩
abbrev main_c_36 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_c_37 : Ref sig .tc := ⟨.hbm, 216, rfl⟩
abbrev main_v150 : Ref sig .tc := ⟨.hbm, 217, rfl⟩
abbrev main_v151 : Ref sig .tc := ⟨.hbm, 218, rfl⟩
abbrev main_c_38 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_c_39 : Ref sig .tc := ⟨.hbm, 226, rfl⟩
abbrev main_v158 : Ref sig .tc := ⟨.hbm, 227, rfl⟩
abbrev main_v159 : Ref sig .tc := ⟨.hbm, 228, rfl⟩
abbrev main_c_40 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_cst_41 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_call7_cst : Ref sig .tc := ⟨.hbm, 245, rfl⟩
abbrev main_call7_v0 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_cst_42 : Ref sig .tc := ⟨.hbm, 255, rfl⟩
abbrev main_v182 : Ref sig .tc := ⟨.hbm, 256, rfl⟩
abbrev main_v183 : Ref sig .tc := ⟨.hbm, 257, rfl⟩
abbrev main_cst_43 : Ref sig .tc := ⟨.hbm, 258, rfl⟩
abbrev main_v184 : Ref sig .tc := ⟨.hbm, 259, rfl⟩
abbrev main_v185 : Ref sig .tc := ⟨.hbm, 260, rfl⟩
abbrev main_call8_v0 : Ref sig .tc := ⟨.hbm, 261, rfl⟩
abbrev main_call8_c : Ref sig .tc := ⟨.hbm, 262, rfl⟩
abbrev main_call8_v1 : Ref sig .tc := ⟨.hbm, 263, rfl⟩
abbrev main_call8_v2 : Ref sig .tc := ⟨.hbm, 264, rfl⟩
abbrev main_call8_v3 : Ref sig .tc := ⟨.hbm, 265, rfl⟩
abbrev main_call8_v4 : Ref sig .tc := ⟨.hbm, 266, rfl⟩
abbrev main_call8_cst : Ref sig .tc := ⟨.hbm, 267, rfl⟩
abbrev main_call8_v5 : Ref sig .tc := ⟨.hbm, 268, rfl⟩
abbrev main_v186 : Ref sig .tc := ⟨.hbm, 269, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x256_0_1 : S270336x1.BroadcastsInDim S270336x256 (![0, 1] : Fin 2 → Fin S270336x256.rank)
  bcast_S_S8192x256 : S_.BroadcastsInDim S8192x256 (![] : Fin 0 → Fin S8192x256.rank)
  bcast_S270336x1_S270336x64_0_1 : S270336x1.BroadcastsInDim S270336x64 (![0, 1] : Fin 2 → Fin S270336x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  dot_S8192x256_S256x256_S8192x256_1_0_0_1_n_n_wf : DotDims.WF S8192x256 S256x256 S8192x256 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x256_S270336x1_S270336x256_1_0_n_n_0_1_1256_wf : GatherDims.WF S8192x256 S270336x1 S270336x256 [1] [0] [] [0] [] 1 ![1, 256]
  scatter_S8192x256_S270336x1_S270336x256_1_0_0_1_wf : ScatterDims.WF S8192x256 S270336x1 S270336x256 [1] [0] [0] 1
  dot_S8192x256_S256x64_S8192x64_1_0_0_1_n_n_wf : DotDims.WF S8192x256 S256x64 S8192x64 [1] [0] [0] [1] [] []
  gather_S8192x64_S270336x1_S270336x64_1_0_n_n_0_1_164_wf : GatherDims.WF S8192x64 S270336x1 S270336x64 [1] [0] [] [0] [] 1 ![1, 64]
  scatter_S8192x64_S270336x1_S270336x64_1_0_0_1_wf : ScatterDims.WF S8192x64 S270336x1 S270336x64 [1] [0] [0] 1
  dot_S8192x64_S64x8192_S8192x8192_1_0_0_1_n_n_wf : DotDims.WF S8192x64 S64x8192 S8192x8192 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x256_S270336x1_S270336x256_1_0_n_n_0_1_1256 : GatherDims S8192x256 S270336x1 S270336x256 where
  offsetDims := [1]
  collapsedSliceDims := [0]
  operandBatchingDims := []
  startIndicesBatchingDims := []
  startIndexMap := [0]
  indexVectorDim := 1
  sliceSizes := ![1, 256]
  wf := gather_S8192x256_S270336x1_S270336x256_1_0_n_n_0_1_1256_wf
def scatter_S8192x256_S270336x1_S270336x256_1_0_0_1 : ScatterDims S8192x256 S270336x1 S270336x256 where
  updateWindowDims := [1]
  insertedWindowDims := [0]
  scatterDimsToOperandDims := [0]
  indexVectorDim := 1
  wf := scatter_S8192x256_S270336x1_S270336x256_1_0_0_1_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def gather_S8192x64_S270336x1_S270336x64_1_0_n_n_0_1_164 : GatherDims S8192x64 S270336x1 S270336x64 where
  offsetDims := [1]
  collapsedSliceDims := [0]
  operandBatchingDims := []
  startIndicesBatchingDims := []
  startIndexMap := [0]
  indexVectorDim := 1
  sliceSizes := ![1, 64]
  wf := gather_S8192x64_S270336x1_S270336x64_1_0_n_n_0_1_164_wf
def scatter_S8192x64_S270336x1_S270336x64_1_0_0_1 : ScatterDims S8192x64 S270336x1 S270336x64 where
  updateWindowDims := [1]
  insertedWindowDims := [0]
  scatterDimsToOperandDims := [0]
  indexVectorDim := 1
  wf := scatter_S8192x64_S270336x1_S270336x64_1_0_0_1_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KB.Reg0.lean ====
import proofs.«407141_j11613591568667_1_alg».proof.Proof.Gen.Kernel.Launch
import proofs.«407141_j11613591568667_1_alg».proof.Proof.Gen.Kernel.Skeleton
import proofs.«407141_j11613591568667_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S1024x256 := Rect.unit (s := S1024x256) ![0, 0] S1024x256.size inb_S1024x256_S1024x256_0_0
abbrev r0_w : Rect S256x256 := Rect.unit (s := S256x256) ![0, 0] S256x256.size inb_S256x256_S256x256_0_0
abbrev r0_b : Rect S1x256 := Rect.unit (s := S1x256) ![0, 0] S1x256.size inb_S1x256_S1x256_0_0
abbrev r0_o : Rect S1024x256 := Rect.unit (s := S1024x256) ![0, 0] S1024x256.size inb_S1024x256_S1024x256_0_0

def out0_3 (x0 : Vec F S1024x256 .f32) (x1 : Vec F S256x256 .f32) (x2 : Vec F S1x256 .f32) : Vec F S1024x256 .f32 :=
  View.canon [⟨r0_o, k0_pay1 (View.ld x0 r0_x) (View.ld x1 r0_w) (View.ld x2 r0_b)⟩]

theorem cover0_3 (p0 : Vec F S1024x256 .f32) (y : S1024x256.Idx) :
    ∃ pc ∈ ([⟨r0_o, p0⟩] : List (View.Piece (Elt F) S1024x256 .f32)), y ∈ pc.1.set :=
  View.cover_of_tiled [⟨r0_o, p0⟩] S1024x256.size (by rfl) y

set_option maxHeartbeats 1000000 in

theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S1024x256 .f32) (harg4 : arg4.IsWhole)
    (x0 : Vec F S1024x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
import proofs.«407141_j11613591568667_1_alg».proof.Proof.Gen.Kernel.Launch
import proofs.«407141_j11613591568667_1_alg».proof.Proof.Gen.Kernel.Skeleton
import proofs.«407141_j11613591568667_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S1024x256 := Rect.unit (s := S1024x256) ![0, 0] S1024x256.size inb_S1024x256_S1024x256_0_0
abbrev r1_w : Rect S256x256 := Rect.unit (s := S256x256) ![0, 0] S256x256.size inb_S256x256_S256x256_0_0
abbrev r1_b : Rect S1x256 := Rect.unit (s := S1x256) ![0, 0] S1x256.size inb_S1x256_S1x256_0_0
abbrev r1_o : Rect S1024x256 := Rect.unit (s := S1024x256) ![0, 0] S1024x256.size inb_S1024x256_S1024x256_0_0

def out1_3 (x0 : Vec F S1024x256 .f32) (x1 : Vec F S256x256 .f32) (x2 : Vec F S1x256 .f32) : Vec F S1024x256 .f32 :=
  View.canon [⟨r1_o, k1_pay1 (View.ld x0 r1_x) (View.ld x1 r1_w) (View.ld x2 r1_b)⟩]

theorem cover1_3 (p0 : Vec F S1024x256 .f32) (y : S1024x256.Idx) :
    ∃ pc ∈ ([⟨r1_o, p0⟩] : List (View.Piece (Elt F) S1024x256 .f32)), y ∈ pc.1.set :=
  View.cover_of_tiled [⟨r1_o, p0⟩] S1024x256.size (by rfl) y

set_option maxHeartbeats 1000000 in

theorem sound_kernel1 (c : Dev nD) (E : Set ℕ) (i : grid1.Coords)
    (arg1 : Memref sig .tc .vmem S1024x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S1024x256 .f32) (harg4 : arg4.IsWhole)
    (x0 : Vec F S1024x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
import proofs.«407141_j11613591568667_1_alg».proof.Proof.Gen.Kernel.Launch
import proofs.«407141_j11613591568667_1_alg».proof.Proof.Gen.Kernel.Skeleton
import proofs.«407141_j11613591568667_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S512x8192 := Rect.unit (s := S512x8192) ![0, 0] S512x8192.size inb_S512x8192_S512x8192_0_0
abbrev r2_w : Rect S8192x256 := Rect.unit (s := S8192x256) ![0, 0] S8192x256.size inb_S8192x256_S8192x256_0_0
abbrev r2_b : Rect S1x256 := Rect.unit (s := S1x256) ![0, 0] S1x256.size inb_S1x256_S1x256_0_0
abbrev r2_o : Rect S512x256 := Rect.unit (s := S512x256) ![0, 0] S512x256.size inb_S512x256_S512x256_0_0

def out2_3 (x0 : Vec F S512x8192 .bf16) (x1 : Vec F S8192x256 .f32) (x2 : Vec F S1x256 .f32) : Vec F S512x256 .f32 :=
  View.canon [⟨r2_o, k2_pay1 (View.ld x0 r2_x) (View.ld x1 r2_w) (View.ld x2 r2_b)⟩]

theorem cover2_3 (p0 : Vec F S512x256 .f32) (y : S512x256.Idx) :
    ∃ pc ∈ ([⟨r2_o, p0⟩] : List (View.Piece (Elt F) S512x256 .f32)), y ∈ pc.1.set :=
  View.cover_of_tiled [⟨r2_o, p0⟩] S512x256.size (by rfl) y

set_option maxHeartbeats 1000000 in

theorem sound_kernel2 (c : Dev nD) (E : Set ℕ) (i : grid2.Coords)
    (arg1 : Memref sig .tc .vmem S512x8192 .bf16) (harg1 : arg1.IsWhole) (arg2 : Memref sig .tc .vmem S8192x256 .f32) (harg2 : arg2.IsWhole)
    (arg3 : Memref sig .tc .vmem S1x256 .f32) (harg3 : arg3.IsWhole) (arg4 : Memref sig .tc .vmem S512x256 .f32) (harg4 : arg4.IsWhole)
    (x0 : Vec F S512x8192 .bf16) (x1 : Vec F S8192x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__graph_kernel i arg1 harg1 arg2 harg2 arg3 harg3 arg4 harg4) K := by
  simp only [cc2__graph_kernel_eq_skeleton]; unfold cc2__graph_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Reg3.lean ====
import proofs.«407141_j11613591568667_1_alg».proof.Proof.Gen.Kernel.Launch
import proofs.«407141_j11613591568667_1_alg».proof.Proof.Gen.Kernel.Skeleton
import proofs.«407141_j11613591568667_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_x : Rect S1024x256 := Rect.unit (s := S1024x256) ![0, 0] S1024x256.size inb_S1024x256_S1024x256_0_0
abbrev r3_w : Rect S256x256 := Rect.unit (s := S256x256) ![0, 0] S256x256.size inb_S256x256_S256x256_0_0
abbrev r3_b : Rect S1x256 := Rect.unit (s := S1x256) ![0, 0] S1x256.size inb_S1x256_S1x256_0_0
abbrev r3_o : Rect S1024x256 := Rect.unit (s := S1024x256) ![0, 0] S1024x256.size inb_S1024x256_S1024x256_0_0

def out3_3 (x0 : Vec F S1024x256 .f32) (x1 : Vec F S256x256 .f32) (x2 : Vec F S1x256 .f32) : Vec F S1024x256 .f32 :=
  View.canon [⟨r3_o, k3_pay1 (View.ld x0 r3_x) (View.ld x1 r3_w) (View.ld x2 r3_b)⟩]

theorem cover3_3 (p0 : Vec F S1024x256 .f32) (y : S1024x256.Idx) :
    ∃ pc ∈ ([⟨r3_o, p0⟩] : List (View.Piece (Elt F) S1024x256 .f32)), y ∈ pc.1.set :=
  View.cover_of_tiled [⟨r3_o, p0⟩] S1024x256.size (by rfl) y

set_option maxHeartbeats 1000000 in

theorem sound_kernel3 (c : Dev nD) (E : Set ℕ) (i : grid3.Coords)
    (arg1 : Memref sig .tc .vmem S1024x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S1024x256 .f32) (harg4 : arg4.IsWhole)
    (x0 : Vec F S1024x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Reg4.lean ====
import proofs.«407141_j11613591568667_1_alg».proof.Proof.Gen.Kernel.Launch
import proofs.«407141_j11613591568667_1_alg».proof.Proof.Gen.Kernel.Skeleton
import proofs.«407141_j11613591568667_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev r4_x : Rect S512x8192 := Rect.unit (s := S512x8192) ![0, 0] S512x8192.size inb_S512x8192_S512x8192_0_0
abbrev r4_w : Rect S8192x256 := Rect.unit (s := S8192x256) ![0, 0] S8192x256.size inb_S8192x256_S8192x256_0_0
abbrev r4_b : Rect S1x256 := Rect.unit (s := S1x256) ![0, 0] S1x256.size inb_S1x256_S1x256_0_0
abbrev r4_o : Rect S512x256 := Rect.unit (s := S512x256) ![0, 0] S512x256.size inb_S512x256_S512x256_0_0

def out4_3 (x0 : Vec F S512x8192 .bf16) (x1 : Vec F S8192x256 .f32) (x2 : Vec F S1x256 .f32) : Vec F S512x256 .f32 :=
  View.canon [⟨r4_o, k4_pay1 (View.ld x0 r4_x) (View.ld x1 r4_w) (View.ld x2 r4_b)⟩]

theorem cover4_3 (p0 : Vec F S512x256 .f32) (y : S512x256.Idx) :
    ∃ pc ∈ ([⟨r4_o, p0⟩] : List (View.Piece (Elt F) S512x256 .f32)), y ∈ pc.1.set :=
  View.cover_of_tiled [⟨r4_o, p0⟩] S512x256.size (by rfl) y

set_option maxHeartbeats 1000000 in

theorem sound_kernel4 (c : Dev nD) (E : Set ℕ) (i : grid4.Coords)
    (arg1 : Memref sig .tc .vmem S512x8192 .bf16) (harg1 : arg1.IsWhole) (arg2 : Memref sig .tc .vmem S8192x256 .f32) (harg2 : arg2.IsWhole)
    (arg3 : Memref sig .tc .vmem S1x256 .f32) (harg3 : arg3.IsWhole) (arg4 : Memref sig .tc .vmem S512x256 .f32) (harg4 : arg4.IsWhole)
    (x0 : Vec F S512x8192 .bf16) (x1 : Vec F S8192x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__graph_kernel i arg1 harg1 arg2 harg2 arg3 harg3 arg4 harg4) K := by
  simp only [cc4__graph_kernel_eq_skeleton]; unfold cc4__graph_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Reg5.lean ====
import proofs.«407141_j11613591568667_1_alg».proof.Proof.Gen.Kernel.Launch
import proofs.«407141_j11613591568667_1_alg».proof.Proof.Gen.Kernel.Skeleton
import proofs.«407141_j11613591568667_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev r5_x : Rect S1024x256 := Rect.unit (s := S1024x256) ![0, 0] S1024x256.size inb_S1024x256_S1024x256_0_0
abbrev r5_w : Rect S256x128 := Rect.unit (s := S256x128) ![0, 0] S256x128.size inb_S256x128_S256x128_0_0
abbrev r5_b : Rect S1x128 := Rect.unit (s := S1x128) ![0, 0] S1x128.size inb_S1x128_S1x128_0_0
abbrev r5_o : Rect S1024x128 := Rect.unit (s := S1024x128) ![0, 0] S1024x128.size inb_S1024x128_S1024x128_0_0

def out5_3 (x0 : Vec F S1024x256 .f32) (x1 : Vec F S256x128 .f32) (x2 : Vec F S1x128 .f32) : Vec F S1024x128 .f32 :=
  View.canon [⟨r5_o, k5_pay1 (View.ld x0 r5_x) (View.ld x1 r5_w) (View.ld x2 r5_b)⟩]

theorem cover5_3 (p0 : Vec F S1024x128 .f32) (y : S1024x128.Idx) :
    ∃ pc ∈ ([⟨r5_o, p0⟩] : List (View.Piece (Elt F) S1024x128 .f32)), y ∈ pc.1.set :=
  View.cover_of_tiled [⟨r5_o, p0⟩] S1024x128.size (by rfl) y

set_option maxHeartbeats 1000000 in

theorem sound_kernel5 (c : Dev nD) (E : Set ℕ) (i : grid5.Coords)
    (arg1 : Memref sig .tc .vmem S1024x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S1024x128 .f32) (harg4 : arg4.IsWhole)
    (x0 : Vec F S1024x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__linear_kernel i arg1 harg1 arg2 harg2 arg3 harg3 arg4 harg4) K := by
  simp only [cc5__linear_kernel_eq_skeleton]; unfold cc5__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.Reg6.lean ====
import proofs.«407141_j11613591568667_1_alg».proof.Proof.Gen.Kernel.Launch
import proofs.«407141_j11613591568667_1_alg».proof.Proof.Gen.Kernel.Skeleton
import proofs.«407141_j11613591568667_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_x : Rect S512x8192 := Rect.unit (s := S512x8192) ![0, 0] S512x8192.size inb_S512x8192_S512x8192_0_0
abbrev r6_w : Rect S8192x128 := Rect.unit (s := S8192x128) ![0, 0] S8192x128.size inb_S8192x128_S8192x128_0_0
abbrev r6_b : Rect S1x128 := Rect.unit (s := S1x128) ![0, 0] S1x128.size inb_S1x128_S1x128_0_0
abbrev r6_o : Rect S512x128 := Rect.unit (s := S512x128) ![0, 0] S512x128.size inb_S512x128_S512x128_0_0

def out6_3 (x0 : Vec F S512x8192 .bf16) (x1 : Vec F S8192x128 .f32) (x2 : Vec F S1x128 .f32) : Vec F S512x128 .f32 :=
  View.canon [⟨r6_o, k6_pay1 (View.ld x0 r6_x) (View.ld x1 r6_w) (View.ld x2 r6_b)⟩]

theorem cover6_3 (p0 : Vec F S512x128 .f32) (y : S512x128.Idx) :
    ∃ pc ∈ ([⟨r6_o, p0⟩] : List (View.Piece (Elt F) S512x128 .f32)), y ∈ pc.1.set :=
  View.cover_of_tiled [⟨r6_o, p0⟩] S512x128.size (by rfl) y

set_option maxHeartbeats 1000000 in

theorem sound_kernel6 (c : Dev nD) (E : Set ℕ) (i : grid6.Coords)
    (arg1 : Memref sig .tc .vmem S512x8192 .bf16) (harg1 : arg1.IsWhole) (arg2 : Memref sig .tc .vmem S8192x128 .f32) (harg2 : arg2.IsWhole)
    (arg3 : Memref sig .tc .vmem S1x128 .f32) (harg3 : arg3.IsWhole) (arg4 : Memref sig .tc .vmem S512x128 .f32) (harg4 : arg4.IsWhole)
    (x0 : Vec F S512x8192 .bf16) (x1 : Vec F S8192x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__graph_kernel i arg1 harg1 arg2 harg2 arg3 harg3 arg4 harg4) K := by
  simp only [cc6__graph_kernel_eq_skeleton]; unfold cc6__graph_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KB.Reg7.lean ====
import proofs.«407141_j11613591568667_1_alg».proof.Proof.Gen.Kernel.Launch
import proofs.«407141_j11613591568667_1_alg».proof.Proof.Gen.Kernel.Skeleton
import proofs.«407141_j11613591568667_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

abbrev r7_z : Rect S1024x64 := Rect.unit (s := S1024x64) ![0, 0] S1024x64.size inb_S1024x64_S1024x64_0_0
abbrev r7_o : Rect S1024x1024 := Rect.unit (s := S1024x1024) ![0, 0] S1024x1024.size inb_S1024x1024_S1024x1024_0_0

def out7_2 (i : grid7.Coords) (x0 x1 : Vec F S1024x64 .f32) : Vec F S1024x1024 .f32 :=
  View.canon [⟨r7_o, k7_pay1 i (View.ld x0 r7_z) (View.ld x1 r7_z)⟩]

theorem cover7_2 (p0 : Vec F S1024x1024 .f32) (y : S1024x1024.Idx) :
    ∃ pc ∈ ([⟨r7_o, p0⟩] : List (View.Piece (Elt F) S1024x1024 .f32)), y ∈ pc.1.set :=
  View.cover_of_tiled [⟨r7_o, p0⟩] S1024x1024.size (by rfl) y

set_option maxHeartbeats 1000000 in

theorem sound_kernel7 (c : Dev nD) (E : Set ℕ) (i : grid7.Coords)
    (arg2 : Memref sig .tc .vmem S1024x64 .f32) (harg2 : arg2.IsWhole) (arg3 : Memref sig .tc .vmem S1024x64 .f32) (harg3 : arg3.IsWhole)
    (arg4 : Memref sig .tc .vmem S1024x1024 .f32) (harg4 : arg4.IsWhole)
    (x0 x1 : Vec F S1024x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out7_2 i x0 x1)) -∗ K ⟨⟩))
      ⊢ wp frame (wpE (defs₀ (F := F)) Variants.none c none) E (cc7__decode_kernel i arg2 harg2 arg3 harg3 arg4 harg4) K := by
  simp only [cc7__decode_kernel_eq_skeleton]; unfold cc7__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (grid7.coords t) (iblk7 V c 0 t) (iblk7 V c 1 t)
  Φ _ := Pipeline.ΦA spec7 c
  q w := match w with
    | ⟨0, _⟩ => fullShare.left
    | ⟨1, _⟩ => fullShare.right
    | ⟨2, _⟩ => fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) :
    (dat7 V c).after 2 t = out7_2 (grid7.coords t) (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KB.Fold.lean ====
import proofs.«407141_j11613591568667_1_alg».proof.Proof.KB.Reg0
import proofs.«407141_j11613591568667_1_alg».proof.Proof.KB.Reg1
import proofs.«407141_j11613591568667_1_alg».proof.Proof.KB.Reg2
import proofs.«407141_j11613591568667_1_alg».proof.Proof.KB.Reg3
import proofs.«407141_j11613591568667_1_alg».proof.Proof.KB.Reg4
import proofs.«407141_j11613591568667_1_alg».proof.Proof.KB.Reg5
import proofs.«407141_j11613591568667_1_alg».proof.Proof.KB.Reg6
import proofs.«407141_j11613591568667_1_alg».proof.Proof.KB.Reg7
import proofs.«407141_j11613591568667_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- The contents `B` of a core's arrays, read at the core's own references.
abbrev atRefs (B : Dev nD → Valuation τ sig (Elt F)) : (c : Dev nD) → (b : Ref sig .tc) → Buf (Elt F) ((c : Thread nD τ).loc b) :=
  fun c b => B c b

abbrev B0 : Dev nD → Valuation τ sig (Elt F) := fun c b => m (c, b)

abbrev B1 : Dev nD → Valuation τ sig (Elt F) := fun c => StableHlo.after hostOps0 (B0 m c)

abbrev B2 : Dev nD → Valuation τ sig (Elt F) := fun c => StableHlo.after hostOps0_1 (B1 m c)

abbrev B3 : Dev nD → Valuation τ sig (Elt F) := fun c => StableHlo.after hostOps0_2 (B2 m c)

abbrev T3 := atRefs (B3 m)

def B4 (c : Dev nD) : Valuation τ sig (Elt F) :=
  Function.update (B3 m c) (Proc.devRef .tc (Pipeline.arrRef spec0 3)) ((dat0 (T3 m) c).arrAt 3 cfg0.N)
abbrev T4 := atRefs (B4 m)

theorem B4_out (c : Dev nD) : B4 m c (Proc.devRef .tc (Pipeline.arrRef spec0 3)) = (dat0 (T3 m) c).arrAt 3 cfg0.N := by
  unfold B4; exact Function.update_self _ _ _

theorem B4_of_ne (c : Dev nD) (b : Ref sig .tc) (hb : b ≠ Pipeline.arrRef spec0 3) : B4 m c (Proc.devRef .tc b) = B3 m c (Proc.devRef .tc b) := by
  unfold B4; exact Function.update_of_ne (StableHlo.devRef_ne_of_ne hb) _ _

abbrev B5 : Dev nD → Valuation τ sig (Elt F) := fun c => StableHlo.after hostOps1 (B4 m c)

abbrev T5 := atRefs (B5 m)

def B6 (c : Dev nD) : Valuation τ sig (Elt F) :=
  Function.update (B5 m c) (Proc.devRef .tc (Pipeline.arrRef spec1 3)) ((dat1 (T5 m) c).arrAt 3 cfg1.N)
abbrev T6 := atRefs (B6 m)

theorem B6_out (c : Dev nD) : B6 m c (Proc.devRef .tc (Pipeline.arrRef spec1 3)) = (dat1 (T5 m) c).arrAt 3 cfg1.N := by
  unfold B6; exact Function.update_self _ _ _

theorem B6_of_ne (c : Dev nD) (b : Ref sig .tc) (hb : b ≠ Pipeline.arrRef spec1 3) : B6 m c (Proc.devRef .tc b) = B5 m c (Proc.devRef .tc b) := by
  unfold B6; exact Function.update_of_ne (StableHlo.devRef_ne_of_ne hb) _ _

abbrev B7 : Dev nD → Valuation τ sig (Elt F) := fun c => StableHlo.after hostOps2 (B6 m c)

abbrev T7 := atRefs (B7 m)

def B8 (c : Dev nD) : Valuation τ sig (Elt F) :=
  Function.update (B7 m c) (Proc.devRef .tc (Pipeline.arrRef spec2 3)) ((dat2 (T7 m) c).arrAt 3 cfg2.N)
abbrev T8 := atRefs (B8 m)

theorem B8_out (c : Dev nD) : B8 m c (Proc.devRef .tc (Pipeline.arrRef spec2 3)) = (dat2 (T7 m) c).arrAt 3 cfg2.N := by
  unfold B8; exact Function.update_self _ _ _

theorem B8_of_ne (c : Dev nD) (b : Ref sig .tc) (hb : b ≠ Pipeline.arrRef spec2 3) : B8 m c (Proc.devRef .tc b) = B7 m c (Proc.devRef .tc b) := by
  unfold B8; exact Function.update_of_ne (StableHlo.devRef_ne_of_ne hb) _ _

abbrev B9 : Dev nD → Valuation τ sig (Elt F) := fun c => StableHlo.after hostOps3 (B8 m c)

abbrev T9 := atRefs (B9 m)

def B10 (c : Dev nD) : Valuation τ sig (Elt F) :=
  Function.update (B9 m c) (Proc.devRef .tc (Pipeline.arrRef spec3 3)) ((dat3 (T9 m) c).arrAt 3 cfg3.N)
abbrev T10 := atRefs (B10 m)

theorem B10_out (c : Dev nD) : B10 m c (Proc.devRef .tc (Pipeline.arrRef spec3 3)) = (dat3 (T9 m) c).arrAt 3 cfg3.N := by
  unfold B10; exact Function.update_self _ _ _

theorem B10_of_ne (c : Dev nD) (b : Ref sig .tc) (hb : b ≠ Pipeline.arrRef spec3 3) : B10 m c (Proc.devRef .tc b) = B9 m c (Proc.devRef .tc b) := by
  unfold B10; exact Function.update_of_ne (StableHlo.devRef_ne_of_ne hb) _ _

abbrev B11 : Dev nD → Valuation τ sig (Elt F) := fun c => StableHlo.after hostOps4 (B10 m c)

abbrev T11 := atRefs (B11 m)

def B12 (c : Dev nD) : Valuation τ sig (Elt F) :=
  Function.update (B11 m c) (Proc.devRef .tc (Pipeline.arrRef spec4 3)) ((dat4 (T11 m) c).arrAt 3 cfg4.N)
abbrev T12 := atRefs (B12 m)

theorem B12_out (c : Dev nD) : B12 m c (Proc.devRef .tc (Pipeline.arrRef spec4 3)) = (dat4 (T11 m) c).arrAt 3 cfg4.N := by
  unfold B12; exact Function.update_self _ _ _

theorem B12_of_ne (c : Dev nD) (b : Ref sig .tc) (hb : b ≠ Pipeline.arrRef spec4 3) : B12 m c (Proc.devRef .tc b) = B11 m c (Proc.devRef .tc b) := by
  unfold B12; exact Function.update_of_ne (StableHlo.devRef_ne_of_ne hb) _ _

abbrev B13 : Dev nD → Valuation τ sig (Elt F) := fun c => StableHlo.after hostOps5 (B12 m c)

abbrev T13 := atRefs (B13 m)

def B14 (c : Dev nD) : Valuation τ sig (Elt F) :=
  Function.update (B13 m c) (Proc.devRef .tc (Pipeline.arrRef spec5 3)) ((dat5 (T13 m) c).arrAt 3 cfg5.N)
abbrev T14 := atRefs (B14 m)

theorem B14_out (c : Dev nD) : B14 m c (Proc.devRef .tc (Pipeline.arrRef spec5 3)) = (dat5 (T13 m) c).arrAt 3 cfg5.N := by
  unfold B14; exact Function.update_self _ _ _

theorem B14_of_ne (c : Dev nD) (b : Ref sig .tc) (hb : b ≠ Pipeline.arrRef spec5 3) : B14 m c (Proc.devRef .tc b) = B13 m c (Proc.devRef .tc b) := by
  unfold B14; exact Function.update_of_ne (StableHlo.devRef_ne_of_ne hb) _ _

abbrev B15 : Dev nD → Valuation τ sig (Elt F) := fun c => StableHlo.after hostOps6 (B14 m c)

abbrev T15 := atRefs (B15 m)

def B16 (c : Dev nD) : Valuation τ sig (Elt F) :=
  Function.update (B15 m c) (Proc.devRef .tc (Pipeline.arrRef spec6 3)) ((dat6 (T15 m) c).arrAt 3 cfg6.N)
abbrev T16 := atRefs (B16 m)

theorem B16_out (c : Dev nD) : B16 m c (Proc.devRef .tc (Pipeline.arrRef spec6 3)) = (dat6 (T15 m) c).arrAt 3 cfg6.N := by
  unfold B16; exact Function.update_self _ _ _

theorem B16_of_ne (c : Dev nD) (b : Ref sig .tc) (hb : b ≠ Pipeline.arrRef spec6 3) : B16 m c (Proc.devRef .tc b) = B15 m c (Proc.devRef .tc b) := by
  unfold B16; exact Function.update_of_ne (StableHlo.devRef_ne_of_ne hb) _ _

abbrev B17 : Dev nD → Valuation τ sig (Elt F) := fun c => StableHlo.after hostOps7 (B16 m c)

abbrev T17 := atRefs (B17 m)

def B18 (c : Dev nD) : Valuation τ sig (Elt F) :=
  Function.update (B17 m c) (Proc.devRef .tc (Pipeline.arrRef spec7 2)) ((dat7 (T17 m) c).arrAt 2 cfg7.N)
abbrev T18 := atRefs (B18 m)

theorem B18_out (c : Dev nD) : B18 m c (Proc.devRef .tc (Pipeline.arrRef spec7 2)) = (dat7 (T17 m) c).arrAt 2 cfg7.N := by
  unfold B18; exact Function.update_self _ _ _

theorem B18_of_ne (c : Dev nD) (b : Ref sig .tc) (hb : b ≠ Pipeline.arrRef spec7 2) : B18 m c (Proc.devRef .tc b) = B17 m c (Proc.devRef .tc b) := by
  unfold B18; exact Function.update_of_ne (StableHlo.devRef_ne_of_ne hb) _ _

theorem hF7 (c : Dev nD) : ∀ w : Fin cfg7.W, (dat7 (T17 m) c).arrAt w cfg7.N = T18 m c (Pipeline.arrRef spec7 w)
  | ⟨0, _⟩ => ((dat7 (T17 m) c).arrAt_in 0 rfl _).trans ((A_eq7 (T17 m) c 0).trans (B18_of_ne m c _ (by decide)).symm)
  | ⟨1, _⟩ => ((dat7 (T17 m) c).arrAt_in 1 rfl _).trans ((A_eq7 (T17 m) c 1).trans (B18_of_ne m c _ (by decide)).symm)
  | ⟨2, _⟩ => (B18_out m c).symm

theorem hrest7 (c : Dev nD) : ∀ b, b ∉ Finset.univ.image (Pipeline.arrRef spec7) → T18 m c b = T17 m c b :=
  fun b hb => B18_of_ne m c b fun e => hb (Finset.mem_image.mpr ⟨2, Finset.mem_univ _, e.symm⟩)

def pdats : (p : Fin 8) → (c : Dev nD) → Dat τ (Elt F) Unit ℕ (UR sig nD τ) ℕ (Pipeline.pin (pcfgs (F := F)) adm p) c
  | ⟨0, _⟩ => fun c => dat0 (T3 m) c
  | ⟨1, _⟩ => fun c => dat1 (T5 m) c
  | ⟨2, _⟩ => fun c => dat2 (T7 m) c
  | ⟨3, _⟩ => fun c => dat3 (T9 m) c
  | ⟨4, _⟩ => fun c => dat4 (T11 m) c
  | ⟨5, _⟩ => fun c => dat5 (T13 m) c
  | ⟨6, _⟩ => fun c => dat6 (T15 m) c
  | ⟨7, _⟩ => fun c => dat7 (T17 m) c

abbrev vars0 : Variants := Variants.none

abbrev Lev : GSem nD τ sig → Finset Unit := fun _ => ∅
abbrev lev : GSem nD τ sig → Unit → ℕ := fun _ _ => 0

abbrev Rest (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars0 Lev lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 := iprop(StableHlo.held (c : Thread nD τ) (Pipeline.ucRefs τ sig) (B18 m c) ∗ ∃ r, prngReg c r)

end Cert.Kernel.Hand

end
-- ==== Proof.KB.Seg.lean ====
import proofs.«407141_j11613591568667_1_alg».proof.Proof.KB.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
-- A kernel region as one item of the run: it takes the core's arrays from `Bi` to `Bo`, which differs from `Bi` only at the output window `o`'s array.
def regOf (p : Fin 8) (L : Pipeline.LaunchFacts (nD := nD) (τ := τ) cfgs p) (Bi Bo : Dev nD → Valuation τ sig (Elt F))
    (hbody : ∀ c, Pipeline.BodyObligationLoose (pdats m p c) defs₀ vars0 () Set.univ)
    (hq : ∀ c w, (pdats m p c).q w = fullShare) (howed : ∀ c t, (pdats m p c).owed t = 0)
    (hrec : ∀ c t, (pdats m p c).recorded t = Set.univ)
    (hΦ : ∀ c t, (pdats m p c).Φ t = Pipeline.ΦA (cfgs p).spec c)
    (hA : ∀ c w, (pdats m p c).A w = atRefs Bi c (Pipeline.arrRef (cfgs p).spec w))
    (o : Fin (cfgs p).W) (hin : ∀ w, w ≠ o → ((cfgs p).win w).isOut = false)
    (hneW : ∀ w, w ≠ o → Pipeline.arrRef (cfgs p).spec w ≠ Pipeline.arrRef (cfgs p).spec o)
    (hout : ∀ c, atRefs Bo c (Pipeline.arrRef (cfgs p).spec o) = (pdats m p c).arrAt o (cfgs p).N)
    (hne : ∀ c (b : Ref sig .tc), b ≠ Pipeline.arrRef (cfgs p).spec o → atRefs Bo c b = atRefs Bi c b) :
    Pipeline.RegionSeg (pcfgs (F := F)) adm (pdats m) () defs₀ vars0 Lev lev p where
  win := L.win.to₀
  block_pos := L.block_pos
  stage_whole := L.stage_whole
  K := PEmpty
  osem k := k.elim
  ho := Pipeline.OwnSemFacts.none _
  hbody := hbody
  hwaits := Pipeline.hwaits_of_owed_zero _ _ _ _ Lev lev p howed
  pre c := iprop(StableHlo.held (c : Thread nD τ) (Pipeline.ucRefs τ sig) (Bi c) ∗ Rest c)
  post c := iprop(StableHlo.held (c : Thread nD τ) (Pipeline.ucRefs τ sig) (Bo c) ∗ Rest c)
  X c := iprop(∃ r, prngReg c r)
  Y c := iprop(∃ r, prngReg c r)
  Z c := Pipeline.unscopedRest (Ix := Unit) (Name := ℕ) (U := UR sig nD τ) (Lvl := ℕ) (cfgs p).spec c (atRefs Bi c)
  hentry c := by
    rw [Pipeline.ownSems0_none]
    have hsplit := Pipeline.arrays_of_unscopedBufs (p := p) (pcfgs (F := F)) adm (pdats m) L.win L.arr_whole c
      ((pdats m p c).share_full (hq c)) (atRefs Bi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c 0]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c (pdats m) ((pdats m p c).share_full (hq c))
      (atRefs Bi c) (atRefs Bo c) ((pdats m p c).arrAt · (cfgs p).N)
      (fun w => by
        by_cases h : w = o
        · subst h; exact (hout c).symm
        · exact ((pdats m p c).arrAt_in w (hin w h) _).trans ((hA c w).trans (hne c _ (hneW w h)).symm))
      (fun b hb => hne c b fun e => hb (Finset.mem_image.mpr ⟨o, Finset.mem_univ _, e.symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def reg0 : Pipeline.RegionSeg (pcfgs (F := F)) adm (pdats m) () defs₀ vars0 Lev lev 0 :=
  regOf m 0 launch0 (B3 m) (B4 m) (fun c => (body_obligation0 (T3 m) c).loose)
    (fun _ _ => rfl) (fun _ _ => rfl) (fun _ _ => rfl) (fun _ _ => rfl) (fun _ _ => rfl) (3 : Fin cfg0.W) (by decide) (by decide) (B4_out m) (B4_of_ne m)

def reg1 : Pipeline.RegionSeg (pcfgs (F := F)) adm (pdats m) () defs₀ vars0 Lev lev 1 :=
  regOf m 1 launch1 (B5 m) (B6 m) (fun c => (body_obligation1 (T5 m) c).loose)
    (fun _ _ => rfl) (fun _ _ => rfl) (fun _ _ => rfl) (fun _ _ => rfl) (fun _ _ => rfl) (3 : Fin cfg1.W) (by decide) (by decide) (B6_out m) (B6_of_ne m)

def reg2 : Pipeline.RegionSeg (pcfgs (F := F)) adm (pdats m) () defs₀ vars0 Lev lev 2 :=
  regOf m 2 launch2 (B7 m) (B8 m) (fun c => (body_obligation2 (T7 m) c).loose)
    (fun _ _ => rfl) (fun _ _ => rfl) (fun _ _ => rfl) (fun _ _ => rfl) (fun _ _ => rfl) (3 : Fin cfg2.W) (by decide) (by decide) (B8_out m) (B8_of_ne m)

def reg3 : Pipeline.RegionSeg (pcfgs (F := F)) adm (pdats m) () defs₀ vars0 Lev lev 3 :=
  regOf m 3 launch3 (B9 m) (B10 m) (fun c => (body_obligation3 (T9 m) c).loose)
    (fun _ _ => rfl) (fun _ _ => rfl) (fun _ _ => rfl) (fun _ _ => rfl) (fun _ _ => rfl) (3 : Fin cfg3.W) (by decide) (by decide) (B10_out m) (B10_of_ne m)

def reg4 : Pipeline.RegionSeg (pcfgs (F := F)) adm (pdats m) () defs₀ vars0 Lev lev 4 :=
  regOf m 4 launch4 (B11 m) (B12 m) (fun c => (body_obligation4 (T11 m) c).loose)
    (fun _ _ => rfl) (fun _ _ => rfl) (fun _ _ => rfl) (fun _ _ => rfl) (fun _ _ => rfl) (3 : Fin cfg4.W) (by decide) (by decide) (B12_out m) (B12_of_ne m)

def reg5 : Pipeline.RegionSeg (pcfgs (F := F)) adm (pdats m) () defs₀ vars0 Lev lev 5 :=
  regOf m 5 launch5 (B13 m) (B14 m) (fun c => (body_obligation5 (T13 m) c).loose)
    (fun _ _ => rfl) (fun _ _ => rfl) (fun _ _ => rfl) (fun _ _ => rfl) (fun _ _ => rfl) (3 : Fin cfg5.W) (by decide) (by decide) (B14_out m) (B14_of_ne m)

def reg6 : Pipeline.RegionSeg (pcfgs (F := F)) adm (pdats m) () defs₀ vars0 Lev lev 6 :=
  regOf m 6 launch6 (B15 m) (B16 m) (fun c => (body_obligation6 (T15 m) c).loose)
    (fun _ _ => rfl) (fun _ _ => rfl) (fun _ _ => rfl) (fun _ _ => rfl) (fun _ _ => rfl) (3 : Fin cfg6.W) (by decide) (by decide) (B16_out m) (B16_of_ne m)

end Cert.Kernel.Hand

end
-- ==== Proof.KB.Seg7.lean ====
import proofs.«407141_j11613591568667_1_alg».proof.Proof.KB.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem arrImage7 : Finset.univ.image (Pipeline.arrRef spec7) = ({main_v66, main_v67} : Finset (Ref sig .tc)) := by decide

theorem arrBufs7_eq (c : Dev nD) (V : (b : Ref sig .tc) → Buf (Elt F) ((c : Thread nD τ).loc b)) :
    (Pipeline.arrBufs (Ix := Unit) (Name := ℕ) (U := UR sig nD τ) (Lvl := ℕ) spec7 c V : sProp 𝕄)
      = iprop((((c : Thread nD τ).loc main_v66) ↦{fullShare} V main_v66) ∗ (((c : Thread nD τ).loc main_v67) ↦{fullShare} V main_v67)) := by
  unfold Pipeline.arrBufs
  rw [arrImage7, bigSep_insert (by decide), bigSep_singleton]
  rfl

theorem share7_0 (V₀ : (c : Dev nD) → (b : Ref sig .tc) → Buf (Elt F) ((c : Thread nD τ).loc b)) (c : Dev nD) :
    (dat7 V₀ c).share 0 = fullShare.left := rfl
theorem share7_1 (V₀ : (c : Dev nD) → (b : Ref sig .tc) → Buf (Elt F) ((c : Thread nD τ).loc b)) (c : Dev nD) :
    (dat7 V₀ c).share 1 = fullShare.right := rfl
theorem share7_2 (V₀ : (c : Dev nD) → (b : Ref sig .tc) → Buf (Elt F) ((c : Thread nD τ).loc b)) (c : Dev nD) :
    (dat7 V₀ c).share 2 = fullShare := rfl

theorem arrays7_univ (V₀ : (c : Dev nD) → (b : Ref sig .tc) → Buf (Elt F) ((c : Thread nD τ).loc b)) (c : Dev nD)
    (G : (w : Fin cfg7.W) → Buf (Elt F) ((cfg7.win w).arr.view.loc (c : Thread nD τ))) :
    ((dat7 V₀ c).arrays G : sProp 𝕄)
      = bigSep Finset.univ fun w : Fin cfg7.W => (((c : Thread nD τ).loc (Pipeline.arrRef spec7 w)) ↦{(dat7 V₀ c).share w} G w : sProp 𝕄) := by
  unfold Dat.arrays
  exact bigSep_congr fun w _ => by rw [(arr_whole7 w).set_eq_univ]

set_option maxHeartbeats 2000000 in

theorem arrays7_eq (V₀ : (c : Dev nD) → (b : Ref sig .tc) → Buf (Elt F) ((c : Thread nD τ).loc b)) (c : Dev nD)
    (G : (w : Fin cfg7.W) → Buf (Elt F) ((cfg7.win w).arr.view.loc (c : Thread nD τ))) :
    ((dat7 V₀ c).arrays G : sProp 𝕄)
      = iprop((((c : Thread nD τ).loc main_v66) ↦{fullShare.left} G 0) ∗ (((c : Thread nD τ).loc main_v66) ↦{fullShare.right} G 1)
          ∗ (((c : Thread nD τ).loc main_v67) ↦{fullShare} G 2)) := by
  rewrite [arrays7_univ, bigSep_W7]
  beta_reduce
  rewrite [share7_0, share7_1, share7_2]
  rfl

set_option maxHeartbeats 2000000 in

theorem arrays7_bufs (V₀ : (c : Dev nD) → (b : Ref sig .tc) → Buf (Elt F) ((c : Thread nD τ).loc b)) (c : Dev nD)
    (V : (b : Ref sig .tc) → Buf (Elt F) ((c : Thread nD τ).loc b))
    (G : (w : Fin cfg7.W) → Buf (Elt F) ((cfg7.win w).arr.view.loc (c : Thread nD τ)))
    (hG : ∀ w, G w = V (Pipeline.arrRef spec7 w)) :
    (Pipeline.arrBufs (Ix := Unit) (Name := ℕ) (U := UR sig nD τ) (Lvl := ℕ) spec7 c V : sProp 𝕄) ⊣⊢ (dat7 V₀ c).arrays G := by
  rewrite [arrBufs7_eq, arrays7_eq, hG 0, hG 1, hG 2]
  have hs := pointsTo_share (Ix := Unit) (Name := ℕ) (U := UR sig nD τ) (Lvl := ℕ) (ℓ := (c : Thread nD τ).loc main_v66)
    (I := Finset.univ) (f := V main_v66) (PosShare.mem_left_op_right fullShare)
  exact ⟨(sep_mono hs.mp .rfl).trans sep_assoc.mp, sep_assoc.mpr.trans (sep_mono hs.mpr .rfl)⟩

theorem entry7 (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((dat7 V c).arrays ((dat7 V c).arrAt · 0) ∗ Pipeline.unscopedRest spec7 c (V c)) := by
  rw [Pipeline.unscopedBufs_split₀ cfgs (7 : Fin 8) winFacts₀7.arr_unscoped c (V c)]
  exact sep_mono (arrays7_bufs V c (V c) _ (fun w => rfl)).mp .rfl

theorem exit7 (V V' : (c : Dev nD) → (b : Ref sig .tc) → Buf (Elt F) ((c : Thread nD τ).loc b)) (c : Dev nD)
    (G : (w : Fin cfg7.W) → Buf (Elt F) ((cfg7.win w).arr.view.loc (c : Thread nD τ)))
    (hG : ∀ w, G w = V' c (Pipeline.arrRef spec7 w))
    (hrest : ∀ b, b ∉ Finset.univ.image (Pipeline.arrRef spec7) → V' c b = V c b) :
    iprop((dat7 V c).arrays G ∗ Pipeline.unscopedRest (Ix := Unit) (Name := ℕ) (U := UR sig nD τ) (Lvl := ℕ) spec7 c (V c))
      ⊢ (unscopedBufs c (V' c) : sProp 𝕄) := by
  rw [Pipeline.unscopedBufs_split₀ cfgs (7 : Fin 8) winFacts₀7.arr_unscoped c (V' c)]
  refine sep_mono (arrays7_bufs V c (V' c) G hG).mpr (Entails.of_eq ?_)
  unfold Pipeline.unscopedRest
  exact bigSep_congr fun b hb => by rw [hrest b (Finset.mem_sdiff.mp hb).2]

variable (m : (ℓ : Loc nD τ sig) → Buf (Elt F) ℓ)

set_option backward.isDefEq.respectTransparency.types false in

def reg7 : Pipeline.RegionSeg (pcfgs (F := F)) adm (pdats m) () defs₀ vars0 Lev lev 7 where
  win := winFacts₀7
  block_pos := block_pos7
  stage_whole := stage_whole7
  K := PEmpty
  osem k := k.elim
  ho := Pipeline.OwnSemFacts.none _
  hbody c := (body_obligation7 (T17 m) c).loose
  hwaits := Pipeline.hwaits_of_owed_zero _ _ _ _ Lev lev 7 fun _ _ => rfl
  pre c := iprop(StableHlo.held (c : Thread nD τ) (Pipeline.ucRefs τ sig) (B17 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (T17 m c)
  hentry c := by
    rw [Pipeline.ownSems0_none]
    have hsplit := entry7 (T17 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := exit7 (T17 m) (T18 m) c ((pdats m 7 c).arrAt · cfg7.N) (hF7 m c) (hrest7 m c)
    rw [Pipeline.unscopedBufs_held] at hjoin
    iintro ⟨Ha, HO, HY, Hrest⟩
    imodintro
    isplitr [HO]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

end Cert.Kernel.Hand

end
-- ==== Proof.KB.Run.lean ====
import proofs.«407141_j11613591568667_1_alg».proof.Proof.KB.Seg
import proofs.«407141_j11613591568667_1_alg».proof.Proof.KB.Seg7

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m) () defs₀ vars0 Lev lev) :=
  [
    .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .region (reg0 m),
    .host (hseg hostOps1 hostOps1_sub hostOps1_fresh (B4 m)),
    .region (reg1 m),
    .host (hseg hostOps2 hostOps2_sub hostOps2_fresh (B6 m)),
    .region (reg2 m),
    .host (hseg hostOps3 hostOps3_sub hostOps3_fresh (B8 m)),
    .region (reg3 m),
    .host (hseg hostOps4 hostOps4_sub hostOps4_fresh (B10 m)),
    .region (reg4 m),
    .host (hseg hostOps5 hostOps5_sub hostOps5_fresh (B12 m)),
    .region (reg5 m),
    .host (hseg hostOps6 hostOps6_sub hostOps6_fresh (B14 m)),
    .region (reg6 m),
    .host (hseg hostOps7 hostOps7_sub hostOps7_fresh (B16 m)),
    .region (reg7 m) ]

theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = B18 m c b) :=
  Pipeline.θ_run_regions_kit (pcfgs (F := F)) adm (pdats m) () cellOf_inj emb₁ defs₀ vars0 Lev lev m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c)) (Tₙ := Tend m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lev lev fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B18 m c b)
    (hfin := fun c s' => by
      iintro ⟨⟨Hh, -⟩, HSI⟩
      unfold StableHlo.held
      imodintro
      iapply (pointsTo_read_all (Pipeline.ucRefs τ sig) (fun b => (((c : Thread nD τ)).1, b)) (B18 m c) s')
      isplitl [Hh] <;> iassumption)
    (hQ := fun s h c => h c)

end Cert.Kernel.Hand

end
-- ==== Proof.KB.Args.lean ====
import proofs.«407141_j11613591568667_1_alg».proof.Proof.KB.Fold

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

-- An array that no host stretch writes and that is no region's output holds at the last boundary what it held at launch.
theorem B18_of_untouched (c : Dev nD) (b : Ref sig .tc)
    (h : b ∉ hostOps0_W ∧ b ∉ hostOps0_1_W ∧ b ∉ hostOps0_2_W ∧ b ∉ hostOps1_W ∧ b ∉ hostOps2_W ∧ b ∉ hostOps3_W ∧ b ∉ hostOps4_W ∧ b ∉ hostOps5_W ∧ b ∉ hostOps6_W ∧ b ∉ hostOps7_W ∧ b ≠ Pipeline.arrRef spec0 3 ∧ b ≠ Pipeline.arrRef spec1 3 ∧ b ≠ Pipeline.arrRef spec2 3 ∧ b ≠ Pipeline.arrRef spec3 3 ∧ b ≠ Pipeline.arrRef spec4 3 ∧ b ≠ Pipeline.arrRef spec5 3 ∧ b ≠ Pipeline.arrRef spec6 3 ∧ b ≠ Pipeline.arrRef spec7 2) :
    B18 m c (Proc.devRef .tc b) = m ((c : Thread nD τ).loc b) := by
  obtain ⟨h_hostOps0, h_hostOps0_1, h_hostOps0_2, h_hostOps1, h_hostOps2, h_hostOps3, h_hostOps4, h_hostOps5, h_hostOps6, h_hostOps7, hr0, hr1, hr2, hr3, hr4, hr5, hr6, hr7⟩ := h
  exact
    (B18_of_ne m c b hr7).trans <|
    (StableHlo.after_of_writes_sub hostOps7 (B16 m c) hostOps7_writes h_hostOps7 : B17 m c (Proc.devRef .tc b) = B16 m c (Proc.devRef .tc b)).trans <|
    (B16_of_ne m c b hr6).trans <|
    (StableHlo.after_of_writes_sub hostOps6 (B14 m c) hostOps6_writes h_hostOps6 : B15 m c (Proc.devRef .tc b) = B14 m c (Proc.devRef .tc b)).trans <|
    (B14_of_ne m c b hr5).trans <|
    (StableHlo.after_of_writes_sub hostOps5 (B12 m c) hostOps5_writes h_hostOps5 : B13 m c (Proc.devRef .tc b) = B12 m c (Proc.devRef .tc b)).trans <|
    (B12_of_ne m c b hr4).trans <|
    (StableHlo.after_of_writes_sub hostOps4 (B10 m c) hostOps4_writes h_hostOps4 : B11 m c (Proc.devRef .tc b) = B10 m c (Proc.devRef .tc b)).trans <|
    (B10_of_ne m c b hr3).trans <|
    (StableHlo.after_of_writes_sub hostOps3 (B8 m c) hostOps3_writes h_hostOps3 : B9 m c (Proc.devRef .tc b) = B8 m c (Proc.devRef .tc b)).trans <|
    (B8_of_ne m c b hr2).trans <|
    (StableHlo.after_of_writes_sub hostOps2 (B6 m c) hostOps2_writes h_hostOps2 : B7 m c (Proc.devRef .tc b) = B6 m c (Proc.devRef .tc b)).trans <|
    (B6_of_ne m c b hr1).trans <|
    (StableHlo.after_of_writes_sub hostOps1 (B4 m c) hostOps1_writes h_hostOps1 : B5 m c (Proc.devRef .tc b) = B4 m c (Proc.devRef .tc b)).trans <|
    (B4_of_ne m c b hr0).trans <|
    (StableHlo.after_of_writes_sub hostOps0_2 (B2 m c) hostOps0_2_writes h_hostOps0_2 : B3 m c (Proc.devRef .tc b) = B2 m c (Proc.devRef .tc b)).trans <|
    (StableHlo.after_of_writes_sub hostOps0_1 (B1 m c) hostOps0_1_writes h_hostOps0_1 : B2 m c (Proc.devRef .tc b) = B1 m c (Proc.devRef .tc b)).trans <|
    (StableHlo.after_of_writes_sub hostOps0 (B0 m c) hostOps0_writes h_hostOps0 : B1 m c (Proc.devRef .tc b) = B0 m c (Proc.devRef .tc b)).trans <|
    rfl

theorem B18_main_arg0 (c : Dev nD) : B18 m c (Proc.devRef .tc main_arg0) = m ((c : Thread nD τ).loc main_arg0) :=
  B18_of_untouched m c main_arg0 (by decide)

theorem B18_main_arg1 (c : Dev nD) : B18 m c (Proc.devRef .tc main_arg1) = m ((c : Thread nD τ).loc main_arg1) :=
  B18_of_untouched m c main_arg1 (by decide)

theorem B18_main_arg2 (c : Dev nD) : B18 m c (Proc.devRef .tc main_arg2) = m ((c : Thread nD τ).loc main_arg2) :=
  B18_of_untouched m c main_arg2 (by decide)

theorem B18_main_arg3 (c : Dev nD) : B18 m c (Proc.devRef .tc main_arg3) = m ((c : Thread nD τ).loc main_arg3) :=
  B18_of_untouched m c main_arg3 (by decide)

theorem B18_main_arg4 (c : Dev nD) : B18 m c (Proc.devRef .tc main_arg4) = m ((c : Thread nD τ).loc main_arg4) :=
  B18_of_untouched m c main_arg4 (by decide)

theorem B18_main_arg5 (c : Dev nD) : B18 m c (Proc.devRef .tc main_arg5) = m ((c : Thread nD τ).loc main_arg5) :=
  B18_of_untouched m c main_arg5 (by decide)

theorem B18_main_arg6 (c : Dev nD) : B18 m c (Proc.devRef .tc main_arg6) = m ((c : Thread nD τ).loc main_arg6) :=
  B18_of_untouched m c main_arg6 (by decide)

theorem B18_main_arg7 (c : Dev nD) : B18 m c (Proc.devRef .tc main_arg7) = m ((c : Thread nD τ).loc main_arg7) :=
  B18_of_untouched m c main_arg7 (by decide)

theorem B18_main_arg8 (c : Dev nD) : B18 m c (Proc.devRef .tc main_arg8) = m ((c : Thread nD τ).loc main_arg8) :=
  B18_of_untouched m c main_arg8 (by decide)

theorem B18_main_arg9 (c : Dev nD) : B18 m c (Proc.devRef .tc main_arg9) = m ((c : Thread nD τ).loc main_arg9) :=
  B18_of_untouched m c main_arg9 (by decide)

theorem B18_main_arg10 (c : Dev nD) : B18 m c (Proc.devRef .tc main_arg10) = m ((c : Thread nD τ).loc main_arg10) :=
  B18_of_untouched m c main_arg10 (by decide)

theorem B18_main_arg11 (c : Dev nD) : B18 m c (Proc.devRef .tc main_arg11) = m ((c : Thread nD τ).loc main_arg11) :=
  B18_of_untouched m c main_arg11 (by decide)

theorem B18_main_arg12 (c : Dev nD) : B18 m c (Proc.devRef .tc main_arg12) = m ((c : Thread nD τ).loc main_arg12) :=
  B18_of_untouched m c main_arg12 (by decide)

end Cert.Kernel.Hand

end
-- ==== Proof.KB.Claims.lean ====
import proofs.«407141_j11613591568667_1_alg».proof.Proof.KB.Run
import proofs.«407141_j11613591568667_1_alg».proof.Proof.KB.Args

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (B18_main_arg0 m c),
      (h c _ (mem_uc main_arg1 (by decide))).trans (B18_main_arg1 m c),
      (h c _ (mem_uc main_arg2 (by decide))).trans (B18_main_arg2 m c),
      (h c _ (mem_uc main_arg3 (by decide))).trans (B18_main_arg3 m c),
      (h c _ (mem_uc main_arg4 (by decide))).trans (B18_main_arg4 m c),
      (h c _ (mem_uc main_arg5 (by decide))).trans (B18_main_arg5 m c),
      (h c _ (mem_uc main_arg6 (by decide))).trans (B18_main_arg6 m c),
      (h c _ (mem_uc main_arg7 (by decide))).trans (B18_main_arg7 m c),
      (h c _ (mem_uc main_arg8 (by decide))).trans (B18_main_arg8 m c),
      (h c _ (mem_uc main_arg9 (by decide))).trans (B18_main_arg9 m c),
      (h c _ (mem_uc main_arg10 (by decide))).trans (B18_main_arg10 m c),
      (h c _ (mem_uc main_arg11 (by decide))).trans (B18_main_arg11 m c),
      (h c _ (mem_uc main_arg12 (by decide))).trans (B18_main_arg12 m c)⟩) (run_all m ρ)

theorem value_run : θ_run defs (onTc (τ := τ) (main (F := F))) ⟨m, fun _ => 0, ρ⟩ (fun r => ∀ c : Dev nD,
      r.2.mem ((c.tc : Thread nD τ).loc main_v67) = B18 m c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v67 (by decide)),
      (h c _ (mem_uc main_arg0 (by decide))).trans (B18_main_arg0 m c),
      (h c _ (mem_uc main_arg1 (by decide))).trans (B18_main_arg1 m c),
      (h c _ (mem_uc main_arg2 (by decide))).trans (B18_main_arg2 m c),
      (h c _ (mem_uc main_arg3 (by decide))).trans (B18_main_arg3 m c),
      (h c _ (mem_uc main_arg4 (by decide))).trans (B18_main_arg4 m c),
      (h c _ (mem_uc main_arg5 (by decide))).trans (B18_main_arg5 m c),
      (h c _ (mem_uc main_arg6 (by decide))).trans (B18_main_arg6 m c),
      (h c _ (mem_uc main_arg7 (by decide))).trans (B18_main_arg7 m c),
      (h c _ (mem_uc main_arg8 (by decide))).trans (B18_main_arg8 m c),
      (h c _ (mem_uc main_arg9 (by decide))).trans (B18_main_arg9 m c),
      (h c _ (mem_uc main_arg10 (by decide))).trans (B18_main_arg10 m c),
      (h c _ (mem_uc main_arg11 (by decide))).trans (B18_main_arg11 m c),
      (h c _ (mem_uc main_arg12 (by decide))).trans (B18_main_arg12 m c)⟩) (run_all m ρ)

end Cert.Kernel.Hand

end
-- ==== Proof.KI.Reg0.lean ====
import proofs.«407141_j11613591568667_1_alg».proof.Proof.Gen.KernelIdeal.Launch
import proofs.«407141_j11613591568667_1_alg».proof.Proof.Gen.KernelIdeal.Skeleton
import proofs.«407141_j11613591568667_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S1024x256 := Rect.unit (s := S1024x256) ![0, 0] S1024x256.size inb_S1024x256_S1024x256_0_0
abbrev r0_w : Rect S256x256 := Rect.unit (s := S256x256) ![0, 0] S256x256.size inb_S256x256_S256x256_0_0
abbrev r0_b : Rect S1x256 := Rect.unit (s := S1x256) ![0, 0] S1x256.size inb_S1x256_S1x256_0_0
abbrev r0_o : Rect S1024x256 := Rect.unit (s := S1024x256) ![0, 0] S1024x256.size inb_S1024x256_S1024x256_0_0

def out0_3 (x0 : Vec F S1024x256 .f32) (x1 : Vec F S256x256 .f32) (x2 : Vec F S1x256 .f32) : Vec F S1024x256 .f32 :=
  View.canon [⟨r0_o, k0_pay1 (View.ld x0 r0_x) (View.ld x1 r0_w) (View.ld x2 r0_b)⟩]

theorem cover0_3 (p0 : Vec F S1024x256 .f32) (y : S1024x256.Idx) :
    ∃ pc ∈ ([⟨r0_o, p0⟩] : List (View.Piece (Elt F) S1024x256 .f32)), y ∈ pc.1.set :=
  View.cover_of_tiled [⟨r0_o, p0⟩] S1024x256.size (by rfl) y

set_option maxHeartbeats 1000000 in

theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S1024x256 .f32) (harg4 : arg4.IsWhole)
    (x0 : Vec F S1024x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«407141_j11613591568667_1_alg».proof.Proof.Gen.KernelIdeal.Launch
import proofs.«407141_j11613591568667_1_alg».proof.Proof.Gen.KernelIdeal.Skeleton
import proofs.«407141_j11613591568667_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S1024x256 := Rect.unit (s := S1024x256) ![0, 0] S1024x256.size inb_S1024x256_S1024x256_0_0
abbrev r1_w : Rect S256x256 := Rect.unit (s := S256x256) ![0, 0] S256x256.size inb_S256x256_S256x256_0_0
abbrev r1_b : Rect S1x256 := Rect.unit (s := S1x256) ![0, 0] S1x256.size inb_S1x256_S1x256_0_0
abbrev r1_o : Rect S1024x256 := Rect.unit (s := S1024x256) ![0, 0] S1024x256.size inb_S1024x256_S1024x256_0_0

def out1_3 (x0 : Vec F S1024x256 .f32) (x1 : Vec F S256x256 .f32) (x2 : Vec F S1x256 .f32) : Vec F S1024x256 .f32 :=
  View.canon [⟨r1_o, k1_pay1 (View.ld x0 r1_x) (View.ld x1 r1_w) (View.ld x2 r1_b)⟩]

theorem cover1_3 (p0 : Vec F S1024x256 .f32) (y : S1024x256.Idx) :
    ∃ pc ∈ ([⟨r1_o, p0⟩] : List (View.Piece (Elt F) S1024x256 .f32)), y ∈ pc.1.set :=
  View.cover_of_tiled [⟨r1_o, p0⟩] S1024x256.size (by rfl) y

set_option maxHeartbeats 1000000 in

theorem sound_kernel1 (c : Dev nD) (E : Set ℕ) (i : grid1.Coords)
    (arg1 : Memref sig .tc .vmem S1024x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S1024x256 .f32) (harg4 : arg4.IsWhole)
    (x0 : Vec F S1024x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«407141_j11613591568667_1_alg».proof.Proof.Gen.KernelIdeal.Launch
import proofs.«407141_j11613591568667_1_alg».proof.Proof.Gen.KernelIdeal.Skeleton
import proofs.«407141_j11613591568667_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S512x8192 := Rect.unit (s := S512x8192) ![0, 0] S512x8192.size inb_S512x8192_S512x8192_0_0
abbrev r2_w : Rect S8192x256 := Rect.unit (s := S8192x256) ![0, 0] S8192x256.size inb_S8192x256_S8192x256_0_0
abbrev r2_b : Rect S1x256 := Rect.unit (s := S1x256) ![0, 0] S1x256.size inb_S1x256_S1x256_0_0
abbrev r2_o : Rect S512x256 := Rect.unit (s := S512x256) ![0, 0] S512x256.size inb_S512x256_S512x256_0_0

def out2_3 (x0 : Vec F S512x8192 .bf16) (x1 : Vec F S8192x256 .f32) (x2 : Vec F S1x256 .f32) : Vec F S512x256 .f32 :=
  View.canon [⟨r2_o, k2_pay1 (View.ld x0 r2_x) (View.ld x1 r2_w) (View.ld x2 r2_b)⟩]

theorem cover2_3 (p0 : Vec F S512x256 .f32) (y : S512x256.Idx) :
    ∃ pc ∈ ([⟨r2_o, p0⟩] : List (View.Piece (Elt F) S512x256 .f32)), y ∈ pc.1.set :=
  View.cover_of_tiled [⟨r2_o, p0⟩] S512x256.size (by rfl) y

set_option maxHeartbeats 1000000 in

theorem sound_kernel2 (c : Dev nD) (E : Set ℕ) (i : grid2.Coords)
    (arg1 : Memref sig .tc .vmem S512x8192 .bf16) (harg1 : arg1.IsWhole) (arg2 : Memref sig .tc .vmem S8192x256 .f32) (harg2 : arg2.IsWhole)
    (arg3 : Memref sig .tc .vmem S1x256 .f32) (harg3 : arg3.IsWhole) (arg4 : Memref sig .tc .vmem S512x256 .f32) (harg4 : arg4.IsWhole)
    (x0 : Vec F S512x8192 .bf16) (x1 : Vec F S8192x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__graph_kernel i arg1 harg1 arg2 harg2 arg3 harg3 arg4 harg4) K := by
  simp only [cc2__graph_kernel_eq_skeleton]; unfold cc2__graph_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«407141_j11613591568667_1_alg».proof.Proof.Gen.KernelIdeal.Launch
import proofs.«407141_j11613591568667_1_alg».proof.Proof.Gen.KernelIdeal.Skeleton
import proofs.«407141_j11613591568667_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_x : Rect S1024x256 := Rect.unit (s := S1024x256) ![0, 0] S1024x256.size inb_S1024x256_S1024x256_0_0
abbrev r3_w : Rect S256x256 := Rect.unit (s := S256x256) ![0, 0] S256x256.size inb_S256x256_S256x256_0_0
abbrev r3_b : Rect S1x256 := Rect.unit (s := S1x256) ![0, 0] S1x256.size inb_S1x256_S1x256_0_0
abbrev r3_o : Rect S1024x256 := Rect.unit (s := S1024x256) ![0, 0] S1024x256.size inb_S1024x256_S1024x256_0_0

def out3_3 (x0 : Vec F S1024x256 .f32) (x1 : Vec F S256x256 .f32) (x2 : Vec F S1x256 .f32) : Vec F S1024x256 .f32 :=
  View.canon [⟨r3_o, k3_pay1 (View.ld x0 r3_x) (View.ld x1 r3_w) (View.ld x2 r3_b)⟩]

theorem cover3_3 (p0 : Vec F S1024x256 .f32) (y : S1024x256.Idx) :
    ∃ pc ∈ ([⟨r3_o, p0⟩] : List (View.Piece (Elt F) S1024x256 .f32)), y ∈ pc.1.set :=
  View.cover_of_tiled [⟨r3_o, p0⟩] S1024x256.size (by rfl) y

set_option maxHeartbeats 1000000 in

theorem sound_kernel3 (c : Dev nD) (E : Set ℕ) (i : grid3.Coords)
    (arg1 : Memref sig .tc .vmem S1024x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S1024x256 .f32) (harg4 : arg4.IsWhole)
    (x0 : Vec F S1024x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
import proofs.«407141_j11613591568667_1_alg».proof.Proof.Gen.KernelIdeal.Launch
import proofs.«407141_j11613591568667_1_alg».proof.Proof.Gen.KernelIdeal.Skeleton
import proofs.«407141_j11613591568667_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev r4_x : Rect S512x8192 := Rect.unit (s := S512x8192) ![0, 0] S512x8192.size inb_S512x8192_S512x8192_0_0
abbrev r4_w : Rect S8192x256 := Rect.unit (s := S8192x256) ![0, 0] S8192x256.size inb_S8192x256_S8192x256_0_0
abbrev r4_b : Rect S1x256 := Rect.unit (s := S1x256) ![0, 0] S1x256.size inb_S1x256_S1x256_0_0
abbrev r4_o : Rect S512x256 := Rect.unit (s := S512x256) ![0, 0] S512x256.size inb_S512x256_S512x256_0_0

def out4_3 (x0 : Vec F S512x8192 .bf16) (x1 : Vec F S8192x256 .f32) (x2 : Vec F S1x256 .f32) : Vec F S512x256 .f32 :=
  View.canon [⟨r4_o, k4_pay1 (View.ld x0 r4_x) (View.ld x1 r4_w) (View.ld x2 r4_b)⟩]

theorem cover4_3 (p0 : Vec F S512x256 .f32) (y : S512x256.Idx) :
    ∃ pc ∈ ([⟨r4_o, p0⟩] : List (View.Piece (Elt F) S512x256 .f32)), y ∈ pc.1.set :=
  View.cover_of_tiled [⟨r4_o, p0⟩] S512x256.size (by rfl) y

set_option maxHeartbeats 1000000 in

theorem sound_kernel4 (c : Dev nD) (E : Set ℕ) (i : grid4.Coords)
    (arg1 : Memref sig .tc .vmem S512x8192 .bf16) (harg1 : arg1.IsWhole) (arg2 : Memref sig .tc .vmem S8192x256 .f32) (harg2 : arg2.IsWhole)
    (arg3 : Memref sig .tc .vmem S1x256 .f32) (harg3 : arg3.IsWhole) (arg4 : Memref sig .tc .vmem S512x256 .f32) (harg4 : arg4.IsWhole)
    (x0 : Vec F S512x8192 .bf16) (x1 : Vec F S8192x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__graph_kernel i arg1 harg1 arg2 harg2 arg3 harg3 arg4 harg4) K := by
  simp only [cc4__graph_kernel_eq_skeleton]; unfold cc4__graph_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
import proofs.«407141_j11613591568667_1_alg».proof.Proof.Gen.KernelIdeal.Launch
import proofs.«407141_j11613591568667_1_alg».proof.Proof.Gen.KernelIdeal.Skeleton
import proofs.«407141_j11613591568667_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev r5_x : Rect S1024x256 := Rect.unit (s := S1024x256) ![0, 0] S1024x256.size inb_S1024x256_S1024x256_0_0
abbrev r5_w : Rect S256x128 := Rect.unit (s := S256x128) ![0, 0] S256x128.size inb_S256x128_S256x128_0_0
abbrev r5_b : Rect S1x128 := Rect.unit (s := S1x128) ![0, 0] S1x128.size inb_S1x128_S1x128_0_0
abbrev r5_o : Rect S1024x128 := Rect.unit (s := S1024x128) ![0, 0] S1024x128.size inb_S1024x128_S1024x128_0_0

def out5_3 (x0 : Vec F S1024x256 .f32) (x1 : Vec F S256x128 .f32) (x2 : Vec F S1x128 .f32) : Vec F S1024x128 .f32 :=
  View.canon [⟨r5_o, k5_pay1 (View.ld x0 r5_x) (View.ld x1 r5_w) (View.ld x2 r5_b)⟩]

theorem cover5_3 (p0 : Vec F S1024x128 .f32) (y : S1024x128.Idx) :
    ∃ pc ∈ ([⟨r5_o, p0⟩] : List (View.Piece (Elt F) S1024x128 .f32)), y ∈ pc.1.set :=
  View.cover_of_tiled [⟨r5_o, p0⟩] S1024x128.size (by rfl) y

set_option maxHeartbeats 1000000 in

theorem sound_kernel5 (c : Dev nD) (E : Set ℕ) (i : grid5.Coords)
    (arg1 : Memref sig .tc .vmem S1024x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S1024x128 .f32) (harg4 : arg4.IsWhole)
    (x0 : Vec F S1024x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__linear_kernel i arg1 harg1 arg2 harg2 arg3 harg3 arg4 harg4) K := by
  simp only [cc5__linear_kernel_eq_skeleton]; unfold cc5__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
import proofs.«407141_j11613591568667_1_alg».proof.Proof.Gen.KernelIdeal.Launch
import proofs.«407141_j11613591568667_1_alg».proof.Proof.Gen.KernelIdeal.Skeleton
import proofs.«407141_j11613591568667_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_x : Rect S512x8192 := Rect.unit (s := S512x8192) ![0, 0] S512x8192.size inb_S512x8192_S512x8192_0_0
abbrev r6_w : Rect S8192x128 := Rect.unit (s := S8192x128) ![0, 0] S8192x128.size inb_S8192x128_S8192x128_0_0
abbrev r6_b : Rect S1x128 := Rect.unit (s := S1x128) ![0, 0] S1x128.size inb_S1x128_S1x128_0_0
abbrev r6_o : Rect S512x128 := Rect.unit (s := S512x128) ![0, 0] S512x128.size inb_S512x128_S512x128_0_0

def out6_3 (x0 : Vec F S512x8192 .bf16) (x1 : Vec F S8192x128 .f32) (x2 : Vec F S1x128 .f32) : Vec F S512x128 .f32 :=
  View.canon [⟨r6_o, k6_pay1 (View.ld x0 r6_x) (View.ld x1 r6_w) (View.ld x2 r6_b)⟩]

theorem cover6_3 (p0 : Vec F S512x128 .f32) (y : S512x128.Idx) :
    ∃ pc ∈ ([⟨r6_o, p0⟩] : List (View.Piece (Elt F) S512x128 .f32)), y ∈ pc.1.set :=
  View.cover_of_tiled [⟨r6_o, p0⟩] S512x128.size (by rfl) y

set_option maxHeartbeats 1000000 in

theorem sound_kernel6 (c : Dev nD) (E : Set ℕ) (i : grid6.Coords)
    (arg1 : Memref sig .tc .vmem S512x8192 .bf16) (harg1 : arg1.IsWhole) (arg2 : Memref sig .tc .vmem S8192x128 .f32) (harg2 : arg2.IsWhole)
    (arg3 : Memref sig .tc .vmem S1x128 .f32) (harg3 : arg3.IsWhole) (arg4 : Memref sig .tc .vmem S512x128 .f32) (harg4 : arg4.IsWhole)
    (x0 : Vec F S512x8192 .bf16) (x1 : Vec F S8192x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__graph_kernel i arg1 harg1 arg2 harg2 arg3 harg3 arg4 harg4) K := by
  simp only [cc6__graph_kernel_eq_skeleton]; unfold cc6__graph_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
import proofs.«407141_j11613591568667_1_alg».proof.Proof.Gen.KernelIdeal.Launch
import proofs.«407141_j11613591568667_1_alg».proof.Proof.Gen.KernelIdeal.Skeleton
import proofs.«407141_j11613591568667_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

abbrev r7_z : Rect S1024x64 := Rect.unit (s := S1024x64) ![0, 0] S1024x64.size inb_S1024x64_S1024x64_0_0
abbrev r7_o : Rect S1024x1024 := Rect.unit (s := S1024x1024) ![0, 0] S1024x1024.size inb_S1024x1024_S1024x1024_0_0

def out7_2 (i : grid7.Coords) (x0 x1 : Vec F S1024x64 .f32) : Vec F S1024x1024 .f32 :=
  View.canon [⟨r7_o, k7_pay1 i (View.ld x0 r7_z) (View.ld x1 r7_z)⟩]

theorem cover7_2 (p0 : Vec F S1024x1024 .f32) (y : S1024x1024.Idx) :
    ∃ pc ∈ ([⟨r7_o, p0⟩] : List (View.Piece (Elt F) S1024x1024 .f32)), y ∈ pc.1.set :=
  View.cover_of_tiled [⟨r7_o, p0⟩] S1024x1024.size (by rfl) y

set_option maxHeartbeats 1000000 in

theorem sound_kernel7 (c : Dev nD) (E : Set ℕ) (i : grid7.Coords)
    (arg2 : Memref sig .tc .vmem S1024x64 .f32) (harg2 : arg2.IsWhole) (arg3 : Memref sig .tc .vmem S1024x64 .f32) (harg3 : arg3.IsWhole)
    (arg4 : Memref sig .tc .vmem S1024x1024 .f32) (harg4 : arg4.IsWhole)
    (x0 x1 : Vec F S1024x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out7_2 i x0 x1)) -∗ K ⟨⟩))
      ⊢ wp frame (wpE (defs₀ (F := F)) Variants.none c none) E (cc7__decode_kernel i arg2 harg2 arg3 harg3 arg4 harg4) K := by
  simp only [cc7__decode_kernel_eq_skeleton]; unfold cc7__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (grid7.coords t) (iblk7 V c 0 t) (iblk7 V c 1 t)
  Φ _ := Pipeline.ΦA spec7 c
  q w := match w with
    | ⟨0, _⟩ => fullShare.left
    | ⟨1, _⟩ => fullShare.right
    | ⟨2, _⟩ => fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) :
    (dat7 V c).after 2 t = out7_2 (grid7.coords t) (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Fold.lean ====
import proofs.«407141_j11613591568667_1_alg».proof.Proof.KI.Reg0
import proofs.«407141_j11613591568667_1_alg».proof.Proof.KI.Reg1
import proofs.«407141_j11613591568667_1_alg».proof.Proof.KI.Reg2
import proofs.«407141_j11613591568667_1_alg».proof.Proof.KI.Reg3
import proofs.«407141_j11613591568667_1_alg».proof.Proof.KI.Reg4
import proofs.«407141_j11613591568667_1_alg».proof.Proof.KI.Reg5
import proofs.«407141_j11613591568667_1_alg».proof.Proof.KI.Reg6
import proofs.«407141_j11613591568667_1_alg».proof.Proof.KI.Reg7
import proofs.«407141_j11613591568667_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- The contents `B` of a core's arrays, read at the core's own references.
abbrev atRefs (B : Dev nD → Valuation τ sig (Elt F)) : (c : Dev nD) → (b : Ref sig .tc) → Buf (Elt F) ((c : Thread nD τ).loc b) :=
  fun c b => B c b

abbrev B0 : Dev nD → Valuation τ sig (Elt F) := fun c b => m (c, b)

abbrev B1 : Dev nD → Valuation τ sig (Elt F) := fun c => StableHlo.after hostOps0 (B0 m c)

abbrev B2 : Dev nD → Valuation τ sig (Elt F) := fun c => StableHlo.after hostOps0_1 (B1 m c)

abbrev B3 : Dev nD → Valuation τ sig (Elt F) := fun c => StableHlo.after hostOps0_2 (B2 m c)

abbrev T3 := atRefs (B3 m)

def B4 (c : Dev nD) : Valuation τ sig (Elt F) :=
  Function.update (B3 m c) (Proc.devRef .tc (Pipeline.arrRef spec0 3)) ((dat0 (T3 m) c).arrAt 3 cfg0.N)
abbrev T4 := atRefs (B4 m)

theorem B4_out (c : Dev nD) : B4 m c (Proc.devRef .tc (Pipeline.arrRef spec0 3)) = (dat0 (T3 m) c).arrAt 3 cfg0.N := by
  unfold B4; exact Function.update_self _ _ _

theorem B4_of_ne (c : Dev nD) (b : Ref sig .tc) (hb : b ≠ Pipeline.arrRef spec0 3) : B4 m c (Proc.devRef .tc b) = B3 m c (Proc.devRef .tc b) := by
  unfold B4; exact Function.update_of_ne (StableHlo.devRef_ne_of_ne hb) _ _

abbrev B5 : Dev nD → Valuation τ sig (Elt F) := fun c => StableHlo.after hostOps1 (B4 m c)

abbrev T5 := atRefs (B5 m)

def B6 (c : Dev nD) : Valuation τ sig (Elt F) :=
  Function.update (B5 m c) (Proc.devRef .tc (Pipeline.arrRef spec1 3)) ((dat1 (T5 m) c).arrAt 3 cfg1.N)
abbrev T6 := atRefs (B6 m)

theorem B6_out (c : Dev nD) : B6 m c (Proc.devRef .tc (Pipeline.arrRef spec1 3)) = (dat1 (T5 m) c).arrAt 3 cfg1.N := by
  unfold B6; exact Function.update_self _ _ _

theorem B6_of_ne (c : Dev nD) (b : Ref sig .tc) (hb : b ≠ Pipeline.arrRef spec1 3) : B6 m c (Proc.devRef .tc b) = B5 m c (Proc.devRef .tc b) := by
  unfold B6; exact Function.update_of_ne (StableHlo.devRef_ne_of_ne hb) _ _

abbrev B7 : Dev nD → Valuation τ sig (Elt F) := fun c => StableHlo.after hostOps2 (B6 m c)

abbrev T7 := atRefs (B7 m)

def B8 (c : Dev nD) : Valuation τ sig (Elt F) :=
  Function.update (B7 m c) (Proc.devRef .tc (Pipeline.arrRef spec2 3)) ((dat2 (T7 m) c).arrAt 3 cfg2.N)
abbrev T8 := atRefs (B8 m)

theorem B8_out (c : Dev nD) : B8 m c (Proc.devRef .tc (Pipeline.arrRef spec2 3)) = (dat2 (T7 m) c).arrAt 3 cfg2.N := by
  unfold B8; exact Function.update_self _ _ _

theorem B8_of_ne (c : Dev nD) (b : Ref sig .tc) (hb : b ≠ Pipeline.arrRef spec2 3) : B8 m c (Proc.devRef .tc b) = B7 m c (Proc.devRef .tc b) := by
  unfold B8; exact Function.update_of_ne (StableHlo.devRef_ne_of_ne hb) _ _

abbrev B9 : Dev nD → Valuation τ sig (Elt F) := fun c => StableHlo.after hostOps3 (B8 m c)

abbrev T9 := atRefs (B9 m)

def B10 (c : Dev nD) : Valuation τ sig (Elt F) :=
  Function.update (B9 m c) (Proc.devRef .tc (Pipeline.arrRef spec3 3)) ((dat3 (T9 m) c).arrAt 3 cfg3.N)
abbrev T10 := atRefs (B10 m)

theorem B10_out (c : Dev nD) : B10 m c (Proc.devRef .tc (Pipeline.arrRef spec3 3)) = (dat3 (T9 m) c).arrAt 3 cfg3.N := by
  unfold B10; exact Function.update_self _ _ _

theorem B10_of_ne (c : Dev nD) (b : Ref sig .tc) (hb : b ≠ Pipeline.arrRef spec3 3) : B10 m c (Proc.devRef .tc b) = B9 m c (Proc.devRef .tc b) := by
  unfold B10; exact Function.update_of_ne (StableHlo.devRef_ne_of_ne hb) _ _

abbrev B11 : Dev nD → Valuation τ sig (Elt F) := fun c => StableHlo.after hostOps4 (B10 m c)

abbrev T11 := atRefs (B11 m)

def B12 (c : Dev nD) : Valuation τ sig (Elt F) :=
  Function.update (B11 m c) (Proc.devRef .tc (Pipeline.arrRef spec4 3)) ((dat4 (T11 m) c).arrAt 3 cfg4.N)
abbrev T12 := atRefs (B12 m)

theorem B12_out (c : Dev nD) : B12 m c (Proc.devRef .tc (Pipeline.arrRef spec4 3)) = (dat4 (T11 m) c).arrAt 3 cfg4.N := by
  unfold B12; exact Function.update_self _ _ _

theorem B12_of_ne (c : Dev nD) (b : Ref sig .tc) (hb : b ≠ Pipeline.arrRef spec4 3) : B12 m c (Proc.devRef .tc b) = B11 m c (Proc.devRef .tc b) := by
  unfold B12; exact Function.update_of_ne (StableHlo.devRef_ne_of_ne hb) _ _

abbrev B13 : Dev nD → Valuation τ sig (Elt F) := fun c => StableHlo.after hostOps5 (B12 m c)

abbrev T13 := atRefs (B13 m)

def B14 (c : Dev nD) : Valuation τ sig (Elt F) :=
  Function.update (B13 m c) (Proc.devRef .tc (Pipeline.arrRef spec5 3)) ((dat5 (T13 m) c).arrAt 3 cfg5.N)
abbrev T14 := atRefs (B14 m)

theorem B14_out (c : Dev nD) : B14 m c (Proc.devRef .tc (Pipeline.arrRef spec5 3)) = (dat5 (T13 m) c).arrAt 3 cfg5.N := by
  unfold B14; exact Function.update_self _ _ _

theorem B14_of_ne (c : Dev nD) (b : Ref sig .tc) (hb : b ≠ Pipeline.arrRef spec5 3) : B14 m c (Proc.devRef .tc b) = B13 m c (Proc.devRef .tc b) := by
  unfold B14; exact Function.update_of_ne (StableHlo.devRef_ne_of_ne hb) _ _

abbrev B15 : Dev nD → Valuation τ sig (Elt F) := fun c => StableHlo.after hostOps6 (B14 m c)

abbrev T15 := atRefs (B15 m)

def B16 (c : Dev nD) : Valuation τ sig (Elt F) :=
  Function.update (B15 m c) (Proc.devRef .tc (Pipeline.arrRef spec6 3)) ((dat6 (T15 m) c).arrAt 3 cfg6.N)
abbrev T16 := atRefs (B16 m)

theorem B16_out (c : Dev nD) : B16 m c (Proc.devRef .tc (Pipeline.arrRef spec6 3)) = (dat6 (T15 m) c).arrAt 3 cfg6.N := by
  unfold B16; exact Function.update_self _ _ _

theorem B16_of_ne (c : Dev nD) (b : Ref sig .tc) (hb : b ≠ Pipeline.arrRef spec6 3) : B16 m c (Proc.devRef .tc b) = B15 m c (Proc.devRef .tc b) := by
  unfold B16; exact Function.update_of_ne (StableHlo.devRef_ne_of_ne hb) _ _

abbrev B17 : Dev nD → Valuation τ sig (Elt F) := fun c => StableHlo.after hostOps7 (B16 m c)

abbrev T17 := atRefs (B17 m)

def B18 (c : Dev nD) : Valuation τ sig (Elt F) :=
  Function.update (B17 m c) (Proc.devRef .tc (Pipeline.arrRef spec7 2)) ((dat7 (T17 m) c).arrAt 2 cfg7.N)
abbrev T18 := atRefs (B18 m)

theorem B18_out (c : Dev nD) : B18 m c (Proc.devRef .tc (Pipeline.arrRef spec7 2)) = (dat7 (T17 m) c).arrAt 2 cfg7.N := by
  unfold B18; exact Function.update_self _ _ _

theorem B18_of_ne (c : Dev nD) (b : Ref sig .tc) (hb : b ≠ Pipeline.arrRef spec7 2) : B18 m c (Proc.devRef .tc b) = B17 m c (Proc.devRef .tc b) := by
  unfold B18; exact Function.update_of_ne (StableHlo.devRef_ne_of_ne hb) _ _

theorem hF7 (c : Dev nD) : ∀ w : Fin cfg7.W, (dat7 (T17 m) c).arrAt w cfg7.N = T18 m c (Pipeline.arrRef spec7 w)
  | ⟨0, _⟩ => ((dat7 (T17 m) c).arrAt_in 0 rfl _).trans ((A_eq7 (T17 m) c 0).trans (B18_of_ne m c _ (by decide)).symm)
  | ⟨1, _⟩ => ((dat7 (T17 m) c).arrAt_in 1 rfl _).trans ((A_eq7 (T17 m) c 1).trans (B18_of_ne m c _ (by decide)).symm)
  | ⟨2, _⟩ => (B18_out m c).symm

theorem hrest7 (c : Dev nD) : ∀ b, b ∉ Finset.univ.image (Pipeline.arrRef spec7) → T18 m c b = T17 m c b :=
  fun b hb => B18_of_ne m c b fun e => hb (Finset.mem_image.mpr ⟨2, Finset.mem_univ _, e.symm⟩)

def pdats : (p : Fin 8) → (c : Dev nD) → Dat τ (Elt F) Unit ℕ (UR sig nD τ) ℕ (Pipeline.pin (pcfgs (F := F)) adm p) c
  | ⟨0, _⟩ => fun c => dat0 (T3 m) c
  | ⟨1, _⟩ => fun c => dat1 (T5 m) c
  | ⟨2, _⟩ => fun c => dat2 (T7 m) c
  | ⟨3, _⟩ => fun c => dat3 (T9 m) c
  | ⟨4, _⟩ => fun c => dat4 (T11 m) c
  | ⟨5, _⟩ => fun c => dat5 (T13 m) c
  | ⟨6, _⟩ => fun c => dat6 (T15 m) c
  | ⟨7, _⟩ => fun c => dat7 (T17 m) c

abbrev vars0 : Variants := Variants.none

abbrev Lev : GSem nD τ sig → Finset Unit := fun _ => ∅
abbrev lev : GSem nD τ sig → Unit → ℕ := fun _ _ => 0

abbrev Rest (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars0 Lev lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 := iprop(StableHlo.held (c : Thread nD τ) (Pipeline.ucRefs τ sig) (B18 m c) ∗ ∃ r, prngReg c r)

end Cert.KernelIdeal.Hand

end
-- ==== Proof.KI.Seg.lean ====
import proofs.«407141_j11613591568667_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
-- A kernel region as one item of the run: it takes the core's arrays from `Bi` to `Bo`, which differs from `Bi` only at the output window `o`'s array.
def regOf (p : Fin 8) (L : Pipeline.LaunchFacts (nD := nD) (τ := τ) cfgs p) (Bi Bo : Dev nD → Valuation τ sig (Elt F))
    (hbody : ∀ c, Pipeline.BodyObligationLoose (pdats m p c) defs₀ vars0 () Set.univ)
    (hq : ∀ c w, (pdats m p c).q w = fullShare) (howed : ∀ c t, (pdats m p c).owed t = 0)
    (hrec : ∀ c t, (pdats m p c).recorded t = Set.univ)
    (hΦ : ∀ c t, (pdats m p c).Φ t = Pipeline.ΦA (cfgs p).spec c)
    (hA : ∀ c w, (pdats m p c).A w = atRefs Bi c (Pipeline.arrRef (cfgs p).spec w))
    (o : Fin (cfgs p).W) (hin : ∀ w, w ≠ o → ((cfgs p).win w).isOut = false)
    (hneW : ∀ w, w ≠ o → Pipeline.arrRef (cfgs p).spec w ≠ Pipeline.arrRef (cfgs p).spec o)
    (hout : ∀ c, atRefs Bo c (Pipeline.arrRef (cfgs p).spec o) = (pdats m p c).arrAt o (cfgs p).N)
    (hne : ∀ c (b : Ref sig .tc), b ≠ Pipeline.arrRef (cfgs p).spec o → atRefs Bo c b = atRefs Bi c b) :
    Pipeline.RegionSeg (pcfgs (F := F)) adm (pdats m) () defs₀ vars0 Lev lev p where
  win := L.win.to₀
  block_pos := L.block_pos
  stage_whole := L.stage_whole
  K := PEmpty
  osem k := k.elim
  ho := Pipeline.OwnSemFacts.none _
  hbody := hbody
  hwaits := Pipeline.hwaits_of_owed_zero _ _ _ _ Lev lev p howed
  pre c := iprop(StableHlo.held (c : Thread nD τ) (Pipeline.ucRefs τ sig) (Bi c) ∗ Rest c)
  post c := iprop(StableHlo.held (c : Thread nD τ) (Pipeline.ucRefs τ sig) (Bo c) ∗ Rest c)
  X c := iprop(∃ r, prngReg c r)
  Y c := iprop(∃ r, prngReg c r)
  Z c := Pipeline.unscopedRest (Ix := Unit) (Name := ℕ) (U := UR sig nD τ) (Lvl := ℕ) (cfgs p).spec c (atRefs Bi c)
  hentry c := by
    rw [Pipeline.ownSems0_none]
    have hsplit := Pipeline.arrays_of_unscopedBufs (p := p) (pcfgs (F := F)) adm (pdats m) L.win L.arr_whole c
      ((pdats m p c).share_full (hq c)) (atRefs Bi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c 0]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c (pdats m) ((pdats m p c).share_full (hq c))
      (atRefs Bi c) (atRefs Bo c) ((pdats m p c).arrAt · (cfgs p).N)
      (fun w => by
        by_cases h : w = o
        · subst h; exact (hout c).symm
        · exact ((pdats m p c).arrAt_in w (hin w h) _).trans ((hA c w).trans (hne c _ (hneW w h)).symm))
      (fun b hb => hne c b fun e => hb (Finset.mem_image.mpr ⟨o, Finset.mem_univ _, e.symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def reg0 : Pipeline.RegionSeg (pcfgs (F := F)) adm (pdats m) () defs₀ vars0 Lev lev 0 :=
  regOf m 0 launch0 (B3 m) (B4 m) (fun c => (body_obligation0 (T3 m) c).loose)
    (fun _ _ => rfl) (fun _ _ => rfl) (fun _ _ => rfl) (fun _ _ => rfl) (fun _ _ => rfl) (3 : Fin cfg0.W) (by decide) (by decide) (B4_out m) (B4_of_ne m)

def reg1 : Pipeline.RegionSeg (pcfgs (F := F)) adm (pdats m) () defs₀ vars0 Lev lev 1 :=
  regOf m 1 launch1 (B5 m) (B6 m) (fun c => (body_obligation1 (T5 m) c).loose)
    (fun _ _ => rfl) (fun _ _ => rfl) (fun _ _ => rfl) (fun _ _ => rfl) (fun _ _ => rfl) (3 : Fin cfg1.W) (by decide) (by decide) (B6_out m) (B6_of_ne m)

def reg2 : Pipeline.RegionSeg (pcfgs (F := F)) adm (pdats m) () defs₀ vars0 Lev lev 2 :=
  regOf m 2 launch2 (B7 m) (B8 m) (fun c => (body_obligation2 (T7 m) c).loose)
    (fun _ _ => rfl) (fun _ _ => rfl) (fun _ _ => rfl) (fun _ _ => rfl) (fun _ _ => rfl) (3 : Fin cfg2.W) (by decide) (by decide) (B8_out m) (B8_of_ne m)

def reg3 : Pipeline.RegionSeg (pcfgs (F := F)) adm (pdats m) () defs₀ vars0 Lev lev 3 :=
  regOf m 3 launch3 (B9 m) (B10 m) (fun c => (body_obligation3 (T9 m) c).loose)
    (fun _ _ => rfl) (fun _ _ => rfl) (fun _ _ => rfl) (fun _ _ => rfl) (fun _ _ => rfl) (3 : Fin cfg3.W) (by decide) (by decide) (B10_out m) (B10_of_ne m)

def reg4 : Pipeline.RegionSeg (pcfgs (F := F)) adm (pdats m) () defs₀ vars0 Lev lev 4 :=
  regOf m 4 launch4 (B11 m) (B12 m) (fun c => (body_obligation4 (T11 m) c).loose)
    (fun _ _ => rfl) (fun _ _ => rfl) (fun _ _ => rfl) (fun _ _ => rfl) (fun _ _ => rfl) (3 : Fin cfg4.W) (by decide) (by decide) (B12_out m) (B12_of_ne m)

def reg5 : Pipeline.RegionSeg (pcfgs (F := F)) adm (pdats m) () defs₀ vars0 Lev lev 5 :=
  regOf m 5 launch5 (B13 m) (B14 m) (fun c => (body_obligation5 (T13 m) c).loose)
    (fun _ _ => rfl) (fun _ _ => rfl) (fun _ _ => rfl) (fun _ _ => rfl) (fun _ _ => rfl) (3 : Fin cfg5.W) (by decide) (by decide) (B14_out m) (B14_of_ne m)

def reg6 : Pipeline.RegionSeg (pcfgs (F := F)) adm (pdats m) () defs₀ vars0 Lev lev 6 :=
  regOf m 6 launch6 (B15 m) (B16 m) (fun c => (body_obligation6 (T15 m) c).loose)
    (fun _ _ => rfl) (fun _ _ => rfl) (fun _ _ => rfl) (fun _ _ => rfl) (fun _ _ => rfl) (3 : Fin cfg6.W) (by decide) (by decide) (B16_out m) (B16_of_ne m)

end Cert.KernelIdeal.Hand

end
-- ==== Proof.KI.Seg7.lean ====
import proofs.«407141_j11613591568667_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem arrImage7 : Finset.univ.image (Pipeline.arrRef spec7) = ({main_v66, main_v67} : Finset (Ref sig .tc)) := by decide

theorem arrBufs7_eq (c : Dev nD) (V : (b : Ref sig .tc) → Buf (Elt F) ((c : Thread nD τ).loc b)) :
    (Pipeline.arrBufs (Ix := Unit) (Name := ℕ) (U := UR sig nD τ) (Lvl := ℕ) spec7 c V : sProp 𝕄)
      = iprop((((c : Thread nD τ).loc main_v66) ↦{fullShare} V main_v66) ∗ (((c : Thread nD τ).loc main_v67) ↦{fullShare} V main_v67)) := by
  unfold Pipeline.arrBufs
  rw [arrImage7, bigSep_insert (by decide), bigSep_singleton]
  rfl

theorem share7_0 (V₀ : (c : Dev nD) → (b : Ref sig .tc) → Buf (Elt F) ((c : Thread nD τ).loc b)) (c : Dev nD) :
    (dat7 V₀ c).share 0 = fullShare.left := rfl
theorem share7_1 (V₀ : (c : Dev nD) → (b : Ref sig .tc) → Buf (Elt F) ((c : Thread nD τ).loc b)) (c : Dev nD) :
    (dat7 V₀ c).share 1 = fullShare.right := rfl
theorem share7_2 (V₀ : (c : Dev nD) → (b : Ref sig .tc) → Buf (Elt F) ((c : Thread nD τ).loc b)) (c : Dev nD) :
    (dat7 V₀ c).share 2 = fullShare := rfl

theorem arrays7_univ (V₀ : (c : Dev nD) → (b : Ref sig .tc) → Buf (Elt F) ((c : Thread nD τ).loc b)) (c : Dev nD)
    (G : (w : Fin cfg7.W) → Buf (Elt F) ((cfg7.win w).arr.view.loc (c : Thread nD τ))) :
    ((dat7 V₀ c).arrays G : sProp 𝕄)
      = bigSep Finset.univ fun w : Fin cfg7.W => (((c : Thread nD τ).loc (Pipeline.arrRef spec7 w)) ↦{(dat7 V₀ c).share w} G w : sProp 𝕄) := by
  unfold Dat.arrays
  exact bigSep_congr fun w _ => by rw [(arr_whole7 w).set_eq_univ]

set_option maxHeartbeats 2000000 in

theorem arrays7_eq (V₀ : (c : Dev nD) → (b : Ref sig .tc) → Buf (Elt F) ((c : Thread nD τ).loc b)) (c : Dev nD)
    (G : (w : Fin cfg7.W) → Buf (Elt F) ((cfg7.win w).arr.view.loc (c : Thread nD τ))) :
    ((dat7 V₀ c).arrays G : sProp 𝕄)
      = iprop((((c : Thread nD τ).loc main_v66) ↦{fullShare.left} G 0) ∗ (((c : Thread nD τ).loc main_v66) ↦{fullShare.right} G 1)
          ∗ (((c : Thread nD τ).loc main_v67) ↦{fullShare} G 2)) := by
  rewrite [arrays7_univ, bigSep_W7]
  beta_reduce
  rewrite [share7_0, share7_1, share7_2]
  rfl

set_option maxHeartbeats 2000000 in

theorem arrays7_bufs (V₀ : (c : Dev nD) → (b : Ref sig .tc) → Buf (Elt F) ((c : Thread nD τ).loc b)) (c : Dev nD)
    (V : (b : Ref sig .tc) → Buf (Elt F) ((c : Thread nD τ).loc b))
    (G : (w : Fin cfg7.W) → Buf (Elt F) ((cfg7.win w).arr.view.loc (c : Thread nD τ)))
    (hG : ∀ w, G w = V (Pipeline.arrRef spec7 w)) :
    (Pipeline.arrBufs (Ix := Unit) (Name := ℕ) (U := UR sig nD τ) (Lvl := ℕ) spec7 c V : sProp 𝕄) ⊣⊢ (dat7 V₀ c).arrays G := by
  rewrite [arrBufs7_eq, arrays7_eq, hG 0, hG 1, hG 2]
  have hs := pointsTo_share (Ix := Unit) (Name := ℕ) (U := UR sig nD τ) (Lvl := ℕ) (ℓ := (c : Thread nD τ).loc main_v66)
    (I := Finset.univ) (f := V main_v66) (PosShare.mem_left_op_right fullShare)
  exact ⟨(sep_mono hs.mp .rfl).trans sep_assoc.mp, sep_assoc.mpr.trans (sep_mono hs.mpr .rfl)⟩

theorem entry7 (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((dat7 V c).arrays ((dat7 V c).arrAt · 0) ∗ Pipeline.unscopedRest spec7 c (V c)) := by
  rw [Pipeline.unscopedBufs_split₀ cfgs (7 : Fin 8) winFacts₀7.arr_unscoped c (V c)]
  exact sep_mono (arrays7_bufs V c (V c) _ (fun w => rfl)).mp .rfl

theorem exit7 (V V' : (c : Dev nD) → (b : Ref sig .tc) → Buf (Elt F) ((c : Thread nD τ).loc b)) (c : Dev nD)
    (G : (w : Fin cfg7.W) → Buf (Elt F) ((cfg7.win w).arr.view.loc (c : Thread nD τ)))
    (hG : ∀ w, G w = V' c (Pipeline.arrRef spec7 w))
    (hrest : ∀ b, b ∉ Finset.univ.image (Pipeline.arrRef spec7) → V' c b = V c b) :
    iprop((dat7 V c).arrays G ∗ Pipeline.unscopedRest (Ix := Unit) (Name := ℕ) (U := UR sig nD τ) (Lvl := ℕ) spec7 c (V c))
      ⊢ (unscopedBufs c (V' c) : sProp 𝕄) := by
  rw [Pipeline.unscopedBufs_split₀ cfgs (7 : Fin 8) winFacts₀7.arr_unscoped c (V' c)]
  refine sep_mono (arrays7_bufs V c (V' c) G hG).mpr (Entails.of_eq ?_)
  unfold Pipeline.unscopedRest
  exact bigSep_congr fun b hb => by rw [hrest b (Finset.mem_sdiff.mp hb).2]

variable (m : (ℓ : Loc nD τ sig) → Buf (Elt F) ℓ)

set_option backward.isDefEq.respectTransparency.types false in

def reg7 : Pipeline.RegionSeg (pcfgs (F := F)) adm (pdats m) () defs₀ vars0 Lev lev 7 where
  win := winFacts₀7
  block_pos := block_pos7
  stage_whole := stage_whole7
  K := PEmpty
  osem k := k.elim
  ho := Pipeline.OwnSemFacts.none _
  hbody c := (body_obligation7 (T17 m) c).loose
  hwaits := Pipeline.hwaits_of_owed_zero _ _ _ _ Lev lev 7 fun _ _ => rfl
  pre c := iprop(StableHlo.held (c : Thread nD τ) (Pipeline.ucRefs τ sig) (B17 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (T17 m c)
  hentry c := by
    rw [Pipeline.ownSems0_none]
    have hsplit := entry7 (T17 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := exit7 (T17 m) (T18 m) c ((pdats m 7 c).arrAt · cfg7.N) (hF7 m c) (hrest7 m c)
    rw [Pipeline.unscopedBufs_held] at hjoin
    iintro ⟨Ha, HO, HY, Hrest⟩
    imodintro
    isplitr [HO]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

end Cert.KernelIdeal.Hand

end
-- ==== Proof.KI.Run.lean ====
import proofs.«407141_j11613591568667_1_alg».proof.Proof.KI.Seg
import proofs.«407141_j11613591568667_1_alg».proof.Proof.KI.Seg7

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m) () defs₀ vars0 Lev lev) :=
  [
    .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .region (reg0 m),
    .host (hseg hostOps1 hostOps1_sub hostOps1_fresh (B4 m)),
    .region (reg1 m),
    .host (hseg hostOps2 hostOps2_sub hostOps2_fresh (B6 m)),
    .region (reg2 m),
    .host (hseg hostOps3 hostOps3_sub hostOps3_fresh (B8 m)),
    .region (reg3 m),
    .host (hseg hostOps4 hostOps4_sub hostOps4_fresh (B10 m)),
    .region (reg4 m),
    .host (hseg hostOps5 hostOps5_sub hostOps5_fresh (B12 m)),
    .region (reg5 m),
    .host (hseg hostOps6 hostOps6_sub hostOps6_fresh (B14 m)),
    .region (reg6 m),
    .host (hseg hostOps7 hostOps7_sub hostOps7_fresh (B16 m)),
    .region (reg7 m) ]

theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = B18 m c b) :=
  Pipeline.θ_run_regions_kit (pcfgs (F := F)) adm (pdats m) () cellOf_inj emb₁ defs₀ vars0 Lev lev m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c)) (Tₙ := Tend m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lev lev fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B18 m c b)
    (hfin := fun c s' => by
      iintro ⟨⟨Hh, -⟩, HSI⟩
      unfold StableHlo.held
      imodintro
      iapply (pointsTo_read_all (Pipeline.ucRefs τ sig) (fun b => (((c : Thread nD τ)).1, b)) (B18 m c) s')
      isplitl [Hh] <;> iassumption)
    (hQ := fun s h c => h c)

end Cert.KernelIdeal.Hand

end
-- ==== Proof.KI.Args.lean ====
import proofs.«407141_j11613591568667_1_alg».proof.Proof.KI.Fold

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

-- An array that no host stretch writes and that is no region's output holds at the last boundary what it held at launch.
theorem B18_of_untouched (c : Dev nD) (b : Ref sig .tc)
    (h : b ∉ hostOps0_W ∧ b ∉ hostOps0_1_W ∧ b ∉ hostOps0_2_W ∧ b ∉ hostOps1_W ∧ b ∉ hostOps2_W ∧ b ∉ hostOps3_W ∧ b ∉ hostOps4_W ∧ b ∉ hostOps5_W ∧ b ∉ hostOps6_W ∧ b ∉ hostOps7_W ∧ b ≠ Pipeline.arrRef spec0 3 ∧ b ≠ Pipeline.arrRef spec1 3 ∧ b ≠ Pipeline.arrRef spec2 3 ∧ b ≠ Pipeline.arrRef spec3 3 ∧ b ≠ Pipeline.arrRef spec4 3 ∧ b ≠ Pipeline.arrRef spec5 3 ∧ b ≠ Pipeline.arrRef spec6 3 ∧ b ≠ Pipeline.arrRef spec7 2) :
    B18 m c (Proc.devRef .tc b) = m ((c : Thread nD τ).loc b) := by
  obtain ⟨h_hostOps0, h_hostOps0_1, h_hostOps0_2, h_hostOps1, h_hostOps2, h_hostOps3, h_hostOps4, h_hostOps5, h_hostOps6, h_hostOps7, hr0, hr1, hr2, hr3, hr4, hr5, hr6, hr7⟩ := h
  exact
    (B18_of_ne m c b hr7).trans <|
    (StableHlo.after_of_writes_sub hostOps7 (B16 m c) hostOps7_writes h_hostOps7 : B17 m c (Proc.devRef .tc b) = B16 m c (Proc.devRef .tc b)).trans <|
    (B16_of_ne m c b hr6).trans <|
    (StableHlo.after_of_writes_sub hostOps6 (B14 m c) hostOps6_writes h_hostOps6 : B15 m c (Proc.devRef .tc b) = B14 m c (Proc.devRef .tc b)).trans <|
    (B14_of_ne m c b hr5).trans <|
    (StableHlo.after_of_writes_sub hostOps5 (B12 m c) hostOps5_writes h_hostOps5 : B13 m c (Proc.devRef .tc b) = B12 m c (Proc.devRef .tc b)).trans <|
    (B12_of_ne m c b hr4).trans <|
    (StableHlo.after_of_writes_sub hostOps4 (B10 m c) hostOps4_writes h_hostOps4 : B11 m c (Proc.devRef .tc b) = B10 m c (Proc.devRef .tc b)).trans <|
    (B10_of_ne m c b hr3).trans <|
    (StableHlo.after_of_writes_sub hostOps3 (B8 m c) hostOps3_writes h_hostOps3 : B9 m c (Proc.devRef .tc b) = B8 m c (Proc.devRef .tc b)).trans <|
    (B8_of_ne m c b hr2).trans <|
    (StableHlo.after_of_writes_sub hostOps2 (B6 m c) hostOps2_writes h_hostOps2 : B7 m c (Proc.devRef .tc b) = B6 m c (Proc.devRef .tc b)).trans <|
    (B6_of_ne m c b hr1).trans <|
    (StableHlo.after_of_writes_sub hostOps1 (B4 m c) hostOps1_writes h_hostOps1 : B5 m c (Proc.devRef .tc b) = B4 m c (Proc.devRef .tc b)).trans <|
    (B4_of_ne m c b hr0).trans <|
    (StableHlo.after_of_writes_sub hostOps0_2 (B2 m c) hostOps0_2_writes h_hostOps0_2 : B3 m c (Proc.devRef .tc b) = B2 m c (Proc.devRef .tc b)).trans <|
    (StableHlo.after_of_writes_sub hostOps0_1 (B1 m c) hostOps0_1_writes h_hostOps0_1 : B2 m c (Proc.devRef .tc b) = B1 m c (Proc.devRef .tc b)).trans <|
    (StableHlo.after_of_writes_sub hostOps0 (B0 m c) hostOps0_writes h_hostOps0 : B1 m c (Proc.devRef .tc b) = B0 m c (Proc.devRef .tc b)).trans <|
    rfl

theorem B18_main_arg0 (c : Dev nD) : B18 m c (Proc.devRef .tc main_arg0) = m ((c : Thread nD τ).loc main_arg0) :=
  B18_of_untouched m c main_arg0 (by decide)

theorem B18_main_arg1 (c : Dev nD) : B18 m c (Proc.devRef .tc main_arg1) = m ((c : Thread nD τ).loc main_arg1) :=
  B18_of_untouched m c main_arg1 (by decide)

theorem B18_main_arg2 (c : Dev nD) : B18 m c (Proc.devRef .tc main_arg2) = m ((c : Thread nD τ).loc main_arg2) :=
  B18_of_untouched m c main_arg2 (by decide)

theorem B18_main_arg3 (c : Dev nD) : B18 m c (Proc.devRef .tc main_arg3) = m ((c : Thread nD τ).loc main_arg3) :=
  B18_of_untouched m c main_arg3 (by decide)

theorem B18_main_arg4 (c : Dev nD) : B18 m c (Proc.devRef .tc main_arg4) = m ((c : Thread nD τ).loc main_arg4) :=
  B18_of_untouched m c main_arg4 (by decide)

theorem B18_main_arg5 (c : Dev nD) : B18 m c (Proc.devRef .tc main_arg5) = m ((c : Thread nD τ).loc main_arg5) :=
  B18_of_untouched m c main_arg5 (by decide)

theorem B18_main_arg6 (c : Dev nD) : B18 m c (Proc.devRef .tc main_arg6) = m ((c : Thread nD τ).loc main_arg6) :=
  B18_of_untouched m c main_arg6 (by decide)

theorem B18_main_arg7 (c : Dev nD) : B18 m c (Proc.devRef .tc main_arg7) = m ((c : Thread nD τ).loc main_arg7) :=
  B18_of_untouched m c main_arg7 (by decide)

theorem B18_main_arg8 (c : Dev nD) : B18 m c (Proc.devRef .tc main_arg8) = m ((c : Thread nD τ).loc main_arg8) :=
  B18_of_untouched m c main_arg8 (by decide)

theorem B18_main_arg9 (c : Dev nD) : B18 m c (Proc.devRef .tc main_arg9) = m ((c : Thread nD τ).loc main_arg9) :=
  B18_of_untouched m c main_arg9 (by decide)

theorem B18_main_arg10 (c : Dev nD) : B18 m c (Proc.devRef .tc main_arg10) = m ((c : Thread nD τ).loc main_arg10) :=
  B18_of_untouched m c main_arg10 (by decide)

theorem B18_main_arg11 (c : Dev nD) : B18 m c (Proc.devRef .tc main_arg11) = m ((c : Thread nD τ).loc main_arg11) :=
  B18_of_untouched m c main_arg11 (by decide)

theorem B18_main_arg12 (c : Dev nD) : B18 m c (Proc.devRef .tc main_arg12) = m ((c : Thread nD τ).loc main_arg12) :=
  B18_of_untouched m c main_arg12 (by decide)

end Cert.KernelIdeal.Hand

end
-- ==== Proof.KI.Claims.lean ====
import proofs.«407141_j11613591568667_1_alg».proof.Proof.KI.Run
import proofs.«407141_j11613591568667_1_alg».proof.Proof.KI.Args

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (B18_main_arg0 m c),
      (h c _ (mem_uc main_arg1 (by decide))).trans (B18_main_arg1 m c),
      (h c _ (mem_uc main_arg2 (by decide))).trans (B18_main_arg2 m c),
      (h c _ (mem_uc main_arg3 (by decide))).trans (B18_main_arg3 m c),
      (h c _ (mem_uc main_arg4 (by decide))).trans (B18_main_arg4 m c),
      (h c _ (mem_uc main_arg5 (by decide))).trans (B18_main_arg5 m c),
      (h c _ (mem_uc main_arg6 (by decide))).trans (B18_main_arg6 m c),
      (h c _ (mem_uc main_arg7 (by decide))).trans (B18_main_arg7 m c),
      (h c _ (mem_uc main_arg8 (by decide))).trans (B18_main_arg8 m c),
      (h c _ (mem_uc main_arg9 (by decide))).trans (B18_main_arg9 m c),
      (h c _ (mem_uc main_arg10 (by decide))).trans (B18_main_arg10 m c),
      (h c _ (mem_uc main_arg11 (by decide))).trans (B18_main_arg11 m c),
      (h c _ (mem_uc main_arg12 (by decide))).trans (B18_main_arg12 m c)⟩) (run_all m ρ)

theorem value_run : θ_run defs (onTc (τ := τ) (main (F := F))) ⟨m, fun _ => 0, ρ⟩ (fun r => ∀ c : Dev nD,
      r.2.mem ((c.tc : Thread nD τ).loc main_v67) = B18 m c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v67 (by decide)),
      (h c _ (mem_uc main_arg0 (by decide))).trans (B18_main_arg0 m c),
      (h c _ (mem_uc main_arg1 (by decide))).trans (B18_main_arg1 m c),
      (h c _ (mem_uc main_arg2 (by decide))).trans (B18_main_arg2 m c),
      (h c _ (mem_uc main_arg3 (by decide))).trans (B18_main_arg3 m c),
      (h c _ (mem_uc main_arg4 (by decide))).trans (B18_main_arg4 m c),
      (h c _ (mem_uc main_arg5 (by decide))).trans (B18_main_arg5 m c),
      (h c _ (mem_uc main_arg6 (by decide))).trans (B18_main_arg6 m c),
      (h c _ (mem_uc main_arg7 (by decide))).trans (B18_main_arg7 m c),
      (h c _ (mem_uc main_arg8 (by decide))).trans (B18_main_arg8 m c),
      (h c _ (mem_uc main_arg9 (by decide))).trans (B18_main_arg9 m c),
      (h c _ (mem_uc main_arg10 (by decide))).trans (B18_main_arg10 m c),
      (h c _ (mem_uc main_arg11 (by decide))).trans (B18_main_arg11 m c),
      (h c _ (mem_uc main_arg12 (by decide))).trans (B18_main_arg12 m c)⟩) (run_all m ρ)

end Cert.KernelIdeal.Hand

end
-- ==== Proof.Spec.lean ====
import Idealize.ShloMosaic.PureOps.Ideal
import Idealize.ShloMosaic.Lib.ValueIdx

noncomputable section

open scoped BigOperators

namespace Cert.Gcn

open Idealize.ShloMosaic Idealize.ShloMosaic.ValueIdx

abbrev Sh (N C : Nat) : Shape := ⟨2, ![N, C]⟩

abbrev RArr (N C : Nat) : Type := (Sh N C).Idx → EReal

def lin {N K C : Nat} (x : RArr N K) (w : RArr K C) (b : RArr 1 C) : RArr N C :=
  fun j => (∑ k : Fin K, x (ix2 (j 0) k) * w (ix2 k (j 1))) + b (ix2 0 (j 1))

def zeroRow (C : Nat) : RArr 1 C := fun _ => 0

def asRow {C : Nat} (b : (⟨1, ![C]⟩ : Shape).Idx → EReal) : RArr 1 C := fun j => b (ix1 (j 1))

def agg {N C : Nat} (a : RArr N N) (y : RArr N C) (b : RArr 1 C) : RArr N C :=
  fun j => max ((∑ k : Fin N, a (ix2 (j 0) k) * y (ix2 k (j 1))) + b (ix2 0 (j 1))) 0

def adj {N E : Nat} (s d : Fin E → Fin N) (n : Fin E → EReal) : RArr N N :=
  fun j => ∑ e ∈ Finset.univ.filter (fun e : Fin E => (d e).val = (j 0).val ∧ (s e).val = (j 1).val), n e

def conv {N E C : Nat} (s d : Fin E → Fin N) (n : Fin E → EReal) (y : RArr N C) (b : RArr 1 C) : RArr N C :=
  fun j => max ((∑ e ∈ Finset.univ.filter (fun e : Fin E => (d e).val = (j 0).val), y (ix2 (s e) (j 1)) * n e) + b (ix2 0 (j 1))) 0

def deg {N E : Nat} (d : Fin E → Fin N) (i : Fin N) : EReal :=
  ∑ _e ∈ Finset.univ.filter (fun e : Fin E => d e = i), (1 : EReal)

def dinv {N E : Nat} (d : Fin E → Fin N) (i : Fin N) : EReal :=
  if 0 < deg d i then Ideal.rsqrt (deg d i) else 0

def nrm {N E : Nat} (s d : Fin E → Fin N) (e : Fin E) : EReal := dinv d (s e) * dinv d (d e)

def hcat {N : Nat} (l r : RArr N 64) : RArr N 128 :=
  fun j => if h : (j 1).val < 64 then l (ix2 (j 0) ⟨(j 1).val, h⟩) else r (ix2 (j 0) ⟨(j 1).val - 64, by have := idx2_lt1 j; omega⟩)

def leftHalf {N : Nat} (x : RArr N 128) : RArr N 64 := fun j => x (ix2 (j 0) ⟨(j 1).val, by have := idx2_lt1 j; omega⟩)

def rightHalf {N : Nat} (x : RArr N 128) : RArr N 64 := fun j => x (ix2 (j 0) ⟨(j 1).val + 64, by have := idx2_lt1 j; omega⟩)

def sample {N C : Nat} (noise mean logstd : RArr N C) : RArr N C :=
  fun j => noise j * Ideal.exp (logstd j) + mean j

def dec {N C : Nat} (z : RArr N C) : RArr N N :=
  fun j => if (j 0).val < (j 1).val then Ideal.logistic (∑ k : Fin C, z (ix2 (j 0) k) * z (ix2 (j 1) k)) else 0

end Cert.Gcn

end
-- ==== Proof.KI.Val0.lean ====
import proofs.«407141_j11613591568667_1_alg».proof.Proof.KI.Reg0
import proofs.«407141_j11613591568667_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem pay0_lhs_0 (j : S1024x256.Idx) (k : dot_S1024x256_S256x256_S1024x256_1_0_0_1_n_n.contr.Idx) :
    (dot_S1024x256_S256x256_S1024x256_1_0_0_1_n_n.lhsIdx j k 0 : ℕ) = j 0 := by
  simp [DotDims.lhsIdx, dot_S1024x256_S256x256_S1024x256_1_0_0_1_n_n]; rfl

theorem pay0_lhs_1 (j : S1024x256.Idx) (k : dot_S1024x256_S256x256_S1024x256_1_0_0_1_n_n.contr.Idx) :
    (dot_S1024x256_S256x256_S1024x256_1_0_0_1_n_n.lhsIdx j k 1 : ℕ) = k ⟨0, by decide⟩ :=
  dot_S1024x256_S256x256_S1024x256_1_0_0_1_n_n.lhsIdx_val_of_single rfl j k

theorem pay0_rhs_0 (j : S1024x256.Idx) (k : dot_S1024x256_S256x256_S1024x256_1_0_0_1_n_n.contr.Idx) :
    (dot_S1024x256_S256x256_S1024x256_1_0_0_1_n_n.rhsIdx j k 0 : ℕ) = k ⟨0, by decide⟩ :=
  dot_S1024x256_S256x256_S1024x256_1_0_0_1_n_n.rhsIdx_val_of_single rfl j k

theorem pay0_rhs_1 (j : S1024x256.Idx) (k : dot_S1024x256_S256x256_S1024x256_1_0_0_1_n_n.contr.Idx) :
    (dot_S1024x256_S256x256_S1024x256_1_0_0_1_n_n.rhsIdx j k 1 : ℕ) = j 1 := by
  simp [DotDims.rhsIdx, dot_S1024x256_S256x256_S1024x256_1_0_0_1_n_n]; rfl

theorem pay0_apply (x0 : Vec Ideal S1024x256 .f32) (x1 : Vec Ideal S256x256 .f32) (x2 : Vec Ideal S1x256 .f32) :
    k0_pay1 x0 x1 x2 = Cert.Gcn.lin x0 x1 x2 := by
  funext j
  unfold k0_pay1
  simp only [shapeCast_self]
  refine (addf_apply _ _ j).trans ?_
  unfold Cert.Gcn.lin
  refine congrArg₂ (· + ·) ?_ ?_
  · refine (Ideal.matmul_constant_zero_apply _ none _ _ j).trans ?_
    refine Fintype.sum_equiv (contrEquiv1 dot_S1024x256_S256x256_S1024x256_1_0_0_1_n_n _ rfl rfl) _ _ (fun k => ?_)
    refine congrArg₂ (· * ·) (congrArg x0 ?_) (congrArg x1 ?_)
    · funext a; apply Fin.ext
      match a with
      | ⟨0, _⟩ => exact pay0_lhs_0 j k
      | ⟨1, _⟩ => exact pay0_lhs_1 j k
    · funext a; apply Fin.ext
      match a with
      | ⟨0, _⟩ => exact pay0_rhs_0 j k
      | ⟨1, _⟩ => exact pay0_rhs_1 j k
  · refine broadcastTo_apply x2 _ j _ (fun a => ?_)
    match a with
    | ⟨0, _⟩ => rfl
    | ⟨1, _⟩ => rfl

variable (V : (c : Dev nD) → (b : Ref sig .tc) → Buf (Elt Ideal) ((c : Thread nD τ).loc b))

theorem val0_hz : (![0, 0] : Fin 2 → Nat) = fun _ => 0 := funext fun a => by fin_cases a <;> rfl

theorem val0_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem val0_blkrow (A0 : S8192x256.Idx → EReal) (A1 : S256x256.Idx → EReal) (A2 : S1x256.Idx → EReal)
    (x0 : Vec Ideal S1024x256 .f32) (x1 : Vec Ideal S256x256 .f32) (x2 : Vec Ideal S1x256 .f32)
    (y : S1024x256.Idx) (i : S8192x256.Idx)
    (h0 : ∀ k, x0 (ix2 (y 0) k) = A0 (ix2 (i 0) k))
    (h1 : ∀ k, x1 (ix2 k (y 1)) = A1 (ix2 k (i 1)))
    (h2 : x2 (ix2 0 (y 1)) = A2 (ix2 0 (i 1))) :
    Cert.Gcn.lin x0 x1 x2 y = Cert.Gcn.lin A0 A1 A2 i := by
  unfold Cert.Gcn.lin
  rw [h2]
  exact congrArg (· + _) (Finset.sum_congr rfl fun k _ => by rw [h0 k, h1 k])

theorem val0_pt (c : Dev nD) (t : Fin cfg0.N) (y : S1024x256.Idx) (i : S8192x256.Idx)
    (hi0 : (i 0).val = t.val * 1024 + (y 0).val) (hi1 : (i 1).val = (y 1).val) :
    Cert.Gcn.lin (iblk0 V c 0 t) (iblk0 V c 1 t) (iblk0 V c 2 t) y
      = Cert.Gcn.lin (V c (Pipeline.arrRef spec0 0)) (V c (Pipeline.arrRef spec0 1)) (V c (Pipeline.arrRef spec0 2)) i := by
  obtain ⟨e00, e01, e10, e11, e20, e21, -, -⟩ := val0_idx_facts t
  refine val0_blkrow _ _ _ _ _ _ y i (fun k => ?_) (fun k => ?_) ?_
  · show V c (Pipeline.arrRef spec0 0) (((cfg0.win 0).blk t).view.emb (ix2 (y 0) k)) = _
    refine congrArg (V c (Pipeline.arrRef spec0 0)) (funext fun a => Fin.ext ?_)
    match a with
    | ⟨0, _⟩ =>
      show win0_0.index t (0 : Fin 2) * 1024 + 1 * (y 0).val = (i 0).val
      rw [e00, hi0]; omega
    | ⟨1, _⟩ =>
      show win0_0.index t (1 : Fin 2) * S1024x256.size (1 : Fin 2) + 1 * k.val = k.val
      rw [e01]; omega
  · show V c (Pipeline.arrRef spec0 1) (((cfg0.win 1).blk t).view.emb (ix2 k (y 1))) = _
    refine congrArg (V c (Pipeline.arrRef spec0 1)) (funext fun a => Fin.ext ?_)
    match a with
    | ⟨0, _⟩ =>
      show win0_1.index t (0 : Fin 2) * S256x256.size (0 : Fin 2) + 1 * k.val = k.val
      rw [e10]; omega
    | ⟨1, _⟩ =>
      show win0_1.index t (1 : Fin 2) * S256x256.size (1 : Fin 2) + 1 * (y 1).val = (i 1).val
      rw [e11, hi1]; omega
  · show V c (Pipeline.arrRef spec0 2) (((cfg0.win 2).blk t).view.emb (ix2 0 (y 1))) = _
    refine congrArg (V c (Pipeline.arrRef spec0 2)) (funext fun a => Fin.ext ?_)
    match a with
    | ⟨0, _⟩ =>
      show win0_2.index t (0 : Fin 2) * S1x256.size (0 : Fin 2) + 1 * 0 = 0
      rw [e20]; omega
    | ⟨1, _⟩ =>
      show win0_2.index t (1 : Fin 2) * S1x256.size (1 : Fin 2) + 1 * (y 1).val = (i 1).val
      rw [e21, hi1]; omega

theorem val0_flushed (c : Dev nD) (t : Fin cfg0.N) :
    (dat0 (F := Ideal) V c).flushed 3 t
      = ((cfg0.win 3).blk t).view.read (Elt Ideal)
          (Cert.Gcn.lin (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero val0_hz]
  simp only [View.ld_unit_zero (S := S1024x256) val0_hz, View.ld_unit_zero (S := S256x256) val0_hz, View.ld_unit_zero (S := S1x256) val0_hz]
  rw [pay0_apply]
  obtain ⟨-, -, -, -, -, -, e30, e31⟩ := val0_idx_facts t
  funext y
  show Cert.Gcn.lin (iblk0 V c 0 t) (iblk0 V c 1 t) (iblk0 V c 2 t) y
      = Cert.Gcn.lin (V c (Pipeline.arrRef spec0 0)) (V c (Pipeline.arrRef spec0 1)) (V c (Pipeline.arrRef spec0 2))
          (((cfg0.win 3).blk t).view.emb y)
  refine val0_pt V c t y _ ?_ ?_
  · show win0_3.index t (0 : Fin 2) * 1024 + 1 * (y 0).val = _
    rw [e30]; omega
  · show win0_3.index t (1 : Fin 2) * S1024x256.size (1 : Fin 2) + 1 * (y 1).val = _
    rw [e31]; omega

theorem val0_mem_blk (t : Fin cfg0.N) (i : S8192x256.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole (Pipeline.arrRef spec0 3)).slice (win0_3.rect t)).set ↔ _
  rw [View.set_slice_whole, Rect.mem_set_unit]
  exact Iff.rfl

def val0_pt_of (i : S8192x256.Idx) : Fin cfg0.N :=
  ⟨(i 0).val / 1024, by have h8 : cfg0.N = 8 := N_0; have hi0 : (i 0).val < 8192 := (i 0).isLt; omega⟩

theorem val0_cover (i : S8192x256.Idx) :
    ∃ t : Fin cfg0.N, (cfg0.win 3).flush t = true ∧ i ∈ ((cfg0.win 3).blk t).view.set := by
  refine ⟨val0_pt_of i, flush0_3 _, ?_⟩
  rw [val0_mem_blk]
  obtain ⟨-, -, -, -, -, -, e30, e31⟩ := val0_idx_facts (val0_pt_of i)
  have hi1 : (i 1).val < S1024x256.size (1 : Fin 2) := (i 1).isLt
  intro a
  match a with
  | ⟨0, _⟩ =>
    show win0_3.index (val0_pt_of i) (0 : Fin 2) * 1024 ≤ (i 0).val
      ∧ (i 0).val < win0_3.index (val0_pt_of i) (0 : Fin 2) * 1024 + 1024
    rw [e30]
    show (i 0).val / 1024 * 1024 ≤ (i 0).val ∧ (i 0).val < (i 0).val / 1024 * 1024 + 1024
    omega
  | ⟨1, _⟩ =>
    show win0_3.index (val0_pt_of i) (1 : Fin 2) * S1024x256.size (1 : Fin 2) ≤ (i 1).val
      ∧ (i 1).val < win0_3.index (val0_pt_of i) (1 : Fin 2) * S1024x256.size (1 : Fin 2) + S1024x256.size (1 : Fin 2)
    rw [e31]; omega

theorem val0 (c : Dev nD) :
    (dat0 (F := Ideal) V c).arrAt 3 cfg0.N
      = Cert.Gcn.lin (V c (Pipeline.arrRef spec0 0)) (V c (Pipeline.arrRef spec0 1)) (V c (Pipeline.arrRef spec0 2)) :=
  (dat0 V c).arrAt_eq_of_cover 3 _ (fun t _ => val0_flushed V c t) val0_cover

end Cert.KernelIdeal.Hand

end
-- ==== Proof.KI.Val1.lean ====
import proofs.«407141_j11613591568667_1_alg».proof.Proof.KI.Reg1
import proofs.«407141_j11613591568667_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem pay1_lhs_0 (j : S1024x256.Idx) (k : dot_S1024x256_S256x256_S1024x256_1_0_0_1_n_n.contr.Idx) :
    (dot_S1024x256_S256x256_S1024x256_1_0_0_1_n_n.lhsIdx j k 0 : ℕ) = j 0 := by
  simp [DotDims.lhsIdx, dot_S1024x256_S256x256_S1024x256_1_0_0_1_n_n]; rfl

theorem pay1_lhs_1 (j : S1024x256.Idx) (k : dot_S1024x256_S256x256_S1024x256_1_0_0_1_n_n.contr.Idx) :
    (dot_S1024x256_S256x256_S1024x256_1_0_0_1_n_n.lhsIdx j k 1 : ℕ) = k ⟨0, by decide⟩ :=
  dot_S1024x256_S256x256_S1024x256_1_0_0_1_n_n.lhsIdx_val_of_single rfl j k

theorem pay1_rhs_0 (j : S1024x256.Idx) (k : dot_S1024x256_S256x256_S1024x256_1_0_0_1_n_n.contr.Idx) :
    (dot_S1024x256_S256x256_S1024x256_1_0_0_1_n_n.rhsIdx j k 0 : ℕ) = k ⟨0, by decide⟩ :=
  dot_S1024x256_S256x256_S1024x256_1_0_0_1_n_n.rhsIdx_val_of_single rfl j k

theorem pay1_rhs_1 (j : S1024x256.Idx) (k : dot_S1024x256_S256x256_S1024x256_1_0_0_1_n_n.contr.Idx) :
    (dot_S1024x256_S256x256_S1024x256_1_0_0_1_n_n.rhsIdx j k 1 : ℕ) = j 1 := by
  simp [DotDims.rhsIdx, dot_S1024x256_S256x256_S1024x256_1_0_0_1_n_n]; rfl

theorem pay1_apply (x0 : Vec Ideal S1024x256 .f32) (x1 : Vec Ideal S256x256 .f32) (x2 : Vec Ideal S1x256 .f32) :
    k1_pay1 x0 x1 x2 = Cert.Gcn.lin x0 x1 x2 := by
  funext j
  unfold k1_pay1
  simp only [shapeCast_self]
  refine (addf_apply _ _ j).trans ?_
  unfold Cert.Gcn.lin
  refine congrArg₂ (· + ·) ?_ ?_
  · refine (Ideal.matmul_constant_zero_apply _ none _ _ j).trans ?_
    refine Fintype.sum_equiv (contrEquiv1 dot_S1024x256_S256x256_S1024x256_1_0_0_1_n_n _ rfl rfl) _ _ (fun k => ?_)
    refine congrArg₂ (· * ·) (congrArg x0 ?_) (congrArg x1 ?_)
    · funext a; apply Fin.ext
      match a with
      | ⟨0, _⟩ => exact pay1_lhs_0 j k
      | ⟨1, _⟩ => exact pay1_lhs_1 j k
    · funext a; apply Fin.ext
      match a with
      | ⟨0, _⟩ => exact pay1_rhs_0 j k
      | ⟨1, _⟩ => exact pay1_rhs_1 j k
  · refine broadcastTo_apply x2 _ j _ (fun a => ?_)
    match a with
    | ⟨0, _⟩ => rfl
    | ⟨1, _⟩ => rfl

variable (V : (c : Dev nD) → (b : Ref sig .tc) → Buf (Elt Ideal) ((c : Thread nD τ).loc b))

theorem val1_hz : (![0, 0] : Fin 2 → Nat) = fun _ => 0 := funext fun a => by fin_cases a <;> rfl

theorem val1_idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem val1_blkrow (A0 : S8192x256.Idx → EReal) (A1 : S256x256.Idx → EReal) (A2 : S1x256.Idx → EReal)
    (x0 : Vec Ideal S1024x256 .f32) (x1 : Vec Ideal S256x256 .f32) (x2 : Vec Ideal S1x256 .f32)
    (y : S1024x256.Idx) (i : S8192x256.Idx)
    (h0 : ∀ k, x0 (ix2 (y 0) k) = A0 (ix2 (i 0) k))
    (h1 : ∀ k, x1 (ix2 k (y 1)) = A1 (ix2 k (i 1)))
    (h2 : x2 (ix2 0 (y 1)) = A2 (ix2 0 (i 1))) :
    Cert.Gcn.lin x0 x1 x2 y = Cert.Gcn.lin A0 A1 A2 i := by
  unfold Cert.Gcn.lin
  rw [h2]
  exact congrArg (· + _) (Finset.sum_congr rfl fun k _ => by rw [h0 k, h1 k])

theorem val1_pt (c : Dev nD) (t : Fin cfg1.N) (y : S1024x256.Idx) (i : S8192x256.Idx)
    (hi0 : (i 0).val = t.val * 1024 + (y 0).val) (hi1 : (i 1).val = (y 1).val) :
    Cert.Gcn.lin (iblk1 V c 0 t) (iblk1 V c 1 t) (iblk1 V c 2 t) y
      = Cert.Gcn.lin (V c (Pipeline.arrRef spec1 0)) (V c (Pipeline.arrRef spec1 1)) (V c (Pipeline.arrRef spec1 2)) i := by
  obtain ⟨e00, e01, e10, e11, e20, e21, -, -⟩ := val1_idx_facts t
  refine val1_blkrow _ _ _ _ _ _ y i (fun k => ?_) (fun k => ?_) ?_
  · show V c (Pipeline.arrRef spec1 0) (((cfg1.win 0).blk t).view.emb (ix2 (y 0) k)) = _
    refine congrArg (V c (Pipeline.arrRef spec1 0)) (funext fun a => Fin.ext ?_)
    match a with
    | ⟨0, _⟩ =>
      show win1_0.index t (0 : Fin 2) * 1024 + 1 * (y 0).val = (i 0).val
      rw [e00, hi0]; omega
    | ⟨1, _⟩ =>
      show win1_0.index t (1 : Fin 2) * S1024x256.size (1 : Fin 2) + 1 * k.val = k.val
      rw [e01]; omega
  · show V c (Pipeline.arrRef spec1 1) (((cfg1.win 1).blk t).view.emb (ix2 k (y 1))) = _
    refine congrArg (V c (Pipeline.arrRef spec1 1)) (funext fun a => Fin.ext ?_)
    match a with
    | ⟨0, _⟩ =>
      show win1_1.index t (0 : Fin 2) * S256x256.size (0 : Fin 2) + 1 * k.val = k.val
      rw [e10]; omega
    | ⟨1, _⟩ =>
      show win1_1.index t (1 : Fin 2) * S256x256.size (1 : Fin 2) + 1 * (y 1).val = (i 1).val
      rw [e11, hi1]; omega
  · show V c (Pipeline.arrRef spec1 2) (((cfg1.win 2).blk t).view.emb (ix2 0 (y 1))) = _
    refine congrArg (V c (Pipeline.arrRef spec1 2)) (funext fun a => Fin.ext ?_)
    match a with
    | ⟨0, _⟩ =>
      show win1_2.index t (0 : Fin 2) * S1x256.size (0 : Fin 2) + 1 * 0 = 0
      rw [e20]; omega
    | ⟨1, _⟩ =>
      show win1_2.index t (1 : Fin 2) * S1x256.size (1 : Fin 2) + 1 * (y 1).val = (i 1).val
      rw [e21, hi1]; omega

theorem val1_flushed (c : Dev nD) (t : Fin cfg1.N) :
    (dat1 (F := Ideal) V c).flushed 3 t
      = ((cfg1.win 3).blk t).view.read (Elt Ideal)
          (Cert.Gcn.lin (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero val1_hz]
  simp only [View.ld_unit_zero (S := S1024x256) val1_hz, View.ld_unit_zero (S := S256x256) val1_hz, View.ld_unit_zero (S := S1x256) val1_hz]
  rw [pay1_apply]
  obtain ⟨-, -, -, -, -, -, e30, e31⟩ := val1_idx_facts t
  funext y
  show Cert.Gcn.lin (iblk1 V c 0 t) (iblk1 V c 1 t) (iblk1 V c 2 t) y
      = Cert.Gcn.lin (V c (Pipeline.arrRef spec1 0)) (V c (Pipeline.arrRef spec1 1)) (V c (Pipeline.arrRef spec1 2))
          (((cfg1.win 3).blk t).view.emb y)
  refine val1_pt V c t y _ ?_ ?_
  · show win1_3.index t (0 : Fin 2) * 1024 + 1 * (y 0).val = _
    rw [e30]; omega
  · show win1_3.index t (1 : Fin 2) * S1024x256.size (1 : Fin 2) + 1 * (y 1).val = _
    rw [e31]; omega

theorem val1_mem_blk (t : Fin cfg1.N) (i : S8192x256.Idx) :
    i ∈ ((cfg1.win 3).blk t).view.set ↔ ∀ a : Fin 2, win1_3.index t a * S1024x256.size a ≤ (i a).val
      ∧ (i a).val < win1_3.index t a * S1024x256.size a + S1024x256.size a := by
  show i ∈ ((View.whole (Pipeline.arrRef spec1 3)).slice (win1_3.rect t)).set ↔ _
  rw [View.set_slice_whole, Rect.mem_set_unit]
  exact Iff.rfl

def val1_pt_of (i : S8192x256.Idx) : Fin cfg1.N :=
  ⟨(i 0).val / 1024, by have h8 : cfg1.N = 8 := N_1; have hi0 : (i 0).val < 8192 := (i 0).isLt; omega⟩

theorem val1_cover (i : S8192x256.Idx) :
    ∃ t : Fin cfg1.N, (cfg1.win 3).flush t = true ∧ i ∈ ((cfg1.win 3).blk t).view.set := by
  refine ⟨val1_pt_of i, flush1_3 _, ?_⟩
  rw [val1_mem_blk]
  obtain ⟨-, -, -, -, -, -, e30, e31⟩ := val1_idx_facts (val1_pt_of i)
  have hi1 : (i 1).val < S1024x256.size (1 : Fin 2) := (i 1).isLt
  intro a
  match a with
  | ⟨0, _⟩ =>
    show win1_3.index (val1_pt_of i) (0 : Fin 2) * 1024 ≤ (i 0).val
      ∧ (i 0).val < win1_3.index (val1_pt_of i) (0 : Fin 2) * 1024 + 1024
    rw [e30]
    show (i 0).val / 1024 * 1024 ≤ (i 0).val ∧ (i 0).val < (i 0).val / 1024 * 1024 + 1024
    omega
  | ⟨1, _⟩ =>
    show win1_3.index (val1_pt_of i) (1 : Fin 2) * S1024x256.size (1 : Fin 2) ≤ (i 1).val
      ∧ (i 1).val < win1_3.index (val1_pt_of i) (1 : Fin 2) * S1024x256.size (1 : Fin 2) + S1024x256.size (1 : Fin 2)
    rw [e31]; omega

theorem val1 (c : Dev nD) :
    (dat1 (F := Ideal) V c).arrAt 3 cfg1.N
      = Cert.Gcn.lin (V c (Pipeline.arrRef spec1 0)) (V c (Pipeline.arrRef spec1 1)) (V c (Pipeline.arrRef spec1 2)) :=
  (dat1 V c).arrAt_eq_of_cover 3 _ (fun t _ => val1_flushed V c t) val1_cover

end Cert.KernelIdeal.Hand

end
-- ==== Proof.KI.Val2.lean ====
import proofs.«407141_j11613591568667_1_alg».proof.Proof.KI.Reg2
import proofs.«407141_j11613591568667_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem pay2_lhs_0 (j : S512x256.Idx) (k : dot_S512x8192_S8192x256_S512x256_1_0_0_1_n_n.contr.Idx) :
    (dot_S512x8192_S8192x256_S512x256_1_0_0_1_n_n.lhsIdx j k 0 : ℕ) = j 0 := by
  simp [DotDims.lhsIdx, dot_S512x8192_S8192x256_S512x256_1_0_0_1_n_n]; rfl

theorem pay2_lhs_1 (j : S512x256.Idx) (k : dot_S512x8192_S8192x256_S512x256_1_0_0_1_n_n.contr.Idx) :
    (dot_S512x8192_S8192x256_S512x256_1_0_0_1_n_n.lhsIdx j k 1 : ℕ) = k ⟨0, by decide⟩ := by
  simp [DotDims.lhsIdx, dot_S512x8192_S8192x256_S512x256_1_0_0_1_n_n]; rfl

theorem pay2_rhs_0 (j : S512x256.Idx) (k : dot_S512x8192_S8192x256_S512x256_1_0_0_1_n_n.contr.Idx) :
    (dot_S512x8192_S8192x256_S512x256_1_0_0_1_n_n.rhsIdx j k 0 : ℕ) = k ⟨0, by decide⟩ := by
  simp [DotDims.rhsIdx, dot_S512x8192_S8192x256_S512x256_1_0_0_1_n_n]; rfl

theorem pay2_rhs_1 (j : S512x256.Idx) (k : dot_S512x8192_S8192x256_S512x256_1_0_0_1_n_n.contr.Idx) :
    (dot_S512x8192_S8192x256_S512x256_1_0_0_1_n_n.rhsIdx j k 1 : ℕ) = j 1 := by
  simp [DotDims.rhsIdx, dot_S512x8192_S8192x256_S512x256_1_0_0_1_n_n]; rfl

theorem pay2_dot (x0 : Vec Ideal S512x8192 .bf16) (x1 : Vec Ideal S8192x256 .f32) (j : S512x256.Idx) :
    matmul (φ₁ := .bf16) (φ₂ := .bf16) dot_S512x8192_S8192x256_S512x256_1_0_0_1_n_n none (shapeCast S512x8192 x0 shapeCasts_S512x8192_S512x8192)
        (truncf .bf16 (shapeCast S8192x256 x1 shapeCasts_S8192x256_S8192x256) bitsLt_bf16_f32) (constant (F := Ideal) S512x256 .f32 0x00000000#32) j
      = ∑ k : Fin 8192, x0 (ix2 (j 0) k) * x1 (ix2 k (j 1)) := by
  rw [shapeCast_self, shapeCast_self]
  refine (Ideal.matmul_constant_zero_apply (φ₁ := .bf16) (φ₂ := .bf16) dot_S512x8192_S8192x256_S512x256_1_0_0_1_n_n none x0 (truncf .bf16 x1 bitsLt_bf16_f32) j).trans ?_
  rw [← Equiv.sum_comp (contrEquiv1 dot_S512x8192_S8192x256_S512x256_1_0_0_1_n_n 8192 rfl rfl).symm]
  refine Finset.sum_congr rfl fun k _ => ?_
  have hk := contrEquiv1_symm_val dot_S512x8192_S8192x256_S512x256_1_0_0_1_n_n 8192 rfl rfl k
  have hl : dot_S512x8192_S8192x256_S512x256_1_0_0_1_n_n.lhsIdx j ((contrEquiv1 dot_S512x8192_S8192x256_S512x256_1_0_0_1_n_n 8192 rfl rfl).symm k)
      = ix2 (j 0) k := by
    funext a; apply Fin.ext
    match a with
    | ⟨0, _⟩ => exact pay2_lhs_0 _ _
    | ⟨1, _⟩ => exact (pay2_lhs_1 _ _).trans hk
  have hr : dot_S512x8192_S8192x256_S512x256_1_0_0_1_n_n.rhsIdx j ((contrEquiv1 dot_S512x8192_S8192x256_S512x256_1_0_0_1_n_n 8192 rfl rfl).symm k)
      = ix2 k (j 1) := by
    funext a; apply Fin.ext
    match a with
    | ⟨0, _⟩ => exact (pay2_rhs_0 _ _).trans hk
    | ⟨1, _⟩ => exact pay2_rhs_1 _ _
  rw [hl, hr]
  rfl

theorem pay2_bias (x2 : Vec Ideal S1x256 .f32) (j : S512x256.Idx) :
    broadcastTo S512x256 (shapeCast S1x256 x2 shapeCasts_S1x256_S1x256) broadcasts_S1x256_S512x256 j = x2 (ix2 0 (j 1)) := by
  rw [shapeCast_self]
  refine broadcastTo_apply x2 _ j (ix2 0 (j 1)) fun a => ?_
  match a with
  | ⟨0, _⟩ => rfl
  | ⟨1, _⟩ => rfl

theorem pay2_apply (x0 : Vec Ideal S512x8192 .bf16) (x1 : Vec Ideal S8192x256 .f32) (x2 : Vec Ideal S1x256 .f32) (j : S512x256.Idx) :
    k2_pay1 (F := Ideal) x0 x1 x2 j = max ((∑ k : Fin 8192, x0 (ix2 (j 0) k) * x1 (ix2 k (j 1))) + x2 (ix2 0 (j 1))) 0 := by
  unfold k2_pay1
  exact congrArg₂ max (congrArg₂ (· + ·) (pay2_dot x0 x1 j) (pay2_bias x2 j)) Ideal.ofBits_zero_f32

variable (V : (c : Dev nD) → (b : Ref sig .tc) → Buf (Elt Ideal) ((c : Thread nD τ).loc b))

theorem val2_hz : (![0, 0] : Fin 2 → Nat) = fun _ => 0 := funext fun a => by fin_cases a <;> rfl

theorem val2_idx_facts : ∀ t : Fin cfg2.N,
    win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

theorem val2_point (A : S8192x8192.Idx → EReal) (Y : S8192x256.Idx → EReal) (B : S1x256.Idx → EReal) (t : Fin cfg2.N) (y : S512x256.Idx) :
    max ((∑ k : Fin 8192, A (((cfg2.win 0).blk t).view.emb (ix2 (y 0) k : S512x8192.Idx)) * Y (((cfg2.win 1).blk t).view.emb (ix2 k (y 1) : S8192x256.Idx)))
        + B (((cfg2.win 2).blk t).view.emb (ix2 0 (y 1) : S1x256.Idx))) 0
      = Cert.Gcn.agg A Y B (((cfg2.win 3).blk t).view.emb y) := by
  obtain ⟨e0, e1, e2, e3, e4, e5, e6, e7⟩ := val2_idx_facts t
  have h0 : ∀ k : Fin 8192, ((cfg2.win 0).blk t).view.emb (ix2 (y 0) k : S512x8192.Idx)
      = (ix2 ((((cfg2.win 3).blk t).view.emb y) 0) k : S8192x8192.Idx) := fun k => by
    funext a; apply Fin.ext
    match a with
    | ⟨0, _⟩ =>
      show win2_0.index t (0 : Fin 2) * 512 + 1 * (y 0).val = win2_3.index t (0 : Fin 2) * 512 + 1 * (y 0).val
      rw [e0]
    | ⟨1, _⟩ =>
      show win2_0.index t (1 : Fin 2) * 8192 + 1 * k.val = k.val
      rw [e1]; omega
  have h1 : ∀ k : Fin 8192, ((cfg2.win 1).blk t).view.emb (ix2 k (y 1) : S8192x256.Idx)
      = (ix2 k ((((cfg2.win 3).blk t).view.emb y) 1) : S8192x256.Idx) := fun k => by
    funext a; apply Fin.ext
    match a with
    | ⟨0, _⟩ =>
      show win2_1.index t (0 : Fin 2) * 8192 + 1 * k.val = k.val
      rw [e2]; omega
    | ⟨1, _⟩ =>
      show win2_1.index t (1 : Fin 2) * S8192x256.size 1 + 1 * (y 1).val = win2_3.index t (1 : Fin 2) * S512x256.size 1 + 1 * (y 1).val
      rw [e3, e7, Nat.zero_mul, Nat.zero_mul]
  have h2 : ((cfg2.win 2).blk t).view.emb (ix2 0 (y 1) : S1x256.Idx)
      = (ix2 0 ((((cfg2.win 3).blk t).view.emb y) 1) : S1x256.Idx) := by
    funext a; apply Fin.ext
    match a with
    | ⟨0, _⟩ =>
      show win2_2.index t (0 : Fin 2) * 1 + 1 * 0 = 0
      rw [e4]
    | ⟨1, _⟩ =>
      show win2_2.index t (1 : Fin 2) * S1x256.size 1 + 1 * (y 1).val = win2_3.index t (1 : Fin 2) * S512x256.size 1 + 1 * (y 1).val
      rw [e5, e7, Nat.zero_mul, Nat.zero_mul]
  refine congrArg (fun s => max s (0 : EReal)) (congrArg₂ (· + ·) (Finset.sum_congr rfl fun k _ => ?_) ?_)
  · rw [h0 k, h1 k]
  · rw [h2]

theorem val2_flushed_eq (c : Dev nD) (t : Fin cfg2.N) :
    (dat2 (F := Ideal) V c).flushed 3 t = ((cfg2.win 3).blk t).view.read (Elt Ideal)
      (Cert.Gcn.agg (V c (Pipeline.arrRef spec2 0) : S8192x8192.Idx → EReal) (V c (Pipeline.arrRef spec2 1) : S8192x256.Idx → EReal)
        (V c (Pipeline.arrRef spec2 2) : S1x256.Idx → EReal)) := by
  show (cfg2.win 3).cut (grid2.coords t) ((dat2 V c).after 3 t) = _
  rw [after2_3]
  unfold out2_3
  rw [View.canon_unit_zero val2_hz]
  simp only [View.ld_unit_zero (S := S512x8192) val2_hz, View.ld_unit_zero (S := S8192x256) val2_hz, View.ld_unit_zero (S := S1x256) val2_hz]
  funext y
  refine (pay2_apply _ _ _ y).trans ?_
  exact val2_point (V c (Pipeline.arrRef spec2 0)) (V c (Pipeline.arrRef spec2 1)) (V c (Pipeline.arrRef spec2 2)) t y

theorem val2_mem_blk (t : Fin cfg2.N) (i : S8192x256.Idx) :
    i ∈ ((cfg2.win 3).blk t).view.set ↔ ∀ a : Fin 2, win2_3.index t a * S512x256.size a ≤ (i a).val ∧ (i a).val < win2_3.index t a * S512x256.size a + S512x256.size a := by
  show i ∈ ((View.whole (Pipeline.arrRef spec2 3)).slice (win2_3.rect t)).set ↔ _
  rw [View.set_slice_whole, Rect.mem_set_unit]
  exact Iff.rfl

theorem val2_cover (i : S8192x256.Idx) : ∃ t : Fin cfg2.N, (cfg2.win 3).flush t = true ∧ i ∈ ((cfg2.win 3).blk t).view.set := by
  have hi0 : (i 0).val < 8192 := (i 0).isLt
  have hi1 : (i 1).val < S512x256.size 1 := (i 1).isLt
  have ht : (i 0).val / 512 < cfg2.N := Nat.lt_of_lt_of_eq (by omega) N_2.symm
  refine ⟨⟨(i 0).val / 512, ht⟩, flush2_3 _, ?_⟩
  obtain ⟨e0, e1, e2, e3, e4, e5, e6, e7⟩ := val2_idx_facts ⟨(i 0).val / 512, ht⟩
  rw [val2_mem_blk]
  intro a
  match a with
  | ⟨0, _⟩ =>
    show win2_3.index ⟨(i 0).val / 512, ht⟩ (0 : Fin 2) * 512 ≤ (i 0).val ∧ (i 0).val < win2_3.index ⟨(i 0).val / 512, ht⟩ (0 : Fin 2) * 512 + 512
    rw [e6]
    show (i 0).val / 512 * 512 ≤ (i 0).val ∧ (i 0).val < (i 0).val / 512 * 512 + 512
    omega
  | ⟨1, _⟩ =>
    show win2_3.index ⟨(i 0).val / 512, ht⟩ (1 : Fin 2) * S512x256.size 1 ≤ (i 1).val ∧ (i 1).val < win2_3.index ⟨(i 0).val / 512, ht⟩ (1 : Fin 2) * S512x256.size 1 + S512x256.size 1
    rw [e7, Nat.zero_mul, Nat.zero_add]
    exact ⟨Nat.zero_le _, hi1⟩

theorem val2 (c : Dev nD) :
    (dat2 (F := Ideal) V c).arrAt 3 cfg2.N
      = Cert.Gcn.agg (V c (Pipeline.arrRef spec2 0)) (V c (Pipeline.arrRef spec2 1)) (V c (Pipeline.arrRef spec2 2)) :=
  (dat2 V c).arrAt_eq_of_cover 3 _ (fun t _ => val2_flushed_eq V c t) val2_cover

end Cert.KernelIdeal.Hand

end
-- ==== Proof.KI.Val3.lean ====
import proofs.«407141_j11613591568667_1_alg».proof.Proof.KI.Reg3
import proofs.«407141_j11613591568667_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem pay3_lhs_0 (j : S1024x256.Idx) (k : dot_S1024x256_S256x256_S1024x256_1_0_0_1_n_n.contr.Idx) :
    (dot_S1024x256_S256x256_S1024x256_1_0_0_1_n_n.lhsIdx j k 0 : ℕ) = j 0 := by
  simp [DotDims.lhsIdx, dot_S1024x256_S256x256_S1024x256_1_0_0_1_n_n]; rfl

theorem pay3_lhs_1 (j : S1024x256.Idx) (k : dot_S1024x256_S256x256_S1024x256_1_0_0_1_n_n.contr.Idx) :
    (dot_S1024x256_S256x256_S1024x256_1_0_0_1_n_n.lhsIdx j k 1 : ℕ) = k ⟨0, by decide⟩ :=
  dot_S1024x256_S256x256_S1024x256_1_0_0_1_n_n.lhsIdx_val_of_single rfl j k

theorem pay3_rhs_0 (j : S1024x256.Idx) (k : dot_S1024x256_S256x256_S1024x256_1_0_0_1_n_n.contr.Idx) :
    (dot_S1024x256_S256x256_S1024x256_1_0_0_1_n_n.rhsIdx j k 0 : ℕ) = k ⟨0, by decide⟩ :=
  dot_S1024x256_S256x256_S1024x256_1_0_0_1_n_n.rhsIdx_val_of_single rfl j k

theorem pay3_rhs_1 (j : S1024x256.Idx) (k : dot_S1024x256_S256x256_S1024x256_1_0_0_1_n_n.contr.Idx) :
    (dot_S1024x256_S256x256_S1024x256_1_0_0_1_n_n.rhsIdx j k 1 : ℕ) = j 1 := by
  simp [DotDims.rhsIdx, dot_S1024x256_S256x256_S1024x256_1_0_0_1_n_n]; rfl

theorem pay3_apply (x0 : Vec Ideal S1024x256 .f32) (x1 : Vec Ideal S256x256 .f32) (x2 : Vec Ideal S1x256 .f32) :
    k3_pay1 x0 x1 x2 = Cert.Gcn.lin x0 x1 x2 := by
  funext j
  unfold k3_pay1
  simp only [shapeCast_self]
  refine (addf_apply _ _ j).trans ?_
  unfold Cert.Gcn.lin
  refine congrArg₂ (· + ·) ?_ ?_
  · refine (Ideal.matmul_constant_zero_apply _ none _ _ j).trans ?_
    refine Fintype.sum_equiv (contrEquiv1 dot_S1024x256_S256x256_S1024x256_1_0_0_1_n_n _ rfl rfl) _ _ (fun k => ?_)
    refine congrArg₂ (· * ·) (congrArg x0 ?_) (congrArg x1 ?_)
    · funext a; apply Fin.ext
      match a with
      | ⟨0, _⟩ => exact pay3_lhs_0 j k
      | ⟨1, _⟩ => exact pay3_lhs_1 j k
    · funext a; apply Fin.ext
      match a with
      | ⟨0, _⟩ => exact pay3_rhs_0 j k
      | ⟨1, _⟩ => exact pay3_rhs_1 j k
  · refine broadcastTo_apply x2 _ j _ (fun a => ?_)
    match a with
    | ⟨0, _⟩ => rfl
    | ⟨1, _⟩ => rfl

variable (V : (c : Dev nD) → (b : Ref sig .tc) → Buf (Elt Ideal) ((c : Thread nD τ).loc b))

theorem val3_hz : (![0, 0] : Fin 2 → Nat) = fun _ => 0 := funext fun a => by fin_cases a <;> rfl

theorem val3_idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem val3_blkrow (A0 : S8192x256.Idx → EReal) (A1 : S256x256.Idx → EReal) (A2 : S1x256.Idx → EReal)
    (x0 : Vec Ideal S1024x256 .f32) (x1 : Vec Ideal S256x256 .f32) (x2 : Vec Ideal S1x256 .f32)
    (y : S1024x256.Idx) (i : S8192x256.Idx)
    (h0 : ∀ k, x0 (ix2 (y 0) k) = A0 (ix2 (i 0) k))
    (h1 : ∀ k, x1 (ix2 k (y 1)) = A1 (ix2 k (i 1)))
    (h2 : x2 (ix2 0 (y 1)) = A2 (ix2 0 (i 1))) :
    Cert.Gcn.lin x0 x1 x2 y = Cert.Gcn.lin A0 A1 A2 i := by
  unfold Cert.Gcn.lin
  rw [h2]
  exact congrArg (· + _) (Finset.sum_congr rfl fun k _ => by rw [h0 k, h1 k])

theorem val3_pt (c : Dev nD) (t : Fin cfg3.N) (y : S1024x256.Idx) (i : S8192x256.Idx)
    (hi0 : (i 0).val = t.val * 1024 + (y 0).val) (hi1 : (i 1).val = (y 1).val) :
    Cert.Gcn.lin (iblk3 V c 0 t) (iblk3 V c 1 t) (iblk3 V c 2 t) y
      = Cert.Gcn.lin (V c (Pipeline.arrRef spec3 0)) (V c (Pipeline.arrRef spec3 1)) (V c (Pipeline.arrRef spec3 2)) i := by
  obtain ⟨e00, e01, e10, e11, e20, e21, -, -⟩ := val3_idx_facts t
  refine val3_blkrow _ _ _ _ _ _ y i (fun k => ?_) (fun k => ?_) ?_
  · show V c (Pipeline.arrRef spec3 0) (((cfg3.win 0).blk t).view.emb (ix2 (y 0) k)) = _
    refine congrArg (V c (Pipeline.arrRef spec3 0)) (funext fun a => Fin.ext ?_)
    match a with
    | ⟨0, _⟩ =>
      show win3_0.index t (0 : Fin 2) * 1024 + 1 * (y 0).val = (i 0).val
      rw [e00, hi0]; omega
    | ⟨1, _⟩ =>
      show win3_0.index t (1 : Fin 2) * S1024x256.size (1 : Fin 2) + 1 * k.val = k.val
      rw [e01]; omega
  · show V c (Pipeline.arrRef spec3 1) (((cfg3.win 1).blk t).view.emb (ix2 k (y 1))) = _
    refine congrArg (V c (Pipeline.arrRef spec3 1)) (funext fun a => Fin.ext ?_)
    match a with
    | ⟨0, _⟩ =>
      show win3_1.index t (0 : Fin 2) * S256x256.size (0 : Fin 2) + 1 * k.val = k.val
      rw [e10]; omega
    | ⟨1, _⟩ =>
      show win3_1.index t (1 : Fin 2) * S256x256.size (1 : Fin 2) + 1 * (y 1).val = (i 1).val
      rw [e11, hi1]; omega
  · show V c (Pipeline.arrRef spec3 2) (((cfg3.win 2).blk t).view.emb (ix2 0 (y 1))) = _
    refine congrArg (V c (Pipeline.arrRef spec3 2)) (funext fun a => Fin.ext ?_)
    match a with
    | ⟨0, _⟩ =>
      show win3_2.index t (0 : Fin 2) * S1x256.size (0 : Fin 2) + 1 * 0 = 0
      rw [e20]; omega
    | ⟨1, _⟩ =>
      show win3_2.index t (1 : Fin 2) * S1x256.size (1 : Fin 2) + 1 * (y 1).val = (i 1).val
      rw [e21, hi1]; omega

theorem val3_flushed (c : Dev nD) (t : Fin cfg3.N) :
    (dat3 (F := Ideal) V c).flushed 3 t
      = ((cfg3.win 3).blk t).view.read (Elt Ideal)
          (Cert.Gcn.lin (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero val3_hz]
  simp only [View.ld_unit_zero (S := S1024x256) val3_hz, View.ld_unit_zero (S := S256x256) val3_hz, View.ld_unit_zero (S := S1x256) val3_hz]
  rw [pay3_apply]
  obtain ⟨-, -, -, -, -, -, e30, e31⟩ := val3_idx_facts t
  funext y
  show Cert.Gcn.lin (iblk3 V c 0 t) (iblk3 V c 1 t) (iblk3 V c 2 t) y
      = Cert.Gcn.lin (V c (Pipeline.arrRef spec3 0)) (V c (Pipeline.arrRef spec3 1)) (V c (Pipeline.arrRef spec3 2))
          (((cfg3.win 3).blk t).view.emb y)
  refine val3_pt V c t y _ ?_ ?_
  · show win3_3.index t (0 : Fin 2) * 1024 + 1 * (y 0).val = _
    rw [e30]; omega
  · show win3_3.index t (1 : Fin 2) * S1024x256.size (1 : Fin 2) + 1 * (y 1).val = _
    rw [e31]; omega

theorem val3_mem_blk (t : Fin cfg3.N) (i : S8192x256.Idx) :
    i ∈ ((cfg3.win 3).blk t).view.set ↔ ∀ a : Fin 2, win3_3.index t a * S1024x256.size a ≤ (i a).val
      ∧ (i a).val < win3_3.index t a * S1024x256.size a + S1024x256.size a := by
  show i ∈ ((View.whole (Pipeline.arrRef spec3 3)).slice (win3_3.rect t)).set ↔ _
  rw [View.set_slice_whole, Rect.mem_set_unit]
  exact Iff.rfl

def val3_pt_of (i : S8192x256.Idx) : Fin cfg3.N :=
  ⟨(i 0).val / 1024, by have h8 : cfg3.N = 8 := N_3; have hi0 : (i 0).val < 8192 := (i 0).isLt; omega⟩

theorem val3_cover (i : S8192x256.Idx) :
    ∃ t : Fin cfg3.N, (cfg3.win 3).flush t = true ∧ i ∈ ((cfg3.win 3).blk t).view.set := by
  refine ⟨val3_pt_of i, flush3_3 _, ?_⟩
  rw [val3_mem_blk]
  obtain ⟨-, -, -, -, -, -, e30, e31⟩ := val3_idx_facts (val3_pt_of i)
  have hi1 : (i 1).val < S1024x256.size (1 : Fin 2) := (i 1).isLt
  intro a
  match a with
  | ⟨0, _⟩ =>
    show win3_3.index (val3_pt_of i) (0 : Fin 2) * 1024 ≤ (i 0).val
      ∧ (i 0).val < win3_3.index (val3_pt_of i) (0 : Fin 2) * 1024 + 1024
    rw [e30]
    show (i 0).val / 1024 * 1024 ≤ (i 0).val ∧ (i 0).val < (i 0).val / 1024 * 1024 + 1024
    omega
  | ⟨1, _⟩ =>
    show win3_3.index (val3_pt_of i) (1 : Fin 2) * S1024x256.size (1 : Fin 2) ≤ (i 1).val
      ∧ (i 1).val < win3_3.index (val3_pt_of i) (1 : Fin 2) * S1024x256.size (1 : Fin 2) + S1024x256.size (1 : Fin 2)
    rw [e31]; omega

theorem val3 (c : Dev nD) :
    (dat3 (F := Ideal) V c).arrAt 3 cfg3.N
      = Cert.Gcn.lin (V c (Pipeline.arrRef spec3 0)) (V c (Pipeline.arrRef spec3 1)) (V c (Pipeline.arrRef spec3 2)) :=
  (dat3 V c).arrAt_eq_of_cover 3 _ (fun t _ => val3_flushed V c t) val3_cover

end Cert.KernelIdeal.Hand

end
-- ==== Proof.KI.Val4.lean ====
import proofs.«407141_j11613591568667_1_alg».proof.Proof.KI.Reg4
import proofs.«407141_j11613591568667_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem pay4_lhs_0 (j : S512x256.Idx) (k : dot_S512x8192_S8192x256_S512x256_1_0_0_1_n_n.contr.Idx) :
    (dot_S512x8192_S8192x256_S512x256_1_0_0_1_n_n.lhsIdx j k 0 : ℕ) = j 0 := by
  simp [DotDims.lhsIdx, dot_S512x8192_S8192x256_S512x256_1_0_0_1_n_n]; rfl

theorem pay4_lhs_1 (j : S512x256.Idx) (k : dot_S512x8192_S8192x256_S512x256_1_0_0_1_n_n.contr.Idx) :
    (dot_S512x8192_S8192x256_S512x256_1_0_0_1_n_n.lhsIdx j k 1 : ℕ) = k ⟨0, by decide⟩ := by
  simp [DotDims.lhsIdx, dot_S512x8192_S8192x256_S512x256_1_0_0_1_n_n]; rfl

theorem pay4_rhs_0 (j : S512x256.Idx) (k : dot_S512x8192_S8192x256_S512x256_1_0_0_1_n_n.contr.Idx) :
    (dot_S512x8192_S8192x256_S512x256_1_0_0_1_n_n.rhsIdx j k 0 : ℕ) = k ⟨0, by decide⟩ := by
  simp [DotDims.rhsIdx, dot_S512x8192_S8192x256_S512x256_1_0_0_1_n_n]; rfl

theorem pay4_rhs_1 (j : S512x256.Idx) (k : dot_S512x8192_S8192x256_S512x256_1_0_0_1_n_n.contr.Idx) :
    (dot_S512x8192_S8192x256_S512x256_1_0_0_1_n_n.rhsIdx j k 1 : ℕ) = j 1 := by
  simp [DotDims.rhsIdx, dot_S512x8192_S8192x256_S512x256_1_0_0_1_n_n]; rfl

theorem pay4_dot (x0 : Vec Ideal S512x8192 .bf16) (x1 : Vec Ideal S8192x256 .f32) (j : S512x256.Idx) :
    matmul (φ₁ := .bf16) (φ₂ := .bf16) dot_S512x8192_S8192x256_S512x256_1_0_0_1_n_n none (shapeCast S512x8192 x0 shapeCasts_S512x8192_S512x8192)
        (truncf .bf16 (shapeCast S8192x256 x1 shapeCasts_S8192x256_S8192x256) bitsLt_bf16_f32) (constant (F := Ideal) S512x256 .f32 0x00000000#32) j
      = ∑ k : Fin 8192, x0 (ix2 (j 0) k) * x1 (ix2 k (j 1)) := by
  rw [shapeCast_self, shapeCast_self]
  refine (Ideal.matmul_constant_zero_apply (φ₁ := .bf16) (φ₂ := .bf16) dot_S512x8192_S8192x256_S512x256_1_0_0_1_n_n none x0 (truncf .bf16 x1 bitsLt_bf16_f32) j).trans ?_
  rw [← Equiv.sum_comp (contrEquiv1 dot_S512x8192_S8192x256_S512x256_1_0_0_1_n_n 8192 rfl rfl).symm]
  refine Finset.sum_congr rfl fun k _ => ?_
  have hk := contrEquiv1_symm_val dot_S512x8192_S8192x256_S512x256_1_0_0_1_n_n 8192 rfl rfl k
  have hl : dot_S512x8192_S8192x256_S512x256_1_0_0_1_n_n.lhsIdx j ((contrEquiv1 dot_S512x8192_S8192x256_S512x256_1_0_0_1_n_n 8192 rfl rfl).symm k)
      = ix2 (j 0) k := by
    funext a; apply Fin.ext
    match a with
    | ⟨0, _⟩ => exact pay4_lhs_0 _ _
    | ⟨1, _⟩ => exact (pay4_lhs_1 _ _).trans hk
  have hr : dot_S512x8192_S8192x256_S512x256_1_0_0_1_n_n.rhsIdx j ((contrEquiv1 dot_S512x8192_S8192x256_S512x256_1_0_0_1_n_n 8192 rfl rfl).symm k)
      = ix2 k (j 1) := by
    funext a; apply Fin.ext
    match a with
    | ⟨0, _⟩ => exact (pay4_rhs_0 _ _).trans hk
    | ⟨1, _⟩ => exact pay4_rhs_1 _ _
  rw [hl, hr]
  rfl

theorem pay4_bias (x2 : Vec Ideal S1x256 .f32) (j : S512x256.Idx) :
    broadcastTo S512x256 (shapeCast S1x256 x2 shapeCasts_S1x256_S1x256) broadcasts_S1x256_S512x256 j = x2 (ix2 0 (j 1)) := by
  rw [shapeCast_self]
  refine broadcastTo_apply x2 _ j (ix2 0 (j 1)) fun a => ?_
  match a with
  | ⟨0, _⟩ => rfl
  | ⟨1, _⟩ => rfl

theorem pay4_apply (x0 : Vec Ideal S512x8192 .bf16) (x1 : Vec Ideal S8192x256 .f32) (x2 : Vec Ideal S1x256 .f32) (j : S512x256.Idx) :
    k4_pay1 (F := Ideal) x0 x1 x2 j = max ((∑ k : Fin 8192, x0 (ix2 (j 0) k) * x1 (ix2 k (j 1))) + x2 (ix2 0 (j 1))) 0 := by
  unfold k4_pay1
  exact congrArg₂ max (congrArg₂ (· + ·) (pay4_dot x0 x1 j) (pay4_bias x2 j)) Ideal.ofBits_zero_f32

variable (V : (c : Dev nD) → (b : Ref sig .tc) → Buf (Elt Ideal) ((c : Thread nD τ).loc b))

theorem val4_hz : (![0, 0] : Fin 2 → Nat) = fun _ => 0 := funext fun a => by fin_cases a <;> rfl

theorem val4_idx_facts : ∀ t : Fin cfg4.N,
    win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

theorem val4_point (A : S8192x8192.Idx → EReal) (Y : S8192x256.Idx → EReal) (B : S1x256.Idx → EReal) (t : Fin cfg4.N) (y : S512x256.Idx) :
    max ((∑ k : Fin 8192, A (((cfg4.win 0).blk t).view.emb (ix2 (y 0) k : S512x8192.Idx)) * Y (((cfg4.win 1).blk t).view.emb (ix2 k (y 1) : S8192x256.Idx)))
        + B (((cfg4.win 2).blk t).view.emb (ix2 0 (y 1) : S1x256.Idx))) 0
      = Cert.Gcn.agg A Y B (((cfg4.win 3).blk t).view.emb y) := by
  obtain ⟨e0, e1, e2, e3, e4, e5, e6, e7⟩ := val4_idx_facts t
  have h0 : ∀ k : Fin 8192, ((cfg4.win 0).blk t).view.emb (ix2 (y 0) k : S512x8192.Idx)
      = (ix2 ((((cfg4.win 3).blk t).view.emb y) 0) k : S8192x8192.Idx) := fun k => by
    funext a; apply Fin.ext
    match a with
    | ⟨0, _⟩ =>
      show win4_0.index t (0 : Fin 2) * 512 + 1 * (y 0).val = win4_3.index t (0 : Fin 2) * 512 + 1 * (y 0).val
      rw [e0]
    | ⟨1, _⟩ =>
      show win4_0.index t (1 : Fin 2) * 8192 + 1 * k.val = k.val
      rw [e1]; omega
  have h1 : ∀ k : Fin 8192, ((cfg4.win 1).blk t).view.emb (ix2 k (y 1) : S8192x256.Idx)
      = (ix2 k ((((cfg4.win 3).blk t).view.emb y) 1) : S8192x256.Idx) := fun k => by
    funext a; apply Fin.ext
    match a with
    | ⟨0, _⟩ =>
      show win4_1.index t (0 : Fin 2) * 8192 + 1 * k.val = k.val
      rw [e2]; omega
    | ⟨1, _⟩ =>
      show win4_1.index t (1 : Fin 2) * S8192x256.size 1 + 1 * (y 1).val = win4_3.index t (1 : Fin 2) * S512x256.size 1 + 1 * (y 1).val
      rw [e3, e7, Nat.zero_mul, Nat.zero_mul]
  have h2 : ((cfg4.win 2).blk t).view.emb (ix2 0 (y 1) : S1x256.Idx)
      = (ix2 0 ((((cfg4.win 3).blk t).view.emb y) 1) : S1x256.Idx) := by
    funext a; apply Fin.ext
    match a with
    | ⟨0, _⟩ =>
      show win4_2.index t (0 : Fin 2) * 1 + 1 * 0 = 0
      rw [e4]
    | ⟨1, _⟩ =>
      show win4_2.index t (1 : Fin 2) * S1x256.size 1 + 1 * (y 1).val = win4_3.index t (1 : Fin 2) * S512x256.size 1 + 1 * (y 1).val
      rw [e5, e7, Nat.zero_mul, Nat.zero_mul]
  refine congrArg (fun s => max s (0 : EReal)) (congrArg₂ (· + ·) (Finset.sum_congr rfl fun k _ => ?_) ?_)
  · rw [h0 k, h1 k]
  · rw [h2]

theorem val4_flushed_eq (c : Dev nD) (t : Fin cfg4.N) :
    (dat4 (F := Ideal) V c).flushed 3 t = ((cfg4.win 3).blk t).view.read (Elt Ideal)
      (Cert.Gcn.agg (V c (Pipeline.arrRef spec4 0) : S8192x8192.Idx → EReal) (V c (Pipeline.arrRef spec4 1) : S8192x256.Idx → EReal)
        (V c (Pipeline.arrRef spec4 2) : S1x256.Idx → EReal)) := by
  show (cfg4.win 3).cut (grid4.coords t) ((dat4 V c).after 3 t) = _
  rw [after4_3]
  unfold out4_3
  rw [View.canon_unit_zero val4_hz]
  simp only [View.ld_unit_zero (S := S512x8192) val4_hz, View.ld_unit_zero (S := S8192x256) val4_hz, View.ld_unit_zero (S := S1x256) val4_hz]
  funext y
  refine (pay4_apply _ _ _ y).trans ?_
  exact val4_point (V c (Pipeline.arrRef spec4 0)) (V c (Pipeline.arrRef spec4 1)) (V c (Pipeline.arrRef spec4 2)) t y

theorem val4_mem_blk (t : Fin cfg4.N) (i : S8192x256.Idx) :
    i ∈ ((cfg4.win 3).blk t).view.set ↔ ∀ a : Fin 2, win4_3.index t a * S512x256.size a ≤ (i a).val ∧ (i a).val < win4_3.index t a * S512x256.size a + S512x256.size a := by
  show i ∈ ((View.whole (Pipeline.arrRef spec4 3)).slice (win4_3.rect t)).set ↔ _
  rw [View.set_slice_whole, Rect.mem_set_unit]
  exact Iff.rfl

theorem val4_cover (i : S8192x256.Idx) : ∃ t : Fin cfg4.N, (cfg4.win 3).flush t = true ∧ i ∈ ((cfg4.win 3).blk t).view.set := by
  have hi0 : (i 0).val < 8192 := (i 0).isLt
  have hi1 : (i 1).val < S512x256.size 1 := (i 1).isLt
  have ht : (i 0).val / 512 < cfg4.N := Nat.lt_of_lt_of_eq (by omega) N_4.symm
  refine ⟨⟨(i 0).val / 512, ht⟩, flush4_3 _, ?_⟩
  obtain ⟨e0, e1, e2, e3, e4, e5, e6, e7⟩ := val4_idx_facts ⟨(i 0).val / 512, ht⟩
  rw [val4_mem_blk]
  intro a
  match a with
  | ⟨0, _⟩ =>
    show win4_3.index ⟨(i 0).val / 512, ht⟩ (0 : Fin 2) * 512 ≤ (i 0).val ∧ (i 0).val < win4_3.index ⟨(i 0).val / 512, ht⟩ (0 : Fin 2) * 512 + 512
    rw [e6]
    show (i 0).val / 512 * 512 ≤ (i 0).val ∧ (i 0).val < (i 0).val / 512 * 512 + 512
    omega
  | ⟨1, _⟩ =>
    show win4_3.index ⟨(i 0).val / 512, ht⟩ (1 : Fin 2) * S512x256.size 1 ≤ (i 1).val ∧ (i 1).val < win4_3.index ⟨(i 0).val / 512, ht⟩ (1 : Fin 2) * S512x256.size 1 + S512x256.size 1
    rw [e7, Nat.zero_mul, Nat.zero_add]
    exact ⟨Nat.zero_le _, hi1⟩

theorem val4 (c : Dev nD) :
    (dat4 (F := Ideal) V c).arrAt 3 cfg4.N
      = Cert.Gcn.agg (V c (Pipeline.arrRef spec4 0)) (V c (Pipeline.arrRef spec4 1)) (V c (Pipeline.arrRef spec4 2)) :=
  (dat4 V c).arrAt_eq_of_cover 3 _ (fun t _ => val4_flushed_eq V c t) val4_cover

end Cert.KernelIdeal.Hand

end
-- ==== Proof.KI.Val5.lean ====
import proofs.«407141_j11613591568667_1_alg».proof.Proof.KI.Reg5
import proofs.«407141_j11613591568667_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem pay5_lhs_0 (j : S1024x128.Idx) (k : dot_S1024x256_S256x128_S1024x128_1_0_0_1_n_n.contr.Idx) :
    (dot_S1024x256_S256x128_S1024x128_1_0_0_1_n_n.lhsIdx j k 0 : ℕ) = j 0 := by
  simp [DotDims.lhsIdx, dot_S1024x256_S256x128_S1024x128_1_0_0_1_n_n]; rfl

theorem pay5_lhs_1 (j : S1024x128.Idx) (k : dot_S1024x256_S256x128_S1024x128_1_0_0_1_n_n.contr.Idx) :
    (dot_S1024x256_S256x128_S1024x128_1_0_0_1_n_n.lhsIdx j k 1 : ℕ) = k ⟨0, by decide⟩ :=
  dot_S1024x256_S256x128_S1024x128_1_0_0_1_n_n.lhsIdx_val_of_single rfl j k

theorem pay5_rhs_0 (j : S1024x128.Idx) (k : dot_S1024x256_S256x128_S1024x128_1_0_0_1_n_n.contr.Idx) :
    (dot_S1024x256_S256x128_S1024x128_1_0_0_1_n_n.rhsIdx j k 0 : ℕ) = k ⟨0, by decide⟩ :=
  dot_S1024x256_S256x128_S1024x128_1_0_0_1_n_n.rhsIdx_val_of_single rfl j k

theorem pay5_rhs_1 (j : S1024x128.Idx) (k : dot_S1024x256_S256x128_S1024x128_1_0_0_1_n_n.contr.Idx) :
    (dot_S1024x256_S256x128_S1024x128_1_0_0_1_n_n.rhsIdx j k 1 : ℕ) = j 1 := by
  simp [DotDims.rhsIdx, dot_S1024x256_S256x128_S1024x128_1_0_0_1_n_n]; rfl

theorem pay5_apply (x0 : Vec Ideal S1024x256 .f32) (x1 : Vec Ideal S256x128 .f32) (x2 : Vec Ideal S1x128 .f32) :
    k5_pay1 x0 x1 x2 = Cert.Gcn.lin x0 x1 x2 := by
  funext j
  unfold k5_pay1
  simp only [shapeCast_self]
  refine (addf_apply _ _ j).trans ?_
  unfold Cert.Gcn.lin
  refine congrArg₂ (· + ·) ?_ ?_
  · refine (Ideal.matmul_constant_zero_apply _ none _ _ j).trans ?_
    refine Fintype.sum_equiv (contrEquiv1 dot_S1024x256_S256x128_S1024x128_1_0_0_1_n_n _ rfl rfl) _ _ (fun k => ?_)
    refine congrArg₂ (· * ·) (congrArg x0 ?_) (congrArg x1 ?_)
    · funext a; apply Fin.ext
      match a with
      | ⟨0, _⟩ => exact pay5_lhs_0 j k
      | ⟨1, _⟩ => exact pay5_lhs_1 j k
    · funext a; apply Fin.ext
      match a with
      | ⟨0, _⟩ => exact pay5_rhs_0 j k
      | ⟨1, _⟩ => exact pay5_rhs_1 j k
  · refine broadcastTo_apply x2 _ j _ (fun a => ?_)
    match a with
    | ⟨0, _⟩ => rfl
    | ⟨1, _⟩ => rfl

variable (V : (c : Dev nD) → (b : Ref sig .tc) → Buf (Elt Ideal) ((c : Thread nD τ).loc b))

theorem val5_hz : (![0, 0] : Fin 2 → Nat) = fun _ => 0 := funext fun a => by fin_cases a <;> rfl

theorem val5_idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

theorem val5_blkrow (A0 : S8192x256.Idx → EReal) (A1 : S256x128.Idx → EReal) (A2 : S1x128.Idx → EReal)
    (x0 : Vec Ideal S1024x256 .f32) (x1 : Vec Ideal S256x128 .f32) (x2 : Vec Ideal S1x128 .f32)
    (y : S1024x128.Idx) (i : S8192x128.Idx)
    (h0 : ∀ k, x0 (ix2 (y 0) k) = A0 (ix2 (i 0) k))
    (h1 : ∀ k, x1 (ix2 k (y 1)) = A1 (ix2 k (i 1)))
    (h2 : x2 (ix2 0 (y 1)) = A2 (ix2 0 (i 1))) :
    Cert.Gcn.lin x0 x1 x2 y = Cert.Gcn.lin A0 A1 A2 i := by
  unfold Cert.Gcn.lin
  rw [h2]
  exact congrArg (· + _) (Finset.sum_congr rfl fun k _ => by rw [h0 k, h1 k])

theorem val5_pt (c : Dev nD) (t : Fin cfg5.N) (y : S1024x128.Idx) (i : S8192x128.Idx)
    (hi0 : (i 0).val = t.val * 1024 + (y 0).val) (hi1 : (i 1).val = (y 1).val) :
    Cert.Gcn.lin (iblk5 V c 0 t) (iblk5 V c 1 t) (iblk5 V c 2 t) y
      = Cert.Gcn.lin (V c (Pipeline.arrRef spec5 0)) (V c (Pipeline.arrRef spec5 1)) (V c (Pipeline.arrRef spec5 2)) i := by
  obtain ⟨e00, e01, e10, e11, e20, e21, -, -⟩ := val5_idx_facts t
  refine val5_blkrow _ _ _ _ _ _ y i (fun k => ?_) (fun k => ?_) ?_
  · show V c (Pipeline.arrRef spec5 0) (((cfg5.win 0).blk t).view.emb (ix2 (y 0) k)) = _
    refine congrArg (V c (Pipeline.arrRef spec5 0)) (funext fun a => Fin.ext ?_)
    match a with
    | ⟨0, _⟩ =>
      show win5_0.index t (0 : Fin 2) * 1024 + 1 * (y 0).val = (i 0).val
      rw [e00, hi0]; omega
    | ⟨1, _⟩ =>
      show win5_0.index t (1 : Fin 2) * S1024x256.size (1 : Fin 2) + 1 * k.val = k.val
      rw [e01]; omega
  · show V c (Pipeline.arrRef spec5 1) (((cfg5.win 1).blk t).view.emb (ix2 k (y 1))) = _
    refine congrArg (V c (Pipeline.arrRef spec5 1)) (funext fun a => Fin.ext ?_)
    match a with
    | ⟨0, _⟩ =>
      show win5_1.index t (0 : Fin 2) * S256x128.size (0 : Fin 2) + 1 * k.val = k.val
      rw [e10]; omega
    | ⟨1, _⟩ =>
      show win5_1.index t (1 : Fin 2) * S256x128.size (1 : Fin 2) + 1 * (y 1).val = (i 1).val
      rw [e11, hi1]; omega
  · show V c (Pipeline.arrRef spec5 2) (((cfg5.win 2).blk t).view.emb (ix2 0 (y 1))) = _
    refine congrArg (V c (Pipeline.arrRef spec5 2)) (funext fun a => Fin.ext ?_)
    match a with
    | ⟨0, _⟩ =>
      show win5_2.index t (0 : Fin 2) * S1x128.size (0 : Fin 2) + 1 * 0 = 0
      rw [e20]; omega
    | ⟨1, _⟩ =>
      show win5_2.index t (1 : Fin 2) * S1x128.size (1 : Fin 2) + 1 * (y 1).val = (i 1).val
      rw [e21, hi1]; omega

theorem val5_flushed (c : Dev nD) (t : Fin cfg5.N) :
    (dat5 (F := Ideal) V c).flushed 3 t
      = ((cfg5.win 3).blk t).view.read (Elt Ideal)
          (Cert.Gcn.lin (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero val5_hz]
  simp only [View.ld_unit_zero (S := S1024x256) val5_hz, View.ld_unit_zero (S := S256x128) val5_hz, View.ld_unit_zero (S := S1x128) val5_hz]
  rw [pay5_apply]
  obtain ⟨-, -, -, -, -, -, e30, e31⟩ := val5_idx_facts t
  funext y
  show Cert.Gcn.lin (iblk5 V c 0 t) (iblk5 V c 1 t) (iblk5 V c 2 t) y
      = Cert.Gcn.lin (V c (Pipeline.arrRef spec5 0)) (V c (Pipeline.arrRef spec5 1)) (V c (Pipeline.arrRef spec5 2))
          (((cfg5.win 3).blk t).view.emb y)
  refine val5_pt V c t y _ ?_ ?_
  · show win5_3.index t (0 : Fin 2) * 1024 + 1 * (y 0).val = _
    rw [e30]; omega
  · show win5_3.index t (1 : Fin 2) * S1024x128.size (1 : Fin 2) + 1 * (y 1).val = _
    rw [e31]; omega

theorem val5_mem_blk (t : Fin cfg5.N) (i : S8192x128.Idx) :
    i ∈ ((cfg5.win 3).blk t).view.set ↔ ∀ a : Fin 2, win5_3.index t a * S1024x128.size a ≤ (i a).val
      ∧ (i a).val < win5_3.index t a * S1024x128.size a + S1024x128.size a := by
  show i ∈ ((View.whole (Pipeline.arrRef spec5 3)).slice (win5_3.rect t)).set ↔ _
  rw [View.set_slice_whole, Rect.mem_set_unit]
  exact Iff.rfl

def val5_pt_of (i : S8192x128.Idx) : Fin cfg5.N :=
  ⟨(i 0).val / 1024, by have h8 : cfg5.N = 8 := N_5; have hi0 : (i 0).val < 8192 := (i 0).isLt; omega⟩

theorem val5_cover (i : S8192x128.Idx) :
    ∃ t : Fin cfg5.N, (cfg5.win 3).flush t = true ∧ i ∈ ((cfg5.win 3).blk t).view.set := by
  refine ⟨val5_pt_of i, flush5_3 _, ?_⟩
  rw [val5_mem_blk]
  obtain ⟨-, -, -, -, -, -, e30, e31⟩ := val5_idx_facts (val5_pt_of i)
  have hi1 : (i 1).val < S1024x128.size (1 : Fin 2) := (i 1).isLt
  intro a
  match a with
  | ⟨0, _⟩ =>
    show win5_3.index (val5_pt_of i) (0 : Fin 2) * 1024 ≤ (i 0).val
      ∧ (i 0).val < win5_3.index (val5_pt_of i) (0 : Fin 2) * 1024 + 1024
    rw [e30]
    show (i 0).val / 1024 * 1024 ≤ (i 0).val ∧ (i 0).val < (i 0).val / 1024 * 1024 + 1024
    omega
  | ⟨1, _⟩ =>
    show win5_3.index (val5_pt_of i) (1 : Fin 2) * S1024x128.size (1 : Fin 2) ≤ (i 1).val
      ∧ (i 1).val < win5_3.index (val5_pt_of i) (1 : Fin 2) * S1024x128.size (1 : Fin 2) + S1024x128.size (1 : Fin 2)
    rw [e31]; omega

theorem val5 (c : Dev nD) :
    (dat5 (F := Ideal) V c).arrAt 3 cfg5.N
      = Cert.Gcn.lin (V c (Pipeline.arrRef spec5 0)) (V c (Pipeline.arrRef spec5 1)) (V c (Pipeline.arrRef spec5 2)) :=
  (dat5 V c).arrAt_eq_of_cover 3 _ (fun t _ => val5_flushed V c t) val5_cover

end Cert.KernelIdeal.Hand

end
-- ==== Proof.KI.Val6.lean ====
import proofs.«407141_j11613591568667_1_alg».proof.Proof.KI.Reg6
import proofs.«407141_j11613591568667_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem pay6_lhs_0 (j : S512x128.Idx) (k : dot_S512x8192_S8192x128_S512x128_1_0_0_1_n_n.contr.Idx) :
    (dot_S512x8192_S8192x128_S512x128_1_0_0_1_n_n.lhsIdx j k 0 : ℕ) = j 0 := by
  simp [DotDims.lhsIdx, dot_S512x8192_S8192x128_S512x128_1_0_0_1_n_n]; rfl

theorem pay6_lhs_1 (j : S512x128.Idx) (k : dot_S512x8192_S8192x128_S512x128_1_0_0_1_n_n.contr.Idx) :
    (dot_S512x8192_S8192x128_S512x128_1_0_0_1_n_n.lhsIdx j k 1 : ℕ) = k ⟨0, by decide⟩ := by
  simp [DotDims.lhsIdx, dot_S512x8192_S8192x128_S512x128_1_0_0_1_n_n]; rfl

theorem pay6_rhs_0 (j : S512x128.Idx) (k : dot_S512x8192_S8192x128_S512x128_1_0_0_1_n_n.contr.Idx) :
    (dot_S512x8192_S8192x128_S512x128_1_0_0_1_n_n.rhsIdx j k 0 : ℕ) = k ⟨0, by decide⟩ := by
  simp [DotDims.rhsIdx, dot_S512x8192_S8192x128_S512x128_1_0_0_1_n_n]; rfl

theorem pay6_rhs_1 (j : S512x128.Idx) (k : dot_S512x8192_S8192x128_S512x128_1_0_0_1_n_n.contr.Idx) :
    (dot_S512x8192_S8192x128_S512x128_1_0_0_1_n_n.rhsIdx j k 1 : ℕ) = j 1 := by
  simp [DotDims.rhsIdx, dot_S512x8192_S8192x128_S512x128_1_0_0_1_n_n]; rfl

theorem pay6_dot (x0 : Vec Ideal S512x8192 .bf16) (x1 : Vec Ideal S8192x128 .f32) (j : S512x128.Idx) :
    matmul (φ₁ := .bf16) (φ₂ := .bf16) dot_S512x8192_S8192x128_S512x128_1_0_0_1_n_n none (shapeCast S512x8192 x0 shapeCasts_S512x8192_S512x8192)
        (truncf .bf16 (shapeCast S8192x128 x1 shapeCasts_S8192x128_S8192x128) bitsLt_bf16_f32) (constant (F := Ideal) S512x128 .f32 0x00000000#32) j
      = ∑ k : Fin 8192, x0 (ix2 (j 0) k) * x1 (ix2 k (j 1)) := by
  rw [shapeCast_self, shapeCast_self]
  refine (Ideal.matmul_constant_zero_apply (φ₁ := .bf16) (φ₂ := .bf16) dot_S512x8192_S8192x128_S512x128_1_0_0_1_n_n none x0 (truncf .bf16 x1 bitsLt_bf16_f32) j).trans ?_
  rw [← Equiv.sum_comp (contrEquiv1 dot_S512x8192_S8192x128_S512x128_1_0_0_1_n_n 8192 rfl rfl).symm]
  refine Finset.sum_congr rfl fun k _ => ?_
  have hk := contrEquiv1_symm_val dot_S512x8192_S8192x128_S512x128_1_0_0_1_n_n 8192 rfl rfl k
  have hl : dot_S512x8192_S8192x128_S512x128_1_0_0_1_n_n.lhsIdx j ((contrEquiv1 dot_S512x8192_S8192x128_S512x128_1_0_0_1_n_n 8192 rfl rfl).symm k)
      = ix2 (j 0) k := by
    funext a; apply Fin.ext
    match a with
    | ⟨0, _⟩ => exact pay6_lhs_0 _ _
    | ⟨1, _⟩ => exact (pay6_lhs_1 _ _).trans hk
  have hr : dot_S512x8192_S8192x128_S512x128_1_0_0_1_n_n.rhsIdx j ((contrEquiv1 dot_S512x8192_S8192x128_S512x128_1_0_0_1_n_n 8192 rfl rfl).symm k)
      = ix2 k (j 1) := by
    funext a; apply Fin.ext
    match a with
    | ⟨0, _⟩ => exact (pay6_rhs_0 _ _).trans hk
    | ⟨1, _⟩ => exact pay6_rhs_1 _ _
  rw [hl, hr]
  rfl

theorem pay6_bias (x2 : Vec Ideal S1x128 .f32) (j : S512x128.Idx) :
    broadcastTo S512x128 (shapeCast S1x128 x2 shapeCasts_S1x128_S1x128) broadcasts_S1x128_S512x128 j = x2 (ix2 0 (j 1)) := by
  rw [shapeCast_self]
  refine broadcastTo_apply x2 _ j (ix2 0 (j 1)) fun a => ?_
  match a with
  | ⟨0, _⟩ => rfl
  | ⟨1, _⟩ => rfl

theorem pay6_apply (x0 : Vec Ideal S512x8192 .bf16) (x1 : Vec Ideal S8192x128 .f32) (x2 : Vec Ideal S1x128 .f32) (j : S512x128.Idx) :
    k6_pay1 (F := Ideal) x0 x1 x2 j = max ((∑ k : Fin 8192, x0 (ix2 (j 0) k) * x1 (ix2 k (j 1))) + x2 (ix2 0 (j 1))) 0 := by
  unfold k6_pay1
  exact congrArg₂ max (congrArg₂ (· + ·) (pay6_dot x0 x1 j) (pay6_bias x2 j)) Ideal.ofBits_zero_f32

variable (V : (c : Dev nD) → (b : Ref sig .tc) → Buf (Elt Ideal) ((c : Thread nD τ).loc b))

theorem val6_hz : (![0, 0] : Fin 2 → Nat) = fun _ => 0 := funext fun a => by fin_cases a <;> rfl

theorem val6_idx_facts : ∀ t : Fin cfg6.N,
    win6_0.index t (0 : Fin 2) = win6_3.index t (0 : Fin 2)
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

theorem val6_point (A : S8192x8192.Idx → EReal) (Y : S8192x128.Idx → EReal) (B : S1x128.Idx → EReal) (t : Fin cfg6.N) (y : S512x128.Idx) :
    max ((∑ k : Fin 8192, A (((cfg6.win 0).blk t).view.emb (ix2 (y 0) k : S512x8192.Idx)) * Y (((cfg6.win 1).blk t).view.emb (ix2 k (y 1) : S8192x128.Idx)))
        + B (((cfg6.win 2).blk t).view.emb (ix2 0 (y 1) : S1x128.Idx))) 0
      = Cert.Gcn.agg A Y B (((cfg6.win 3).blk t).view.emb y) := by
  obtain ⟨e0, e1, e2, e3, e4, e5, e6, e7⟩ := val6_idx_facts t
  have h0 : ∀ k : Fin 8192, ((cfg6.win 0).blk t).view.emb (ix2 (y 0) k : S512x8192.Idx)
      = (ix2 ((((cfg6.win 3).blk t).view.emb y) 0) k : S8192x8192.Idx) := fun k => by
    funext a; apply Fin.ext
    match a with
    | ⟨0, _⟩ =>
      show win6_0.index t (0 : Fin 2) * 512 + 1 * (y 0).val = win6_3.index t (0 : Fin 2) * 512 + 1 * (y 0).val
      rw [e0]
    | ⟨1, _⟩ =>
      show win6_0.index t (1 : Fin 2) * 8192 + 1 * k.val = k.val
      rw [e1]; omega
  have h1 : ∀ k : Fin 8192, ((cfg6.win 1).blk t).view.emb (ix2 k (y 1) : S8192x128.Idx)
      = (ix2 k ((((cfg6.win 3).blk t).view.emb y) 1) : S8192x128.Idx) := fun k => by
    funext a; apply Fin.ext
    match a with
    | ⟨0, _⟩ =>
      show win6_1.index t (0 : Fin 2) * 8192 + 1 * k.val = k.val
      rw [e2]; omega
    | ⟨1, _⟩ =>
      show win6_1.index t (1 : Fin 2) * S8192x128.size 1 + 1 * (y 1).val = win6_3.index t (1 : Fin 2) * S512x128.size 1 + 1 * (y 1).val
      rw [e3, e7, Nat.zero_mul, Nat.zero_mul]
  have h2 : ((cfg6.win 2).blk t).view.emb (ix2 0 (y 1) : S1x128.Idx)
      = (ix2 0 ((((cfg6.win 3).blk t).view.emb y) 1) : S1x128.Idx) := by
    funext a; apply Fin.ext
    match a with
    | ⟨0, _⟩ =>
      show win6_2.index t (0 : Fin 2) * 1 + 1 * 0 = 0
      rw [e4]
    | ⟨1, _⟩ =>
      show win6_2.index t (1 : Fin 2) * S1x128.size 1 + 1 * (y 1).val = win6_3.index t (1 : Fin 2) * S512x128.size 1 + 1 * (y 1).val
      rw [e5, e7, Nat.zero_mul, Nat.zero_mul]
  refine congrArg (fun s => max s (0 : EReal)) (congrArg₂ (· + ·) (Finset.sum_congr rfl fun k _ => ?_) ?_)
  · rw [h0 k, h1 k]
  · rw [h2]

theorem val6_flushed_eq (c : Dev nD) (t : Fin cfg6.N) :
    (dat6 (F := Ideal) V c).flushed 3 t = ((cfg6.win 3).blk t).view.read (Elt Ideal)
      (Cert.Gcn.agg (V c (Pipeline.arrRef spec6 0) : S8192x8192.Idx → EReal) (V c (Pipeline.arrRef spec6 1) : S8192x128.Idx → EReal)
        (V c (Pipeline.arrRef spec6 2) : S1x128.Idx → EReal)) := by
  show (cfg6.win 3).cut (grid6.coords t) ((dat6 V c).after 3 t) = _
  rw [after6_3]
  unfold out6_3
  rw [View.canon_unit_zero val6_hz]
  simp only [View.ld_unit_zero (S := S512x8192) val6_hz, View.ld_unit_zero (S := S8192x128) val6_hz, View.ld_unit_zero (S := S1x128) val6_hz]
  funext y
  refine (pay6_apply _ _ _ y).trans ?_
  exact val6_point (V c (Pipeline.arrRef spec6 0)) (V c (Pipeline.arrRef spec6 1)) (V c (Pipeline.arrRef spec6 2)) t y

theorem val6_mem_blk (t : Fin cfg6.N) (i : S8192x128.Idx) :
    i ∈ ((cfg6.win 3).blk t).view.set ↔ ∀ a : Fin 2, win6_3.index t a * S512x128.size a ≤ (i a).val ∧ (i a).val < win6_3.index t a * S512x128.size a + S512x128.size a := by
  show i ∈ ((View.whole (Pipeline.arrRef spec6 3)).slice (win6_3.rect t)).set ↔ _
  rw [View.set_slice_whole, Rect.mem_set_unit]
  exact Iff.rfl

theorem val6_cover (i : S8192x128.Idx) : ∃ t : Fin cfg6.N, (cfg6.win 3).flush t = true ∧ i ∈ ((cfg6.win 3).blk t).view.set := by
  have hi0 : (i 0).val < 8192 := (i 0).isLt
  have hi1 : (i 1).val < S512x128.size 1 := (i 1).isLt
  have ht : (i 0).val / 512 < cfg6.N := Nat.lt_of_lt_of_eq (by omega) N_6.symm
  refine ⟨⟨(i 0).val / 512, ht⟩, flush6_3 _, ?_⟩
  obtain ⟨e0, e1, e2, e3, e4, e5, e6, e7⟩ := val6_idx_facts ⟨(i 0).val / 512, ht⟩
  rw [val6_mem_blk]
  intro a
  match a with
  | ⟨0, _⟩ =>
    show win6_3.index ⟨(i 0).val / 512, ht⟩ (0 : Fin 2) * 512 ≤ (i 0).val ∧ (i 0).val < win6_3.index ⟨(i 0).val / 512, ht⟩ (0 : Fin 2) * 512 + 512
    rw [e6]
    show (i 0).val / 512 * 512 ≤ (i 0).val ∧ (i 0).val < (i 0).val / 512 * 512 + 512
    omega
  | ⟨1, _⟩ =>
    show win6_3.index ⟨(i 0).val / 512, ht⟩ (1 : Fin 2) * S512x128.size 1 ≤ (i 1).val ∧ (i 1).val < win6_3.index ⟨(i 0).val / 512, ht⟩ (1 : Fin 2) * S512x128.size 1 + S512x128.size 1
    rw [e7, Nat.zero_mul, Nat.zero_add]
    exact ⟨Nat.zero_le _, hi1⟩

theorem val6 (c : Dev nD) :
    (dat6 (F := Ideal) V c).arrAt 3 cfg6.N
      = Cert.Gcn.agg (V c (Pipeline.arrRef spec6 0)) (V c (Pipeline.arrRef spec6 1)) (V c (Pipeline.arrRef spec6 2)) :=
  (dat6 V c).arrAt_eq_of_cover 3 _ (fun t _ => val6_flushed_eq V c t) val6_cover

end Cert.KernelIdeal.Hand

end
-- ==== Proof.KI.Val7.lean ====
import proofs.«407141_j11613591568667_1_alg».proof.Proof.KI.Reg7
import proofs.«407141_j11613591568667_1_alg».proof.Proof.Spec
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem lhs7_0 (j : S1024x1024.Idx) (k : dot_S1024x64_S64x1024_S1024x1024_1_0_0_1_n_n.contr.Idx) :
    (dot_S1024x64_S64x1024_S1024x1024_1_0_0_1_n_n.lhsIdx j k 0 : ℕ) = j 0 := by
  simp [DotDims.lhsIdx, dot_S1024x64_S64x1024_S1024x1024_1_0_0_1_n_n]; rfl
theorem lhs7_1 (j : S1024x1024.Idx) (k : dot_S1024x64_S64x1024_S1024x1024_1_0_0_1_n_n.contr.Idx) :
    (dot_S1024x64_S64x1024_S1024x1024_1_0_0_1_n_n.lhsIdx j k 1 : ℕ) = k ⟨0, by decide⟩ :=
  DotDims.lhsIdx_val_of_single _ rfl j k
theorem rhs7_0 (j : S1024x1024.Idx) (k : dot_S1024x64_S64x1024_S1024x1024_1_0_0_1_n_n.contr.Idx) :
    (dot_S1024x64_S64x1024_S1024x1024_1_0_0_1_n_n.rhsIdx j k 0 : ℕ) = k ⟨0, by decide⟩ :=
  DotDims.rhsIdx_val_of_single _ rfl j k
theorem rhs7_1 (j : S1024x1024.Idx) (k : dot_S1024x64_S64x1024_S1024x1024_1_0_0_1_n_n.contr.Idx) :
    (dot_S1024x64_S64x1024_S1024x1024_1_0_0_1_n_n.rhsIdx j k 1 : ℕ) = j 1 := by
  simp [DotDims.rhsIdx, dot_S1024x64_S64x1024_S1024x1024_1_0_0_1_n_n]; rfl

theorem mm7_apply (x0 x1 : Vec Ideal S1024x64 .f32) (p q : Fin 1024) :
    (matmul dot_S1024x64_S64x1024_S1024x1024_1_0_0_1_n_n none
        (truncf .bf16 (shapeCast S1024x64 x0 shapeCasts_S1024x64_S1024x64) bitsLt_bf16_f32 : FVec Ideal S1024x64 .bf16)
        (transpose S64x1024 [1, 0] (truncf .bf16 (shapeCast S1024x64 x1 shapeCasts_S1024x64_S1024x64) bitsLt_bf16_f32 : FVec Ideal S1024x64 .bf16)
          transposes_S1024x64_p1_0_S64x1024 : FVec Ideal S64x1024 .bf16)
        (constant (F := Ideal) S1024x1024 .f32 0x00000000#32) : FVec Ideal S1024x1024 .f32) (ix2 p q)
      = ∑ k : Fin 64, x0 (ix2 p k) * x1 (ix2 q k) := by
  rw [shapeCast_self, shapeCast_self]
  refine (Ideal.matmul_constant_zero_apply dot_S1024x64_S64x1024_S1024x1024_1_0_0_1_n_n none _ _ (ix2 p q)).trans ?_
  rw [← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  refine congrArg₂ (· * ·) ?_ ?_
  · show x0 _ = x0 (ix2 p k)
    refine congrArg x0 (Shape.idx_ext₂ ?_ ?_)
    · exact lhs7_0 _ _
    · exact (lhs7_1 _ _).trans hk
  · refine (transpose_apply [1, 0] _ transposes_S1024x64_p1_0_S64x1024 _ (ix2 q k) ?_).trans rfl
    intro b
    match b with
    | ⟨0, _⟩ => exact ((rhs7_0 _ _).trans hk).symm
    | ⟨1, _⟩ => exact (rhs7_1 (ix2 p q) _).symm

theorem word7 (a : Fin 8) (p : Fin 1024) :
    (IntOp.addi (Scalar.muli (BitVec.ofNat 32 a.val) 1024#32) (BitVec.ofNat 32 p.val)).toNat = 1024 * a.val + p.val := by
  have ha := a.isLt; have hp := p.isLt
  simp only [IntOp.addi, Scalar.muli, IntOp.muli, BitVec.toNat_add, BitVec.toNat_mul, BitVec.toNat_ofNat]
  omega

theorem mask7 (a b : Fin 8) (p q : Fin 1024) :
    IntOp.cmpi .sgt (IntOp.addi (Scalar.muli (BitVec.ofNat 32 b.val) 1024#32) (BitVec.ofNat 32 q.val))
        (IntOp.addi (Scalar.muli (BitVec.ofNat 32 a.val) 1024#32) (BitVec.ofNat 32 p.val)) = 1#1
      ↔ 1024 * a.val + p.val < 1024 * b.val + q.val := by
  have ha := a.isLt; have hb := b.isLt; have hp := p.isLt; have hq := q.isLt
  rw [StableHlo.Predicate.sgt_iff_toNat (by rw [word7]; omega) (by rw [word7]; omega), word7, word7]

theorem col7 (w : BitVec 32) (p q : Fin 1024) :
    broadcastTo S1024x1024 (addi (broadcast S1x1024 w) (iota .tc S1x1024 32 [1] iota_S1x1024_d1_w32)) broadcasts_S1x1024_S1024x1024 (ix2 p q)
      = IntOp.addi w (BitVec.ofNat 32 q.val) := by
  refine (broadcastTo_apply _ broadcasts_S1x1024_S1024x1024 (ix2 p q) (ix2 (0 : Fin 1) q) ?_).trans ?_
  · intro a
    match a with
    | ⟨0, _⟩ => rfl
    | ⟨1, _⟩ => rfl
  · show IntOp.addi w (iota .tc S1x1024 32 [1] iota_S1x1024_d1_w32 (ix2 (0 : Fin 1) q)) = _
    rw [iota_single_apply]

theorem row7 (w : BitVec 32) (p q : Fin 1024) :
    broadcastTo S1024x1024 (addi (broadcast S1024x1 w) (iota .tc S1024x1 32 [0] iota_S1024x1_d0_w32)) broadcasts_S1024x1_S1024x1024 (ix2 p q)
      = IntOp.addi w (BitVec.ofNat 32 p.val) := by
  refine (broadcastTo_apply _ broadcasts_S1024x1_S1024x1024 (ix2 p q) (ix2 p (0 : Fin 1)) ?_).trans ?_
  · intro a
    match a with
    | ⟨0, _⟩ => rfl
    | ⟨1, _⟩ => rfl
  · show IntOp.addi w (iota .tc S1024x1 32 [0] iota_S1024x1_d0_w32 (ix2 p (0 : Fin 1))) = _
    rw [iota_single_apply]

theorem pay7_apply (i : grid7.Coords) (x0 x1 : Vec Ideal S1024x64 .f32) (p q : Fin 1024) :
    k7_pay1 i x0 x1 (ix2 p q)
      = if 1024 * (i 0).val + p.val < 1024 * (i 1).val + q.val then Ideal.logistic (∑ k : Fin 64, x0 (ix2 p k) * x1 (ix2 q k)) else 0 := by
  unfold k7_pay1
  refine (select_apply _ _ _ (ix2 p q)).trans ?_
  show Scalar.select (IntOp.cmpi .sgt
        (broadcastTo S1024x1024 (addi (broadcast S1x1024 (Scalar.muli (BitVec.ofNat 32 (i 1).val) 1024#32)) (iota .tc S1x1024 32 [1] iota_S1x1024_d1_w32))
          broadcasts_S1x1024_S1024x1024 (ix2 p q))
        (broadcastTo S1024x1024 (addi (broadcast S1024x1 (Scalar.muli (BitVec.ofNat 32 (i 0).val) 1024#32)) (iota .tc S1024x1 32 [0] iota_S1024x1_d0_w32))
          broadcasts_S1024x1_S1024x1024 (ix2 p q)))
      (Ideal.logistic ((matmul dot_S1024x64_S64x1024_S1024x1024_1_0_0_1_n_n none
        (truncf .bf16 (shapeCast S1024x64 x0 shapeCasts_S1024x64_S1024x64) bitsLt_bf16_f32 : FVec Ideal S1024x64 .bf16)
        (transpose S64x1024 [1, 0] (truncf .bf16 (shapeCast S1024x64 x1 shapeCasts_S1024x64_S1024x64) bitsLt_bf16_f32 : FVec Ideal S1024x64 .bf16)
          transposes_S1024x64_p1_0_S64x1024 : FVec Ideal S64x1024 .bf16)
        (constant (F := Ideal) S1024x1024 .f32 0x00000000#32) : FVec Ideal S1024x1024 .f32) (ix2 p q)))
      (Ideal.ofBits .f32 0x00000000#32) = _
  rw [col7, row7, mm7_apply, Ideal.ofBits_zero_f32]
  by_cases h : 1024 * (i 0).val + p.val < 1024 * (i 1).val + q.val
  · rw [if_pos h, (mask7 (i 0) (i 1) p q).mpr h, select_one]
  · rw [if_neg h, eq_zero_of_ne_one (fun e => h ((mask7 (i 0) (i 1) p q).mp e)), select_zero]

theorem hz7 : (![0, 0] : Fin 2 → Nat) = fun _ => 0 := funext fun a => by fin_cases a <;> rfl

theorem idx_facts7 : ∀ t : Fin cfg7.N,
    win7_0.index t (0 : Fin 2) = (grid7.coords t 0).val ∧ win7_0.index t (1 : Fin 2) = 0
    ∧ win7_1.index t (0 : Fin 2) = (grid7.coords t 1).val ∧ win7_1.index t (1 : Fin 2) = 0
    ∧ win7_2.index t (0 : Fin 2) = (grid7.coords t 0).val ∧ win7_2.index t (1 : Fin 2) = (grid7.coords t 1).val
    ∧ (grid7.coords t 0).val < 8 ∧ (grid7.coords t 1).val < 8 :=
  (by decide +kernel : ∀ t : Fin grid7.N, _)

theorem idx_onto7 : ∀ (q0 q1 : Fin 8), ∃ t : Fin cfg7.N, win7_2.index t = ![q0.val, q1.val] :=
  (by decide +kernel : ∀ (q0 q1 : Fin 8), ∃ t : Fin grid7.N, win7_2.index t = ![q0.val, q1.val])

theorem pay7_dec (z : Cert.Gcn.RArr 8192 64) (i : grid7.Coords) (x0 x1 : Vec Ideal S1024x64 .f32) (p q : Fin 1024)
    (j : (Cert.Gcn.Sh 8192 8192).Idx)
    (hr : (j 0).val = 1024 * (i 0).val + p.val) (hs : (j 1).val = 1024 * (i 1).val + q.val)
    (h0 : ∀ k : Fin 64, x0 (ix2 p k) = z (ix2 (j 0) k)) (h1 : ∀ k : Fin 64, x1 (ix2 q k) = z (ix2 (j 1) k)) :
    k7_pay1 i x0 x1 (ix2 p q) = Cert.Gcn.dec z j := by
  rw [pay7_apply]
  show _ = if (j 0).val < (j 1).val then Ideal.logistic (∑ k : Fin 64, z (ix2 (j 0) k) * z (ix2 (j 1) k)) else 0
  rw [hr, hs]
  refine if_congr Iff.rfl (congrArg Ideal.logistic (Finset.sum_congr rfl fun k _ => ?_)) rfl
  rw [h0, h1]

variable (V : (c : Dev nD) → (b : Ref sig .tc) → Buf (Elt Ideal) ((c : Thread nD τ).loc b))

theorem flushed7_eq (c : Dev nD) (t : Fin cfg7.N) :
    (dat7 (F := Ideal) V c).flushed 2 t
      = ((cfg7.win 2).blk t).view.read (Elt Ideal) (Cert.Gcn.dec (V c (Pipeline.arrRef spec7 0))) := by
  show (cfg7.win 2).cut (grid7.coords t) ((dat7 (F := Ideal) V c).after 2 t) = _
  rw [after7_2]
  unfold out7_2
  rw [View.canon_unit_zero hz7]
  simp only [View.ld_unit_zero (S := S1024x64) hz7]
  obtain ⟨e00, e01, e10, e11, e20, e21, b0, b1⟩ := idx_facts7 t
  funext y
  obtain ⟨p, q, rfl⟩ : ∃ (p q : Fin 1024), y = ix2 p q := ⟨y 0, y 1, eq_ix2 y⟩
  refine (pay7_dec (V c (Pipeline.arrRef spec7 0)) (grid7.coords t) (iblk7 V c 0 t) (iblk7 V c 1 t) p q
    (((cfg7.win 2).blk t).view.emb (ix2 p q)) ?_ ?_ ?_ ?_).trans rfl
  · show win7_2.index t (0 : Fin 2) * 1024 + 1 * p.val = _
    omega
  · show win7_2.index t (1 : Fin 2) * 1024 + 1 * q.val = _
    omega
  · intro k
    show V c (Pipeline.arrRef spec7 0) (((cfg7.win 0).blk t).view.emb (ix2 p k)) = _
    refine congrArg (V c (Pipeline.arrRef spec7 0)) (funext fun a => Fin.ext ?_)
    match a with
    | ⟨0, _⟩ =>
      show win7_0.index t (0 : Fin 2) * 1024 + 1 * p.val = win7_2.index t (0 : Fin 2) * 1024 + 1 * p.val
      omega
    | ⟨1, _⟩ =>
      show win7_0.index t (1 : Fin 2) * 64 + 1 * k.val = k.val
      omega
  · intro k
    show V c (Pipeline.arrRef spec7 1) (((cfg7.win 1).blk t).view.emb (ix2 q k)) = _
    refine congrArg (V c (Pipeline.arrRef spec7 0)) (funext fun a => Fin.ext ?_)
    match a with
    | ⟨0, _⟩ =>
      show win7_1.index t (0 : Fin 2) * 1024 + 1 * q.val = win7_2.index t (1 : Fin 2) * 1024 + 1 * q.val
      omega
    | ⟨1, _⟩ =>
      show win7_1.index t (1 : Fin 2) * 64 + 1 * k.val = k.val
      omega

theorem mem_blk7 (t : Fin cfg7.N) (i : S8192x8192.Idx) :
    i ∈ ((cfg7.win 2).blk t).view.set
      ↔ ∀ a : Fin 2, win7_2.index t a * S1024x1024.size a ≤ (i a).val ∧ (i a).val < win7_2.index t a * S1024x1024.size a + S1024x1024.size a := by
  show i ∈ ((View.whole main_v67).slice (win7_2.rect t)).set ↔ _
  rw [View.set_slice_whole, Rect.mem_set_unit]
  exact Iff.rfl

theorem cover7 (i : S8192x8192.Idx) :
    ∃ t : Fin cfg7.N, (cfg7.win 2).flush t = true ∧ i ∈ ((cfg7.win 2).blk t).view.set := by
  have hi0 : (i 0).val < 8192 := (i 0).isLt
  have hi1 : (i 1).val < 8192 := (i 1).isLt
  obtain ⟨t, ht⟩ := idx_onto7 ⟨(i 0).val / 1024, by omega⟩ ⟨(i 1).val / 1024, by omega⟩
  have q0 : win7_2.index t (0 : Fin 2) = (i 0).val / 1024 := congrFun ht 0
  have q1 : win7_2.index t (1 : Fin 2) = (i 1).val / 1024 := congrFun ht 1
  refine ⟨t, flush7_2 t, ?_⟩
  rw [mem_blk7]
  intro a
  match a with
  | ⟨0, _⟩ =>
    show win7_2.index t (0 : Fin 2) * 1024 ≤ (i 0).val ∧ (i 0).val < win7_2.index t (0 : Fin 2) * 1024 + 1024
    omega
  | ⟨1, _⟩ =>
    show win7_2.index t (1 : Fin 2) * 1024 ≤ (i 1).val ∧ (i 1).val < win7_2.index t (1 : Fin 2) * 1024 + 1024
    omega

theorem val7 (c : Dev nD) :
    (dat7 (F := Ideal) V c).arrAt 2 cfg7.N = Cert.Gcn.dec (V c (Pipeline.arrRef spec7 0)) :=
  (dat7 (F := Ideal) V c).arrAt_eq_of_cover 2 (Cert.Gcn.dec (V c (Pipeline.arrRef spec7 0)))
    (fun t _ => flushed7_eq V c t) cover7

end Cert.KernelIdeal.Hand

end
-- ==== Proof.Forms.lean ====
import proofs.«407141_j11613591568667_1_alg».proof.Proof.Spec

noncomputable section

open scoped BigOperators

namespace Cert.Gcn

open Idealize.ShloMosaic Idealize.ShloMosaic.ValueIdx

abbrev RVec (C : Nat) : Type := (⟨1, ![C]⟩ : Shape).Idx → EReal

def mm {N K C : Nat} (x : RArr N K) (w : RArr K C) : RArr N C :=
  fun j => ∑ k : Fin K, x (ix2 (j 0) k) * w (ix2 k (j 1))

def vcat (l r : RVec 64) : RVec 128 :=
  fun j => if h : (j 0).val < 64 then l (ix1 ⟨(j 0).val, h⟩) else r (ix1 ⟨(j 0).val - 64, by have h128 : (j 0).val < 128 := (j 0).isLt; omega⟩)

def kernelForm (s d : Fin 270336 → Fin 8192) (x : RArr 8192 256) (noise : RArr 8192 64)
    (mlpW : RArr 256 256) (mlpB : RVec 256) (w1 : RArr 256 256) (b1 : RVec 256) (w2 : RArr 256 256) (b2 : RVec 256)
    (wm : RArr 256 64) (bm : RVec 64) (wl : RArr 256 64) (bl : RVec 64) : RArr 8192 8192 :=
  let a := adj s d (nrm s d)
  let h0 := lin x mlpW (asRow mlpB)
  let h1 := agg a (lin h0 w1 (zeroRow 256)) (asRow b1)
  let h2 := agg a (lin h1 w2 (zeroRow 256)) (asRow b2)
  let mb := agg a (lin h2 (hcat wm wl) (zeroRow 128)) (asRow (vcat bm bl))
  dec (sample noise (leftHalf mb) (rightHalf mb))

def refForm (s d : Fin 270336 → Fin 8192) (x : RArr 8192 256) (noise : RArr 8192 64)
    (mlpW : RArr 256 256) (mlpB : RVec 256) (w1 : RArr 256 256) (b1 : RVec 256) (w2 : RArr 256 256) (b2 : RVec 256)
    (wm : RArr 256 64) (bm : RVec 64) (wl : RArr 256 64) (bl : RVec 64) : RArr 8192 8192 :=
  let n := nrm s d
  let h0 := lin x mlpW (asRow mlpB)
  let h1 := conv s d n (mm h0 w1) (asRow b1)
  let h2 := conv s d n (mm h1 w2) (asRow b2)
  let mean := conv s d n (mm h2 wm) (asRow bm)
  let ls := conv s d n (mm h2 wl) (asRow bl)
  dec (sample noise mean ls)

end Cert.Gcn

end
-- ==== Proof.LibGatherScatter.lean ====
import Idealize.ShloMosaic.PureOps.Ideal
import Idealize.ShloMosaic.Lib.ValueIdx
import Idealize.ShloMosaic.Lib.StableHlo.Predicate

noncomputable section

open scoped BigOperators

namespace Cert.LibGS

open Idealize.ShloMosaic Idealize.ShloMosaic.ValueIdx

abbrev Sh (N C : Nat) : Shape := ⟨2, ![N, C]⟩

abbrev RArr (N C : Nat) : Type := (Sh N C).Idx → EReal

def rowOf (N : Nat) (hN : 0 < N) (w : BitVec 32) : Fin N := ⟨min w.toInt.toNat (N - 1), by omega⟩

section GatherRows

variable {N n C : Nat} (d : GatherDims (Sh N C) (Sh n 1) (Sh n C))

theorem ix2_val_zero {a b : Nat} (e : Fin a) (c : Fin b) (X : Fin 2) (h : X = 0) : (ix2 e c X).val = e.val := by
  subst h; rfl

theorem ix2_val_one {a b : Nat} (e : Fin a) (c : Fin b) (X : Fin 2) (h : X = 1) : (ix2 e c X).val = c.val := by
  subst h; rfl

theorem rows_batch_mem (hoff : d.offsetDims = [1]) (X : Fin (Sh n C).rank) (hX : X ∈ d.batchDims) : X = (0 : Fin 2) := by
  have h1 : X ∉ d.offsetDims := by
    have := (List.mem_filter.1 hX).2
    simpa using this
  rw [hoff] at h1
  match X with
  | ⟨0, _⟩ => rfl
  | ⟨1, _⟩ => exact absurd (List.mem_singleton.mpr rfl) h1

theorem rows_siIdx (hoff : d.offsetDims = [1]) (hsim : d.startIndexMap = [0]) (hivd : d.indexVectorDim = 1)
    (e : Fin n) (c : Fin C) (k : Fin d.startIndexMap.length) : d.siIdx (ix2 e c) k = ix2 e 0 := by
  funext b
  match b with
  | ⟨0, _⟩ =>
    unfold GatherDims.siIdx
    rw [dif_neg (by rw [hivd]; exact Nat.zero_ne_one)]
    unfold GatherDims.siCoord
    apply Fin.ext
    simp only [Fin.val_cast]
    exact ix2_val_zero e c _ (rows_batch_mem d hoff _ (List.getElem_mem _))
  | ⟨1, _⟩ =>
    unfold GatherDims.siIdx
    rw [dif_pos (by rw [hivd])]
    apply Fin.ext
    have hlen : d.startIndexMap.length = 1 := by rw [hsim]; rfl
    have hk : k.val < d.startIndexMap.length := k.isLt
    show k.val = 0
    omega

end GatherRows

section GatherRows2
variable {N n C : Nat} (d : GatherDims (Sh N C) (Sh n 1) (Sh n C))

theorem rows_operand_zero (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (idx : IVec (Sh n 1) 32) (e : Fin n) (c : Fin C) :
    (d.operandIdx (ix2 e c) idx (0 : Fin 2)).val = (rowOf N hN (idx (ix2 e 0))).val := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes (0 : Fin 2) = 1 := by rw [hss]; rfl
  simp only [GatherDims.operandIdx, GatherDims.batchCoord_eq_zero _ _ _ hb, GatherDims.offCoord_eq_zero _ _ _ hk,
    Nat.add_zero, GatherDims.start, dif_pos hm, hsl, rows_siIdx d hoff hsim hivd]
  rfl

theorem rows_operand_one (hoff : d.offsetDims = [1]) (hcoll : d.collapsedSliceDims = [0])
    (hob : d.operandBatchingDims = []) (hsim : d.startIndexMap = [0])
    (idx : IVec (Sh n 1) 32) (e : Fin n) (c : Fin C) :
    (d.operandIdx (ix2 e c) idx (1 : Fin 2)).val = c.val := by
  have hb : (1 : Fin 2) ∉ d.operandBatchingDims := by rw [hob]; exact List.not_mem_nil
  have hm : (1 : Fin 2) ∉ d.startIndexMap := by rw [hsim]; show (1 : Fin 2) ∉ [(0 : Fin 2)]; decide
  have hk : (1 : Fin 2) ∈ d.sKept := by rw [GatherDims.mem_sKept, hcoll, hob]; show (1 : Fin 2) ∉ [(0 : Fin 2)] ∧ (1 : Fin 2) ∉ []; decide
  have hall : ∀ X ∈ d.offsetDims, X = (1 : Fin 2) := by rw [hoff]; simp
  simp only [GatherDims.operandIdx, GatherDims.batchCoord_eq_zero _ _ _ hb, GatherDims.start, dif_neg hm,
    GatherDims.offCoord, dif_pos hk, Nat.zero_add, Nat.add_zero]
  exact ix2_val_one e c _ (hall _ (List.getElem_mem _))

theorem gather_rows_gen {α : Type} (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (t : (Sh N C).Idx → α) (idx : IVec (Sh n 1) 32) (e : Fin n) (c : Fin C) :
    Host.gather d t idx (ix2 e c) = t (ix2 (rowOf N hN (idx (ix2 e 0))) c) := by
  unfold Host.gather
  congr 1
  funext a
  refine Fin.ext ?_
  match a with
  | ⟨0, _⟩ => exact rows_operand_zero d hN hoff hcoll hob hsim hivd hss idx e c
  | ⟨1, _⟩ => exact rows_operand_one d hoff hcoll hob hsim idx e c

end GatherRows2

theorem ix1_eq_ofFin {n : Nat} (e : Fin n) : ix1 e = Shape.Idx.ofFin e := by
  funext a
  match a with
  | ⟨0, _⟩ => exact Fin.ext rfl

theorem ixP_eq_ix2 {n : Nat} (e : Fin n) : StableHlo.Predicate.ixP e = ix2 e (0 : Fin 1) := by
  funext a
  match a with
  | ⟨0, _⟩ => rfl
  | ⟨1, _⟩ => rfl

theorem gather_vec_gen {α : Type} {N n : Nat} (hN : 0 < N) (d : GatherDims ⟨1, ![N]⟩ (Sh n 1) ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec (Sh n 1) 32) (e : Fin n) :
    Host.gather d x idx (ix1 e) = x (ix1 (rowOf N hN (idx (ix2 e 0)))) := by
  rw [ix1_eq_ofFin, ix1_eq_ofFin, StableHlo.Predicate.gather_take d hcoll hob hsim hivd x idx e hN]
  refine congrArg x (congrArg Shape.Idx.ofFin (Fin.ext ?_))
  show min (idx (StableHlo.Predicate.ixP e)).toInt.toNat (N - 1) = min (idx (ix2 e 0)).toInt.toNat (N - 1)
  rw [ixP_eq_ix2]

theorem idx2_val_congr {a b : Nat} (j : (Sh a b).Idx) (X Y : Fin 2) (h : X = Y) : (j X).val = (j Y).val := by
  subst h; rfl

section ScatterRows
variable {N n C : Nat} (d : ScatterDims (Sh N C) (Sh n 1) (Sh n C))

theorem srows_scatter_mem (huw : d.updateWindowDims = [1]) (X : Fin (Sh n C).rank) (hX : X ∈ d.uScatter) : X = (0 : Fin 2) := by
  have h1 : X ∉ d.updateWindowDims := by
    have := (List.mem_filter.1 hX).2
    simpa using this
  rw [huw] at h1
  match X with
  | ⟨0, _⟩ => rfl
  | ⟨1, _⟩ => exact absurd (List.mem_singleton.mpr rfl) h1

theorem srows_siIdx (huw : d.updateWindowDims = [1]) (hsd : d.scatterDimsToOperandDims = [0]) (hivd : d.indexVectorDim = 1)
    (j : (Sh n C).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    exact idx2_val_congr j _ 0 (srows_scatter_mem d huw _ (List.getElem_mem _))
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

theorem srows_start_zero (huw : d.updateWindowDims = [1]) (hsd : d.scatterDimsToOperandDims = [0]) (hivd : d.indexVectorDim = 1)
    (idx : IVec (Sh n 1) 32) (j : (Sh n C).Idx) : d.start j idx (0 : Fin 2) = (idx (ix2 (j 0) 0)).toInt := by
  have hm : (0 : Fin 2) ∈ d.scatterDimsToOperandDims := by rw [hsd]; exact List.mem_singleton.mpr rfl
  unfold ScatterDims.start
  rw [dif_pos hm, srows_siIdx d huw hsd hivd]
  rfl

theorem srows_start_one (hsd : d.scatterDimsToOperandDims = [0])
    (idx : IVec (Sh n 1) 32) (j : (Sh n C).Idx) : d.start j idx (1 : Fin 2) = 0 := by
  have hm : (1 : Fin 2) ∉ d.scatterDimsToOperandDims := by rw [hsd]; show (1 : Fin 2) ∉ [(0 : Fin 2)]; decide
  unfold ScatterDims.start
  rw [dif_neg hm]

theorem srows_window_zero (hiw : d.insertedWindowDims = [0]) (j : (Sh n C).Idx) : d.window j (0 : Fin 2) = 0 := by
  have hk : (0 : Fin 2) ∉ d.sKept := by
    intro h
    have := (List.mem_filter.1 h).2
    rw [hiw] at this
    simp at this
  unfold ScatterDims.window
  rw [dif_neg hk]

theorem srows_window_one (huw : d.updateWindowDims = [1]) (hiw : d.insertedWindowDims = [0]) (j : (Sh n C).Idx) :
    d.window j (1 : Fin 2) = (j 1).val := by
  have hk : (1 : Fin 2) ∈ d.sKept := by
    refine List.mem_filter.2 ⟨List.mem_finRange _, ?_⟩
    rw [hiw]
    show decide ((1 : Fin 2) ∉ [(0 : Fin 2)]) = true
    decide
  have hall : ∀ X ∈ d.updateWindowDims, X = (1 : Fin 2) := by rw [huw]; simp
  unfold ScatterDims.window
  rw [dif_pos hk]
  exact idx2_val_congr j _ 1 (hall _ (List.getElem_mem _))

end ScatterRows

section ScatterRows2
variable {N n C : Nat} (d : ScatterDims (Sh N C) (Sh n 1) (Sh n C))

theorem srows_resultIdx_iff (huw : d.updateWindowDims = [1]) (hiw : d.insertedWindowDims = [0])
    (hsd : d.scatterDimsToOperandDims = [0]) (hivd : d.indexVectorDim = 1)
    (idx : IVec (Sh n 1) 32) (j : (Sh n C).Idx) (t : (Sh N C).Idx) :
    d.resultIdx? j idx = some t ↔ (idx (ix2 (j 0) 0)).toInt = ((t 0).val : ℤ) ∧ (j 1).val = (t 1).val := by
  have hs0 := srows_start_zero d huw hsd hivd idx j
  have hs1 := srows_start_one d hsd idx j
  have hw0 := srows_window_zero d hiw j
  have hw1 := srows_window_one d huw hiw j
  have ht0 : (t 0).val < N := idx2_lt0 t
  have ht1 : (t 1).val < C := idx2_lt1 t
  constructor
  · intro h
    unfold ScatterDims.resultIdx? at h
    split at h
    · rename_i hh
      have hf := Option.some.inj h
      have h0 : (d.start j idx (0 : Fin 2) + d.window j (0 : Fin 2)).toNat = (t 0).val :=
        congrArg (fun f : (Sh N C).Idx => (f 0).val) hf
      have h1 : (d.start j idx (1 : Fin 2) + d.window j (1 : Fin 2)).toNat = (t 1).val :=
        congrArg (fun f : (Sh N C).Idx => (f 1).val) hf
      have hh0 := (hh (0 : Fin 2)).1
      rw [hs0, hw0] at h0 hh0
      rw [hs1, hw1] at h1
      constructor <;> omega
    · exact absurd h (by simp)
  · rintro ⟨h0, h1⟩
    have hh : ∀ a, 0 ≤ d.start j idx a + d.window j a ∧ d.start j idx a + d.window j a < (Sh N C).size a := by
      intro a
      match a with
      | ⟨0, _⟩ =>
        show 0 ≤ d.start j idx (0 : Fin 2) + d.window j (0 : Fin 2) ∧ d.start j idx (0 : Fin 2) + d.window j (0 : Fin 2) < (N : ℤ)
        rw [hs0, hw0, h0]
        omega
      | ⟨1, _⟩ =>
        show 0 ≤ d.start j idx (1 : Fin 2) + d.window j (1 : Fin 2) ∧ d.start j idx (1 : Fin 2) + d.window j (1 : Fin 2) < (C : ℤ)
        rw [hs1, hw1, h1]
        omega
    unfold ScatterDims.resultIdx?
    rw [dif_pos hh]
    congr 1
    funext a
    apply Fin.ext
    match a with
    | ⟨0, _⟩ =>
      show (d.start j idx (0 : Fin 2) + d.window j (0 : Fin 2)).toNat = (t 0).val
      rw [hs0, hw0, h0]
      omega
    | ⟨1, _⟩ =>
      show (d.start j idx (1 : Fin 2) + d.window j (1 : Fin 2)).toNat = (t 1).val
      rw [hs1, hw1, h1]
      omega

end ScatterRows2

section ScatterRows3
variable {N n C : Nat} (d : ScatterDims (Sh N C) (Sh n 1) (Sh n C))

theorem scatterAdd_rows_gen (huw : d.updateWindowDims = [1]) (hiw : d.insertedWindowDims = [0])
    (hsd : d.scatterDimsToOperandDims = [0]) (hivd : d.indexVectorDim = 1)
    (x : RArr N C) (idx : IVec (Sh n 1) 32) (u : RArr n C) (i : Fin N) (c : Fin C) :
    Ideal.hostScatterAdd d x idx u (ix2 i c)
      = x (ix2 i c) + ∑ e ∈ Finset.univ.filter (fun e : Fin n => (idx (ix2 e 0)).toInt = (i.val : ℤ)), u (ix2 e c) := by
  have key := fun j => srows_resultIdx_iff d huw hiw hsd hivd idx j (ix2 i c)
  have back : ∀ j : (Sh n C).Idx, (j 1).val = c.val → ix2 (j 0) c = j := by
    intro j hj
    funext a
    match a with
    | ⟨0, _⟩ => rfl
    | ⟨1, _⟩ => exact Fin.ext hj.symm
  unfold Ideal.hostScatterAdd
  congr 1
  refine Finset.sum_bij' (fun j _ => j 0) (fun e _ => ix2 e c) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e c)).2 ⟨(Finset.mem_filter.1 he).2, rfl⟩⟩
  · intro j hj
    exact back j ((key j).1 (Finset.mem_filter.1 hj).2).2
  · intro e he
    rfl
  · intro j hj
    exact congrArg u (back j ((key j).1 (Finset.mem_filter.1 hj).2).2).symm

end ScatterRows3

section ScatterVec
variable {N n : Nat} (d : ScatterDims ⟨1, ![N]⟩ (Sh n 1) ⟨1, ![n]⟩)

theorem svec_siIdx (hsd : d.scatterDimsToOperandDims = [0]) (hivd : d.indexVectorDim = 1)
    (j : (⟨1, ![n]⟩ : Shape).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

theorem svec_start (hsd : d.scatterDimsToOperandDims = [0]) (hivd : d.indexVectorDim = 1)
    (idx : IVec (Sh n 1) 32) (j : (⟨1, ![n]⟩ : Shape).Idx) : d.start j idx (0 : Fin 1) = (idx (ix2 (j 0) 0)).toInt := by
  have hm : (0 : Fin 1) ∈ d.scatterDimsToOperandDims := by rw [hsd]; exact List.mem_singleton.mpr rfl
  unfold ScatterDims.start
  rw [dif_pos hm, svec_siIdx d hsd hivd]
  rfl

theorem svec_window (hiw : d.insertedWindowDims = [0]) (j : (⟨1, ![n]⟩ : Shape).Idx) : d.window j (0 : Fin 1) = 0 := by
  have hk : (0 : Fin 1) ∉ d.sKept := by
    intro h
    have := (List.mem_filter.1 h).2
    rw [hiw] at this
    simp at this
  unfold ScatterDims.window
  rw [dif_neg hk]

theorem svec_resultIdx_iff (hiw : d.insertedWindowDims = [0]) (hsd : d.scatterDimsToOperandDims = [0])
    (hivd : d.indexVectorDim = 1) (idx : IVec (Sh n 1) 32) (j : (⟨1, ![n]⟩ : Shape).Idx) (t : (⟨1, ![N]⟩ : Shape).Idx) :
    d.resultIdx? j idx = some t ↔ (idx (ix2 (j 0) 0)).toInt = ((t 0).val : ℤ) := by
  have hs0 := svec_start d hsd hivd idx j
  have hw0 := svec_window d hiw j
  have ht0 : (t 0).val < N := (t 0).isLt
  constructor
  · intro h
    unfold ScatterDims.resultIdx? at h
    split at h
    · rename_i hh
      have hf := Option.some.inj h
      have h0 : (d.start j idx (0 : Fin 1) + d.window j (0 : Fin 1)).toNat = (t 0).val :=
        congrArg (fun f : (⟨1, ![N]⟩ : Shape).Idx => (f 0).val) hf
      have hh0 := (hh (0 : Fin 1)).1
      rw [hs0, hw0] at h0 hh0
      omega
    · exact absurd h (by simp)
  · intro h0
    have hh : ∀ a, 0 ≤ d.start j idx a + d.window j a ∧ d.start j idx a + d.window j a < (⟨1, ![N]⟩ : Shape).size a := by
      intro a
      match a with
      | ⟨0, _⟩ =>
        show 0 ≤ d.start j idx (0 : Fin 1) + d.window j (0 : Fin 1) ∧ d.start j idx (0 : Fin 1) + d.window j (0 : Fin 1) < (N : ℤ)
        rw [hs0, hw0, h0]
        omega
    unfold ScatterDims.resultIdx?
    rw [dif_pos hh]
    congr 1
    funext a
    apply Fin.ext
    match a with
    | ⟨0, _⟩ =>
      show (d.start j idx (0 : Fin 1) + d.window j (0 : Fin 1)).toNat = (t 0).val
      rw [hs0, hw0, h0]
      omega

theorem scatterAdd_vec_gen (hiw : d.insertedWindowDims = [0]) (hsd : d.scatterDimsToOperandDims = [0])
    (hivd : d.indexVectorDim = 1) (x : (⟨1, ![N]⟩ : Shape).Idx → EReal) (idx : IVec (Sh n 1) 32)
    (u : (⟨1, ![n]⟩ : Shape).Idx → EReal) (i : Fin N) :
    Ideal.hostScatterAdd d x idx u (ix1 i)
      = x (ix1 i) + ∑ e ∈ Finset.univ.filter (fun e : Fin n => (idx (ix2 e 0)).toInt = (i.val : ℤ)), u (ix1 e) := by
  have key := fun j => svec_resultIdx_iff d hiw hsd hivd idx j (ix1 i)
  unfold Ideal.hostScatterAdd
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j hj
    exact (eq_ix1 j).symm
  · intro e he
    rfl
  · intro j hj
    exact congrArg u (eq_ix1 j)

end ScatterVec

end Cert.LibGS

end
-- ==== Proof.EdgeIdx.lean ====
import proofs.«407141_j11613591568667_1_alg».proof.Proof.Spec
import proofs.«407141_j11613591568667_1_alg».proof.Proof.LibGatherScatter

noncomputable section

namespace Cert.Gcn

open Idealize.ShloMosaic Idealize.ShloMosaic.ValueIdx

abbrev EdgeWords : Type := IVec (Sh 2 262144) 32

def InRange (ei : EdgeWords) : Prop := ∀ j : (Sh 2 262144).Idx, 0 ≤ (ei j).toInt ∧ (ei j).toInt < 8192

def wordOf (ei : EdgeWords) (row : Fin 2) (e : Fin 270336) : BitVec 32 :=
  if h : e.val < 262144 then ei (ix2 row ⟨e.val, h⟩) else BitVec.ofNat 32 (e.val - 262144)

def nodeOf (w : BitVec 32) : Fin 8192 := Cert.LibGS.rowOf 8192 (by decide) w

def srcOf (ei : EdgeWords) (e : Fin 270336) : Fin 8192 := nodeOf (wordOf ei 0 e)

def dstOf (ei : EdgeWords) (e : Fin 270336) : Fin 8192 := nodeOf (wordOf ei 1 e)

theorem wordOf_inRange {ei : EdgeWords} (h : InRange ei) (row : Fin 2) (e : Fin 270336) :
    0 ≤ (wordOf ei row e).toInt ∧ (wordOf ei row e).toInt < 8192 := by
  unfold wordOf
  split
  · exact h _
  · rename_i hlt
    have he : e.val - 262144 < 8192 := by have := e.isLt; omega
    have hn : (BitVec.ofNat 32 (e.val - 262144)).toNat = e.val - 262144 := by
      rw [BitVec.toNat_ofNat]; exact Nat.mod_eq_of_lt (by omega)
    have h1 : (BitVec.ofNat 32 (e.val - 262144)).toInt = ((e.val - 262144 : Nat) : Int) := by
      rw [BitVec.toInt_eq_toNat_cond, hn]
      split <;> omega
    rw [h1]; omega

theorem nodeOf_val {w : BitVec 32} (h0 : 0 ≤ w.toInt) (h1 : w.toInt < 8192) : ((nodeOf w).val : Int) = w.toInt := by
  unfold nodeOf Cert.LibGS.rowOf
  simp only
  omega

end Cert.Gcn

end
-- ==== Proof.KI.KernelValueA.lean ====
import proofs.«407141_j11613591568667_1_alg».proof.Proof.KI.Fold
import proofs.«407141_j11613591568667_1_alg».proof.Proof.KI.Val0
import proofs.«407141_j11613591568667_1_alg».proof.Proof.KI.Val1
import proofs.«407141_j11613591568667_1_alg».proof.Proof.KI.Val2
import proofs.«407141_j11613591568667_1_alg».proof.Proof.KI.Val3
import proofs.«407141_j11613591568667_1_alg».proof.Proof.KI.Val4
import proofs.«407141_j11613591568667_1_alg».proof.Proof.KI.Val5
import proofs.«407141_j11613591568667_1_alg».proof.Proof.KI.Val6
import proofs.«407141_j11613591568667_1_alg».proof.Proof.KI.Val7
import proofs.«407141_j11613591568667_1_alg».proof.Proof.Forms
import proofs.«407141_j11613591568667_1_alg».proof.Proof.EdgeIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.KV

open Cert.KernelIdeal Cert.KernelIdeal.Gen Cert.KernelIdeal.Hand
open Idealize.ShloMosaic Idealize.ShloMosaic.TcCoe
open Idealize.SL Idealize.SL.Sem
open Idealize.ShloMosaic.ValueIdx

variable (m : (ℓ : Loc nD τ sig) → Buf (Elt Ideal) ℓ) (c : Dev nD)

structure Untouched (b : Ref sig .tc) : Prop where
  h0 : b ∉ hostOps0_W
  h0_1 : b ∉ hostOps0_1_W
  h0_2 : b ∉ hostOps0_2_W
  h1 : b ∉ hostOps1_W
  h2 : b ∉ hostOps2_W
  h3 : b ∉ hostOps3_W
  h4 : b ∉ hostOps4_W
  h5 : b ∉ hostOps5_W
  h6 : b ∉ hostOps6_W
  r0 : b ≠ Pipeline.arrRef spec0 3
  r1 : b ≠ Pipeline.arrRef spec1 3
  r2 : b ≠ Pipeline.arrRef spec2 3
  r3 : b ≠ Pipeline.arrRef spec3 3
  r4 : b ≠ Pipeline.arrRef spec4 3
  r5 : b ≠ Pipeline.arrRef spec5 3
  r6 : b ≠ Pipeline.arrRef spec6 3

section Untouched
variable {b : Ref sig .tc} (h : Untouched b)
include h

theorem B3_untouched : B3 m c (Proc.devRef .tc b) = m ((c : Thread nD τ).loc b) :=
  (StableHlo.after_of_writes_sub hostOps0_2 (B2 m c) hostOps0_2_writes h.h0_2 : B3 m c (Proc.devRef .tc b) = B2 m c (Proc.devRef .tc b)).trans <|
  (StableHlo.after_of_writes_sub hostOps0_1 (B1 m c) hostOps0_1_writes h.h0_1 : B2 m c (Proc.devRef .tc b) = B1 m c (Proc.devRef .tc b)).trans <|
  (StableHlo.after_of_writes_sub hostOps0 (B0 m c) hostOps0_writes h.h0 : B1 m c (Proc.devRef .tc b) = B0 m c (Proc.devRef .tc b)).trans rfl
theorem B4_untouched : B4 m c (Proc.devRef .tc b) = m ((c : Thread nD τ).loc b) :=
  (B4_of_ne m c b h.r0).trans (B3_untouched m c h)
theorem B5_untouched : B5 m c (Proc.devRef .tc b) = m ((c : Thread nD τ).loc b) :=
  (StableHlo.after_of_writes_sub hostOps1 (B4 m c) hostOps1_writes h.h1 : B5 m c (Proc.devRef .tc b) = B4 m c (Proc.devRef .tc b)).trans (B4_untouched m c h)
theorem B6_untouched : B6 m c (Proc.devRef .tc b) = m ((c : Thread nD τ).loc b) :=
  (B6_of_ne m c b h.r1).trans (B5_untouched m c h)
theorem B7_untouched : B7 m c (Proc.devRef .tc b) = m ((c : Thread nD τ).loc b) :=
  (StableHlo.after_of_writes_sub hostOps2 (B6 m c) hostOps2_writes h.h2 : B7 m c (Proc.devRef .tc b) = B6 m c (Proc.devRef .tc b)).trans (B6_untouched m c h)
theorem B8_untouched : B8 m c (Proc.devRef .tc b) = m ((c : Thread nD τ).loc b) :=
  (B8_of_ne m c b h.r2).trans (B7_untouched m c h)
theorem B9_untouched : B9 m c (Proc.devRef .tc b) = m ((c : Thread nD τ).loc b) :=
  (StableHlo.after_of_writes_sub hostOps3 (B8 m c) hostOps3_writes h.h3 : B9 m c (Proc.devRef .tc b) = B8 m c (Proc.devRef .tc b)).trans (B8_untouched m c h)
theorem B10_untouched : B10 m c (Proc.devRef .tc b) = m ((c : Thread nD τ).loc b) :=
  (B10_of_ne m c b h.r3).trans (B9_untouched m c h)
theorem B11_untouched : B11 m c (Proc.devRef .tc b) = m ((c : Thread nD τ).loc b) :=
  (StableHlo.after_of_writes_sub hostOps4 (B10 m c) hostOps4_writes h.h4 : B11 m c (Proc.devRef .tc b) = B10 m c (Proc.devRef .tc b)).trans (B10_untouched m c h)
theorem B12_untouched : B12 m c (Proc.devRef .tc b) = m ((c : Thread nD τ).loc b) :=
  (B12_of_ne m c b h.r4).trans (B11_untouched m c h)
theorem B13_untouched : B13 m c (Proc.devRef .tc b) = m ((c : Thread nD τ).loc b) :=
  (StableHlo.after_of_writes_sub hostOps5 (B12 m c) hostOps5_writes h.h5 : B13 m c (Proc.devRef .tc b) = B12 m c (Proc.devRef .tc b)).trans (B12_untouched m c h)
theorem B14_untouched : B14 m c (Proc.devRef .tc b) = m ((c : Thread nD τ).loc b) :=
  (B14_of_ne m c b h.r5).trans (B13_untouched m c h)
theorem B15_untouched : B15 m c (Proc.devRef .tc b) = m ((c : Thread nD τ).loc b) :=
  (StableHlo.after_of_writes_sub hostOps6 (B14 m c) hostOps6_writes h.h6 : B15 m c (Proc.devRef .tc b) = B14 m c (Proc.devRef .tc b)).trans (B14_untouched m c h)
theorem B16_untouched : B16 m c (Proc.devRef .tc b) = m ((c : Thread nD τ).loc b) :=
  (B16_of_ne m c b h.r6).trans (B15_untouched m c h)

end Untouched

theorem untouched_arg0 : Untouched main_arg0 := by constructor <;> decide
theorem untouched_arg2 : Untouched main_arg2 := by constructor <;> decide
theorem untouched_arg3 : Untouched main_arg3 := by constructor <;> decide
theorem untouched_arg5 : Untouched main_arg5 := by constructor <;> decide
theorem untouched_arg6 : Untouched main_arg6 := by constructor <;> decide
theorem untouched_arg7 : Untouched main_arg7 := by constructor <;> decide
theorem untouched_arg8 : Untouched main_arg8 := by constructor <;> decide
theorem untouched_arg9 : Untouched main_arg9 := by constructor <;> decide
theorem untouched_arg10 : Untouched main_arg10 := by constructor <;> decide
theorem untouched_arg11 : Untouched main_arg11 := by constructor <;> decide
theorem untouched_arg12 : Untouched main_arg12 := by constructor <;> decide

theorem zeros_1x256 : (broadcastInDim S1x256 ![] bcast_S_S1x256 (constant (F := Ideal) S_ .f32 0x00000000#32) : S1x256.Idx → EReal) = Cert.Gcn.zeroRow 256 := by
  funext j
  refine (broadcastInDim_apply _ _ _ j ix0 (fun a => a.elim0)).trans ?_
  exact Ideal.ofBits_zero_f32
theorem zeros_1x128 : (broadcastInDim S1x128 ![] bcast_S_S1x128 (constant (F := Ideal) S_ .f32 0x00000000#32) : S1x128.Idx → EReal) = Cert.Gcn.zeroRow 128 := by
  funext j
  refine (broadcastInDim_apply _ _ _ j ix0 (fun a => a.elim0)).trans ?_
  exact Ideal.ofBits_zero_f32

theorem row_256 (x : S256.Idx → EReal) : (shapeCast S1x256 x shapeCasts_S256_S1x256 : S1x256.Idx → EReal) = Cert.Gcn.asRow x := by
  funext j
  rw [eq_ix2 j]
  exact shapeCast_a_1a_apply _ _ _ _
theorem row_128 (x : S128.Idx → EReal) : (shapeCast S1x128 x shapeCasts_S128_S1x128 : S1x128.Idx → EReal) = Cert.Gcn.asRow x := by
  funext j
  rw [eq_ix2 j]
  exact shapeCast_a_1a_apply _ _ _ _

theorem cols_256x128 (l r : S256x64.Idx → EReal) :
    (concatenate S256x128 1 [⟨S256x64, l⟩, ⟨S256x64, r⟩] concatenates_S256x64_S256x64_S256x128_d1 : S256x128.Idx → EReal) = Cert.Gcn.hcat l r := by
  funext j
  unfold Cert.Gcn.hcat
  split
  · next h =>
    exact concatenate_pair_apply_left _ l r _ j rfl (ix2 (j 0) ⟨(j 1).val, h⟩) (fun b => match b with | ⟨0, _⟩ => rfl | ⟨1, _⟩ => rfl)
  · next h =>
    refine concatenate_pair_apply_right _ l r _ j rfl rfl (ix2 (j 0) ⟨(j 1).val - 64, by have := idx2_lt1 j; omega⟩) (fun b hb => ?_) ?_
    · match b with
      | ⟨0, _⟩ => rfl
      | ⟨1, _⟩ => exact absurd rfl hb
    · show (j 1).val - 64 + 64 = (j 1).val
      omega

theorem vec_128 (l r : S64.Idx → EReal) :
    (concatenate S128 0 [⟨S64, l⟩, ⟨S64, r⟩] concatenates_S64_S64_S128_d0 : S128.Idx → EReal) = Cert.Gcn.vcat l r := by
  funext j
  unfold Cert.Gcn.vcat
  split
  · next h =>
    exact concatenate_pair_apply_left _ l r _ j rfl (ix1 ⟨(j 0).val, h⟩) (fun b => match b with | ⟨0, _⟩ => rfl)
  · next h =>
    refine concatenate_pair_apply_right _ l r _ j rfl rfl (ix1 ⟨(j 0).val - 64, by have h128 : (j 0).val < 128 := (j 0).isLt; omega⟩) (fun b hb => ?_) ?_
    · match b with
      | ⟨0, _⟩ => exact absurd rfl hb
    · show (j 0).val - 64 + 64 = (j 0).val
      omega

theorem left_8192 (x : S8192x128.Idx → EReal) :
    (extractStridedSlice S8192x64 ![0, 0] x slices_S8192x128_S8192x64_0_0 : S8192x64.Idx → EReal) = Cert.Gcn.leftHalf x := by
  funext j
  unfold Cert.Gcn.leftHalf
  exact extractStridedSlice_apply _ _ _ j _ (fun a => match a with | ⟨0, _⟩ => (Nat.zero_add _).symm | ⟨1, _⟩ => (Nat.zero_add _).symm)

theorem right_8192 (x : S8192x128.Idx → EReal) :
    (extractStridedSlice S8192x64 ![0, 64] x slices_S8192x128_S8192x64_0_64 : S8192x64.Idx → EReal) = Cert.Gcn.rightHalf x := by
  funext j
  unfold Cert.Gcn.rightHalf
  exact extractStridedSlice_apply _ _ _ j _ (fun a => match a with | ⟨0, _⟩ => (Nat.zero_add _).symm | ⟨1, _⟩ => Nat.add_comm _ _)

theorem sample_8192 (n l r : FVec Ideal S8192x64 .f32) :
    (addf (mulf n (Host.exp r)) l : FVec Ideal S8192x64 .f32) = Cert.Gcn.sample (N := 8192) (C := 64) n l r := rfl

def Adj : Cert.Gcn.RArr 8192 8192 :=
  Cert.Gcn.adj (Cert.Gcn.srcOf (m ((c : Thread nD τ).loc main_arg1))) (Cert.Gcn.dstOf (m ((c : Thread nD τ).loc main_arg1)))
    (Cert.Gcn.nrm (Cert.Gcn.srcOf (m ((c : Thread nD τ).loc main_arg1))) (Cert.Gcn.dstOf (m ((c : Thread nD τ).loc main_arg1))))

def H0 : Cert.Gcn.RArr 8192 256 :=
  Cert.Gcn.lin (m ((c : Thread nD τ).loc main_arg0)) (m ((c : Thread nD τ).loc main_arg3)) (Cert.Gcn.asRow (m ((c : Thread nD τ).loc main_arg4)))

def H1 : Cert.Gcn.RArr 8192 256 :=
  Cert.Gcn.agg (Adj m c) (Cert.Gcn.lin (H0 m c) (m ((c : Thread nD τ).loc main_arg5)) (Cert.Gcn.zeroRow 256)) (Cert.Gcn.asRow (m ((c : Thread nD τ).loc main_arg6)))

def H2 : Cert.Gcn.RArr 8192 256 :=
  Cert.Gcn.agg (Adj m c) (Cert.Gcn.lin (H1 m c) (m ((c : Thread nD τ).loc main_arg7)) (Cert.Gcn.zeroRow 256)) (Cert.Gcn.asRow (m ((c : Thread nD τ).loc main_arg8)))

def MB : Cert.Gcn.RArr 8192 128 :=
  Cert.Gcn.agg (Adj m c)
    (Cert.Gcn.lin (H2 m c) (Cert.Gcn.hcat (m ((c : Thread nD τ).loc main_arg9)) (m ((c : Thread nD τ).loc main_arg11))) (Cert.Gcn.zeroRow 128))
    (Cert.Gcn.asRow (Cert.Gcn.vcat (m ((c : Thread nD τ).loc main_arg10)) (m ((c : Thread nD τ).loc main_arg12))))

def Z : Cert.Gcn.RArr 8192 64 :=
  Cert.Gcn.sample (m ((c : Thread nD τ).loc main_arg2)) (Cert.Gcn.leftHalf (MB m c)) (Cert.Gcn.rightHalf (MB m c))

theorem lin_congr {N K C : Nat} {x x' : Cert.Gcn.RArr N K} {w w' : Cert.Gcn.RArr K C} {b b' : Cert.Gcn.RArr 1 C}
    (hx : x = x') (hw : w = w') (hb : b = b') : Cert.Gcn.lin x w b = Cert.Gcn.lin x' w' b' := by subst hx hw hb; rfl
theorem agg_congr {N C : Nat} {a a' : Cert.Gcn.RArr N N} {y y' : Cert.Gcn.RArr N C} {b b' : Cert.Gcn.RArr 1 C}
    (ha : a = a') (hy : y = y') (hb : b = b') : Cert.Gcn.agg a y b = Cert.Gcn.agg a' y' b' := by subst ha hy hb; rfl

theorem v47_at4 (hbias : (T3 m c main_v46 : Cert.Gcn.RArr 1 256) = Cert.Gcn.asRow (m ((c : Thread nD τ).loc main_arg4))) :
    (T4 m c main_v47 : Cert.Gcn.RArr 8192 256) = H0 m c :=
  (B4_out m c).trans <| (val0 (T3 m) c).trans <|
    lin_congr (B3_untouched m c untouched_arg0) (B3_untouched m c untouched_arg3) hbias

theorem v47_at5 (hbias : (T3 m c main_v46 : Cert.Gcn.RArr 1 256) = Cert.Gcn.asRow (m ((c : Thread nD τ).loc main_arg4))) :
    (T5 m c main_v47 : Cert.Gcn.RArr 8192 256) = H0 m c :=
  (StableHlo.after_of_writes_sub hostOps1 (B4 m c) hostOps1_writes (by decide) : B5 m c (Proc.devRef .tc main_v47) = B4 m c (Proc.devRef .tc main_v47)).trans (v47_at4 m c hbias)
theorem v48_at5 : (T5 m c main_v48 : Cert.Gcn.RArr 1 256) = Cert.Gcn.zeroRow 256 := by
  have e : (T5 m c main_v48 : S1x256.Idx → EReal) = broadcastInDim S1x256 ![] bcast_S_S1x256 (constant (F := Ideal) S_ .f32 0x00000000#32) := by
    show StableHlo.after hostOps1 _ (Proc.devRef .tc main_v48) = _
    after_results
  exact e.trans zeros_1x256

theorem v45_at5 : B5 m c (Proc.devRef .tc main_v45) = B3 m c (Proc.devRef .tc main_v45) :=
  (StableHlo.after_of_writes_sub hostOps1 (B4 m c) hostOps1_writes (by decide) : B5 m c (Proc.devRef .tc main_v45) = B4 m c (Proc.devRef .tc main_v45)).trans (B4_of_ne m c main_v45 (by decide))

theorem v49_at6 (hbias : (T3 m c main_v46 : Cert.Gcn.RArr 1 256) = Cert.Gcn.asRow (m ((c : Thread nD τ).loc main_arg4))) :
    (T6 m c main_v49 : Cert.Gcn.RArr 8192 256) = Cert.Gcn.lin (H0 m c) (m ((c : Thread nD τ).loc main_arg5)) (Cert.Gcn.zeroRow 256) :=
  (B6_out m c).trans <| (val1 (T5 m) c).trans <|
    lin_congr (v47_at5 m c hbias) (B5_untouched m c untouched_arg5) (v48_at5 m c)

theorem v49_at7 (hbias : (T3 m c main_v46 : Cert.Gcn.RArr 1 256) = Cert.Gcn.asRow (m ((c : Thread nD τ).loc main_arg4))) :
    (T7 m c main_v49 : Cert.Gcn.RArr 8192 256) = Cert.Gcn.lin (H0 m c) (m ((c : Thread nD τ).loc main_arg5)) (Cert.Gcn.zeroRow 256) :=
  (StableHlo.after_of_writes_sub hostOps2 (B6 m c) hostOps2_writes (by decide) : B7 m c (Proc.devRef .tc main_v49) = B6 m c (Proc.devRef .tc main_v49)).trans (v49_at6 m c hbias)
theorem v50_at7 : (T7 m c main_v50 : Cert.Gcn.RArr 1 256) = Cert.Gcn.asRow (m ((c : Thread nD τ).loc main_arg6)) := by
  have e : (T7 m c main_v50 : S1x256.Idx → EReal) = shapeCast S1x256 (B6 m c (Proc.devRef .tc main_arg6) : S256.Idx → EReal) shapeCasts_S256_S1x256 := by
    show StableHlo.after hostOps2 _ (Proc.devRef .tc main_v50) = _
    after_results
    rfl
  exact e.trans ((row_256 _).trans (congrArg Cert.Gcn.asRow (B6_untouched m c untouched_arg6)))
theorem v45_at7 : B7 m c (Proc.devRef .tc main_v45) = B3 m c (Proc.devRef .tc main_v45) :=
  (StableHlo.after_of_writes_sub hostOps2 (B6 m c) hostOps2_writes (by decide) : B7 m c (Proc.devRef .tc main_v45) = B6 m c (Proc.devRef .tc main_v45)).trans <| (B6_of_ne m c main_v45 (by decide)).trans (v45_at5 m c)

theorem v51_at8 (hadj : (T3 m c main_v45 : Cert.Gcn.RArr 8192 8192) = Adj m c)
    (hbias : (T3 m c main_v46 : Cert.Gcn.RArr 1 256) = Cert.Gcn.asRow (m ((c : Thread nD τ).loc main_arg4))) :
    (T8 m c main_v51 : Cert.Gcn.RArr 8192 256) = H1 m c :=
  (B8_out m c).trans <| (val2 (T7 m) c).trans <|
    agg_congr ((v45_at7 m c).trans hadj) (v49_at7 m c hbias) (v50_at7 m c)

theorem v51_at9 (hadj : (T3 m c main_v45 : Cert.Gcn.RArr 8192 8192) = Adj m c)
    (hbias : (T3 m c main_v46 : Cert.Gcn.RArr 1 256) = Cert.Gcn.asRow (m ((c : Thread nD τ).loc main_arg4))) :
    (T9 m c main_v51 : Cert.Gcn.RArr 8192 256) = H1 m c :=
  (StableHlo.after_of_writes_sub hostOps3 (B8 m c) hostOps3_writes (by decide) : B9 m c (Proc.devRef .tc main_v51) = B8 m c (Proc.devRef .tc main_v51)).trans (v51_at8 m c hadj hbias)
theorem v52_at9 : (T9 m c main_v52 : Cert.Gcn.RArr 1 256) = Cert.Gcn.zeroRow 256 := by
  have e : (T9 m c main_v52 : S1x256.Idx → EReal) = broadcastInDim S1x256 ![] bcast_S_S1x256 (constant (F := Ideal) S_ .f32 0x00000000#32) := by
    show StableHlo.after hostOps3 _ (Proc.devRef .tc main_v52) = _
    after_results
  exact e.trans zeros_1x256
theorem v45_at9 : B9 m c (Proc.devRef .tc main_v45) = B3 m c (Proc.devRef .tc main_v45) :=
  (StableHlo.after_of_writes_sub hostOps3 (B8 m c) hostOps3_writes (by decide) : B9 m c (Proc.devRef .tc main_v45) = B8 m c (Proc.devRef .tc main_v45)).trans <| (B8_of_ne m c main_v45 (by decide)).trans (v45_at7 m c)

theorem v53_at10 (hadj : (T3 m c main_v45 : Cert.Gcn.RArr 8192 8192) = Adj m c)
    (hbias : (T3 m c main_v46 : Cert.Gcn.RArr 1 256) = Cert.Gcn.asRow (m ((c : Thread nD τ).loc main_arg4))) :
    (T10 m c main_v53 : Cert.Gcn.RArr 8192 256) = Cert.Gcn.lin (H1 m c) (m ((c : Thread nD τ).loc main_arg7)) (Cert.Gcn.zeroRow 256) :=
  (B10_out m c).trans <| (val3 (T9 m) c).trans <|
    lin_congr (v51_at9 m c hadj hbias) (B9_untouched m c untouched_arg7) (v52_at9 m c)

theorem v53_at11 (hadj : (T3 m c main_v45 : Cert.Gcn.RArr 8192 8192) = Adj m c)
    (hbias : (T3 m c main_v46 : Cert.Gcn.RArr 1 256) = Cert.Gcn.asRow (m ((c : Thread nD τ).loc main_arg4))) :
    (T11 m c main_v53 : Cert.Gcn.RArr 8192 256) = Cert.Gcn.lin (H1 m c) (m ((c : Thread nD τ).loc main_arg7)) (Cert.Gcn.zeroRow 256) :=
  (StableHlo.after_of_writes_sub hostOps4 (B10 m c) hostOps4_writes (by decide) : B11 m c (Proc.devRef .tc main_v53) = B10 m c (Proc.devRef .tc main_v53)).trans (v53_at10 m c hadj hbias)
theorem v54_at11 : (T11 m c main_v54 : Cert.Gcn.RArr 1 256) = Cert.Gcn.asRow (m ((c : Thread nD τ).loc main_arg8)) := by
  have e : (T11 m c main_v54 : S1x256.Idx → EReal) = shapeCast S1x256 (B10 m c (Proc.devRef .tc main_arg8) : S256.Idx → EReal) shapeCasts_S256_S1x256 := by
    show StableHlo.after hostOps4 _ (Proc.devRef .tc main_v54) = _
    after_results
    rfl
  exact e.trans ((row_256 _).trans (congrArg Cert.Gcn.asRow (B10_untouched m c untouched_arg8)))
theorem v45_at11 : B11 m c (Proc.devRef .tc main_v45) = B3 m c (Proc.devRef .tc main_v45) :=
  (StableHlo.after_of_writes_sub hostOps4 (B10 m c) hostOps4_writes (by decide) : B11 m c (Proc.devRef .tc main_v45) = B10 m c (Proc.devRef .tc main_v45)).trans <| (B10_of_ne m c main_v45 (by decide)).trans (v45_at9 m c)

theorem v55_at12 (hadj : (T3 m c main_v45 : Cert.Gcn.RArr 8192 8192) = Adj m c)
    (hbias : (T3 m c main_v46 : Cert.Gcn.RArr 1 256) = Cert.Gcn.asRow (m ((c : Thread nD τ).loc main_arg4))) :
    (T12 m c main_v55 : Cert.Gcn.RArr 8192 256) = H2 m c :=
  (B12_out m c).trans <| (val4 (T11 m) c).trans <|
    agg_congr ((v45_at11 m c).trans hadj) (v53_at11 m c hadj hbias) (v54_at11 m c)

theorem v55_at13 (hadj : (T3 m c main_v45 : Cert.Gcn.RArr 8192 8192) = Adj m c)
    (hbias : (T3 m c main_v46 : Cert.Gcn.RArr 1 256) = Cert.Gcn.asRow (m ((c : Thread nD τ).loc main_arg4))) :
    (T13 m c main_v55 : Cert.Gcn.RArr 8192 256) = H2 m c :=
  (StableHlo.after_of_writes_sub hostOps5 (B12 m c) hostOps5_writes (by decide) : B13 m c (Proc.devRef .tc main_v55) = B12 m c (Proc.devRef .tc main_v55)).trans (v55_at12 m c hadj hbias)
theorem v56_at13 : (T13 m c main_v56 : Cert.Gcn.RArr 256 128) = Cert.Gcn.hcat (m ((c : Thread nD τ).loc main_arg9)) (m ((c : Thread nD τ).loc main_arg11)) := by
  have e : (T13 m c main_v56 : S256x128.Idx → EReal)
      = concatenate S256x128 1 [⟨S256x64, (B12 m c (Proc.devRef .tc main_arg9) : S256x64.Idx → EReal)⟩, ⟨S256x64, (B12 m c (Proc.devRef .tc main_arg11) : S256x64.Idx → EReal)⟩]
          concatenates_S256x64_S256x64_S256x128_d1 := by
    show StableHlo.after hostOps5 _ (Proc.devRef .tc main_v56) = _
    after_results
  exact e.trans ((cols_256x128 _ _).trans (congrArg₂ Cert.Gcn.hcat (B12_untouched m c untouched_arg9) (B12_untouched m c untouched_arg11)))
theorem v57_at13 : (T13 m c main_v57 : Cert.Gcn.RVec 128) = Cert.Gcn.vcat (m ((c : Thread nD τ).loc main_arg10)) (m ((c : Thread nD τ).loc main_arg12)) := by
  have e : (T13 m c main_v57 : S128.Idx → EReal)
      = concatenate S128 0 [⟨S64, (B12 m c (Proc.devRef .tc main_arg10) : S64.Idx → EReal)⟩, ⟨S64, (B12 m c (Proc.devRef .tc main_arg12) : S64.Idx → EReal)⟩]
          concatenates_S64_S64_S128_d0 := by
    show StableHlo.after hostOps5 _ (Proc.devRef .tc main_v57) = _
    after_results
  exact e.trans ((vec_128 _ _).trans (congrArg₂ Cert.Gcn.vcat (B12_untouched m c untouched_arg10) (B12_untouched m c untouched_arg12)))
theorem v58_at13 : (T13 m c main_v58 : Cert.Gcn.RArr 1 128) = Cert.Gcn.zeroRow 128 := by
  have e : (T13 m c main_v58 : S1x128.Idx → EReal) = broadcastInDim S1x128 ![] bcast_S_S1x128 (constant (F := Ideal) S_ .f32 0x00000000#32) := by
    show StableHlo.after hostOps5 _ (Proc.devRef .tc main_v58) = _
    after_results
  exact e.trans zeros_1x128
theorem v45_at13 : B13 m c (Proc.devRef .tc main_v45) = B3 m c (Proc.devRef .tc main_v45) :=
  (StableHlo.after_of_writes_sub hostOps5 (B12 m c) hostOps5_writes (by decide) : B13 m c (Proc.devRef .tc main_v45) = B12 m c (Proc.devRef .tc main_v45)).trans <| (B12_of_ne m c main_v45 (by decide)).trans (v45_at11 m c)

theorem v59_at14 (hadj : (T3 m c main_v45 : Cert.Gcn.RArr 8192 8192) = Adj m c)
    (hbias : (T3 m c main_v46 : Cert.Gcn.RArr 1 256) = Cert.Gcn.asRow (m ((c : Thread nD τ).loc main_arg4))) :
    (T14 m c main_v59 : Cert.Gcn.RArr 8192 128)
      = Cert.Gcn.lin (H2 m c) (Cert.Gcn.hcat (m ((c : Thread nD τ).loc main_arg9)) (m ((c : Thread nD τ).loc main_arg11))) (Cert.Gcn.zeroRow 128) :=
  (B14_out m c).trans <| (val5 (T13 m) c).trans <|
    lin_congr (v55_at13 m c hadj hbias) (v56_at13 m c) (v58_at13 m c)

theorem v57_at14 : (B14 m c (Proc.devRef .tc main_v57) : Cert.Gcn.RVec 128) = Cert.Gcn.vcat (m ((c : Thread nD τ).loc main_arg10)) (m ((c : Thread nD τ).loc main_arg12)) :=
  (B14_of_ne m c main_v57 (by decide)).trans (v57_at13 m c)

theorem v59_at15 (hadj : (T3 m c main_v45 : Cert.Gcn.RArr 8192 8192) = Adj m c)
    (hbias : (T3 m c main_v46 : Cert.Gcn.RArr 1 256) = Cert.Gcn.asRow (m ((c : Thread nD τ).loc main_arg4))) :
    (T15 m c main_v59 : Cert.Gcn.RArr 8192 128)
      = Cert.Gcn.lin (H2 m c) (Cert.Gcn.hcat (m ((c : Thread nD τ).loc main_arg9)) (m ((c : Thread nD τ).loc main_arg11))) (Cert.Gcn.zeroRow 128) :=
  (StableHlo.after_of_writes_sub hostOps6 (B14 m c) hostOps6_writes (by decide) : B15 m c (Proc.devRef .tc main_v59) = B14 m c (Proc.devRef .tc main_v59)).trans (v59_at14 m c hadj hbias)
theorem v60_at15 : (T15 m c main_v60 : Cert.Gcn.RArr 1 128) = Cert.Gcn.asRow (Cert.Gcn.vcat (m ((c : Thread nD τ).loc main_arg10)) (m ((c : Thread nD τ).loc main_arg12))) := by
  have e : (T15 m c main_v60 : S1x128.Idx → EReal) = shapeCast S1x128 (B14 m c (Proc.devRef .tc main_v57) : S128.Idx → EReal) shapeCasts_S128_S1x128 := by
    show StableHlo.after hostOps6 _ (Proc.devRef .tc main_v60) = _
    after_results
    rfl
  exact e.trans ((row_128 _).trans (congrArg Cert.Gcn.asRow (v57_at14 m c)))
theorem v45_at15 : B15 m c (Proc.devRef .tc main_v45) = B3 m c (Proc.devRef .tc main_v45) :=
  (StableHlo.after_of_writes_sub hostOps6 (B14 m c) hostOps6_writes (by decide) : B15 m c (Proc.devRef .tc main_v45) = B14 m c (Proc.devRef .tc main_v45)).trans <| (B14_of_ne m c main_v45 (by decide)).trans (v45_at13 m c)

theorem v61_at16 (hadj : (T3 m c main_v45 : Cert.Gcn.RArr 8192 8192) = Adj m c)
    (hbias : (T3 m c main_v46 : Cert.Gcn.RArr 1 256) = Cert.Gcn.asRow (m ((c : Thread nD τ).loc main_arg4))) :
    (T16 m c main_v61 : Cert.Gcn.RArr 8192 128) = MB m c :=
  (B16_out m c).trans <| (val6 (T15 m) c).trans <|
    agg_congr ((v45_at15 m c).trans hadj) (v59_at15 m c hadj hbias) (v60_at15 m c)

theorem v66_at17 (hadj : (T3 m c main_v45 : Cert.Gcn.RArr 8192 8192) = Adj m c)
    (hbias : (T3 m c main_v46 : Cert.Gcn.RArr 1 256) = Cert.Gcn.asRow (m ((c : Thread nD τ).loc main_arg4))) :
    (T17 m c main_v66 : Cert.Gcn.RArr 8192 64) = Z m c := by
  have e : (T17 m c main_v66 : S8192x64.Idx → EReal)
      = addf (mulf (B16 m c (Proc.devRef .tc main_arg2) : FVec Ideal S8192x64 .f32)
            (Host.exp (extractStridedSlice S8192x64 ![0, 64] (B16 m c (Proc.devRef .tc main_v61) : S8192x128.Idx → EReal) slices_S8192x128_S8192x64_0_64 : FVec Ideal S8192x64 .f32)))
          (extractStridedSlice S8192x64 ![0, 0] (B16 m c (Proc.devRef .tc main_v61) : S8192x128.Idx → EReal) slices_S8192x128_S8192x64_0_0 : FVec Ideal S8192x64 .f32) := by
    show StableHlo.after hostOps7 _ (Proc.devRef .tc main_v66) = _
    after_results
  refine e.trans ((sample_8192 _ _ _).trans ?_)
  rw [left_8192, right_8192]
  unfold Z
  rw [← v61_at16 m c hadj hbias, B16_untouched m c untouched_arg2]

theorem kernel_value_of (hadj : (T3 m c main_v45 : Cert.Gcn.RArr 8192 8192) = Adj m c)
    (hbias : (T3 m c main_v46 : Cert.Gcn.RArr 1 256) = Cert.Gcn.asRow (m ((c : Thread nD τ).loc main_arg4))) :
    (B18 m c (Proc.devRef .tc main_v67) : S8192x8192.Idx → EReal)
      = Cert.Gcn.kernelForm (Cert.Gcn.srcOf (m ((c : Thread nD τ).loc main_arg1))) (Cert.Gcn.dstOf (m ((c : Thread nD τ).loc main_arg1)))
          (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (B18_out m c).trans <| (val7 (T17 m) c).trans <| (congrArg Cert.Gcn.dec (v66_at17 m c hadj hbias)).trans rfl

end Cert.KernelIdeal.Hand.KV

end
-- ==== Proof.KI.HostAdjDefs.lean ====
import proofs.«407141_j11613591568667_1_alg».proof.Proof.Gen.KernelIdeal
import Idealize.ShloMosaic.PureOps.Ideal

noncomputable section

namespace Cert.KernelIdeal.Hand

open Cert.KernelIdeal
open Idealize.ShloMosaic

def srcW (ei : IVec S2x262144 32) : IVec S270336 32 :=
  concatenate S270336 0 [⟨S262144, shapeCast S262144 (extractStridedSlice S1x262144 ![0, 0] ei Facts₀.slices_S2x262144_S1x262144_0_0) Facts₀.shapeCasts_S1x262144_S262144⟩, ⟨S8192, iotaInDim S8192 32 0⟩] Facts₀.concatenates_S262144_S8192_S270336_d0

def dstW (ei : IVec S2x262144 32) : IVec S270336 32 :=
  concatenate S270336 0 [⟨S262144, shapeCast S262144 (extractStridedSlice S1x262144 ![1, 0] ei Facts₀.slices_S2x262144_S1x262144_1_0) Facts₀.shapeCasts_S1x262144_S262144⟩, ⟨S8192, iotaInDim S8192 32 0⟩] Facts₀.concatenates_S262144_S8192_S270336_d0

def wrapW (w : IVec S270336 32) : IVec S270336 32 :=
  select (cmpi .slt w (broadcastInDim S270336 ![] Facts₀.bcast_S_S270336 (constantI S_ 32 0#32)))
    (addi w (broadcastInDim S270336 ![] Facts₀.bcast_S_S270336 (constantI S_ 32 8192#32))) w

def colW (w : IVec S270336 32) : IVec S270336x1 32 := broadcastInDim S270336x1 ![0] Facts₀.bcast_S270336_S270336x1_0 w

def degV (d : IVec S270336 32) : FVec Ideal S8192 .f32 :=
  Host.scatterAdd scatter_S8192_S270336x1_S270336_n_0_0_1
    (broadcastInDim S8192 ![] Facts₀.bcast_S_S8192 (constant (F := Ideal) S_ .f32 0x00000000#32))
    (colW d)
    (broadcastInDim S270336 ![] Facts₀.bcast_S_S270336 (constant (F := Ideal) S_ .f32 0x3F800000#32))

def dinvV (d : IVec S270336 32) : FVec Ideal S8192 .f32 :=
  select (cmpf .ogt (degV d) (broadcastInDim S8192 ![] Facts₀.bcast_S_S8192 (constant (F := Ideal) S_ .f32 0x00000000#32)))
    (Host.rsqrt (degV d))
    (broadcastInDim S8192 ![] Facts₀.bcast_S_S8192 (id (constant (F := Ideal) S_ .f32 0x00000000#32)))

def normV (s d : IVec S270336 32) (dv : FVec Ideal S8192 .f32) : FVec Ideal S270336 .f32 :=
  mulf (Host.gather gather_S8192_S270336x1_S270336_n_0_n_n_0_1_1 dv (colW (wrapW s)))
    (Host.gather gather_S8192_S270336x1_S270336_n_0_n_n_0_1_1 dv (colW (wrapW d)))

def pairW (s d : IVec S270336 32) : IVec S270336x2 32 :=
  concatenate S270336x2 1 [⟨S270336x1, colW (wrapW d)⟩, ⟨S270336x1, colW (wrapW s)⟩] Facts₀.concatenates_S270336x1_S270336x1_S270336x2_d1

def adjV (s d : IVec S270336 32) (dv : FVec Ideal S8192 .f32) : FVec Ideal S8192x8192 .bf16 :=
  truncf .bf16 (Host.scatterAdd scatter_S8192x8192_S270336x2_S270336_n_01_01_1
    (broadcastInDim S8192x8192 ![] Facts₀.bcast_S_S8192x8192 (constant (F := Ideal) S_ .f32 0x00000000#32)) (pairW s d) (normV s d dv)) Facts₀.bitsLt_bf16_f32

end Cert.KernelIdeal.Hand

end
-- ==== Proof.KI.HostAdj.lean ====
import proofs.«407141_j11613591568667_1_alg».proof.Proof.KI.Fold
import proofs.«407141_j11613591568667_1_alg».proof.Proof.KI.HostAdjDefs
import proofs.«407141_j11613591568667_1_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx

section Stretches
variable (V : Valuation τ sig (Elt Ideal))

theorem h0_v3 : (StableHlo.after hostOps0 V main_v3 : IVec S270336 32) = srcW (V main_arg1) := by
  simp only [hostOps0]; after_results_simp; rfl

theorem h0_v6 : (StableHlo.after hostOps0 V main_v6 : IVec S270336 32) = dstW (V main_arg1) := by
  simp only [hostOps0]; after_results_simp; rfl

theorem h0_v12 : (StableHlo.after hostOps0 V main_v12 : IVec S8192 1)
    = cmpf .ogt (degV (dstW (V main_arg1))) (broadcastInDim S8192 ![] Facts₀.bcast_S_S8192 (constant (F := Ideal) S_ .f32 0x00000000#32)) := by
  simp only [hostOps0]; after_results_simp; rfl

theorem h0_v13 : (StableHlo.after hostOps0 V main_v13 : FVec Ideal S8192 .f32) = Host.rsqrt (degV (dstW (V main_arg1))) := by
  simp only [hostOps0]; after_results_simp; rfl

theorem h0_cst2 : (StableHlo.after hostOps0 V main_cst_2 : FVec Ideal S_ .f32) = constant (F := Ideal) S_ .f32 0x00000000#32 := by
  simp only [hostOps0]; after_results_simp

theorem h1_v14 : (StableHlo.after hostOps0_1 V main_v14 : FVec Ideal S8192 .f32)
    = select (V main_v12 : IVec S8192 1) (V main_v13 : FVec Ideal S8192 .f32) (broadcastInDim S8192 ![] Facts₀.bcast_S_S8192 (id (V main_cst_2 : FVec Ideal S_ .f32))) := by
  simp only [hostOps0_1]; after_results_simp; rfl

theorem h2_v45 : (StableHlo.after hostOps0_2 V main_v45 : FVec Ideal S8192x8192 .bf16) = adjV (V main_v3) (V main_v6) (V main_v14) := by
  simp only [hostOps0_2]; after_results_simp; rfl

theorem h2_v46 : (StableHlo.after hostOps0_2 V main_v46 : FVec Ideal S1x256 .f32)
    = shapeCast S1x256 (V main_arg4 : FVec Ideal S256 .f32) Facts₀.shapeCasts_S256_S1x256 := by
  simp only [hostOps0_2]; after_results_simp; rfl

end Stretches

variable (m : (ℓ : Loc nD τ sig) → Buf (Elt Ideal) ℓ) (c : Dev nD)

theorem B2_v3 : (B2 m c main_v3 : IVec S270336 32) = srcW (m ((c : Thread nD τ).loc main_arg1)) :=
  (V2_of m c main_v3 (by decide)).trans (h0_v3 (B0 m c))

theorem B2_v6 : (B2 m c main_v6 : IVec S270336 32) = dstW (m ((c : Thread nD τ).loc main_arg1)) :=
  (V2_of m c main_v6 (by decide)).trans (h0_v6 (B0 m c))

theorem B2_v14 : (B2 m c main_v14 : FVec Ideal S8192 .f32) = dinvV (dstW (m ((c : Thread nD τ).loc main_arg1))) := by
  have e12 : (B1 m c main_v12 : IVec S8192 1) = _ := h0_v12 (B0 m c)
  have e13 : (B1 m c main_v13 : FVec Ideal S8192 .f32) = _ := h0_v13 (B0 m c)
  have e2 : (B1 m c main_cst_2 : FVec Ideal S_ .f32) = _ := h0_cst2 (B0 m c)
  refine (h1_v14 (B1 m c)).trans ?_
  rw [e12, e13, e2]
  rfl

theorem B2_arg4 : (B2 m c main_arg4 : FVec Ideal S256 .f32) = m ((c : Thread nD τ).loc main_arg4) :=
  (V2_of m c main_arg4 (by decide)).trans (V1_of m c main_arg4 (by decide))

theorem T3_v45 : (T3 m c main_v45 : FVec Ideal S8192x8192 .bf16)
    = adjV (srcW (m ((c : Thread nD τ).loc main_arg1))) (dstW (m ((c : Thread nD τ).loc main_arg1)))
        (dinvV (dstW (m ((c : Thread nD τ).loc main_arg1)))) := by
  refine (h2_v45 (B2 m c)).trans ?_
  rw [B2_v3, B2_v6, B2_v14]

theorem bias0_value : (T3 m c main_v46 : S1x256.Idx → EReal) = Cert.Gcn.asRow (m ((c : Thread nD τ).loc main_arg4)) := by
  funext j
  refine (congrFun (h2_v46 (B2 m c)) j).trans ?_
  rw [B2_arg4]
  refine shapeCast_apply _ Facts₀.shapeCasts_S256_S1x256 j (ix1 (j 1)) ?_
  rw [Shape.rowMajor_val_two, Shape.rowMajor_val_one]
  have h0 : (j 0).val = 0 := by have := idx2_lt0 j; omega
  show (j 1).val = (j 0).val * 256 + (j 1).val
  omega

end Cert.KernelIdeal.Hand

end
-- ==== Proof.LibScatterPoint.lean ====
import Idealize.ShloMosaic.PureOps.Ideal
import Idealize.ShloMosaic.Lib.ValueIdx
import proofs.«407141_j11613591568667_1_alg».proof.Proof.LibGatherScatter

noncomputable section

open scoped BigOperators

namespace Cert.LibGS

open Idealize.ShloMosaic Idealize.ShloMosaic.ValueIdx

section ScatterPoint
variable {N M n : Nat} (d : ScatterDims (Sh N M) (Sh n 2) ⟨1, ![n]⟩)

theorem spoint_siIdx (hivd : d.indexVectorDim = 1) (j : (⟨1, ![n]⟩ : Shape).Idx)
    (k : Fin d.scatterDimsToOperandDims.length) (c : Fin 2) (hc : k.val = c.val) : d.siIdx j k = ix2 (j 0) c := by
  funext b
  match b with
  | ⟨0, _⟩ =>
    unfold ScatterDims.siIdx
    rw [dif_neg (by rw [hivd]; exact Nat.zero_ne_one)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    exact hc

theorem spoint_start_zero (hsd : d.scatterDimsToOperandDims = [0, 1]) (hivd : d.indexVectorDim = 1)
    (idx : IVec (Sh n 2) 32) (j : (⟨1, ![n]⟩ : Shape).Idx) : d.start j idx (0 : Fin 2) = (idx (ix2 (j 0) 0)).toInt := by
  have hm : (0 : Fin 2) ∈ d.scatterDimsToOperandDims := by rw [hsd]; exact List.mem_cons_self
  have hpos : d.scatterDimsToOperandDims.idxOf (0 : Fin 2) = 0 := by rw [hsd]; rfl
  unfold ScatterDims.start
  rw [dif_pos hm, spoint_siIdx d hivd j _ 0 hpos]
  rfl

theorem spoint_start_one (hsd : d.scatterDimsToOperandDims = [0, 1]) (hivd : d.indexVectorDim = 1)
    (idx : IVec (Sh n 2) 32) (j : (⟨1, ![n]⟩ : Shape).Idx) : d.start j idx (1 : Fin 2) = (idx (ix2 (j 0) 1)).toInt := by
  have hm : (1 : Fin 2) ∈ d.scatterDimsToOperandDims := by
    rw [hsd]; exact List.mem_cons_of_mem _ List.mem_cons_self
  have hpos : d.scatterDimsToOperandDims.idxOf (1 : Fin 2) = 1 := by rw [hsd]; rfl
  unfold ScatterDims.start
  rw [dif_pos hm, spoint_siIdx d hivd j _ 1 hpos]
  rfl

theorem spoint_window (hiw : d.insertedWindowDims = [0, 1]) (j : (⟨1, ![n]⟩ : Shape).Idx) (a : Fin 2) :
    d.window j a = 0 := by
  have hk : a ∉ d.sKept := by
    intro h
    have := (List.mem_filter.1 h).2
    rw [hiw] at this
    match a with
    | ⟨0, _⟩ => simp at this
    | ⟨1, _⟩ => simp at this
  unfold ScatterDims.window
  rw [dif_neg hk]

theorem spoint_resultIdx_iff (hiw : d.insertedWindowDims = [0, 1]) (hsd : d.scatterDimsToOperandDims = [0, 1])
    (hivd : d.indexVectorDim = 1) (idx : IVec (Sh n 2) 32) (j : (⟨1, ![n]⟩ : Shape).Idx) (t : (Sh N M).Idx) :
    d.resultIdx? j idx = some t
      ↔ (idx (ix2 (j 0) 0)).toInt = ((t 0).val : ℤ) ∧ (idx (ix2 (j 0) 1)).toInt = ((t 1).val : ℤ) := by
  have hs0 := spoint_start_zero d hsd hivd idx j
  have hs1 := spoint_start_one d hsd hivd idx j
  have hw0 := spoint_window d hiw j 0
  have hw1 := spoint_window d hiw j 1
  have ht0 : (t 0).val < N := idx2_lt0 t
  have ht1 : (t 1).val < M := idx2_lt1 t
  constructor
  · intro h
    unfold ScatterDims.resultIdx? at h
    split at h
    · rename_i hh
      have hf := Option.some.inj h
      have h0 : (d.start j idx (0 : Fin 2) + d.window j (0 : Fin 2)).toNat = (t 0).val :=
        congrArg (fun f : (Sh N M).Idx => (f 0).val) hf
      have h1 : (d.start j idx (1 : Fin 2) + d.window j (1 : Fin 2)).toNat = (t 1).val :=
        congrArg (fun f : (Sh N M).Idx => (f 1).val) hf
      have hh0 := (hh (0 : Fin 2)).1
      have hh1 := (hh (1 : Fin 2)).1
      rw [hs0, hw0] at h0 hh0
      rw [hs1, hw1] at h1 hh1
      constructor <;> omega
    · exact absurd h (by simp)
  · rintro ⟨h0, h1⟩
    have hh : ∀ a, 0 ≤ d.start j idx a + d.window j a ∧ d.start j idx a + d.window j a < (Sh N M).size a := by
      intro a
      match a with
      | ⟨0, _⟩ =>
        show 0 ≤ d.start j idx (0 : Fin 2) + d.window j (0 : Fin 2) ∧ d.start j idx (0 : Fin 2) + d.window j (0 : Fin 2) < (N : ℤ)
        rw [hs0, hw0, h0]
        omega
      | ⟨1, _⟩ =>
        show 0 ≤ d.start j idx (1 : Fin 2) + d.window j (1 : Fin 2) ∧ d.start j idx (1 : Fin 2) + d.window j (1 : Fin 2) < (M : ℤ)
        rw [hs1, hw1, h1]
        omega
    unfold ScatterDims.resultIdx?
    rw [dif_pos hh]
    congr 1
    funext a
    apply Fin.ext
    match a with
    | ⟨0, _⟩ =>
      show (d.start j idx (0 : Fin 2) + d.window j (0 : Fin 2)).toNat = (t 0).val
      rw [hs0, hw0, h0]
      omega
    | ⟨1, _⟩ =>
      show (d.start j idx (1 : Fin 2) + d.window j (1 : Fin 2)).toNat = (t 1).val
      rw [hs1, hw1, h1]
      omega

theorem scatterAdd_point_gen (huw : d.updateWindowDims = []) (hiw : d.insertedWindowDims = [0, 1])
    (hsd : d.scatterDimsToOperandDims = [0, 1]) (hivd : d.indexVectorDim = 1)
    (x : RArr N M) (idx : IVec (Sh n 2) 32) (u : (⟨1, ![n]⟩ : Shape).Idx → EReal) (i : Fin N) (k : Fin M) :
    Ideal.hostScatterAdd d x idx u (ix2 i k)
      = x (ix2 i k) + ∑ e ∈ Finset.univ.filter (fun e : Fin n =>
          (idx (ix2 e 0)).toInt = (i.val : ℤ) ∧ (idx (ix2 e 1)).toInt = (k.val : ℤ)), u (ix1 e) := by
  have key := fun j => spoint_resultIdx_iff d hiw hsd hivd idx j (ix2 i k)
  unfold Ideal.hostScatterAdd
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j hj
    exact (eq_ix1 j).symm
  · intro e he
    rfl
  · intro j hj
    exact congrArg u (eq_ix1 j)

end ScatterPoint

end Cert.LibGS

end
-- ==== Proof.KI.HostAdjMath.lean ====
import proofs.«407141_j11613591568667_1_alg».proof.Proof.KI.HostAdjDefs
import proofs.«407141_j11613591568667_1_alg».proof.Proof.EdgeIdx
import proofs.«407141_j11613591568667_1_alg».proof.Proof.LibScatterPoint
import Idealize.ShloMosaic.Lib.Pipeline.Value
import Idealize.ShloMosaic.Lib.IdealHost
import Idealize.ShloMosaic.PureOps.Ideal.Laws

noncomputable section

open scoped BigOperators

namespace Cert.KernelIdeal.Hand

namespace AdjMath

open Cert.KernelIdeal Cert.KernelIdeal.Gen Cert.Gcn Idealize.ShloMosaic Idealize.ShloMosaic.ValueIdx

theorem wrap_free (w : BitVec 32) (h0 : 0 ≤ w.toInt) :
    Scalar.select (IntOp.cmpi .slt w 0#32) (IntOp.addi w 8192#32) w = w := by
  have hs : w.slt 0#32 = false := by
    rw [BitVec.slt_eq_decide]
    have : (0#32 : BitVec 32).toInt = 0 := by decide
    rw [this]
    exact decide_eq_false (by omega)
  have hc : IntOp.cmpi .slt w 0#32 = 0#1 := by
    show BitVec.ofBool (w.slt 0#32) = 0#1
    rw [hs]; rfl
  rw [hc]
  exact select_zero _ _

theorem word_eq_iff {ei : EdgeWords} (hin : InRange ei) (row : Fin 2) (e : Fin 270336) (i : Fin 8192) :
    (wordOf ei row e).toInt = (i.val : ℤ) ↔ nodeOf (wordOf ei row e) = i := by
  have h := wordOf_inRange hin row e
  have hv := nodeOf_val h.1 h.2
  constructor
  · intro hw
    apply Fin.ext
    omega
  · intro hn
    rw [← hn]
    exact hv.symm

theorem cat_at (hc : Shape.Concatenates [S262144, S8192] S270336 0)
    (a : S262144.Idx → BitVec 32) (b : S8192.Idx → BitVec 32) (e : Fin 270336) :
    concatenate S270336 0 [⟨S262144, a⟩, ⟨S8192, b⟩] hc (ix1 e)
      = if h : e.val < 262144 then a (ix1 ⟨e.val, h⟩) else b (ix1 ⟨e.val - 262144, by have := e.isLt; omega⟩) := by
  split
  · rename_i h
    exact concatenate_pair_apply_left (0 : Fin 1) a _ hc (ix1 e) rfl (ix1 ⟨e.val, h⟩)
      (fun b => by
        match b with
        | ⟨0, _⟩ => rfl)
  · rename_i h
    have he : e.val - 262144 < 8192 := by have := e.isLt; omega
    exact concatenate_pair_apply_right (0 : Fin 1) a b hc (ix1 e) rfl rfl
      (ix1 ⟨e.val - 262144, he⟩)
      (fun b hb => absurd (Subsingleton.elim (α := Fin 1) _ _) hb)
      (by show e.val - 262144 + 262144 = e.val; omega)

theorem row_at (ei : IVec S2x262144 32) (r : Fin 2) (off : Fin 2 → Nat) (hoff : off = ![r.val, 0])
    (hs : S2x262144.Slices off S1x262144) (hsc : S1x262144.ShapeCasts S262144) (e : Fin 262144) :
    shapeCast S262144 (extractStridedSlice S1x262144 off ei hs) hsc (ix1 e) = ei (ix2 r e) := by
  subst hoff
  rw [shapeCast_apply _ hsc (ix1 e) (ix2 (0 : Fin 1) e)
    (by rewrite [Shape.rowMajor_val_two, Shape.rowMajor_val_one]; show 0 * 262144 + e.val = e.val; omega)]
  exact extractStridedSlice_apply _ ei hs (ix2 (0 : Fin 1) e) (ix2 r e) (fun a => match a with
    | ⟨0, _⟩ => by show r.val = r.val + 0; omega
    | ⟨1, _⟩ => by show e.val = 0 + e.val; omega)

theorem pair_left (hc : Shape.Concatenates [S270336x1, S270336x1] S270336x2 1)
    (a b : S270336x1.Idx → BitVec 32) (e : Fin 270336) :
    concatenate S270336x2 1 [⟨S270336x1, a⟩, ⟨S270336x1, b⟩] hc (ix2 e (0 : Fin 2)) = a (ix2 e 0) :=
  concatenate_pair_apply_left (1 : Fin 2) a b hc (ix2 e (0 : Fin 2)) rfl (ix2 e 0)
    (fun k => by
      match k with
      | ⟨0, _⟩ => rfl
      | ⟨1, _⟩ => rfl)

theorem pair_right (hc : Shape.Concatenates [S270336x1, S270336x1] S270336x2 1)
    (a b : S270336x1.Idx → BitVec 32) (e : Fin 270336) :
    concatenate S270336x2 1 [⟨S270336x1, a⟩, ⟨S270336x1, b⟩] hc (ix2 e (1 : Fin 2)) = b (ix2 e 0) :=
  concatenate_pair_apply_right (1 : Fin 2) a b hc (ix2 e (1 : Fin 2)) rfl rfl (ix2 e 0)
    (fun k hk => by
      match k with
      | ⟨0, _⟩ => rfl
      | ⟨1, _⟩ => exact absurd rfl hk)
    (by show 0 + 1 = 1; rfl)

theorem deg_stage {ei : EdgeWords} (hin : InRange ei)
    (zeros : S8192.Idx → EReal) (hz : ∀ i, zeros i = 0)
    (idx : IVec S270336x1 32) (hidx : ∀ e : Fin 270336, idx (ix2 e 0) = wordOf ei 1 e)
    (ones : S270336.Idx → EReal) (ho : ∀ e, ones e = 1) (i : Fin 8192) :
    Ideal.hostScatterAdd scatter_S8192_S270336x1_S270336_n_0_0_1 zeros idx ones (ix1 i) = deg (dstOf ei) i := by
  rw [Cert.LibGS.scatterAdd_vec_gen scatter_S8192_S270336x1_S270336_n_0_0_1 rfl rfl rfl, hz, zero_add]
  unfold deg
  refine Finset.sum_congr ?_ (fun e _ => ho _)
  ext e
  simp only [Finset.mem_filter, Finset.mem_univ, true_and]
  rw [hidx]
  exact word_eq_iff hin 1 e i

theorem dinv_sel (dg : EReal) :
    Scalar.select (Ideal.cmp .ogt dg 0) (Ideal.rsqrt dg) 0 = if 0 < dg then Ideal.rsqrt dg else 0 := by
  show (if BitVec.ofBool (decide ((0 : EReal) < dg)) = 1#1 then Ideal.rsqrt dg else 0) = _
  by_cases h : (0 : EReal) < dg
  · rw [if_pos h, decide_eq_true h]; rfl
  · rw [if_neg h, decide_eq_false h]; rfl

theorem gvec_stage {ei : EdgeWords} (row : Fin 2)
    (t : S8192.Idx → EReal) (idx : IVec S270336x1 32) (hidx : ∀ e : Fin 270336, idx (ix2 e 0) = wordOf ei row e)
    (e : Fin 270336) :
    Host.gather gather_S8192_S270336x1_S270336_n_0_n_n_0_1_1 t idx (ix1 e) = t (ix1 (nodeOf (wordOf ei row e))) := by
  rw [Cert.LibGS.gather_vec_gen (by decide) gather_S8192_S270336x1_S270336_n_0_n_n_0_1_1 rfl rfl rfl rfl, hidx]
  rfl

theorem adj_stage {ei : EdgeWords} (hin : InRange ei)
    (zeros : S8192x8192.Idx → EReal) (hz : ∀ j, zeros j = 0)
    (idx : IVec S270336x2 32) (h0 : ∀ e : Fin 270336, idx (ix2 e 0) = wordOf ei 1 e)
    (h1 : ∀ e : Fin 270336, idx (ix2 e 1) = wordOf ei 0 e)
    (u : S270336.Idx → EReal) (hu : ∀ e : Fin 270336, u (ix1 e) = nrm (srcOf ei) (dstOf ei) e) (i k : Fin 8192) :
    Ideal.hostScatterAdd scatter_S8192x8192_S270336x2_S270336_n_01_01_1 zeros idx u (ix2 i k)
      = adj (srcOf ei) (dstOf ei) (nrm (srcOf ei) (dstOf ei)) (ix2 i k) := by
  rw [Cert.LibGS.scatterAdd_point_gen scatter_S8192x8192_S270336x2_S270336_n_01_01_1 rfl rfl rfl rfl, hz, zero_add]
  unfold adj
  refine Finset.sum_congr ?_ (fun e _ => hu e)
  ext e
  simp only [Finset.mem_filter, Finset.mem_univ, true_and]
  rw [h0, h1, word_eq_iff hin 1 e i, word_eq_iff hin 0 e k, Fin.ext_iff, Fin.ext_iff]
  rfl

theorem zeros_at {T : Shape} (h : S_.BroadcastsInDim T ![]) (j : T.Idx) :
    broadcastInDim T ![] h (constant (F := Ideal) S_ .f32 0x00000000#32) j = (0 : EReal) := by
  rw [broadcastInDim_scalar_apply]
  exact Ideal.ofBits_zero_f32

theorem ones_at {T : Shape} (h : S_.BroadcastsInDim T ![]) (j : T.Idx) :
    broadcastInDim T ![] h (constant (F := Ideal) S_ .f32 0x3F800000#32) j = (1 : EReal) := by
  rw [broadcastInDim_scalar_apply]
  exact Ideal.ofBits_one_f32

theorem dinv_vec (dgv : FVec Ideal S8192 .f32) (h h' : S_.BroadcastsInDim S8192 ![]) (i : S8192.Idx) :
    select (cmpf .ogt dgv (broadcastInDim S8192 ![] h (constant (F := Ideal) S_ .f32 0x00000000#32))) (Host.rsqrt dgv)
        (broadcastInDim S8192 ![] h' (id (constant (F := Ideal) S_ .f32 0x00000000#32))) i
      = if 0 < dgv i then Ideal.rsqrt (dgv i) else 0 := by
  rw [select_apply, cmpf_apply, zeros_at, Ideal.cmpf_def]
  have hz : broadcastInDim S8192 ![] h' (id (constant (F := Ideal) S_ .f32 0x00000000#32)) i = (0 : EReal) := zeros_at h' i
  rw [hz]
  exact dinv_sel (dgv i)

theorem srcW_at (ei : IVec S2x262144 32) (e : Fin 270336) : srcW ei (ix1 e) = wordOf ei 0 e := by
  unfold srcW
  rw [cat_at]
  unfold wordOf
  split
  · rename_i h
    exact row_at ei 0 _ rfl _ _ ⟨e.val, h⟩
  · rfl

theorem dstW_at (ei : IVec S2x262144 32) (e : Fin 270336) : dstW ei (ix1 e) = wordOf ei 1 e := by
  unfold dstW
  rw [cat_at]
  unfold wordOf
  split
  · rename_i h
    exact row_at ei 1 _ rfl _ _ ⟨e.val, h⟩
  · rfl

theorem wrapW_at (w : IVec S270336 32) (i : S270336.Idx) (h0 : 0 ≤ (w i).toInt) : wrapW w i = w i := by
  unfold wrapW
  show Scalar.select (IntOp.cmpi .slt (w i) (broadcastInDim S270336 ![] _ (constantI S_ 32 0#32) i))
    (IntOp.addi (w i) (broadcastInDim S270336 ![] _ (constantI S_ 32 8192#32) i)) (w i) = w i
  rw [broadcastInDim_scalar_apply, broadcastInDim_scalar_apply]
  exact wrap_free _ h0

theorem colW_at (w : IVec S270336 32) (e : Fin 270336) : colW w (ix2 e 0) = w (ix1 e) := by
  unfold colW
  exact broadcastInDim_apply _ _ w (ix2 e 0) (ix1 e) (fun a => match a with
    | ⟨0, _⟩ => by show e.val = if (270336 : Nat) = 1 then 0 else e.val; rw [if_neg (by decide)])

section Chain

variable {ei : IVec S2x262144 32} (hin : InRange ei)

include hin in

theorem srcCol_at (e : Fin 270336) : colW (wrapW (srcW ei)) (ix2 e 0) = wordOf ei 0 e := by
  rw [colW_at, wrapW_at _ _ (by rw [srcW_at]; exact (wordOf_inRange hin 0 e).1), srcW_at]

include hin in

theorem dstCol_at (e : Fin 270336) : colW (wrapW (dstW ei)) (ix2 e 0) = wordOf ei 1 e := by
  rw [colW_at, wrapW_at _ _ (by rw [dstW_at]; exact (wordOf_inRange hin 1 e).1), dstW_at]

include hin in

theorem degV_at (i : Fin 8192) : degV (dstW ei) (ix1 i) = deg (dstOf ei) i := by
  unfold degV
  exact deg_stage hin _ (zeros_at _) _ (fun e => (colW_at _ e).trans (dstW_at ei e)) _ (ones_at _) i

include hin in

theorem dinvV_at (i : Fin 8192) : dinvV (dstW ei) (ix1 i) = dinv (dstOf ei) i := by
  unfold dinvV
  rw [dinv_vec, degV_at hin]
  rfl

include hin in

theorem normV_at (e : Fin 270336) :
    normV (srcW ei) (dstW ei) (dinvV (dstW ei)) (ix1 e) = nrm (srcOf ei) (dstOf ei) e := by
  unfold normV
  show Host.gather gather_S8192_S270336x1_S270336_n_0_n_n_0_1_1 (dinvV (dstW ei)) (colW (wrapW (srcW ei))) (ix1 e)
      * Host.gather gather_S8192_S270336x1_S270336_n_0_n_n_0_1_1 (dinvV (dstW ei)) (colW (wrapW (dstW ei))) (ix1 e) = _
  rw [gvec_stage 0 _ _ (srcCol_at hin) e, gvec_stage 1 _ _ (dstCol_at hin) e, dinvV_at hin, dinvV_at hin]
  rfl

include hin in

theorem adjV_at (i k : Fin 8192) :
    adjV (srcW ei) (dstW ei) (dinvV (dstW ei)) (ix2 i k) = adj (srcOf ei) (dstOf ei) (nrm (srcOf ei) (dstOf ei)) (ix2 i k) := by
  have h0 : ∀ e : Fin 270336, pairW (srcW ei) (dstW ei) (ix2 e 0) = wordOf ei 1 e := fun e => by
    unfold pairW; rw [pair_left]; exact dstCol_at hin e
  have h1 : ∀ e : Fin 270336, pairW (srcW ei) (dstW ei) (ix2 e 1) = wordOf ei 0 e := fun e => by
    unfold pairW; rw [pair_right]; exact srcCol_at hin e
  unfold adjV
  rw [truncf_apply]
  exact adj_stage hin _ (zeros_at _) _ h0 h1 _ (normV_at hin) i k

end Chain

end AdjMath

open Cert.KernelIdeal Cert.Gcn Idealize.ShloMosaic Idealize.ShloMosaic.ValueIdx in

theorem adjV_eq (ei : IVec S2x262144 32) (hin : InRange ei) :
    adjV (srcW ei) (dstW ei) (dinvV (dstW ei)) = adj (srcOf ei) (dstOf ei) (nrm (srcOf ei) (dstOf ei)) := by
  funext j
  obtain ⟨i, k, rfl⟩ : ∃ (i k : Fin 8192), j = ix2 i k := ⟨j 0, j 1, eq_ix2 j⟩
  exact AdjMath.adjV_at hin i k

end Cert.KernelIdeal.Hand

end
-- ==== Proof.KI.HostAdjValue.lean ====
import proofs.«407141_j11613591568667_1_alg».proof.Proof.KI.HostAdj
import proofs.«407141_j11613591568667_1_alg».proof.Proof.KI.HostAdjMath

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (c : Dev nD)

theorem adj_value (hin : Cert.Gcn.InRange (m ((c : Thread nD τ).loc main_arg1))) :
    (T3 m c main_v45 : S8192x8192.Idx → EReal)
      = Cert.Gcn.adj (Cert.Gcn.srcOf (m ((c : Thread nD τ).loc main_arg1))) (Cert.Gcn.dstOf (m ((c : Thread nD τ).loc main_arg1)))
          (Cert.Gcn.nrm (Cert.Gcn.srcOf (m ((c : Thread nD τ).loc main_arg1))) (Cert.Gcn.dstOf (m ((c : Thread nD τ).loc main_arg1)))) :=
  (T3_v45 m c).trans (adjV_eq _ hin)

end Cert.KernelIdeal.Hand

end
-- ==== Proof.KI.KernelValue.lean ====
import proofs.«407141_j11613591568667_1_alg».proof.Proof.KI.KernelValueA
import proofs.«407141_j11613591568667_1_alg».proof.Proof.KI.HostAdjValue

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (c : Dev nD)

theorem kernel_value (hin : Cert.Gcn.InRange (m ((c : Thread nD τ).loc main_arg1))) :
    (B18 m c (Proc.devRef .tc main_v67) : S8192x8192.Idx → EReal)
      = Cert.Gcn.kernelForm (Cert.Gcn.srcOf (m ((c : Thread nD τ).loc main_arg1))) (Cert.Gcn.dstOf (m ((c : Thread nD τ).loc main_arg1)))
          (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  KV.kernel_value_of m c (adj_value m c hin) (bias0_value m c)

end Cert.KernelIdeal.Hand

end
-- ==== Proof.RefRun.lean ====
import proofs.«407141_j11613591568667_1_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

-- The reference's main function as the list of its operations, in order.
abbrev ops : List (HloOp τ sig (Elt F)) :=
  [ nullary main_v0 (iotaInDim S8192 32 0),
    unary main_arg1 main_v1 ((extractStridedSlice S1x262144 ![0, 0] · slices_S2x262144_S1x262144_0_0) : (⟨S2x262144, .i32⟩ : BufTy).Contents (Elt F) → (⟨S1x262144, .i32⟩ : BufTy).Contents (Elt F)),
    reshape main_v1 main_v2 rfl shapeCasts_S1x262144_S262144,
    binary main_v2 main_v0 main_v3 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    unary main_arg1 main_v4 ((extractStridedSlice S1x262144 ![1, 0] · slices_S2x262144_S1x262144_1_0) : (⟨S2x262144, .i32⟩ : BufTy).Contents (Elt F) → (⟨S1x262144, .i32⟩ : BufTy).Contents (Elt F)),
    reshape main_v4 main_v5 rfl shapeCasts_S1x262144_S262144,
    binary main_v5 main_v0 main_v6 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    binary main_arg0 main_arg3 main_v7 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg4 main_v8 (broadcastInDim S1x256 ![1] bcast_S256_S1x256_1 : (⟨S256, .f32⟩ : BufTy).Contents (Elt F) → (⟨S1x256, .f32⟩ : BufTy).Contents (Elt F)),
    unary main_v8 main_v9 (broadcastInDim S8192x256 ![0, 1] bcast_S1x256_S8192x256_0_1 : (⟨S1x256, .f32⟩ : BufTy).Contents (Elt F) → (⟨S8192x256, .f32⟩ : BufTy).Contents (Elt F)),
    binary main_v7 main_v9 main_v10 (addf : (⟨S8192x256, .f32⟩ : BufTy).Contents (Elt F) → (⟨S8192x256, .f32⟩ : BufTy).Contents (Elt F) → (⟨S8192x256, .f32⟩ : BufTy).Contents (Elt F)),
    binary main_v10 main_arg5 main_v11 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    nullary main_cst (constant S_ .f32 0x3F800000#32),
    unary main_cst main_v12 (broadcastInDim S270336 ![] bcast_S_S270336 : (⟨S_, .f32⟩ : BufTy).Contents (Elt F) → (⟨S270336, .f32⟩ : BufTy).Contents (Elt F)),
    nullary main_cst_0 (constant S_ .f32 0x00000000#32),
    unary main_cst_0 main_v13 (broadcastInDim S8192 ![] bcast_S_S8192 : (⟨S_, .f32⟩ : BufTy).Contents (Elt F) → (⟨S8192, .f32⟩ : BufTy).Contents (Elt F)),
    unary main_v6 main_v14 (broadcastInDim S270336x1 ![0] bcast_S270336_S270336x1_0 : (⟨S270336, .i32⟩ : BufTy).Contents (Elt F) → (⟨S270336x1, .i32⟩ : BufTy).Contents (Elt F)),
    ternary main_v13 main_v14 main_v12 main_v15 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_1 (constant S_ .f32 0x00000000#32),
    unary main_cst_1 main_v16 (broadcastInDim S8192 ![] bcast_S_S8192 : (⟨S_, .f32⟩ : BufTy).Contents (Elt F) → (⟨S8192, .f32⟩ : BufTy).Contents (Elt F)),
    binary main_v15 main_v16 main_v17 (cmpf (F := F) .ogt : (⟨S8192, .f32⟩ : BufTy).Contents (Elt F) → (⟨S8192, .f32⟩ : BufTy).Contents (Elt F) → (⟨S8192, .i1⟩ : BufTy).Contents (Elt F)),
    unary main_v15 main_v18 (Host.rsqrt : (⟨S8192, .f32⟩ : BufTy).Contents (Elt F) → (⟨S8192, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S8192, .f32⟩) main_call0_v1) (broadcastInDim S8192 ![] bcast_S_S8192),
    TRef.ternary (TRef.of (T := ⟨S8192, .i1⟩) main_v17) (TRef.of (T := ⟨S8192, .f32⟩) main_v18) (TRef.of (T := ⟨S8192, .f32⟩) main_call0_v1) (TRef.of (T := ⟨S8192, .f32⟩) main_v19) select,
    nullary main_c (constantI S_ 32 0#32),
    unary main_c main_v20 (broadcastInDim S270336 ![] bcast_S_S270336 : (⟨S_, .i32⟩ : BufTy).Contents (Elt F) → (⟨S270336, .i32⟩ : BufTy).Contents (Elt F)),
    binary main_v3 main_v20 main_v21 (cmpi .slt : (⟨S270336, .i32⟩ : BufTy).Contents (Elt F) → (⟨S270336, .i32⟩ : BufTy).Contents (Elt F) → (⟨S270336, .i1⟩ : BufTy).Contents (Elt F)),
    nullary main_c_3 (constantI S_ 32 8192#32),
    unary main_c_3 main_v22 (broadcastInDim S270336 ![] bcast_S_S270336 : (⟨S_, .i32⟩ : BufTy).Contents (Elt F) → (⟨S270336, .i32⟩ : BufTy).Contents (Elt F)),
    binary main_v3 main_v22 main_v23 (addi : (⟨S270336, .i32⟩ : BufTy).Contents (Elt F) → (⟨S270336, .i32⟩ : BufTy).Contents (Elt F) → (⟨S270336, .i32⟩ : BufTy).Contents (Elt F)),
    ternary main_v21 main_v23 main_v3 main_v24 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v24 main_v25 (broadcastInDim S270336x1 ![0] bcast_S270336_S270336x1_0 : (⟨S270336, .i32⟩ : BufTy).Contents (Elt F) → (⟨S270336x1, .i32⟩ : BufTy).Contents (Elt F)),
    binary main_v19 main_v25 main_v26 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_4 (constantI S_ 32 0#32),
    unary main_c_4 main_v27 (broadcastInDim S270336 ![] bcast_S_S270336 : (⟨S_, .i32⟩ : BufTy).Contents (Elt F) → (⟨S270336, .i32⟩ : BufTy).Contents (Elt F)),
    binary main_v6 main_v27 main_v28 (cmpi .slt : (⟨S270336, .i32⟩ : BufTy).Contents (Elt F) → (⟨S270336, .i32⟩ : BufTy).Contents (Elt F) → (⟨S270336, .i1⟩ : BufTy).Contents (Elt F)),
    nullary main_c_5 (constantI S_ 32 8192#32),
    unary main_c_5 main_v29 (broadcastInDim S270336 ![] bcast_S_S270336 : (⟨S_, .i32⟩ : BufTy).Contents (Elt F) → (⟨S270336, .i32⟩ : BufTy).Contents (Elt F)),
    binary main_v6 main_v29 main_v30 (addi : (⟨S270336, .i32⟩ : BufTy).Contents (Elt F) → (⟨S270336, .i32⟩ : BufTy).Contents (Elt F) → (⟨S270336, .i32⟩ : BufTy).Contents (Elt F)),
    ternary main_v28 main_v30 main_v6 main_v31 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v31 main_v32 (broadcastInDim S270336x1 ![0] bcast_S270336_S270336x1_0 : (⟨S270336, .i32⟩ : BufTy).Contents (Elt F) → (⟨S270336x1, .i32⟩ : BufTy).Contents (Elt F)),
    binary main_v19 main_v32 main_v33 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v26 main_v33 main_v34 (mulf : (⟨S270336, .f32⟩ : BufTy).Contents (Elt F) → (⟨S270336, .f32⟩ : BufTy).Contents (Elt F) → (⟨S270336, .f32⟩ : BufTy).Contents (Elt F)),
    nullary main_c_6 (constantI S_ 32 0#32),
    unary main_c_6 main_v35 (broadcastInDim S270336 ![] bcast_S_S270336 : (⟨S_, .i32⟩ : BufTy).Contents (Elt F) → (⟨S270336, .i32⟩ : BufTy).Contents (Elt F)),
    binary main_v3 main_v35 main_v36 (cmpi .slt : (⟨S270336, .i32⟩ : BufTy).Contents (Elt F) → (⟨S270336, .i32⟩ : BufTy).Contents (Elt F) → (⟨S270336, .i1⟩ : BufTy).Contents (Elt F)),
    nullary main_c_7 (constantI S_ 32 8192#32),
    unary main_c_7 main_v37 (broadcastInDim S270336 ![] bcast_S_S270336 : (⟨S_, .i32⟩ : BufTy).Contents (Elt F) → (⟨S270336, .i32⟩ : BufTy).Contents (Elt F)),
    binary main_v3 main_v37 main_v38 (addi : (⟨S270336, .i32⟩ : BufTy).Contents (Elt F) → (⟨S270336, .i32⟩ : BufTy).Contents (Elt F) → (⟨S270336, .i32⟩ : BufTy).Contents (Elt F)),
    ternary main_v36 main_v38 main_v3 main_v39 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v39 main_v40 (broadcastInDim S270336x1 ![0] bcast_S270336_S270336x1_0 : (⟨S270336, .i32⟩ : BufTy).Contents (Elt F) → (⟨S270336x1, .i32⟩ : BufTy).Contents (Elt F)),
    binary main_v11 main_v40 main_v41 ((fun x i => Host.gather gather_S8192x256_S270336x1_S270336x256_1_0_n_n_0_1_1256 x i) : (⟨S8192x256, .f32⟩ : BufTy).Contents (Elt F) → (⟨S270336x1, .i32⟩ : BufTy).Contents (Elt F) → (⟨S270336x256, .f32⟩ : BufTy).Contents (Elt F)),
    unary main_v34 main_v42 (broadcastInDim S270336x1 ![0] bcast_S270336_S270336x1_0 : (⟨S270336, .f32⟩ : BufTy).Contents (Elt F) → (⟨S270336x1, .f32⟩ : BufTy).Contents (Elt F)),
    unary main_v42 main_v43 (broadcastInDim S270336x256 ![0, 1] bcast_S270336x1_S270336x256_0_1 : (⟨S270336x1, .f32⟩ : BufTy).Contents (Elt F) → (⟨S270336x256, .f32⟩ : BufTy).Contents (Elt F)),
    binary main_v41 main_v43 main_v44 (mulf : (⟨S270336x256, .f32⟩ : BufTy).Contents (Elt F) → (⟨S270336x256, .f32⟩ : BufTy).Contents (Elt F) → (⟨S270336x256, .f32⟩ : BufTy).Contents (Elt F)),
    nullary main_cst_8 (constant S_ .f32 0x00000000#32),
    unary main_cst_8 main_v45 (broadcastInDim S8192x256 ![] bcast_S_S8192x256 : (⟨S_, .f32⟩ : BufTy).Contents (Elt F) → (⟨S8192x256, .f32⟩ : BufTy).Contents (Elt F)),
    unary main_v6 main_v46 (broadcastInDim S270336x1 ![0] bcast_S270336_S270336x1_0 : (⟨S270336, .i32⟩ : BufTy).Contents (Elt F) → (⟨S270336x1, .i32⟩ : BufTy).Contents (Elt F)),
    ternary main_v45 main_v46 main_v44 main_v47 ((fun x i u => Host.scatterAdd scatter_S8192x256_S270336x1_S270336x256_1_0_0_1 x i u) : (⟨S8192x256, .f32⟩ : BufTy).Contents (Elt F) → (⟨S270336x1, .i32⟩ : BufTy).Contents (Elt F) → (⟨S270336x256, .f32⟩ : BufTy).Contents (Elt F) → (⟨S8192x256, .f32⟩ : BufTy).Contents (Elt F)),
    unary main_arg6 main_v48 (broadcastInDim S1x256 ![1] bcast_S256_S1x256_1 : (⟨S256, .f32⟩ : BufTy).Contents (Elt F) → (⟨S1x256, .f32⟩ : BufTy).Contents (Elt F)),
    unary main_v48 main_v49 (broadcastInDim S8192x256 ![0, 1] bcast_S1x256_S8192x256_0_1 : (⟨S1x256, .f32⟩ : BufTy).Contents (Elt F) → (⟨S8192x256, .f32⟩ : BufTy).Contents (Elt F)),
    binary main_v47 main_v49 main_v50 (addf : (⟨S8192x256, .f32⟩ : BufTy).Contents (Elt F) → (⟨S8192x256, .f32⟩ : BufTy).Contents (Elt F) → (⟨S8192x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x256, .f32⟩) main_call1_v0) (broadcastInDim S8192x256 ![] bcast_S_S8192x256),
    TRef.binary (TRef.of (T := ⟨S8192x256, .f32⟩) main_v50) (TRef.of (T := ⟨S8192x256, .f32⟩) main_call1_v0) (TRef.of (T := ⟨S8192x256, .f32⟩) main_v51) maximumf,
    binary main_v51 main_arg7 main_v52 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    nullary main_cst_9 (constant S_ .f32 0x3F800000#32),
    unary main_cst_9 main_v53 (broadcastInDim S270336 ![] bcast_S_S270336 : (⟨S_, .f32⟩ : BufTy).Contents (Elt F) → (⟨S270336, .f32⟩ : BufTy).Contents (Elt F)),
    nullary main_cst_10 (constant S_ .f32 0x00000000#32),
    unary main_cst_10 main_v54 (broadcastInDim S8192 ![] bcast_S_S8192 : (⟨S_, .f32⟩ : BufTy).Contents (Elt F) → (⟨S8192, .f32⟩ : BufTy).Contents (Elt F)),
    unary main_v6 main_v55 (broadcastInDim S270336x1 ![0] bcast_S270336_S270336x1_0 : (⟨S270336, .i32⟩ : BufTy).Contents (Elt F) → (⟨S270336x1, .i32⟩ : BufTy).Contents (Elt F)),
    ternary main_v54 main_v55 main_v53 main_v56 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_11 (constant S_ .f32 0x00000000#32),
    unary main_cst_11 main_v57 (broadcastInDim S8192 ![] bcast_S_S8192 : (⟨S_, .f32⟩ : BufTy).Contents (Elt F) → (⟨S8192, .f32⟩ : BufTy).Contents (Elt F)),
    binary main_v56 main_v57 main_v58 (cmpf (F := F) .ogt : (⟨S8192, .f32⟩ : BufTy).Contents (Elt F) → (⟨S8192, .f32⟩ : BufTy).Contents (Elt F) → (⟨S8192, .i1⟩ : BufTy).Contents (Elt F)),
    unary main_v56 main_v59 (Host.rsqrt : (⟨S8192, .f32⟩ : BufTy).Contents (Elt F) → (⟨S8192, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S8192, .f32⟩) main_call2_v1) (broadcastInDim S8192 ![] bcast_S_S8192),
    TRef.ternary (TRef.of (T := ⟨S8192, .i1⟩) main_v58) (TRef.of (T := ⟨S8192, .f32⟩) main_v59) (TRef.of (T := ⟨S8192, .f32⟩) main_call2_v1) (TRef.of (T := ⟨S8192, .f32⟩) main_v60) select,
    nullary main_c_13 (constantI S_ 32 0#32),
    unary main_c_13 main_v61 (broadcastInDim S270336 ![] bcast_S_S270336 : (⟨S_, .i32⟩ : BufTy).Contents (Elt F) → (⟨S270336, .i32⟩ : BufTy).Contents (Elt F)),
    binary main_v3 main_v61 main_v62 (cmpi .slt : (⟨S270336, .i32⟩ : BufTy).Contents (Elt F) → (⟨S270336, .i32⟩ : BufTy).Contents (Elt F) → (⟨S270336, .i1⟩ : BufTy).Contents (Elt F)),
    nullary main_c_14 (constantI S_ 32 8192#32),
    unary main_c_14 main_v63 (broadcastInDim S270336 ![] bcast_S_S270336 : (⟨S_, .i32⟩ : BufTy).Contents (Elt F) → (⟨S270336, .i32⟩ : BufTy).Contents (Elt F)),
    binary main_v3 main_v63 main_v64 (addi : (⟨S270336, .i32⟩ : BufTy).Contents (Elt F) → (⟨S270336, .i32⟩ : BufTy).Contents (Elt F) → (⟨S270336, .i32⟩ : BufTy).Contents (Elt F)),
    ternary main_v62 main_v64 main_v3 main_v65 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v65 main_v66 (broadcastInDim S270336x1 ![0] bcast_S270336_S270336x1_0 : (⟨S270336, .i32⟩ : BufTy).Contents (Elt F) → (⟨S270336x1, .i32⟩ : BufTy).Contents (Elt F)),
    binary main_v60 main_v66 main_v67 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_15 (constantI S_ 32 0#32),
    unary main_c_15 main_v68 (broadcastInDim S270336 ![] bcast_S_S270336 : (⟨S_, .i32⟩ : BufTy).Contents (Elt F) → (⟨S270336, .i32⟩ : BufTy).Contents (Elt F)),
    binary main_v6 main_v68 main_v69 (cmpi .slt : (⟨S270336, .i32⟩ : BufTy).Contents (Elt F) → (⟨S270336, .i32⟩ : BufTy).Contents (Elt F) → (⟨S270336, .i1⟩ : BufTy).Contents (Elt F)),
    nullary main_c_16 (constantI S_ 32 8192#32),
    unary main_c_16 main_v70 (broadcastInDim S270336 ![] bcast_S_S270336 : (⟨S_, .i32⟩ : BufTy).Contents (Elt F) → (⟨S270336, .i32⟩ : BufTy).Contents (Elt F)),
    binary main_v6 main_v70 main_v71 (addi : (⟨S270336, .i32⟩ : BufTy).Contents (Elt F) → (⟨S270336, .i32⟩ : BufTy).Contents (Elt F) → (⟨S270336, .i32⟩ : BufTy).Contents (Elt F)),
    ternary main_v69 main_v71 main_v6 main_v72 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v72 main_v73 (broadcastInDim S270336x1 ![0] bcast_S270336_S270336x1_0 : (⟨S270336, .i32⟩ : BufTy).Contents (Elt F) → (⟨S270336x1, .i32⟩ : BufTy).Contents (Elt F)),
    binary main_v60 main_v73 main_v74 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v67 main_v74 main_v75 (mulf : (⟨S270336, .f32⟩ : BufTy).Contents (Elt F) → (⟨S270336, .f32⟩ : BufTy).Contents (Elt F) → (⟨S270336, .f32⟩ : BufTy).Contents (Elt F)),
    nullary main_c_17 (constantI S_ 32 0#32),
    unary main_c_17 main_v76 (broadcastInDim S270336 ![] bcast_S_S270336 : (⟨S_, .i32⟩ : BufTy).Contents (Elt F) → (⟨S270336, .i32⟩ : BufTy).Contents (Elt F)),
    binary main_v3 main_v76 main_v77 (cmpi .slt : (⟨S270336, .i32⟩ : BufTy).Contents (Elt F) → (⟨S270336, .i32⟩ : BufTy).Contents (Elt F) → (⟨S270336, .i1⟩ : BufTy).Contents (Elt F)),
    nullary main_c_18 (constantI S_ 32 8192#32),
    unary main_c_18 main_v78 (broadcastInDim S270336 ![] bcast_S_S270336 : (⟨S_, .i32⟩ : BufTy).Contents (Elt F) → (⟨S270336, .i32⟩ : BufTy).Contents (Elt F)),
    binary main_v3 main_v78 main_v79 (addi : (⟨S270336, .i32⟩ : BufTy).Contents (Elt F) → (⟨S270336, .i32⟩ : BufTy).Contents (Elt F) → (⟨S270336, .i32⟩ : BufTy).Contents (Elt F)),
    ternary main_v77 main_v79 main_v3 main_v80 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v80 main_v81 (broadcastInDim S270336x1 ![0] bcast_S270336_S270336x1_0 : (⟨S270336, .i32⟩ : BufTy).Contents (Elt F) → (⟨S270336x1, .i32⟩ : BufTy).Contents (Elt F)),
    binary main_v52 main_v81 main_v82 ((fun x i => Host.gather gather_S8192x256_S270336x1_S270336x256_1_0_n_n_0_1_1256 x i) : (⟨S8192x256, .f32⟩ : BufTy).Contents (Elt F) → (⟨S270336x1, .i32⟩ : BufTy).Contents (Elt F) → (⟨S270336x256, .f32⟩ : BufTy).Contents (Elt F)),
    unary main_v75 main_v83 (broadcastInDim S270336x1 ![0] bcast_S270336_S270336x1_0 : (⟨S270336, .f32⟩ : BufTy).Contents (Elt F) → (⟨S270336x1, .f32⟩ : BufTy).Contents (Elt F)),
    unary main_v83 main_v84 (broadcastInDim S270336x256 ![0, 1] bcast_S270336x1_S270336x256_0_1 : (⟨S270336x1, .f32⟩ : BufTy).Contents (Elt F) → (⟨S270336x256, .f32⟩ : BufTy).Contents (Elt F)),
    binary main_v82 main_v84 main_v85 (mulf : (⟨S270336x256, .f32⟩ : BufTy).Contents (Elt F) → (⟨S270336x256, .f32⟩ : BufTy).Contents (Elt F) → (⟨S270336x256, .f32⟩ : BufTy).Contents (Elt F)),
    nullary main_cst_19 (constant S_ .f32 0x00000000#32),
    unary main_cst_19 main_v86 (broadcastInDim S8192x256 ![] bcast_S_S8192x256 : (⟨S_, .f32⟩ : BufTy).Contents (Elt F) → (⟨S8192x256, .f32⟩ : BufTy).Contents (Elt F)),
    unary main_v6 main_v87 (broadcastInDim S270336x1 ![0] bcast_S270336_S270336x1_0 : (⟨S270336, .i32⟩ : BufTy).Contents (Elt F) → (⟨S270336x1, .i32⟩ : BufTy).Contents (Elt F)),
    ternary main_v86 main_v87 main_v85 main_v88 ((fun x i u => Host.scatterAdd scatter_S8192x256_S270336x1_S270336x256_1_0_0_1 x i u) : (⟨S8192x256, .f32⟩ : BufTy).Contents (Elt F) → (⟨S270336x1, .i32⟩ : BufTy).Contents (Elt F) → (⟨S270336x256, .f32⟩ : BufTy).Contents (Elt F) → (⟨S8192x256, .f32⟩ : BufTy).Contents (Elt F)),
    unary main_arg8 main_v89 (broadcastInDim S1x256 ![1] bcast_S256_S1x256_1 : (⟨S256, .f32⟩ : BufTy).Contents (Elt F) → (⟨S1x256, .f32⟩ : BufTy).Contents (Elt F)),
    unary main_v89 main_v90 (broadcastInDim S8192x256 ![0, 1] bcast_S1x256_S8192x256_0_1 : (⟨S1x256, .f32⟩ : BufTy).Contents (Elt F) → (⟨S8192x256, .f32⟩ : BufTy).Contents (Elt F)),
    binary main_v88 main_v90 main_v91 (addf : (⟨S8192x256, .f32⟩ : BufTy).Contents (Elt F) → (⟨S8192x256, .f32⟩ : BufTy).Contents (Elt F) → (⟨S8192x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8192x256, .f32⟩) main_call3_v0) (broadcastInDim S8192x256 ![] bcast_S_S8192x256),
    TRef.binary (TRef.of (T := ⟨S8192x256, .f32⟩) main_v91) (TRef.of (T := ⟨S8192x256, .f32⟩) main_call3_v0) (TRef.of (T := ⟨S8192x256, .f32⟩) main_v92) maximumf,
    binary main_v92 main_arg9 main_v93 ((fun l r => Host.dotGeneral dot_S8192x256_S256x64_S8192x64_1_0_0_1_n_n none l r) : (⟨S8192x256, .f32⟩ : BufTy).Contents (Elt F) → (⟨S256x64, .f32⟩ : BufTy).Contents (Elt F) → (⟨S8192x64, .f32⟩ : BufTy).Contents (Elt F)),
    nullary main_cst_20 (constant S_ .f32 0x3F800000#32),
    unary main_cst_20 main_v94 (broadcastInDim S270336 ![] bcast_S_S270336 : (⟨S_, .f32⟩ : BufTy).Contents (Elt F) → (⟨S270336, .f32⟩ : BufTy).Contents (Elt F)),
    nullary main_cst_21 (constant S_ .f32 0x00000000#32),
    unary main_cst_21 main_v95 (broadcastInDim S8192 ![] bcast_S_S8192 : (⟨S_, .f32⟩ : BufTy).Contents (Elt F) → (⟨S8192, .f32⟩ : BufTy).Contents (Elt F)),
    unary main_v6 main_v96 (broadcastInDim S270336x1 ![0] bcast_S270336_S270336x1_0 : (⟨S270336, .i32⟩ : BufTy).Contents (Elt F) → (⟨S270336x1, .i32⟩ : BufTy).Contents (Elt F)),
    ternary main_v95 main_v96 main_v94 main_v97 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_22 (constant S_ .f32 0x00000000#32),
    unary main_cst_22 main_v98 (broadcastInDim S8192 ![] bcast_S_S8192 : (⟨S_, .f32⟩ : BufTy).Contents (Elt F) → (⟨S8192, .f32⟩ : BufTy).Contents (Elt F)),
    binary main_v97 main_v98 main_v99 (cmpf (F := F) .ogt : (⟨S8192, .f32⟩ : BufTy).Contents (Elt F) → (⟨S8192, .f32⟩ : BufTy).Contents (Elt F) → (⟨S8192, .i1⟩ : BufTy).Contents (Elt F)),
    unary main_v97 main_v100 (Host.rsqrt : (⟨S8192, .f32⟩ : BufTy).Contents (Elt F) → (⟨S8192, .f32⟩ : BufTy).Contents (Elt F)),
    nullary main_cst_23 (constant S_ .f32 0x00000000#32),
    TRef.unary (TRef.of (T := ⟨S_, .f32⟩) main_cst_23) (TRef.of (T := ⟨S_, .f32⟩) main_call4_v0) id,
    TRef.unary (TRef.of (T := ⟨S_, .f32⟩) main_call4_v0) (TRef.of (T := ⟨S8192, .f32⟩) main_call4_v1) (broadcastInDim S8192 ![] bcast_S_S8192),
    TRef.ternary (TRef.of (T := ⟨S8192, .i1⟩) main_v99) (TRef.of (T := ⟨S8192, .f32⟩) main_v100) (TRef.of (T := ⟨S8192, .f32⟩) main_call4_v1) (TRef.of (T := ⟨S8192, .f32⟩) main_v101) select,
    nullary main_c_24 (constantI S_ 32 0#32),
    unary main_c_24 main_v102 (broadcastInDim S270336 ![] bcast_S_S270336 : (⟨S_, .i32⟩ : BufTy).Contents (Elt F) → (⟨S270336, .i32⟩ : BufTy).Contents (Elt F)),
    binary main_v3 main_v102 main_v103 (cmpi .slt : (⟨S270336, .i32⟩ : BufTy).Contents (Elt F) → (⟨S270336, .i32⟩ : BufTy).Contents (Elt F) → (⟨S270336, .i1⟩ : BufTy).Contents (Elt F)),
    nullary main_c_25 (constantI S_ 32 8192#32),
    unary main_c_25 main_v104 (broadcastInDim S270336 ![] bcast_S_S270336 : (⟨S_, .i32⟩ : BufTy).Contents (Elt F) → (⟨S270336, .i32⟩ : BufTy).Contents (Elt F)),
    binary main_v3 main_v104 main_v105 (addi : (⟨S270336, .i32⟩ : BufTy).Contents (Elt F) → (⟨S270336, .i32⟩ : BufTy).Contents (Elt F) → (⟨S270336, .i32⟩ : BufTy).Contents (Elt F)),
    ternary main_v103 main_v105 main_v3 main_v106 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v106 main_v107 (broadcastInDim S270336x1 ![0] bcast_S270336_S270336x1_0 : (⟨S270336, .i32⟩ : BufTy).Contents (Elt F) → (⟨S270336x1, .i32⟩ : BufTy).Contents (Elt F)),
    binary main_v101 main_v107 main_v108 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_26 (constantI S_ 32 0#32),
    unary main_c_26 main_v109 (broadcastInDim S270336 ![] bcast_S_S270336 : (⟨S_, .i32⟩ : BufTy).Contents (Elt F) → (⟨S270336, .i32⟩ : BufTy).Contents (Elt F)),
    binary main_v6 main_v109 main_v110 (cmpi .slt : (⟨S270336, .i32⟩ : BufTy).Contents (Elt F) → (⟨S270336, .i32⟩ : BufTy).Contents (Elt F) → (⟨S270336, .i1⟩ : BufTy).Contents (Elt F)),
    nullary main_c_27 (constantI S_ 32 8192#32),
    unary main_c_27 main_v111 (broadcastInDim S270336 ![] bcast_S_S270336 : (⟨S_, .i32⟩ : BufTy).Contents (Elt F) → (⟨S270336, .i32⟩ : BufTy).Contents (Elt F)),
    binary main_v6 main_v111 main_v112 (addi : (⟨S270336, .i32⟩ : BufTy).Contents (Elt F) → (⟨S270336, .i32⟩ : BufTy).Contents (Elt F) → (⟨S270336, .i32⟩ : BufTy).Contents (Elt F)),
    ternary main_v110 main_v112 main_v6 main_v113 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v113 main_v114 (broadcastInDim S270336x1 ![0] bcast_S270336_S270336x1_0 : (⟨S270336, .i32⟩ : BufTy).Contents (Elt F) → (⟨S270336x1, .i32⟩ : BufTy).Contents (Elt F)),
    binary main_v101 main_v114 main_v115 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v108 main_v115 main_v116 (mulf : (⟨S270336, .f32⟩ : BufTy).Contents (Elt F) → (⟨S270336, .f32⟩ : BufTy).Contents (Elt F) → (⟨S270336, .f32⟩ : BufTy).Contents (Elt F)),
    nullary main_c_28 (constantI S_ 32 0#32),
    unary main_c_28 main_v117 (broadcastInDim S270336 ![] bcast_S_S270336 : (⟨S_, .i32⟩ : BufTy).Contents (Elt F) → (⟨S270336, .i32⟩ : BufTy).Contents (Elt F)),
    binary main_v3 main_v117 main_v118 (cmpi .slt : (⟨S270336, .i32⟩ : BufTy).Contents (Elt F) → (⟨S270336, .i32⟩ : BufTy).Contents (Elt F) → (⟨S270336, .i1⟩ : BufTy).Contents (Elt F)),
    nullary main_c_29 (constantI S_ 32 8192#32),
    unary main_c_29 main_v119 (broadcastInDim S270336 ![] bcast_S_S270336 : (⟨S_, .i32⟩ : BufTy).Contents (Elt F) → (⟨S270336, .i32⟩ : BufTy).Contents (Elt F)),
    binary main_v3 main_v119 main_v120 (addi : (⟨S270336, .i32⟩ : BufTy).Contents (Elt F) → (⟨S270336, .i32⟩ : BufTy).Contents (Elt F) → (⟨S270336, .i32⟩ : BufTy).Contents (Elt F)),
    ternary main_v118 main_v120 main_v3 main_v121 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v121 main_v122 (broadcastInDim S270336x1 ![0] bcast_S270336_S270336x1_0 : (⟨S270336, .i32⟩ : BufTy).Contents (Elt F) → (⟨S270336x1, .i32⟩ : BufTy).Contents (Elt F)),
    binary main_v93 main_v122 main_v123 ((fun x i => Host.gather gather_S8192x64_S270336x1_S270336x64_1_0_n_n_0_1_164 x i) : (⟨S8192x64, .f32⟩ : BufTy).Contents (Elt F) → (⟨S270336x1, .i32⟩ : BufTy).Contents (Elt F) → (⟨S270336x64, .f32⟩ : BufTy).Contents (Elt F)),
    unary main_v116 main_v124 (broadcastInDim S270336x1 ![0] bcast_S270336_S270336x1_0 : (⟨S270336, .f32⟩ : BufTy).Contents (Elt F) → (⟨S270336x1, .f32⟩ : BufTy).Contents (Elt F)),
    unary main_v124 main_v125 (broadcastInDim S270336x64 ![0, 1] bcast_S270336x1_S270336x64_0_1 : (⟨S270336x1, .f32⟩ : BufTy).Contents (Elt F) → (⟨S270336x64, .f32⟩ : BufTy).Contents (Elt F)),
    binary main_v123 main_v125 main_v126 (mulf : (⟨S270336x64, .f32⟩ : BufTy).Contents (Elt F) → (⟨S270336x64, .f32⟩ : BufTy).Contents (Elt F) → (⟨S270336x64, .f32⟩ : BufTy).Contents (Elt F)),
    nullary main_cst_30 (constant S_ .f32 0x00000000#32),
    unary main_cst_30 main_v127 (broadcastInDim S8192x64 ![] bcast_S_S8192x64 : (⟨S_, .f32⟩ : BufTy).Contents (Elt F) → (⟨S8192x64, .f32⟩ : BufTy).Contents (Elt F)),
    unary main_v6 main_v128 (broadcastInDim S270336x1 ![0] bcast_S270336_S270336x1_0 : (⟨S270336, .i32⟩ : BufTy).Contents (Elt F) → (⟨S270336x1, .i32⟩ : BufTy).Contents (Elt F)),
    ternary main_v127 main_v128 main_v126 main_v129 ((fun x i u => Host.scatterAdd scatter_S8192x64_S270336x1_S270336x64_1_0_0_1 x i u) : (⟨S8192x64, .f32⟩ : BufTy).Contents (Elt F) → (⟨S270336x1, .i32⟩ : BufTy).Contents (Elt F) → (⟨S270336x64, .f32⟩ : BufTy).Contents (Elt F) → (⟨S8192x64, .f32⟩ : BufTy).Contents (Elt F)),
    unary main_arg10 main_v130 (broadcastInDim S1x64 ![1] bcast_S64_S1x64_1 : (⟨S64, .f32⟩ : BufTy).Contents (Elt F) → (⟨S1x64, .f32⟩ : BufTy).Contents (Elt F)),
    unary main_v130 main_v131 (broadcastInDim S8192x64 ![0, 1] bcast_S1x64_S8192x64_0_1 : (⟨S1x64, .f32⟩ : BufTy).Contents (Elt F) → (⟨S8192x64, .f32⟩ : BufTy).Contents (Elt F)),
    binary main_v129 main_v131 main_v132 (addf : (⟨S8192x64, .f32⟩ : BufTy).Contents (Elt F) → (⟨S8192x64, .f32⟩ : BufTy).Contents (Elt F) → (⟨S8192x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S8192x64, .f32⟩) main_call5_v0) (broadcastInDim S8192x64 ![] bcast_S_S8192x64),
    TRef.binary (TRef.of (T := ⟨S8192x64, .f32⟩) main_v132) (TRef.of (T := ⟨S8192x64, .f32⟩) main_call5_v0) (TRef.of (T := ⟨S8192x64, .f32⟩) main_v133) maximumf,
    binary main_v92 main_arg11 main_v134 ((fun l r => Host.dotGeneral dot_S8192x256_S256x64_S8192x64_1_0_0_1_n_n none l r) : (⟨S8192x256, .f32⟩ : BufTy).Contents (Elt F) → (⟨S256x64, .f32⟩ : BufTy).Contents (Elt F) → (⟨S8192x64, .f32⟩ : BufTy).Contents (Elt F)),
    nullary main_cst_31 (constant S_ .f32 0x3F800000#32),
    unary main_cst_31 main_v135 (broadcastInDim S270336 ![] bcast_S_S270336 : (⟨S_, .f32⟩ : BufTy).Contents (Elt F) → (⟨S270336, .f32⟩ : BufTy).Contents (Elt F)),
    nullary main_cst_32 (constant S_ .f32 0x00000000#32),
    unary main_cst_32 main_v136 (broadcastInDim S8192 ![] bcast_S_S8192 : (⟨S_, .f32⟩ : BufTy).Contents (Elt F) → (⟨S8192, .f32⟩ : BufTy).Contents (Elt F)),
    unary main_v6 main_v137 (broadcastInDim S270336x1 ![0] bcast_S270336_S270336x1_0 : (⟨S270336, .i32⟩ : BufTy).Contents (Elt F) → (⟨S270336x1, .i32⟩ : BufTy).Contents (Elt F)),
    ternary main_v136 main_v137 main_v135 main_v138 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_33 (constant S_ .f32 0x00000000#32),
    unary main_cst_33 main_v139 (broadcastInDim S8192 ![] bcast_S_S8192 : (⟨S_, .f32⟩ : BufTy).Contents (Elt F) → (⟨S8192, .f32⟩ : BufTy).Contents (Elt F)),
    binary main_v138 main_v139 main_v140 (cmpf (F := F) .ogt : (⟨S8192, .f32⟩ : BufTy).Contents (Elt F) → (⟨S8192, .f32⟩ : BufTy).Contents (Elt F) → (⟨S8192, .i1⟩ : BufTy).Contents (Elt F)),
    unary main_v138 main_v141 (Host.rsqrt : (⟨S8192, .f32⟩ : BufTy).Contents (Elt F) → (⟨S8192, .f32⟩ : BufTy).Contents (Elt F)),
    nullary main_cst_34 (constant S_ .f32 0x00000000#32),
    TRef.unary (TRef.of (T := ⟨S_, .f32⟩) main_cst_34) (TRef.of (T := ⟨S_, .f32⟩) main_call6_v0) id,
    TRef.unary (TRef.of (T := ⟨S_, .f32⟩) main_call6_v0) (TRef.of (T := ⟨S8192, .f32⟩) main_call6_v1) (broadcastInDim S8192 ![] bcast_S_S8192),
    TRef.ternary (TRef.of (T := ⟨S8192, .i1⟩) main_v140) (TRef.of (T := ⟨S8192, .f32⟩) main_v141) (TRef.of (T := ⟨S8192, .f32⟩) main_call6_v1) (TRef.of (T := ⟨S8192, .f32⟩) main_v142) select,
    nullary main_c_35 (constantI S_ 32 0#32),
    unary main_c_35 main_v143 (broadcastInDim S270336 ![] bcast_S_S270336 : (⟨S_, .i32⟩ : BufTy).Contents (Elt F) → (⟨S270336, .i32⟩ : BufTy).Contents (Elt F)),
    binary main_v3 main_v143 main_v144 (cmpi .slt : (⟨S270336, .i32⟩ : BufTy).Contents (Elt F) → (⟨S270336, .i32⟩ : BufTy).Contents (Elt F) → (⟨S270336, .i1⟩ : BufTy).Contents (Elt F)),
    nullary main_c_36 (constantI S_ 32 8192#32),
    unary main_c_36 main_v145 (broadcastInDim S270336 ![] bcast_S_S270336 : (⟨S_, .i32⟩ : BufTy).Contents (Elt F) → (⟨S270336, .i32⟩ : BufTy).Contents (Elt F)),
    binary main_v3 main_v145 main_v146 (addi : (⟨S270336, .i32⟩ : BufTy).Contents (Elt F) → (⟨S270336, .i32⟩ : BufTy).Contents (Elt F) → (⟨S270336, .i32⟩ : BufTy).Contents (Elt F)),
    ternary main_v144 main_v146 main_v3 main_v147 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v147 main_v148 (broadcastInDim S270336x1 ![0] bcast_S270336_S270336x1_0 : (⟨S270336, .i32⟩ : BufTy).Contents (Elt F) → (⟨S270336x1, .i32⟩ : BufTy).Contents (Elt F)),
    binary main_v142 main_v148 main_v149 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_37 (constantI S_ 32 0#32),
    unary main_c_37 main_v150 (broadcastInDim S270336 ![] bcast_S_S270336 : (⟨S_, .i32⟩ : BufTy).Contents (Elt F) → (⟨S270336, .i32⟩ : BufTy).Contents (Elt F)),
    binary main_v6 main_v150 main_v151 (cmpi .slt : (⟨S270336, .i32⟩ : BufTy).Contents (Elt F) → (⟨S270336, .i32⟩ : BufTy).Contents (Elt F) → (⟨S270336, .i1⟩ : BufTy).Contents (Elt F)),
    nullary main_c_38 (constantI S_ 32 8192#32),
    unary main_c_38 main_v152 (broadcastInDim S270336 ![] bcast_S_S270336 : (⟨S_, .i32⟩ : BufTy).Contents (Elt F) → (⟨S270336, .i32⟩ : BufTy).Contents (Elt F)),
    binary main_v6 main_v152 main_v153 (addi : (⟨S270336, .i32⟩ : BufTy).Contents (Elt F) → (⟨S270336, .i32⟩ : BufTy).Contents (Elt F) → (⟨S270336, .i32⟩ : BufTy).Contents (Elt F)),
    ternary main_v151 main_v153 main_v6 main_v154 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v154 main_v155 (broadcastInDim S270336x1 ![0] bcast_S270336_S270336x1_0 : (⟨S270336, .i32⟩ : BufTy).Contents (Elt F) → (⟨S270336x1, .i32⟩ : BufTy).Contents (Elt F)),
    binary main_v142 main_v155 main_v156 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v149 main_v156 main_v157 (mulf : (⟨S270336, .f32⟩ : BufTy).Contents (Elt F) → (⟨S270336, .f32⟩ : BufTy).Contents (Elt F) → (⟨S270336, .f32⟩ : BufTy).Contents (Elt F)),
    nullary main_c_39 (constantI S_ 32 0#32),
    unary main_c_39 main_v158 (broadcastInDim S270336 ![] bcast_S_S270336 : (⟨S_, .i32⟩ : BufTy).Contents (Elt F) → (⟨S270336, .i32⟩ : BufTy).Contents (Elt F)),
    binary main_v3 main_v158 main_v159 (cmpi .slt : (⟨S270336, .i32⟩ : BufTy).Contents (Elt F) → (⟨S270336, .i32⟩ : BufTy).Contents (Elt F) → (⟨S270336, .i1⟩ : BufTy).Contents (Elt F)),
    nullary main_c_40 (constantI S_ 32 8192#32),
    unary main_c_40 main_v160 (broadcastInDim S270336 ![] bcast_S_S270336 : (⟨S_, .i32⟩ : BufTy).Contents (Elt F) → (⟨S270336, .i32⟩ : BufTy).Contents (Elt F)),
    binary main_v3 main_v160 main_v161 (addi : (⟨S270336, .i32⟩ : BufTy).Contents (Elt F) → (⟨S270336, .i32⟩ : BufTy).Contents (Elt F) → (⟨S270336, .i32⟩ : BufTy).Contents (Elt F)),
    ternary main_v159 main_v161 main_v3 main_v162 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v162 main_v163 (broadcastInDim S270336x1 ![0] bcast_S270336_S270336x1_0 : (⟨S270336, .i32⟩ : BufTy).Contents (Elt F) → (⟨S270336x1, .i32⟩ : BufTy).Contents (Elt F)),
    binary main_v134 main_v163 main_v164 ((fun x i => Host.gather gather_S8192x64_S270336x1_S270336x64_1_0_n_n_0_1_164 x i) : (⟨S8192x64, .f32⟩ : BufTy).Contents (Elt F) → (⟨S270336x1, .i32⟩ : BufTy).Contents (Elt F) → (⟨S270336x64, .f32⟩ : BufTy).Contents (Elt F)),
    unary main_v157 main_v165 (broadcastInDim S270336x1 ![0] bcast_S270336_S270336x1_0 : (⟨S270336, .f32⟩ : BufTy).Contents (Elt F) → (⟨S270336x1, .f32⟩ : BufTy).Contents (Elt F)),
    unary main_v165 main_v166 (broadcastInDim S270336x64 ![0, 1] bcast_S270336x1_S270336x64_0_1 : (⟨S270336x1, .f32⟩ : BufTy).Contents (Elt F) → (⟨S270336x64, .f32⟩ : BufTy).Contents (Elt F)),
    binary main_v164 main_v166 main_v167 (mulf : (⟨S270336x64, .f32⟩ : BufTy).Contents (Elt F) → (⟨S270336x64, .f32⟩ : BufTy).Contents (Elt F) → (⟨S270336x64, .f32⟩ : BufTy).Contents (Elt F)),
    nullary main_cst_41 (constant S_ .f32 0x00000000#32),
    unary main_cst_41 main_v168 (broadcastInDim S8192x64 ![] bcast_S_S8192x64 : (⟨S_, .f32⟩ : BufTy).Contents (Elt F) → (⟨S8192x64, .f32⟩ : BufTy).Contents (Elt F)),
    unary main_v6 main_v169 (broadcastInDim S270336x1 ![0] bcast_S270336_S270336x1_0 : (⟨S270336, .i32⟩ : BufTy).Contents (Elt F) → (⟨S270336x1, .i32⟩ : BufTy).Contents (Elt F)),
    ternary main_v168 main_v169 main_v167 main_v170 ((fun x i u => Host.scatterAdd scatter_S8192x64_S270336x1_S270336x64_1_0_0_1 x i u) : (⟨S8192x64, .f32⟩ : BufTy).Contents (Elt F) → (⟨S270336x1, .i32⟩ : BufTy).Contents (Elt F) → (⟨S270336x64, .f32⟩ : BufTy).Contents (Elt F) → (⟨S8192x64, .f32⟩ : BufTy).Contents (Elt F)),
    unary main_arg12 main_v171 (broadcastInDim S1x64 ![1] bcast_S64_S1x64_1 : (⟨S64, .f32⟩ : BufTy).Contents (Elt F) → (⟨S1x64, .f32⟩ : BufTy).Contents (Elt F)),
    unary main_v171 main_v172 (broadcastInDim S8192x64 ![0, 1] bcast_S1x64_S8192x64_0_1 : (⟨S1x64, .f32⟩ : BufTy).Contents (Elt F) → (⟨S8192x64, .f32⟩ : BufTy).Contents (Elt F)),
    binary main_v170 main_v172 main_v173 (addf : (⟨S8192x64, .f32⟩ : BufTy).Contents (Elt F) → (⟨S8192x64, .f32⟩ : BufTy).Contents (Elt F) → (⟨S8192x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S8192x64, .f32⟩) main_call7_v0) (broadcastInDim S8192x64 ![] bcast_S_S8192x64),
    TRef.binary (TRef.of (T := ⟨S8192x64, .f32⟩) main_v173) (TRef.of (T := ⟨S8192x64, .f32⟩) main_call7_v0) (TRef.of (T := ⟨S8192x64, .f32⟩) main_v174) maximumf,
    unary main_v174 main_v175 (Host.exp : (⟨S8192x64, .f32⟩ : BufTy).Contents (Elt F) → (⟨S8192x64, .f32⟩ : BufTy).Contents (Elt F)),
    binary main_arg2 main_v175 main_v176 (mulf : (⟨S8192x64, .f32⟩ : BufTy).Contents (Elt F) → (⟨S8192x64, .f32⟩ : BufTy).Contents (Elt F) → (⟨S8192x64, .f32⟩ : BufTy).Contents (Elt F)),
    binary main_v176 main_v133 main_v177 (addf : (⟨S8192x64, .f32⟩ : BufTy).Contents (Elt F) → (⟨S8192x64, .f32⟩ : BufTy).Contents (Elt F) → (⟨S8192x64, .f32⟩ : BufTy).Contents (Elt F)),
    unary main_v177 main_v178 ((transpose S64x8192 [1, 0] · transposes_S8192x64_S64x8192_1_0) : (⟨S8192x64, .f32⟩ : BufTy).Contents (Elt F) → (⟨S64x8192, .f32⟩ : BufTy).Contents (Elt F)),
    binary main_v177 main_v178 main_v179 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    unary main_v179 main_v180 (Host.negf : (⟨S8192x8192, .f32⟩ : BufTy).Contents (Elt F) → (⟨S8192x8192, .f32⟩ : BufTy).Contents (Elt F)),
    unary main_v180 main_v181 (Host.exp : (⟨S8192x8192, .f32⟩ : BufTy).Contents (Elt F) → (⟨S8192x8192, .f32⟩ : BufTy).Contents (Elt F)),
    nullary main_cst_42 (constant S_ .f32 0x3F800000#32),
    unary main_cst_42 main_v182 (broadcastInDim S8192x8192 ![] bcast_S_S8192x8192 : (⟨S_, .f32⟩ : BufTy).Contents (Elt F) → (⟨S8192x8192, .f32⟩ : BufTy).Contents (Elt F)),
    binary main_v182 main_v181 main_v183 (addf : (⟨S8192x8192, .f32⟩ : BufTy).Contents (Elt F) → (⟨S8192x8192, .f32⟩ : BufTy).Contents (Elt F) → (⟨S8192x8192, .f32⟩ : BufTy).Contents (Elt F)),
    nullary main_cst_43 (constant S_ .f32 0x3F800000#32),
    unary main_cst_43 main_v184 (broadcastInDim S8192x8192 ![] bcast_S_S8192x8192 : (⟨S_, .f32⟩ : BufTy).Contents (Elt F) → (⟨S8192x8192, .f32⟩ : BufTy).Contents (Elt F)),
    binary main_v184 main_v183 main_v185 (Host.divf : (⟨S8192x8192, .f32⟩ : BufTy).Contents (Elt F) → (⟨S8192x8192, .f32⟩ : BufTy).Contents (Elt F) → (⟨S8192x8192, .f32⟩ : BufTy).Contents (Elt F)),
    TRef.nullary (TRef.of (T := ⟨S8192x8192, .i32⟩) main_call8_v0) (iotaInDim S8192x8192 32 0),
    TRef.nullary (TRef.of (T := ⟨S_, .i32⟩) main_call8_c) (constantI S_ 32 0#32),
    TRef.unary (TRef.of (T := ⟨S_, .i32⟩) main_call8_c) (TRef.of (T := ⟨S8192x8192, .i32⟩) main_call8_v1) (broadcastInDim S8192x8192 ![] bcast_S_S8192x8192),
    TRef.binary (TRef.of (T := ⟨S8192x8192, .i32⟩) main_call8_v0) (TRef.of (T := ⟨S8192x8192, .i32⟩) main_call8_v1) (TRef.of (T := ⟨S8192x8192, .i32⟩) main_call8_v2) addi,
    TRef.nullary (TRef.of (T := ⟨S8192x8192, .i32⟩) main_call8_v3) (iotaInDim S8192x8192 32 1),
    TRef.binary (TRef.of (T := ⟨S8192x8192, .i32⟩) main_call8_v2) (TRef.of (T := ⟨S8192x8192, .i32⟩) main_call8_v3) (TRef.of (T := ⟨S8192x8192, .i1⟩) main_call8_v4) (cmpi .sge),
    TRef.nullary (TRef.of (T := ⟨S_, .f32⟩) main_call8_cst) (constant S_ .f32 0x00000000#32),
    TRef.unary (TRef.of (T := ⟨S_, .f32⟩) main_call8_cst) (TRef.of (T := ⟨S8192x8192, .f32⟩) main_call8_v5) (broadcastInDim S8192x8192 ![] bcast_S_S8192x8192),
    TRef.ternary (TRef.of (T := ⟨S8192x8192, .i1⟩) main_call8_v4) (TRef.of (T := ⟨S8192x8192, .f32⟩) main_call8_v5) (TRef.of (T := ⟨S8192x8192, .f32⟩) main_v185) (TRef.of (T := ⟨S8192x8192, .f32⟩) main_v186) select ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., binary_bufs_sub .., unary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., nullary_bufs_sub .., unary_bufs_sub .., binary_bufs_sub .., nullary_bufs_sub .., binary_bufs_sub .., nullary_bufs_sub .., unary_bufs_sub .., ternary_bufs_sub ..⟩

end Cert.ReferenceIdeal.ValueP

end
-- ==== Proof.RefRead.lean ====
import proofs.«407141_j11613591568667_1_alg».proof.Proof.RefRun
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S8192x256, .f32⟩ : BufTy).Contents (Elt F)) (x1 : (⟨S2x262144, .i32⟩ : BufTy).Contents (Elt F)) (x2 : (⟨S8192x64, .f32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x8 : (⟨S256, .f32⟩ : BufTy).Contents (Elt F)) (x9 : (⟨S256x64, .f32⟩ : BufTy).Contents (Elt F)) (x10 : (⟨S64, .f32⟩ : BufTy).Contents (Elt F)) (x11 : (⟨S256x64, .f32⟩ : BufTy).Contents (Elt F)) (x12 : (⟨S64, .f32⟩ : BufTy).Contents (Elt F))

-- The reference one operation at a time: `val_…` is an operation's result as a function of the inputs, `val_…_apply` reads it at one index.
def val_main_v0 : (⟨S8192, .i32⟩ : BufTy).Contents (Elt F) :=
  iotaInDim S8192 32 0
theorem val_main_v0_apply (i : S8192.Idx) :
    val_main_v0 (F := F) i = BitVec.ofNat 32 (i 0).val := rfl

def val_main_v1 : (⟨S1x262144, .i32⟩ : BufTy).Contents (Elt F) :=
  extractStridedSlice S1x262144 ![0, 0] (x1) slices_S2x262144_S1x262144_0_0
abbrev idx_main_v1 (i : S1x262144.Idx) : S2x262144.Idx := fun a => match a with
  | ⟨0, _⟩ => ⟨(i 0).val, by have h0 : (i 0).val < 1 := (i 0).isLt; show (i 0).val < 2; omega⟩
  | ⟨1, _⟩ => ⟨(i 1).val, (i 1).isLt⟩
theorem val_main_v1_apply (i : S1x262144.Idx) :
    val_main_v1 (F := F) x1 i = x1 (idx_main_v1 i) := by
  unfold val_main_v1
  exact extractStridedSlice_apply ![0, 0] x1 slices_S2x262144_S1x262144_0_0 i (idx_main_v1 i) (fun a => match a with
    | ⟨0, _⟩ => by show (i 0).val = 0 + (i 0).val; omega
    | ⟨1, _⟩ => by show (i 1).val = 0 + (i 1).val; omega)

def val_main_v2 : (⟨S262144, .i32⟩ : BufTy).Contents (Elt F) :=
  shapeCast _ (val_main_v1 (F := F) x1) shapeCasts_S1x262144_S262144
abbrev idx_main_v2 (i : S262144.Idx) : S1x262144.Idx := fun a => match a with
  | ⟨0, _⟩ => ⟨0, Nat.one_pos⟩
  | ⟨1, _⟩ => ⟨((i 0).val) % 262144, by have h0 : (i 0).val < 262144 := (i 0).isLt; show ((i 0).val) % 262144 < 262144; omega⟩
theorem val_main_v2_apply (i : S262144.Idx) :
    val_main_v2 (F := F) x1 i = val_main_v1 (F := F) x1 (idx_main_v2 i) := by
  unfold val_main_v2
  generalize val_main_v1 (F := F) x1 = y
  exact shapeCast_apply y shapeCasts_S1x262144_S262144 i (idx_main_v2 i)
    (by rewrite [Shape.rowMajor_val_two, Shape.rowMajor_val_one]; have h0 : (i 0).val < 262144 := (i 0).isLt; show 0 * 262144 + ((i 0).val) % 262144 = (i 0).val; omega)

def val_main_v3 : (⟨S270336, .i32⟩ : BufTy).Contents (Elt F) :=
  concatenate S270336 0 [⟨S262144, (val_main_v2 (F := F) x1)⟩, ⟨S8192, (val_main_v0 (F := F))⟩] concatenates_S262144_S8192_S270336_d0

def val_main_v4 : (⟨S1x262144, .i32⟩ : BufTy).Contents (Elt F) :=
  extractStridedSlice S1x262144 ![1, 0] (x1) slices_S2x262144_S1x262144_1_0
abbrev idx_main_v4 (i : S1x262144.Idx) : S2x262144.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
theorem val_main_v4_apply (i : S1x262144.Idx) :
    val_main_v4 (F := F) x1 i = x1 (idx_main_v4 i) := by
  unfold val_main_v4
  exact extractStridedSlice_apply ![1, 0] x1 slices_S2x262144_S1x262144_1_0 i (idx_main_v4 i) (fun a => match a with
    | ⟨0, _⟩ => by show 1 + (i 0).val = 1 + (i 0).val; omega
    | ⟨1, _⟩ => by show (i 1).val = 0 + (i 1).val; omega)

def val_main_v5 : (⟨S262144, .i32⟩ : BufTy).Contents (Elt F) :=
  shapeCast _ (val_main_v4 (F := F) x1) shapeCasts_S1x262144_S262144
abbrev idx_main_v5 (i : S262144.Idx) : S1x262144.Idx := fun a => match a with
  | ⟨0, _⟩ => ⟨0, Nat.one_pos⟩
  | ⟨1, _⟩ => ⟨((i 0).val) % 262144, by have h0 : (i 0).val < 262144 := (i 0).isLt; show ((i 0).val) % 262144 < 262144; omega⟩
theorem val_main_v5_apply (i : S262144.Idx) :
    val_main_v5 (F := F) x1 i = val_main_v4 (F := F) x1 (idx_main_v5 i) := by
  unfold val_main_v5
  generalize val_main_v4 (F := F) x1 = y
  exact shapeCast_apply y shapeCasts_S1x262144_S262144 i (idx_main_v5 i)
    (by rewrite [Shape.rowMajor_val_two, Shape.rowMajor_val_one]; have h0 : (i 0).val < 262144 := (i 0).isLt; show 0 * 262144 + ((i 0).val) % 262144 = (i 0).val; omega)

def val_main_v6 : (⟨S270336, .i32⟩ : BufTy).Contents (Elt F) :=
  concatenate S270336 0 [⟨S262144, (val_main_v5 (F := F) x1)⟩, ⟨S8192, (val_main_v0 (F := F))⟩] concatenates_S262144_S8192_S270336_d0

def val_main_v7 : (⟨S8192x256, .f32⟩ : BufTy).Contents (Elt F) :=
  Host.dotGeneral dot_S8192x256_S256x256_S8192x256_1_0_0_1_n_n none (x0) (x3)
theorem lhs_main_v7_0 (i : S8192x256.Idx) (q : dot_S8192x256_S256x256_S8192x256_1_0_0_1_n_n.contr.Idx) :
    (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
  rfl
theorem lhs_main_v7_1 (i : S8192x256.Idx) (q : dot_S8192x256_S256x256_S8192x256_1_0_0_1_n_n.contr.Idx) :
    (dot_S8192x256_S256x256_S8192x256_1_0_0_1_n_n.lhsIdx i q 1).val = (q ⟨0, by decide⟩).val :=
  dot_S8192x256_S256x256_S8192x256_1_0_0_1_n_n.lhsIdx_val_of_single rfl i q
theorem rhs_main_v7_0 (i : S8192x256.Idx) (q : dot_S8192x256_S256x256_S8192x256_1_0_0_1_n_n.contr.Idx) :
    (dot_S8192x256_S256x256_S8192x256_1_0_0_1_n_n.rhsIdx i q 0).val = (q ⟨0, by decide⟩).val :=
  dot_S8192x256_S256x256_S8192x256_1_0_0_1_n_n.rhsIdx_val_of_single rfl i q
theorem rhs_main_v7_1 (i : S8192x256.Idx) (q : dot_S8192x256_S256x256_S8192x256_1_0_0_1_n_n.contr.Idx) :
    (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
  rfl
abbrev lidx_main_v7 (i : S8192x256.Idx) (k : Fin 256) : S8192x256.Idx := fun a => match a with
  | ⟨0, _⟩ => ⟨(i 0).val, (i 0).isLt⟩
  | ⟨1, _⟩ => ⟨k.val, k.isLt⟩
abbrev ridx_main_v7 (i : S8192x256.Idx) (k : Fin 256) : S256x256.Idx := fun a => match a with
  | ⟨0, _⟩ => ⟨k.val, k.isLt⟩
  | ⟨1, _⟩ => ⟨(i 1).val, (i 1).isLt⟩

theorem val_main_v7_apply (x0 : (⟨S8192x256, .f32⟩ : BufTy).Contents (Elt Ideal)) (x3 : (⟨S256x256, .f32⟩ : BufTy).Contents (Elt Ideal)) (i : S8192x256.Idx) :
    val_main_v7 (F := Ideal) x0 x3 i = ∑ k : Fin 256, x0 (lidx_main_v7 i k) * x3 (ridx_main_v7 i k) := by
  unfold val_main_v7
  simp only [Host.dotGeneral]
  rw [Ideal.dotGeneral_apply, ← Equiv.sum_comp (ValueIdx.contrEquiv1 dot_S8192x256_S256x256_S8192x256_1_0_0_1_n_n 256 rfl rfl).symm]
  refine Finset.sum_congr rfl fun k _ => ?_
  have hk := ValueIdx.contrEquiv1_symm_val dot_S8192x256_S256x256_S8192x256_1_0_0_1_n_n 256 rfl rfl k
  have el : dot_S8192x256_S256x256_S8192x256_1_0_0_1_n_n.lhsIdx i ((ValueIdx.contrEquiv1 dot_S8192x256_S256x256_S8192x256_1_0_0_1_n_n 256 rfl rfl).symm k) = lidx_main_v7 i k := funext fun a => Fin.ext (by
    match a with
    | ⟨0, _⟩ => exact lhs_main_v7_0 _ _
    | ⟨1, _⟩ => exact (lhs_main_v7_1 _ _).trans hk)
  have er : dot_S8192x256_S256x256_S8192x256_1_0_0_1_n_n.rhsIdx i ((ValueIdx.contrEquiv1 dot_S8192x256_S256x256_S8192x256_1_0_0_1_n_n 256 rfl rfl).symm k) = ridx_main_v7 i k := funext fun a => Fin.ext (by
    match a with
    | ⟨0, _⟩ => exact (rhs_main_v7_0 _ _).trans hk
    | ⟨1, _⟩ => exact rhs_main_v7_1 _ _)
  rw [el, er]

def val_main_v8 : (⟨S1x256, .f32⟩ : BufTy).Contents (Elt F) :=
  broadcastInDim S1x256 ![1] bcast_S256_S1x256_1 (x4)
abbrev idx_main_v8 (i : S1x256.Idx) : S256.Idx := fun a => match a with
  | ⟨0, _⟩ => ⟨(i 1).val, (i 1).isLt⟩
theorem val_main_v8_apply (i : S1x256.Idx) :
    val_main_v8 (F := F) x4 i = x4 (idx_main_v8 i) := by
  unfold val_main_v8
  exact broadcastInDim_apply _ bcast_S256_S1x256_1 x4 i (idx_main_v8 i) (fun a => match a with
    | ⟨0, _⟩ => by show (i 1).val = if (256 : Nat) = 1 then 0 else (i 1).val; rw [if_neg (by decide)])

def val_main_v9 : (⟨S8192x256, .f32⟩ : BufTy).Contents (Elt F) :=
  broadcastInDim S8192x256 ![0, 1] bcast_S1x256_S8192x256_0_1 (val_main_v8 (F := F) x4)
abbrev idx_main_v9 (i : S8192x256.Idx) : S1x256.Idx := fun a => match a with
  | ⟨0, _⟩ => ⟨0, Nat.one_pos⟩
  | ⟨1, _⟩ => ⟨(i 1).val, (i 1).isLt⟩
theorem val_main_v9_apply (i : S8192x256.Idx) :
    val_main_v9 (F := F) x4 i = val_main_v8 (F := F) x4 (idx_main_v9 i) := by
  unfold val_main_v9
  generalize val_main_v8 (F := F) x4 = y
  exact broadcastInDim_apply _ bcast_S1x256_S8192x256_0_1 y i (idx_main_v9 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v10 : (⟨S8192x256, .f32⟩ : BufTy).Contents (Elt F) :=
  addf (val_main_v7 (F := F) x0 x3) (val_main_v9 (F := F) x4)
theorem val_main_v10_apply (i : S8192x256.Idx) :
    val_main_v10 (F := F) x0 x3 x4 i = FloatOps.addf (val_main_v7 (F := F) x0 x3 i) (val_main_v9 (F := F) x4 i) := rfl

def val_main_v11 : (⟨S8192x256, .f32⟩ : BufTy).Contents (Elt F) :=
  Host.dotGeneral dot_S8192x256_S256x256_S8192x256_1_0_0_1_n_n none (val_main_v10 (F := F) x0 x3 x4) (x5)
theorem lhs_main_v11_0 (i : S8192x256.Idx) (q : dot_S8192x256_S256x256_S8192x256_1_0_0_1_n_n.contr.Idx) :
    (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
  rfl
theorem lhs_main_v11_1 (i : S8192x256.Idx) (q : dot_S8192x256_S256x256_S8192x256_1_0_0_1_n_n.contr.Idx) :
    (dot_S8192x256_S256x256_S8192x256_1_0_0_1_n_n.lhsIdx i q 1).val = (q ⟨0, by decide⟩).val :=
  dot_S8192x256_S256x256_S8192x256_1_0_0_1_n_n.lhsIdx_val_of_single rfl i q
theorem rhs_main_v11_0 (i : S8192x256.Idx) (q : dot_S8192x256_S256x256_S8192x256_1_0_0_1_n_n.contr.Idx) :
    (dot_S8192x256_S256x256_S8192x256_1_0_0_1_n_n.rhsIdx i q 0).val = (q ⟨0, by decide⟩).val :=
  dot_S8192x256_S256x256_S8192x256_1_0_0_1_n_n.rhsIdx_val_of_single rfl i q
theorem rhs_main_v11_1 (i : S8192x256.Idx) (q : dot_S8192x256_S256x256_S8192x256_1_0_0_1_n_n.contr.Idx) :
    (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
  rfl
abbrev lidx_main_v11 (i : S8192x256.Idx) (k : Fin 256) : S8192x256.Idx := fun a => match a with
  | ⟨0, _⟩ => ⟨(i 0).val, (i 0).isLt⟩
  | ⟨1, _⟩ => ⟨k.val, k.isLt⟩
abbrev ridx_main_v11 (i : S8192x256.Idx) (k : Fin 256) : S256x256.Idx := fun a => match a with
  | ⟨0, _⟩ => ⟨k.val, k.isLt⟩
  | ⟨1, _⟩ => ⟨(i 1).val, (i 1).isLt⟩

theorem val_main_v11_apply (x0 : (⟨S8192x256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (i : S8192x256.Idx) :
    val_main_v11 (F := Ideal) x0 x3 x4 x5 i = ∑ k : Fin 256, (val_main_v10 (F := Ideal) x0 x3 x4) (lidx_main_v11 i k) * x5 (ridx_main_v11 i k) := by
  unfold val_main_v11
  generalize val_main_v10 (F := Ideal) x0 x3 x4 = y0
  simp only [Host.dotGeneral]
  rw [Ideal.dotGeneral_apply, ← Equiv.sum_comp (ValueIdx.contrEquiv1 dot_S8192x256_S256x256_S8192x256_1_0_0_1_n_n 256 rfl rfl).symm]
  refine Finset.sum_congr rfl fun k _ => ?_
  have hk := ValueIdx.contrEquiv1_symm_val dot_S8192x256_S256x256_S8192x256_1_0_0_1_n_n 256 rfl rfl k
  have el : dot_S8192x256_S256x256_S8192x256_1_0_0_1_n_n.lhsIdx i ((ValueIdx.contrEquiv1 dot_S8192x256_S256x256_S8192x256_1_0_0_1_n_n 256 rfl rfl).symm k) = lidx_main_v11 i k := funext fun a => Fin.ext (by
    match a with
    | ⟨0, _⟩ => exact lhs_main_v11_0 _ _
    | ⟨1, _⟩ => exact (lhs_main_v11_1 _ _).trans hk)
  have er : dot_S8192x256_S256x256_S8192x256_1_0_0_1_n_n.rhsIdx i ((ValueIdx.contrEquiv1 dot_S8192x256_S256x256_S8192x256_1_0_0_1_n_n 256 rfl rfl).symm k) = ridx_main_v11 i k := funext fun a => Fin.ext (by
    match a with
    | ⟨0, _⟩ => exact (rhs_main_v11_0 _ _).trans hk
    | ⟨1, _⟩ => exact rhs_main_v11_1 _ _)
  rw [el, er]

def val_main_cst : (⟨S_, .f32⟩ : BufTy).Contents (Elt F) :=
  constant S_ .f32 0x3F800000#32
theorem val_main_cst_apply (i : S_.Idx) :
    val_main_cst (F := F) i = FloatOps.ofBits .f32 0x3F800000#32 := rfl

def val_main_v12 : (⟨S270336, .f32⟩ : BufTy).Contents (Elt F) :=
  broadcastInDim S270336 ![] bcast_S_S270336 (val_main_cst (F := F))
abbrev idx_main_v12 (i : S270336.Idx) : S_.Idx := fun a => a.elim0
theorem val_main_v12_apply (i : S270336.Idx) :
    val_main_v12 (F := F) i = val_main_cst (F := F) (idx_main_v12 i) := by
  unfold val_main_v12
  generalize val_main_cst (F := F) = y
  exact broadcastInDim_apply _ bcast_S_S270336 y i (idx_main_v12 i) (fun a => a.elim0)

def val_main_cst_0 : (⟨S_, .f32⟩ : BufTy).Contents (Elt F) :=
  constant S_ .f32 0x00000000#32
theorem val_main_cst_0_apply (i : S_.Idx) :
    val_main_cst_0 (F := F) i = FloatOps.ofBits .f32 0x00000000#32 := rfl

def val_main_v13 : (⟨S8192, .f32⟩ : BufTy).Contents (Elt F) :=
  broadcastInDim S8192 ![] bcast_S_S8192 (val_main_cst_0 (F := F))
abbrev idx_main_v13 (i : S8192.Idx) : S_.Idx := fun a => a.elim0
theorem val_main_v13_apply (i : S8192.Idx) :
    val_main_v13 (F := F) i = val_main_cst_0 (F := F) (idx_main_v13 i) := by
  unfold val_main_v13
  generalize val_main_cst_0 (F := F) = y
  exact broadcastInDim_apply _ bcast_S_S8192 y i (idx_main_v13 i) (fun a => a.elim0)

def val_main_v14 : (⟨S270336x1, .i32⟩ : BufTy).Contents (Elt F) :=
  broadcastInDim S270336x1 ![0] bcast_S270336_S270336x1_0 (val_main_v6 (F := F) x1)
abbrev idx_main_v14 (i : S270336x1.Idx) : S270336.Idx := fun a => match a with
  | ⟨0, _⟩ => ⟨(i 0).val, (i 0).isLt⟩
theorem val_main_v14_apply (i : S270336x1.Idx) :
    val_main_v14 (F := F) x1 i = val_main_v6 (F := F) x1 (idx_main_v14 i) := by
  unfold val_main_v14
  generalize val_main_v6 (F := F) x1 = y
  exact broadcastInDim_apply _ bcast_S270336_S270336x1_0 y i (idx_main_v14 i) (fun a => match a with
    | ⟨0, _⟩ => by show (i 0).val = if (270336 : Nat) = 1 then 0 else (i 0).val; rw [if_neg (by decide)])

def val_main_v15 : (⟨S8192, .f32⟩ : BufTy).Contents (Elt F) :=
  Host.scatterAdd scatter_S8192_S270336x1_S270336_n_0_0_1 (val_main_v13 (F := F)) (val_main_v14 (F := F) x1) (val_main_v12 (F := F))

def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

def val_main_v16 : (⟨S8192, .f32⟩ : BufTy).Contents (Elt F) :=
  broadcastInDim S8192 ![] bcast_S_S8192 (val_main_cst_1 (F := F))
abbrev idx_main_v16 (i : S8192.Idx) : S_.Idx := fun a => a.elim0
theorem val_main_v16_apply (i : S8192.Idx) :
    val_main_v16 (F := F) i = val_main_cst_1 (F := F) (idx_main_v16 i) := by
  unfold val_main_v16
  generalize val_main_cst_1 (F := F) = y
  exact broadcastInDim_apply _ bcast_S_S8192 y i (idx_main_v16 i) (fun a => a.elim0)

def val_main_v17 : (⟨S8192, .i1⟩ : BufTy).Contents (Elt F) :=
  cmpf .ogt (val_main_v15 (F := F) x1) (val_main_v16 (F := F))
theorem val_main_v17_apply (i : S8192.Idx) :
    val_main_v17 (F := F) x1 i = FloatOps.cmpf .ogt (val_main_v15 (F := F) x1 i) (val_main_v16 (F := F) i) := rfl

def val_main_v18 : (⟨S8192, .f32⟩ : BufTy).Contents (Elt F) :=
  Host.rsqrt (val_main_v15 (F := F) x1)
theorem val_main_v18_apply (i : S8192.Idx) :
    val_main_v18 (F := F) x1 i = FloatOps.hostUnary .rsqrt (val_main_v15 (F := F) x1 i) := rfl

def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

def val_main_call0_v0 : (⟨S_, .f32⟩ : BufTy).Contents (Elt F) :=
  id (val_main_cst_2 (F := F))
theorem val_main_call0_v0_apply (i : S_.Idx) :
    val_main_call0_v0 (F := F) i = (val_main_cst_2 (F := F) i) := rfl

def val_main_call0_v1 : (⟨S8192, .f32⟩ : BufTy).Contents (Elt F) :=
  broadcastInDim S8192 ![] bcast_S_S8192 (val_main_call0_v0 (F := F))
abbrev idx_main_call0_v1 (i : S8192.Idx) : S_.Idx := fun a => a.elim0
theorem val_main_call0_v1_apply (i : S8192.Idx) :
    val_main_call0_v1 (F := F) i = val_main_call0_v0 (F := F) (idx_main_call0_v1 i) := by
  unfold val_main_call0_v1
  generalize val_main_call0_v0 (F := F) = y
  exact broadcastInDim_apply _ bcast_S_S8192 y i (idx_main_call0_v1 i) (fun a => a.elim0)

def val_main_v19 : (⟨S8192, .f32⟩ : BufTy).Contents (Elt F) :=
  select (val_main_v17 (F := F) x1) (val_main_v18 (F := F) x1) (val_main_call0_v1 (F := F))
theorem val_main_v19_apply (i : S8192.Idx) :
    val_main_v19 (F := F) x1 i = Scalar.select (val_main_v17 (F := F) x1 i) (val_main_v18 (F := F) x1 i) (val_main_call0_v1 (F := F) i) := rfl

def val_main_c : (⟨S_, .i32⟩ : BufTy).Contents (Elt F) :=
  constantI S_ 32 0#32
theorem val_main_c_apply (i : S_.Idx) :
    val_main_c (F := F) i = 0#32 := rfl

def val_main_v20 : (⟨S270336, .i32⟩ : BufTy).Contents (Elt F) :=
  broadcastInDim S270336 ![] bcast_S_S270336 (val_main_c (F := F))
abbrev idx_main_v20 (i : S270336.Idx) : S_.Idx := fun a => a.elim0
theorem val_main_v20_apply (i : S270336.Idx) :
    val_main_v20 (F := F) i = val_main_c (F := F) (idx_main_v20 i) := by
  unfold val_main_v20
  generalize val_main_c (F := F) = y
  exact broadcastInDim_apply _ bcast_S_S270336 y i (idx_main_v20 i) (fun a => a.elim0)

def val_main_v21 : (⟨S270336, .i1⟩ : BufTy).Contents (Elt F) :=
  cmpi .slt (val_main_v3 (F := F) x1) (val_main_v20 (F := F))
theorem val_main_v21_apply (i : S270336.Idx) :
    val_main_v21 (F := F) x1 i = IntOp.cmpi .slt (val_main_v3 (F := F) x1 i) (val_main_v20 (F := F) i) := rfl

def val_main_c_3 : (⟨S_, .i32⟩ : BufTy).Contents (Elt F) :=
  constantI S_ 32 8192#32
theorem val_main_c_3_apply (i : S_.Idx) :
    val_main_c_3 (F := F) i = 8192#32 := rfl

def val_main_v22 : (⟨S270336, .i32⟩ : BufTy).Contents (Elt F) :=
  broadcastInDim S270336 ![] bcast_S_S270336 (val_main_c_3 (F := F))
abbrev idx_main_v22 (i : S270336.Idx) : S_.Idx := fun a => a.elim0
theorem val_main_v22_apply (i : S270336.Idx) :
    val_main_v22 (F := F) i = val_main_c_3 (F := F) (idx_main_v22 i) := by
  unfold val_main_v22
  generalize val_main_c_3 (F := F) = y
  exact broadcastInDim_apply _ bcast_S_S270336 y i (idx_main_v22 i) (fun a => a.elim0)

def val_main_v23 : (⟨S270336, .i32⟩ : BufTy).Contents (Elt F) :=
  addi (val_main_v3 (F := F) x1) (val_main_v22 (F := F))
theorem val_main_v23_apply (i : S270336.Idx) :
    val_main_v23 (F := F) x1 i = IntOp.addi (val_main_v3 (F := F) x1 i) (val_main_v22 (F := F) i) := rfl

def val_main_v24 : (⟨S270336, .i32⟩ : BufTy).Contents (Elt F) :=
  select (val_main_v21 (F := F) x1) (val_main_v23 (F := F) x1) (val_main_v3 (F := F) x1)
theorem val_main_v24_apply (i : S270336.Idx) :
    val_main_v24 (F := F) x1 i = Scalar.select (val_main_v21 (F := F) x1 i) (val_main_v23 (F := F) x1 i) (val_main_v3 (F := F) x1 i) := rfl

def val_main_v25 : (⟨S270336x1, .i32⟩ : BufTy).Contents (Elt F) :=
  broadcastInDim S270336x1 ![0] bcast_S270336_S270336x1_0 (val_main_v24 (F := F) x1)
abbrev idx_main_v25 (i : S270336x1.Idx) : S270336.Idx := fun a => match a with
  | ⟨0, _⟩ => ⟨(i 0).val, (i 0).isLt⟩
theorem val_main_v25_apply (i : S270336x1.Idx) :
    val_main_v25 (F := F) x1 i = val_main_v24 (F := F) x1 (idx_main_v25 i) := by
  unfold val_main_v25
  generalize val_main_v24 (F := F) x1 = y
  exact broadcastInDim_apply _ bcast_S270336_S270336x1_0 y i (idx_main_v25 i) (fun a => match a with
    | ⟨0, _⟩ => by show (i 0).val = if (270336 : Nat) = 1 then 0 else (i 0).val; rw [if_neg (by decide)])

def val_main_v26 : (⟨S270336, .f32⟩ : BufTy).Contents (Elt F) :=
  Host.gather gather_S8192_S270336x1_S270336_n_0_n_n_0_1_1 (val_main_v19 (F := F) x1) (val_main_v25 (F := F) x1)

def val_main_c_4 : (⟨S_, .i32⟩ : BufTy).Contents (Elt F) :=
  constantI S_ 32 0#32
theorem val_main_c_4_apply (i : S_.Idx) :
    val_main_c_4 (F := F) i = 0#32 := rfl

def val_main_v27 : (⟨S270336, .i32⟩ : BufTy).Contents (Elt F) :=
  broadcastInDim S270336 ![] bcast_S_S270336 (val_main_c_4 (F := F))
abbrev idx_main_v27 (i : S270336.Idx) : S_.Idx := fun a => a.elim0
theorem val_main_v27_apply (i : S270336.Idx) :
    val_main_v27 (F := F) i = val_main_c_4 (F := F) (idx_main_v27 i) := by
  unfold val_main_v27
  generalize val_main_c_4 (F := F) = y
  exact broadcastInDim_apply _ bcast_S_S270336 y i (idx_main_v27 i) (fun a => a.elim0)

def val_main_v28 : (⟨S270336, .i1⟩ : BufTy).Contents (Elt F) :=
  cmpi .slt (val_main_v6 (F := F) x1) (val_main_v27 (F := F))
theorem val_main_v28_apply (i : S270336.Idx) :
    val_main_v28 (F := F) x1 i = IntOp.cmpi .slt (val_main_v6 (F := F) x1 i) (val_main_v27 (F := F) i) := rfl

def val_main_c_5 : (⟨S_, .i32⟩ : BufTy).Contents (Elt F) :=
  constantI S_ 32 8192#32
theorem val_main_c_5_apply (i : S_.Idx) :
    val_main_c_5 (F := F) i = 8192#32 := rfl

def val_main_v29 : (⟨S270336, .i32⟩ : BufTy).Contents (Elt F) :=
  broadcastInDim S270336 ![] bcast_S_S270336 (val_main_c_5 (F := F))
abbrev idx_main_v29 (i : S270336.Idx) : S_.Idx := fun a => a.elim0
theorem val_main_v29_apply (i : S270336.Idx) :
    val_main_v29 (F := F) i = val_main_c_5 (F := F) (idx_main_v29 i) := by
  unfold val_main_v29
  generalize val_main_c_5 (F := F) = y
  exact broadcastInDim_apply _ bcast_S_S270336 y i (idx_main_v29 i) (fun a => a.elim0)

def val_main_v30 : (⟨S270336, .i32⟩ : BufTy).Contents (Elt F) :=
  addi (val_main_v6 (F := F) x1) (val_main_v29 (F := F))
theorem val_main_v30_apply (i : S270336.Idx) :
    val_main_v30 (F := F) x1 i = IntOp.addi (val_main_v6 (F := F) x1 i) (val_main_v29 (F := F) i) := rfl

def val_main_v31 : (⟨S270336, .i32⟩ : BufTy).Contents (Elt F) :=
  select (val_main_v28 (F := F) x1) (val_main_v30 (F := F) x1) (val_main_v6 (F := F) x1)
theorem val_main_v31_apply (i : S270336.Idx) :
    val_main_v31 (F := F) x1 i = Scalar.select (val_main_v28 (F := F) x1 i) (val_main_v30 (F := F) x1 i) (val_main_v6 (F := F) x1 i) := rfl

def val_main_v32 : (⟨S270336x1, .i32⟩ : BufTy).Contents (Elt F) :=
  broadcastInDim S270336x1 ![0] bcast_S270336_S270336x1_0 (val_main_v31 (F := F) x1)
abbrev idx_main_v32 (i : S270336x1.Idx) : S270336.Idx := fun a => match a with
  | ⟨0, _⟩ => ⟨(i 0).val, (i 0).isLt⟩
theorem val_main_v32_apply (i : S270336x1.Idx) :
    val_main_v32 (F := F) x1 i = val_main_v31 (F := F) x1 (idx_main_v32 i) := by
  unfold val_main_v32
  generalize val_main_v31 (F := F) x1 = y
  exact broadcastInDim_apply _ bcast_S270336_S270336x1_0 y i (idx_main_v32 i) (fun a => match a with
    | ⟨0, _⟩ => by show (i 0).val = if (270336 : Nat) = 1 then 0 else (i 0).val; rw [if_neg (by decide)])

def val_main_v33 : (⟨S270336, .f32⟩ : BufTy).Contents (Elt F) :=
  Host.gather gather_S8192_S270336x1_S270336_n_0_n_n_0_1_1 (val_main_v19 (F := F) x1) (val_main_v32 (F := F) x1)

def val_main_v34 : (⟨S270336, .f32⟩ : BufTy).Contents (Elt F) :=
  mulf (val_main_v26 (F := F) x1) (val_main_v33 (F := F) x1)
theorem val_main_v34_apply (i : S270336.Idx) :
    val_main_v34 (F := F) x1 i = FloatOps.mulf (val_main_v26 (F := F) x1 i) (val_main_v33 (F := F) x1 i) := rfl

def val_main_c_6 : (⟨S_, .i32⟩ : BufTy).Contents (Elt F) :=
  constantI S_ 32 0#32
theorem val_main_c_6_apply (i : S_.Idx) :
    val_main_c_6 (F := F) i = 0#32 := rfl

def val_main_v35 : (⟨S270336, .i32⟩ : BufTy).Contents (Elt F) :=
  broadcastInDim S270336 ![] bcast_S_S270336 (val_main_c_6 (F := F))
abbrev idx_main_v35 (i : S270336.Idx) : S_.Idx := fun a => a.elim0
theorem val_main_v35_apply (i : S270336.Idx) :
    val_main_v35 (F := F) i = val_main_c_6 (F := F) (idx_main_v35 i) := by
  unfold val_main_v35
  generalize val_main_c_6 (F := F) = y
  exact broadcastInDim_apply _ bcast_S_S270336 y i (idx_main_v35 i) (fun a => a.elim0)

def val_main_v36 : (⟨S270336, .i1⟩ : BufTy).Contents (Elt F) :=
  cmpi .slt (val_main_v3 (F := F) x1) (val_main_v35 (F := F))
theorem val_main_v36_apply (i : S270336.Idx) :
    val_main_v36 (F := F) x1 i = IntOp.cmpi .slt (val_main_v3 (F := F) x1 i) (val_main_v35 (F := F) i) := rfl

def val_main_c_7 : (⟨S_, .i32⟩ : BufTy).Contents (Elt F) :=
  constantI S_ 32 8192#32
theorem val_main_c_7_apply (i : S_.Idx) :
    val_main_c_7 (F := F) i = 8192#32 := rfl

def val_main_v37 : (⟨S270336, .i32⟩ : BufTy).Contents (Elt F) :=
  broadcastInDim S270336 ![] bcast_S_S270336 (val_main_c_7 (F := F))
abbrev idx_main_v37 (i : S270336.Idx) : S_.Idx := fun a => a.elim0
theorem val_main_v37_apply (i : S270336.Idx) :
    val_main_v37 (F := F) i = val_main_c_7 (F := F) (idx_main_v37 i) := by
  unfold val_main_v37
  generalize val_main_c_7 (F := F) = y
  exact broadcastInDim_apply _ bcast_S_S270336 y i (idx_main_v37 i) (fun a => a.elim0)

def val_main_v38 : (⟨S270336, .i32⟩ : BufTy).Contents (Elt F) :=
  addi (val_main_v3 (F := F) x1) (val_main_v37 (F := F))
theorem val_main_v38_apply (i : S270336.Idx) :
    val_main_v38 (F := F) x1 i = IntOp.addi (val_main_v3 (F := F) x1 i) (val_main_v37 (F := F) i) := rfl

def val_main_v39 : (⟨S270336, .i32⟩ : BufTy).Contents (Elt F) :=
  select (val_main_v36 (F := F) x1) (val_main_v38 (F := F) x1) (val_main_v3 (F := F) x1)
theorem val_main_v39_apply (i : S270336.Idx) :
    val_main_v39 (F := F) x1 i = Scalar.select (val_main_v36 (F := F) x1 i) (val_main_v38 (F := F) x1 i) (val_main_v3 (F := F) x1 i) := rfl

def val_main_v40 : (⟨S270336x1, .i32⟩ : BufTy).Contents (Elt F) :=
  broadcastInDim S270336x1 ![0] bcast_S270336_S270336x1_0 (val_main_v39 (F := F) x1)
abbrev idx_main_v40 (i : S270336x1.Idx) : S270336.Idx := fun a => match a with
  | ⟨0, _⟩ => ⟨(i 0).val, (i 0).isLt⟩
theorem val_main_v40_apply (i : S270336x1.Idx) :
    val_main_v40 (F := F) x1 i = val_main_v39 (F := F) x1 (idx_main_v40 i) := by
  unfold val_main_v40
  generalize val_main_v39 (F := F) x1 = y
  exact broadcastInDim_apply _ bcast_S270336_S270336x1_0 y i (idx_main_v40 i) (fun a => match a with
    | ⟨0, _⟩ => by show (i 0).val = if (270336 : Nat) = 1 then 0 else (i 0).val; rw [if_neg (by decide)])

def val_main_v41 : (⟨S270336x256, .f32⟩ : BufTy).Contents (Elt F) :=
  Host.gather gather_S8192x256_S270336x1_S270336x256_1_0_n_n_0_1_1256 (val_main_v11 (F := F) x0 x3 x4 x5) (val_main_v40 (F := F) x1)

def val_main_v42 : (⟨S270336x1, .f32⟩ : BufTy).Contents (Elt F) :=
  broadcastInDim S270336x1 ![0] bcast_S270336_S270336x1_0 (val_main_v34 (F := F) x1)
abbrev idx_main_v42 (i : S270336x1.Idx) : S270336.Idx := fun a => match a with
  | ⟨0, _⟩ => ⟨(i 0).val, (i 0).isLt⟩
theorem val_main_v42_apply (i : S270336x1.Idx) :
    val_main_v42 (F := F) x1 i = val_main_v34 (F := F) x1 (idx_main_v42 i) := by
  unfold val_main_v42
  generalize val_main_v34 (F := F) x1 = y
  exact broadcastInDim_apply _ bcast_S270336_S270336x1_0 y i (idx_main_v42 i) (fun a => match a with
    | ⟨0, _⟩ => by show (i 0).val = if (270336 : Nat) = 1 then 0 else (i 0).val; rw [if_neg (by decide)])

def val_main_v43 : (⟨S270336x256, .f32⟩ : BufTy).Contents (Elt F) :=
  broadcastInDim S270336x256 ![0, 1] bcast_S270336x1_S270336x256_0_1 (val_main_v42 (F := F) x1)
abbrev idx_main_v43 (i : S270336x256.Idx) : S270336x1.Idx := fun a => match a with
  | ⟨0, _⟩ => ⟨(i 0).val, (i 0).isLt⟩
  | ⟨1, _⟩ => ⟨0, Nat.one_pos⟩
theorem val_main_v43_apply (i : S270336x256.Idx) :
    val_main_v43 (F := F) x1 i = val_main_v42 (F := F) x1 (idx_main_v43 i) := by
  unfold val_main_v43
  generalize val_main_v42 (F := F) x1 = y
  exact broadcastInDim_apply _ bcast_S270336x1_S270336x256_0_1 y i (idx_main_v43 i) (fun a => match a with
    | ⟨0, _⟩ => by show (i 0).val = if (270336 : Nat) = 1 then 0 else (i 0).val; rw [if_neg (by decide)]
    | ⟨1, _⟩ => by show 0 = if (1 : Nat) = 1 then 0 else (i 1).val; rw [if_pos rfl])

def val_main_v44 : (⟨S270336x256, .f32⟩ : BufTy).Contents (Elt F) :=
  mulf (val_main_v41 (F := F) x0 x1 x3 x4 x5) (val_main_v43 (F := F) x1)
theorem val_main_v44_apply (i : S270336x256.Idx) :
    val_main_v44 (F := F) x0 x1 x3 x4 x5 i = FloatOps.mulf (val_main_v41 (F := F) x0 x1 x3 x4 x5 i) (val_main_v43 (F := F) x1 i) := rfl

def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl

def val_main_v45 : (⟨S8192x256, .f32⟩ : BufTy).Contents (Elt F) :=
  broadcastInDim S8192x256 ![] bcast_S_S8192x256 (val_main_cst_8 (F := F))
abbrev idx_main_v45 (i : S8192x256.Idx) : S_.Idx := fun a => a.elim0
theorem val_main_v45_apply (i : S8192x256.Idx) :
    val_main_v45 (F := F) i = val_main_cst_8 (F := F) (idx_main_v45 i) := by
  unfold val_main_v45
  generalize val_main_cst_8 (F := F) = y
  exact broadcastInDim_apply _ bcast_S_S8192x256 y i (idx_main_v45 i) (fun a => a.elim0)

def val_main_v46 : (⟨S270336x1, .i32⟩ : BufTy).Contents (Elt F) :=
  broadcastInDim S270336x1 ![0] bcast_S270336_S270336x1_0 (val_main_v6 (F := F) x1)
abbrev idx_main_v46 (i : S270336x1.Idx) : S270336.Idx := fun a => match a with
  | ⟨0, _⟩ => ⟨(i 0).val, (i 0).isLt⟩
theorem val_main_v46_apply (i : S270336x1.Idx) :
    val_main_v46 (F := F) x1 i = val_main_v6 (F := F) x1 (idx_main_v46 i) := by
  unfold val_main_v46
  generalize val_main_v6 (F := F) x1 = y
  exact broadcastInDim_apply _ bcast_S270336_S270336x1_0 y i (idx_main_v46 i) (fun a => match a with
    | ⟨0, _⟩ => by show (i 0).val = if (270336 : Nat) = 1 then 0 else (i 0).val; rw [if_neg (by decide)])

def val_main_v47 : (⟨S8192x256, .f32⟩ : BufTy).Contents (Elt F) :=
  Host.scatterAdd scatter_S8192x256_S270336x1_S270336x256_1_0_0_1 (val_main_v45 (F := F)) (val_main_v46 (F := F) x1) (val_main_v44 (F := F) x0 x1 x3 x4 x5)

def val_main_v48 : (⟨S1x256, .f32⟩ : BufTy).Contents (Elt F) :=
  broadcastInDim S1x256 ![1] bcast_S256_S1x256_1 (x6)
abbrev idx_main_v48 (i : S1x256.Idx) : S256.Idx := fun a => match a with
  | ⟨0, _⟩ => ⟨(i 1).val, (i 1).isLt⟩
theorem val_main_v48_apply (i : S1x256.Idx) :
    val_main_v48 (F := F) x6 i = x6 (idx_main_v48 i) := by
  unfold val_main_v48
  exact broadcastInDim_apply _ bcast_S256_S1x256_1 x6 i (idx_main_v48 i) (fun a => match a with
    | ⟨0, _⟩ => by show (i 1).val = if (256 : Nat) = 1 then 0 else (i 1).val; rw [if_neg (by decide)])

def val_main_v49 : (⟨S8192x256, .f32⟩ : BufTy).Contents (Elt F) :=
  broadcastInDim S8192x256 ![0, 1] bcast_S1x256_S8192x256_0_1 (val_main_v48 (F := F) x6)
abbrev idx_main_v49 (i : S8192x256.Idx) : S1x256.Idx := fun a => match a with
  | ⟨0, _⟩ => ⟨0, Nat.one_pos⟩
  | ⟨1, _⟩ => ⟨(i 1).val, (i 1).isLt⟩
theorem val_main_v49_apply (i : S8192x256.Idx) :
    val_main_v49 (F := F) x6 i = val_main_v48 (F := F) x6 (idx_main_v49 i) := by
  unfold val_main_v49
  generalize val_main_v48 (F := F) x6 = y
  exact broadcastInDim_apply _ bcast_S1x256_S8192x256_0_1 y i (idx_main_v49 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v50 : (⟨S8192x256, .f32⟩ : BufTy).Contents (Elt F) :=
  addf (val_main_v47 (F := F) x0 x1 x3 x4 x5) (val_main_v49 (F := F) x6)
theorem val_main_v50_apply (i : S8192x256.Idx) :
    val_main_v50 (F := F) x0 x1 x3 x4 x5 x6 i = FloatOps.addf (val_main_v47 (F := F) x0 x1 x3 x4 x5 i) (val_main_v49 (F := F) x6 i) := rfl

def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

def val_main_call1_v0 : (⟨S8192x256, .f32⟩ : BufTy).Contents (Elt F) :=
  broadcastInDim S8192x256 ![] bcast_S_S8192x256 (val_main_call1_cst (F := F))
abbrev idx_main_call1_v0 (i : S8192x256.Idx) : S_.Idx := fun a => a.elim0
theorem val_main_call1_v0_apply (i : S8192x256.Idx) :
    val_main_call1_v0 (F := F) i = val_main_call1_cst (F := F) (idx_main_call1_v0 i) := by
  unfold val_main_call1_v0
  generalize val_main_call1_cst (F := F) = y
  exact broadcastInDim_apply _ bcast_S_S8192x256 y i (idx_main_call1_v0 i) (fun a => a.elim0)

def val_main_v51 : (⟨S8192x256, .f32⟩ : BufTy).Contents (Elt F) :=
  maximumf (val_main_v50 (F := F) x0 x1 x3 x4 x5 x6) (val_main_call1_v0 (F := F))
theorem val_main_v51_apply (i : S8192x256.Idx) :
    val_main_v51 (F := F) x0 x1 x3 x4 x5 x6 i = FloatOps.maximumf (val_main_v50 (F := F) x0 x1 x3 x4 x5 x6 i) (val_main_call1_v0 (F := F) i) := rfl

def val_main_v52 : (⟨S8192x256, .f32⟩ : BufTy).Contents (Elt F) :=
  Host.dotGeneral dot_S8192x256_S256x256_S8192x256_1_0_0_1_n_n none (val_main_v51 (F := F) x0 x1 x3 x4 x5 x6) (x7)
theorem lhs_main_v52_0 (i : S8192x256.Idx) (q : dot_S8192x256_S256x256_S8192x256_1_0_0_1_n_n.contr.Idx) :
    (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
  rfl
theorem lhs_main_v52_1 (i : S8192x256.Idx) (q : dot_S8192x256_S256x256_S8192x256_1_0_0_1_n_n.contr.Idx) :
    (dot_S8192x256_S256x256_S8192x256_1_0_0_1_n_n.lhsIdx i q 1).val = (q ⟨0, by decide⟩).val :=
  dot_S8192x256_S256x256_S8192x256_1_0_0_1_n_n.lhsIdx_val_of_single rfl i q
theorem rhs_main_v52_0 (i : S8192x256.Idx) (q : dot_S8192x256_S256x256_S8192x256_1_0_0_1_n_n.contr.Idx) :
    (dot_S8192x256_S256x256_S8192x256_1_0_0_1_n_n.rhsIdx i q 0).val = (q ⟨0, by decide⟩).val :=
  dot_S8192x256_S256x256_S8192x256_1_0_0_1_n_n.rhsIdx_val_of_single rfl i q
theorem rhs_main_v52_1 (i : S8192x256.Idx) (q : dot_S8192x256_S256x256_S8192x256_1_0_0_1_n_n.contr.Idx) :
    (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
  rfl
abbrev lidx_main_v52 (i : S8192x256.Idx) (k : Fin 256) : S8192x256.Idx := fun a => match a with
  | ⟨0, _⟩ => ⟨(i 0).val, (i 0).isLt⟩
  | ⟨1, _⟩ => ⟨k.val, k.isLt⟩
abbrev ridx_main_v52 (i : S8192x256.Idx) (k : Fin 256) : S256x256.Idx := fun a => match a with
  | ⟨0, _⟩ => ⟨k.val, k.isLt⟩
  | ⟨1, _⟩ => ⟨(i 1).val, (i 1).isLt⟩

theorem val_main_v52_apply (x0 : (⟨S8192x256, .f32⟩ : BufTy).Contents (Elt Ideal)) (x1 : (⟨S2x262144, .i32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (i : S8192x256.Idx) :
    val_main_v52 (F := Ideal) x0 x1 x3 x4 x5 x6 x7 i = ∑ k : Fin 256, (val_main_v51 (F := Ideal) x0 x1 x3 x4 x5 x6) (lidx_main_v52 i k) * x7 (ridx_main_v52 i k) := by
  unfold val_main_v52
  generalize val_main_v51 (F := Ideal) x0 x1 x3 x4 x5 x6 = y0
  simp only [Host.dotGeneral]
  rw [Ideal.dotGeneral_apply, ← Equiv.sum_comp (ValueIdx.contrEquiv1 dot_S8192x256_S256x256_S8192x256_1_0_0_1_n_n 256 rfl rfl).symm]
  refine Finset.sum_congr rfl fun k _ => ?_
  have hk := ValueIdx.contrEquiv1_symm_val dot_S8192x256_S256x256_S8192x256_1_0_0_1_n_n 256 rfl rfl k
  have el : dot_S8192x256_S256x256_S8192x256_1_0_0_1_n_n.lhsIdx i ((ValueIdx.contrEquiv1 dot_S8192x256_S256x256_S8192x256_1_0_0_1_n_n 256 rfl rfl).symm k) = lidx_main_v52 i k := funext fun a => Fin.ext (by
    match a with
    | ⟨0, _⟩ => exact lhs_main_v52_0 _ _
    | ⟨1, _⟩ => exact (lhs_main_v52_1 _ _).trans hk)
  have er : dot_S8192x256_S256x256_S8192x256_1_0_0_1_n_n.rhsIdx i ((ValueIdx.contrEquiv1 dot_S8192x256_S256x256_S8192x256_1_0_0_1_n_n 256 rfl rfl).symm k) = ridx_main_v52 i k := funext fun a => Fin.ext (by
    match a with
    | ⟨0, _⟩ => exact (rhs_main_v52_0 _ _).trans hk
    | ⟨1, _⟩ => exact rhs_main_v52_1 _ _)
  rw [el, er]

def val_main_cst_9 : (⟨S_, .f32⟩ : BufTy).Contents (Elt F) :=
  constant S_ .f32 0x3F800000#32
theorem val_main_cst_9_apply (i : S_.Idx) :
    val_main_cst_9 (F := F) i = FloatOps.ofBits .f32 0x3F800000#32 := rfl

def val_main_v53 : (⟨S270336, .f32⟩ : BufTy).Contents (Elt F) :=
  broadcastInDim S270336 ![] bcast_S_S270336 (val_main_cst_9 (F := F))
abbrev idx_main_v53 (i : S270336.Idx) : S_.Idx := fun a => a.elim0
theorem val_main_v53_apply (i : S270336.Idx) :
    val_main_v53 (F := F) i = val_main_cst_9 (F := F) (idx_main_v53 i) := by
  unfold val_main_v53
  generalize val_main_cst_9 (F := F) = y
  exact broadcastInDim_apply _ bcast_S_S270336 y i (idx_main_v53 i) (fun a => a.elim0)

def val_main_cst_10 : (⟨S_, .f32⟩ : BufTy).Contents (Elt F) :=
  constant S_ .f32 0x00000000#32
theorem val_main_cst_10_apply (i : S_.Idx) :
    val_main_cst_10 (F := F) i = FloatOps.ofBits .f32 0x00000000#32 := rfl

def val_main_v54 : (⟨S8192, .f32⟩ : BufTy).Contents (Elt F) :=
  broadcastInDim S8192 ![] bcast_S_S8192 (val_main_cst_10 (F := F))
abbrev idx_main_v54 (i : S8192.Idx) : S_.Idx := fun a => a.elim0
theorem val_main_v54_apply (i : S8192.Idx) :
    val_main_v54 (F := F) i = val_main_cst_10 (F := F) (idx_main_v54 i) := by
  unfold val_main_v54
  generalize val_main_cst_10 (F := F) = y
  exact broadcastInDim_apply _ bcast_S_S8192 y i (idx_main_v54 i) (fun a => a.elim0)

def val_main_v55 : (⟨S270336x1, .i32⟩ : BufTy).Contents (Elt F) :=
  broadcastInDim S270336x1 ![0] bcast_S270336_S270336x1_0 (val_main_v6 (F := F) x1)
abbrev idx_main_v55 (i : S270336x1.Idx) : S270336.Idx := fun a => match a with
  | ⟨0, _⟩ => ⟨(i 0).val, (i 0).isLt⟩
theorem val_main_v55_apply (i : S270336x1.Idx) :
    val_main_v55 (F := F) x1 i = val_main_v6 (F := F) x1 (idx_main_v55 i) := by
  unfold val_main_v55
  generalize val_main_v6 (F := F) x1 = y
  exact broadcastInDim_apply _ bcast_S270336_S270336x1_0 y i (idx_main_v55 i) (fun a => match a with
    | ⟨0, _⟩ => by show (i 0).val = if (270336 : Nat) = 1 then 0 else (i 0).val; rw [if_neg (by decide)])

def val_main_v56 : (⟨S8192, .f32⟩ : BufTy).Contents (Elt F) :=
  Host.scatterAdd scatter_S8192_S270336x1_S270336_n_0_0_1 (val_main_v54 (F := F)) (val_main_v55 (F := F) x1) (val_main_v53 (F := F))

def val_main_cst_11 : (⟨S_, .f32⟩ : BufTy).Contents (Elt F) :=
  constant S_ .f32 0x00000000#32
theorem val_main_cst_11_apply (i : S_.Idx) :
    val_main_cst_11 (F := F) i = FloatOps.ofBits .f32 0x00000000#32 := rfl

def val_main_v57 : (⟨S8192, .f32⟩ : BufTy).Contents (Elt F) :=
  broadcastInDim S8192 ![] bcast_S_S8192 (val_main_cst_11 (F := F))
abbrev idx_main_v57 (i : S8192.Idx) : S_.Idx := fun a => a.elim0
theorem val_main_v57_apply (i : S8192.Idx) :
    val_main_v57 (F := F) i = val_main_cst_11 (F := F) (idx_main_v57 i) := by
  unfold val_main_v57
  generalize val_main_cst_11 (F := F) = y
  exact broadcastInDim_apply _ bcast_S_S8192 y i (idx_main_v57 i) (fun a => a.elim0)

def val_main_v58 : (⟨S8192, .i1⟩ : BufTy).Contents (Elt F) :=
  cmpf .ogt (val_main_v56 (F := F) x1) (val_main_v57 (F := F))
theorem val_main_v58_apply (i : S8192.Idx) :
    val_main_v58 (F := F) x1 i = FloatOps.cmpf .ogt (val_main_v56 (F := F) x1 i) (val_main_v57 (F := F) i) := rfl

def val_main_v59 : (⟨S8192, .f32⟩ : BufTy).Contents (Elt F) :=
  Host.rsqrt (val_main_v56 (F := F) x1)
theorem val_main_v59_apply (i : S8192.Idx) :
    val_main_v59 (F := F) x1 i = FloatOps.hostUnary .rsqrt (val_main_v56 (F := F) x1 i) := rfl

def val_main_cst_12 : (⟨S_, .f32⟩ : BufTy).Contents (Elt F) :=
  constant S_ .f32 0x00000000#32
theorem val_main_cst_12_apply (i : S_.Idx) :
    val_main_cst_12 (F := F) i = FloatOps.ofBits .f32 0x00000000#32 := rfl

def val_main_call2_v0 : (⟨S_, .f32⟩ : BufTy).Contents (Elt F) :=
  id (val_main_cst_12 (F := F))
theorem val_main_call2_v0_apply (i : S_.Idx) :
    val_main_call2_v0 (F := F) i = (val_main_cst_12 (F := F) i) := rfl

def val_main_call2_v1 : (⟨S8192, .f32⟩ : BufTy).Contents (Elt F) :=
  broadcastInDim S8192 ![] bcast_S_S8192 (val_main_call2_v0 (F := F))
abbrev idx_main_call2_v1 (i : S8192.Idx) : S_.Idx := fun a => a.elim0
theorem val_main_call2_v1_apply (i : S8192.Idx) :
    val_main_call2_v1 (F := F) i = val_main_call2_v0 (F := F) (idx_main_call2_v1 i) := by
  unfold val_main_call2_v1
  generalize val_main_call2_v0 (F := F) = y
  exact broadcastInDim_apply _ bcast_S_S8192 y i (idx_main_call2_v1 i) (fun a => a.elim0)

def val_main_v60 : (⟨S8192, .f32⟩ : BufTy).Contents (Elt F) :=
  select (val_main_v58 (F := F) x1) (val_main_v59 (F := F) x1) (val_main_call2_v1 (F := F))
theorem val_main_v60_apply (i : S8192.Idx) :
    val_main_v60 (F := F) x1 i = Scalar.select (val_main_v58 (F := F) x1 i) (val_main_v59 (F := F) x1 i) (val_main_call2_v1 (F := F) i) := rfl

def val_main_c_13 : (⟨S_, .i32⟩ : BufTy).Contents (Elt F) :=
  constantI S_ 32 0#32
theorem val_main_c_13_apply (i : S_.Idx) :
    val_main_c_13 (F := F) i = 0#32 := rfl

def val_main_v61 : (⟨S270336, .i32⟩ : BufTy).Contents (Elt F) :=
  broadcastInDim S270336 ![] bcast_S_S270336 (val_main_c_13 (F := F))
abbrev idx_main_v61 (i : S270336.Idx) : S_.Idx := fun a => a.elim0
theorem val_main_v61_apply (i : S270336.Idx) :
    val_main_v61 (F := F) i = val_main_c_13 (F := F) (idx_main_v61 i) := by
  unfold val_main_v61
  generalize val_main_c_13 (F := F) = y
  exact broadcastInDim_apply _ bcast_S_S270336 y i (idx_main_v61 i) (fun a => a.elim0)

def val_main_v62 : (⟨S270336, .i1⟩ : BufTy).Contents (Elt F) :=
  cmpi .slt (val_main_v3 (F := F) x1) (val_main_v61 (F := F))
theorem val_main_v62_apply (i : S270336.Idx) :
    val_main_v62 (F := F) x1 i = IntOp.cmpi .slt (val_main_v3 (F := F) x1 i) (val_main_v61 (F := F) i) := rfl

def val_main_c_14 : (⟨S_, .i32⟩ : BufTy).Contents (Elt F) :=
  constantI S_ 32 8192#32
theorem val_main_c_14_apply (i : S_.Idx) :
    val_main_c_14 (F := F) i = 8192#32 := rfl

def val_main_v63 : (⟨S270336, .i32⟩ : BufTy).Contents (Elt F) :=
  broadcastInDim S270336 ![] bcast_S_S270336 (val_main_c_14 (F := F))
abbrev idx_main_v63 (i : S270336.Idx) : S_.Idx := fun a => a.elim0
theorem val_main_v63_apply (i : S270336.Idx) :
    val_main_v63 (F := F) i = val_main_c_14 (F := F) (idx_main_v63 i) := by
  unfold val_main_v63
  generalize val_main_c_14 (F := F) = y
  exact broadcastInDim_apply _ bcast_S_S270336 y i (idx_main_v63 i) (fun a => a.elim0)

def val_main_v64 : (⟨S270336, .i32⟩ : BufTy).Contents (Elt F) :=
  addi (val_main_v3 (F := F) x1) (val_main_v63 (F := F))
theorem val_main_v64_apply (i : S270336.Idx) :
    val_main_v64 (F := F) x1 i = IntOp.addi (val_main_v3 (F := F) x1 i) (val_main_v63 (F := F) i) := rfl

def val_main_v65 : (⟨S270336, .i32⟩ : BufTy).Contents (Elt F) :=
  select (val_main_v62 (F := F) x1) (val_main_v64 (F := F) x1) (val_main_v3 (F := F) x1)
theorem val_main_v65_apply (i : S270336.Idx) :
    val_main_v65 (F := F) x1 i = Scalar.select (val_main_v62 (F := F) x1 i) (val_main_v64 (F := F) x1 i) (val_main_v3 (F := F) x1 i) := rfl

def val_main_v66 : (⟨S270336x1, .i32⟩ : BufTy).Contents (Elt F) :=
  broadcastInDim S270336x1 ![0] bcast_S270336_S270336x1_0 (val_main_v65 (F := F) x1)
abbrev idx_main_v66 (i : S270336x1.Idx) : S270336.Idx := fun a => match a with
  | ⟨0, _⟩ => ⟨(i 0).val, (i 0).isLt⟩
theorem val_main_v66_apply (i : S270336x1.Idx) :
    val_main_v66 (F := F) x1 i = val_main_v65 (F := F) x1 (idx_main_v66 i) := by
  unfold val_main_v66
  generalize val_main_v65 (F := F) x1 = y
  exact broadcastInDim_apply _ bcast_S270336_S270336x1_0 y i (idx_main_v66 i) (fun a => match a with
    | ⟨0, _⟩ => by show (i 0).val = if (270336 : Nat) = 1 then 0 else (i 0).val; rw [if_neg (by decide)])

def val_main_v67 : (⟨S270336, .f32⟩ : BufTy).Contents (Elt F) :=
  Host.gather gather_S8192_S270336x1_S270336_n_0_n_n_0_1_1 (val_main_v60 (F := F) x1) (val_main_v66 (F := F) x1)

def val_main_c_15 : (⟨S_, .i32⟩ : BufTy).Contents (Elt F) :=
  constantI S_ 32 0#32
theorem val_main_c_15_apply (i : S_.Idx) :
    val_main_c_15 (F := F) i = 0#32 := rfl

def val_main_v68 : (⟨S270336, .i32⟩ : BufTy).Contents (Elt F) :=
  broadcastInDim S270336 ![] bcast_S_S270336 (val_main_c_15 (F := F))
abbrev idx_main_v68 (i : S270336.Idx) : S_.Idx := fun a => a.elim0
theorem val_main_v68_apply (i : S270336.Idx) :
    val_main_v68 (F := F) i = val_main_c_15 (F := F) (idx_main_v68 i) := by
  unfold val_main_v68
  generalize val_main_c_15 (F := F) = y
  exact broadcastInDim_apply _ bcast_S_S270336 y i (idx_main_v68 i) (fun a => a.elim0)

def val_main_v69 : (⟨S270336, .i1⟩ : BufTy).Contents (Elt F) :=
  cmpi .slt (val_main_v6 (F := F) x1) (val_main_v68 (F := F))
theorem val_main_v69_apply (i : S270336.Idx) :
    val_main_v69 (F := F) x1 i = IntOp.cmpi .slt (val_main_v6 (F := F) x1 i) (val_main_v68 (F := F) i) := rfl

def val_main_c_16 : (⟨S_, .i32⟩ : BufTy).Contents (Elt F) :=
  constantI S_ 32 8192#32
theorem val_main_c_16_apply (i : S_.Idx) :
    val_main_c_16 (F := F) i = 8192#32 := rfl

def val_main_v70 : (⟨S270336, .i32⟩ : BufTy).Contents (Elt F) :=
  broadcastInDim S270336 ![] bcast_S_S270336 (val_main_c_16 (F := F))
abbrev idx_main_v70 (i : S270336.Idx) : S_.Idx := fun a => a.elim0
theorem val_main_v70_apply (i : S270336.Idx) :
    val_main_v70 (F := F) i = val_main_c_16 (F := F) (idx_main_v70 i) := by
  unfold val_main_v70
  generalize val_main_c_16 (F := F) = y
  exact broadcastInDim_apply _ bcast_S_S270336 y i (idx_main_v70 i) (fun a => a.elim0)

def val_main_v71 : (⟨S270336, .i32⟩ : BufTy).Contents (Elt F) :=
  addi (val_main_v6 (F := F) x1) (val_main_v70 (F := F))
theorem val_main_v71_apply (i : S270336.Idx) :
    val_main_v71 (F := F) x1 i = IntOp.addi (val_main_v6 (F := F) x1 i) (val_main_v70 (F := F) i) := rfl

def val_main_v72 : (⟨S270336, .i32⟩ : BufTy).Contents (Elt F) :=
  select (val_main_v69 (F := F) x1) (val_main_v71 (F := F) x1) (val_main_v6 (F := F) x1)
theorem val_main_v72_apply (i : S270336.Idx) :
    val_main_v72 (F := F) x1 i = Scalar.select (val_main_v69 (F := F) x1 i) (val_main_v71 (F := F) x1 i) (val_main_v6 (F := F) x1 i) := rfl

def val_main_v73 : (⟨S270336x1, .i32⟩ : BufTy).Contents (Elt F) :=
  broadcastInDim S270336x1 ![0] bcast_S270336_S270336x1_0 (val_main_v72 (F := F) x1)
abbrev idx_main_v73 (i : S270336x1.Idx) : S270336.Idx := fun a => match a with
  | ⟨0, _⟩ => ⟨(i 0).val, (i 0).isLt⟩
theorem val_main_v73_apply (i : S270336x1.Idx) :
    val_main_v73 (F := F) x1 i = val_main_v72 (F := F) x1 (idx_main_v73 i) := by
  unfold val_main_v73
  generalize val_main_v72 (F := F) x1 = y
  exact broadcastInDim_apply _ bcast_S270336_S270336x1_0 y i (idx_main_v73 i) (fun a => match a with
    | ⟨0, _⟩ => by show (i 0).val = if (270336 : Nat) = 1 then 0 else (i 0).val; rw [if_neg (by decide)])

def val_main_v74 : (⟨S270336, .f32⟩ : BufTy).Contents (Elt F) :=
  Host.gather gather_S8192_S270336x1_S270336_n_0_n_n_0_1_1 (val_main_v60 (F := F) x1) (val_main_v73 (F := F) x1)

def val_main_v75 : (⟨S270336, .f32⟩ : BufTy).Contents (Elt F) :=
  mulf (val_main_v67 (F := F) x1) (val_main_v74 (F := F) x1)
theorem val_main_v75_apply (i : S270336.Idx) :
    val_main_v75 (F := F) x1 i = FloatOps.mulf (val_main_v67 (F := F) x1 i) (val_main_v74 (F := F) x1 i) := rfl

def val_main_c_17 : (⟨S_, .i32⟩ : BufTy).Contents (Elt F) :=
  constantI S_ 32 0#32
theorem val_main_c_17_apply (i : S_.Idx) :
    val_main_c_17 (F := F) i = 0#32 := rfl

def val_main_v76 : (⟨S270336, .i32⟩ : BufTy).Contents (Elt F) :=
  broadcastInDim S270336 ![] bcast_S_S270336 (val_main_c_17 (F := F))
abbrev idx_main_v76 (i : S270336.Idx) : S_.Idx := fun a => a.elim0
theorem val_main_v76_apply (i : S270336.Idx) :
    val_main_v76 (F := F) i = val_main_c_17 (F := F) (idx_main_v76 i) := by
  unfold val_main_v76
  generalize val_main_c_17 (F := F) = y
  exact broadcastInDim_apply _ bcast_S_S270336 y i (idx_main_v76 i) (fun a => a.elim0)

def val_main_v77 : (⟨S270336, .i1⟩ : BufTy).Contents (Elt F) :=
  cmpi .slt (val_main_v3 (F := F) x1) (val_main_v76 (F := F))
theorem val_main_v77_apply (i : S270336.Idx) :
    val_main_v77 (F := F) x1 i = IntOp.cmpi .slt (val_main_v3 (F := F) x1 i) (val_main_v76 (F := F) i) := rfl

def val_main_c_18 : (⟨S_, .i32⟩ : BufTy).Contents (Elt F) :=
  constantI S_ 32 8192#32
theorem val_main_c_18_apply (i : S_.Idx) :
    val_main_c_18 (F := F) i = 8192#32 := rfl

def val_main_v78 : (⟨S270336, .i32⟩ : BufTy).Contents (Elt F) :=
  broadcastInDim S270336 ![] bcast_S_S270336 (val_main_c_18 (F := F))
abbrev idx_main_v78 (i : S270336.Idx) : S_.Idx := fun a => a.elim0
theorem val_main_v78_apply (i : S270336.Idx) :
    val_main_v78 (F := F) i = val_main_c_18 (F := F) (idx_main_v78 i) := by
  unfold val_main_v78
  generalize val_main_c_18 (F := F) = y
  exact broadcastInDim_apply _ bcast_S_S270336 y i (idx_main_v78 i) (fun a => a.elim0)

def val_main_v79 : (⟨S270336, .i32⟩ : BufTy).Contents (Elt F) :=
  addi (val_main_v3 (F := F) x1) (val_main_v78 (F := F))
theorem val_main_v79_apply (i : S270336.Idx) :
    val_main_v79 (F := F) x1 i = IntOp.addi (val_main_v3 (F := F) x1 i) (val_main_v78 (F := F) i) := rfl

def val_main_v80 : (⟨S270336, .i32⟩ : BufTy).Contents (Elt F) :=
  select (val_main_v77 (F := F) x1) (val_main_v79 (F := F) x1) (val_main_v3 (F := F) x1)
theorem val_main_v80_apply (i : S270336.Idx) :
    val_main_v80 (F := F) x1 i = Scalar.select (val_main_v77 (F := F) x1 i) (val_main_v79 (F := F) x1 i) (val_main_v3 (F := F) x1 i) := rfl

def val_main_v81 : (⟨S270336x1, .i32⟩ : BufTy).Contents (Elt F) :=
  broadcastInDim S270336x1 ![0] bcast_S270336_S270336x1_0 (val_main_v80 (F := F) x1)
abbrev idx_main_v81 (i : S270336x1.Idx) : S270336.Idx := fun a => match a with
  | ⟨0, _⟩ => ⟨(i 0).val, (i 0).isLt⟩
theorem val_main_v81_apply (i : S270336x1.Idx) :
    val_main_v81 (F := F) x1 i = val_main_v80 (F := F) x1 (idx_main_v81 i) := by
  unfold val_main_v81
  generalize val_main_v80 (F := F) x1 = y
  exact broadcastInDim_apply _ bcast_S270336_S270336x1_0 y i (idx_main_v81 i) (fun a => match a with
    | ⟨0, _⟩ => by show (i 0).val = if (270336 : Nat) = 1 then 0 else (i 0).val; rw [if_neg (by decide)])

def val_main_v82 : (⟨S270336x256, .f32⟩ : BufTy).Contents (Elt F) :=
  Host.gather gather_S8192x256_S270336x1_S270336x256_1_0_n_n_0_1_1256 (val_main_v52 (F := F) x0 x1 x3 x4 x5 x6 x7) (val_main_v81 (F := F) x1)

def val_main_v83 : (⟨S270336x1, .f32⟩ : BufTy).Contents (Elt F) :=
  broadcastInDim S270336x1 ![0] bcast_S270336_S270336x1_0 (val_main_v75 (F := F) x1)
abbrev idx_main_v83 (i : S270336x1.Idx) : S270336.Idx := fun a => match a with
  | ⟨0, _⟩ => ⟨(i 0).val, (i 0).isLt⟩
theorem val_main_v83_apply (i : S270336x1.Idx) :
    val_main_v83 (F := F) x1 i = val_main_v75 (F := F) x1 (idx_main_v83 i) := by
  unfold val_main_v83
  generalize val_main_v75 (F := F) x1 = y
  exact broadcastInDim_apply _ bcast_S270336_S270336x1_0 y i (idx_main_v83 i) (fun a => match a with
    | ⟨0, _⟩ => by show (i 0).val = if (270336 : Nat) = 1 then 0 else (i 0).val; rw [if_neg (by decide)])

def val_main_v84 : (⟨S270336x256, .f32⟩ : BufTy).Contents (Elt F) :=
  broadcastInDim S270336x256 ![0, 1] bcast_S270336x1_S270336x256_0_1 (val_main_v83 (F := F) x1)
abbrev idx_main_v84 (i : S270336x256.Idx) : S270336x1.Idx := fun a => match a with
  | ⟨0, _⟩ => ⟨(i 0).val, (i 0).isLt⟩
  | ⟨1, _⟩ => ⟨0, Nat.one_pos⟩
theorem val_main_v84_apply (i : S270336x256.Idx) :
    val_main_v84 (F := F) x1 i = val_main_v83 (F := F) x1 (idx_main_v84 i) := by
  unfold val_main_v84
  generalize val_main_v83 (F := F) x1 = y
  exact broadcastInDim_apply _ bcast_S270336x1_S270336x256_0_1 y i (idx_main_v84 i) (fun a => match a with
    | ⟨0, _⟩ => by show (i 0).val = if (270336 : Nat) = 1 then 0 else (i 0).val; rw [if_neg (by decide)]
    | ⟨1, _⟩ => by show 0 = if (1 : Nat) = 1 then 0 else (i 1).val; rw [if_pos rfl])

def val_main_v85 : (⟨S270336x256, .f32⟩ : BufTy).Contents (Elt F) :=
  mulf (val_main_v82 (F := F) x0 x1 x3 x4 x5 x6 x7) (val_main_v84 (F := F) x1)
theorem val_main_v85_apply (i : S270336x256.Idx) :
    val_main_v85 (F := F) x0 x1 x3 x4 x5 x6 x7 i = FloatOps.mulf (val_main_v82 (F := F) x0 x1 x3 x4 x5 x6 x7 i) (val_main_v84 (F := F) x1 i) := rfl

def val_main_cst_19 : (⟨S_, .f32⟩ : BufTy).Contents (Elt F) :=
  constant S_ .f32 0x00000000#32
theorem val_main_cst_19_apply (i : S_.Idx) :
    val_main_cst_19 (F := F) i = FloatOps.ofBits .f32 0x00000000#32 := rfl

def val_main_v86 : (⟨S8192x256, .f32⟩ : BufTy).Contents (Elt F) :=
  broadcastInDim S8192x256 ![] bcast_S_S8192x256 (val_main_cst_19 (F := F))
abbrev idx_main_v86 (i : S8192x256.Idx) : S_.Idx := fun a => a.elim0
theorem val_main_v86_apply (i : S8192x256.Idx) :
    val_main_v86 (F := F) i = val_main_cst_19 (F := F) (idx_main_v86 i) := by
  unfold val_main_v86
  generalize val_main_cst_19 (F := F) = y
  exact broadcastInDim_apply _ bcast_S_S8192x256 y i (idx_main_v86 i) (fun a => a.elim0)

def val_main_v87 : (⟨S270336x1, .i32⟩ : BufTy).Contents (Elt F) :=
  broadcastInDim S270336x1 ![0] bcast_S270336_S270336x1_0 (val_main_v6 (F := F) x1)
abbrev idx_main_v87 (i : S270336x1.Idx) : S270336.Idx := fun a => match a with
  | ⟨0, _⟩ => ⟨(i 0).val, (i 0).isLt⟩
theorem val_main_v87_apply (i : S270336x1.Idx) :
    val_main_v87 (F := F) x1 i = val_main_v6 (F := F) x1 (idx_main_v87 i) := by
  unfold val_main_v87
  generalize val_main_v6 (F := F) x1 = y
  exact broadcastInDim_apply _ bcast_S270336_S270336x1_0 y i (idx_main_v87 i) (fun a => match a with
    | ⟨0, _⟩ => by show (i 0).val = if (270336 : Nat) = 1 then 0 else (i 0).val; rw [if_neg (by decide)])

def val_main_v88 : (⟨S8192x256, .f32⟩ : BufTy).Contents (Elt F) :=
  Host.scatterAdd scatter_S8192x256_S270336x1_S270336x256_1_0_0_1 (val_main_v86 (F := F)) (val_main_v87 (F := F) x1) (val_main_v85 (F := F) x0 x1 x3 x4 x5 x6 x7)

def val_main_v89 : (⟨S1x256, .f32⟩ : BufTy).Contents (Elt F) :=
  broadcastInDim S1x256 ![1] bcast_S256_S1x256_1 (x8)
abbrev idx_main_v89 (i : S1x256.Idx) : S256.Idx := fun a => match a with
  | ⟨0, _⟩ => ⟨(i 1).val, (i 1).isLt⟩
theorem val_main_v89_apply (i : S1x256.Idx) :
    val_main_v89 (F := F) x8 i = x8 (idx_main_v89 i) := by
  unfold val_main_v89
  exact broadcastInDim_apply _ bcast_S256_S1x256_1 x8 i (idx_main_v89 i) (fun a => match a with
    | ⟨0, _⟩ => by show (i 1).val = if (256 : Nat) = 1 then 0 else (i 1).val; rw [if_neg (by decide)])

def val_main_v90 : (⟨S8192x256, .f32⟩ : BufTy).Contents (Elt F) :=
  broadcastInDim S8192x256 ![0, 1] bcast_S1x256_S8192x256_0_1 (val_main_v89 (F := F) x8)
abbrev idx_main_v90 (i : S8192x256.Idx) : S1x256.Idx := fun a => match a with
  | ⟨0, _⟩ => ⟨0, Nat.one_pos⟩
  | ⟨1, _⟩ => ⟨(i 1).val, (i 1).isLt⟩
theorem val_main_v90_apply (i : S8192x256.Idx) :
    val_main_v90 (F := F) x8 i = val_main_v89 (F := F) x8 (idx_main_v90 i) := by
  unfold val_main_v90
  generalize val_main_v89 (F := F) x8 = y
  exact broadcastInDim_apply _ bcast_S1x256_S8192x256_0_1 y i (idx_main_v90 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v91 : (⟨S8192x256, .f32⟩ : BufTy).Contents (Elt F) :=
  addf (val_main_v88 (F := F) x0 x1 x3 x4 x5 x6 x7) (val_main_v90 (F := F) x8)
theorem val_main_v91_apply (i : S8192x256.Idx) :
    val_main_v91 (F := F) x0 x1 x3 x4 x5 x6 x7 x8 i = FloatOps.addf (val_main_v88 (F := F) x0 x1 x3 x4 x5 x6 x7 i) (val_main_v90 (F := F) x8 i) := rfl

def val_main_call3_cst : (⟨S_, .f32⟩ : BufTy).Contents (Elt F) :=
  constant S_ .f32 0x00000000#32
theorem val_main_call3_cst_apply (i : S_.Idx) :
    val_main_call3_cst (F := F) i = FloatOps.ofBits .f32 0x00000000#32 := rfl

def val_main_call3_v0 : (⟨S8192x256, .f32⟩ : BufTy).Contents (Elt F) :=
  broadcastInDim S8192x256 ![] bcast_S_S8192x256 (val_main_call3_cst (F := F))
abbrev idx_main_call3_v0 (i : S8192x256.Idx) : S_.Idx := fun a => a.elim0
theorem val_main_call3_v0_apply (i : S8192x256.Idx) :
    val_main_call3_v0 (F := F) i = val_main_call3_cst (F := F) (idx_main_call3_v0 i) := by
  unfold val_main_call3_v0
  generalize val_main_call3_cst (F := F) = y
  exact broadcastInDim_apply _ bcast_S_S8192x256 y i (idx_main_call3_v0 i) (fun a => a.elim0)

def val_main_v92 : (⟨S8192x256, .f32⟩ : BufTy).Contents (Elt F) :=
  maximumf (val_main_v91 (F := F) x0 x1 x3 x4 x5 x6 x7 x8) (val_main_call3_v0 (F := F))
theorem val_main_v92_apply (i : S8192x256.Idx) :
    val_main_v92 (F := F) x0 x1 x3 x4 x5 x6 x7 x8 i = FloatOps.maximumf (val_main_v91 (F := F) x0 x1 x3 x4 x5 x6 x7 x8 i) (val_main_call3_v0 (F := F) i) := rfl

def val_main_v93 : (⟨S8192x64, .f32⟩ : BufTy).Contents (Elt F) :=
  Host.dotGeneral dot_S8192x256_S256x64_S8192x64_1_0_0_1_n_n none (val_main_v92 (F := F) x0 x1 x3 x4 x5 x6 x7 x8) (x9)
theorem lhs_main_v93_0 (i : S8192x64.Idx) (q : dot_S8192x256_S256x64_S8192x64_1_0_0_1_n_n.contr.Idx) :
    (dot_S8192x256_S256x64_S8192x64_1_0_0_1_n_n.lhsIdx i q 0).val = (i 0).val := by
  unfold DotDims.lhsIdx
  rw [dif_neg (show ¬(0 : Fin S8192x256.rank) ∈ dot_S8192x256_S256x64_S8192x64_1_0_0_1_n_n.lhsBatch by decide), dif_pos (show (0 : Fin S8192x256.rank) ∈ dot_S8192x256_S256x64_S8192x64_1_0_0_1_n_n.lhsNonContracting by decide)]
  rfl
theorem lhs_main_v93_1 (i : S8192x64.Idx) (q : dot_S8192x256_S256x64_S8192x64_1_0_0_1_n_n.contr.Idx) :
    (dot_S8192x256_S256x64_S8192x64_1_0_0_1_n_n.lhsIdx i q 1).val = (q ⟨0, by decide⟩).val :=
  dot_S8192x256_S256x64_S8192x64_1_0_0_1_n_n.lhsIdx_val_of_single rfl i q
theorem rhs_main_v93_0 (i : S8192x64.Idx) (q : dot_S8192x256_S256x64_S8192x64_1_0_0_1_n_n.contr.Idx) :
    (dot_S8192x256_S256x64_S8192x64_1_0_0_1_n_n.rhsIdx i q 0).val = (q ⟨0, by decide⟩).val :=
  dot_S8192x256_S256x64_S8192x64_1_0_0_1_n_n.rhsIdx_val_of_single rfl i q
theorem rhs_main_v93_1 (i : S8192x64.Idx) (q : dot_S8192x256_S256x64_S8192x64_1_0_0_1_n_n.contr.Idx) :
    (dot_S8192x256_S256x64_S8192x64_1_0_0_1_n_n.rhsIdx i q 1).val = (i 1).val := by
  unfold DotDims.rhsIdx
  rw [dif_neg (show ¬(1 : Fin S256x64.rank) ∈ dot_S8192x256_S256x64_S8192x64_1_0_0_1_n_n.rhsBatch by decide), dif_pos (show (1 : Fin S256x64.rank) ∈ dot_S8192x256_S256x64_S8192x64_1_0_0_1_n_n.rhsNonContracting by decide)]
  rfl
abbrev lidx_main_v93 (i : S8192x64.Idx) (k : Fin 256) : S8192x256.Idx := fun a => match a with
  | ⟨0, _⟩ => ⟨(i 0).val, (i 0).isLt⟩
  | ⟨1, _⟩ => ⟨k.val, k.isLt⟩
abbrev ridx_main_v93 (i : S8192x64.Idx) (k : Fin 256) : S256x64.Idx := fun a => match a with
  | ⟨0, _⟩ => ⟨k.val, k.isLt⟩
  | ⟨1, _⟩ => ⟨(i 1).val, (i 1).isLt⟩

theorem val_main_v93_apply (x0 : (⟨S8192x256, .f32⟩ : BufTy).Contents (Elt Ideal)) (x1 : (⟨S2x262144, .i32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x64, .f32⟩ : BufTy).Contents (Elt Ideal)) (i : S8192x64.Idx) :
    val_main_v93 (F := Ideal) x0 x1 x3 x4 x5 x6 x7 x8 x9 i = ∑ k : Fin 256, (val_main_v92 (F := Ideal) x0 x1 x3 x4 x5 x6 x7 x8) (lidx_main_v93 i k) * x9 (ridx_main_v93 i k) := by
  unfold val_main_v93
  generalize val_main_v92 (F := Ideal) x0 x1 x3 x4 x5 x6 x7 x8 = y0
  simp only [Host.dotGeneral]
  rw [Ideal.dotGeneral_apply, ← Equiv.sum_comp (ValueIdx.contrEquiv1 dot_S8192x256_S256x64_S8192x64_1_0_0_1_n_n 256 rfl rfl).symm]
  refine Finset.sum_congr rfl fun k _ => ?_
  have hk := ValueIdx.contrEquiv1_symm_val dot_S8192x256_S256x64_S8192x64_1_0_0_1_n_n 256 rfl rfl k
  have el : dot_S8192x256_S256x64_S8192x64_1_0_0_1_n_n.lhsIdx i ((ValueIdx.contrEquiv1 dot_S8192x256_S256x64_S8192x64_1_0_0_1_n_n 256 rfl rfl).symm k) = lidx_main_v93 i k := funext fun a => Fin.ext (by
    match a with
    | ⟨0, _⟩ => exact lhs_main_v93_0 _ _
    | ⟨1, _⟩ => exact (lhs_main_v93_1 _ _).trans hk)
  have er : dot_S8192x256_S256x64_S8192x64_1_0_0_1_n_n.rhsIdx i ((ValueIdx.contrEquiv1 dot_S8192x256_S256x64_S8192x64_1_0_0_1_n_n 256 rfl rfl).symm k) = ridx_main_v93 i k := funext fun a => Fin.ext (by
    match a with
    | ⟨0, _⟩ => exact (rhs_main_v93_0 _ _).trans hk
    | ⟨1, _⟩ => exact rhs_main_v93_1 _ _)
  rw [el, er]

def val_main_cst_20 : (⟨S_, .f32⟩ : BufTy).Contents (Elt F) :=
  constant S_ .f32 0x3F800000#32
theorem val_main_cst_20_apply (i : S_.Idx) :
    val_main_cst_20 (F := F) i = FloatOps.ofBits .f32 0x3F800000#32 := rfl

def val_main_v94 : (⟨S270336, .f32⟩ : BufTy).Contents (Elt F) :=
  broadcastInDim S270336 ![] bcast_S_S270336 (val_main_cst_20 (F := F))
abbrev idx_main_v94 (i : S270336.Idx) : S_.Idx := fun a => a.elim0
theorem val_main_v94_apply (i : S270336.Idx) :
    val_main_v94 (F := F) i = val_main_cst_20 (F := F) (idx_main_v94 i) := by
  unfold val_main_v94
  generalize val_main_cst_20 (F := F) = y
  exact broadcastInDim_apply _ bcast_S_S270336 y i (idx_main_v94 i) (fun a => a.elim0)

def val_main_cst_21 : (⟨S_, .f32⟩ : BufTy).Contents (Elt F) :=
  constant S_ .f32 0x00000000#32
theorem val_main_cst_21_apply (i : S_.Idx) :
    val_main_cst_21 (F := F) i = FloatOps.ofBits .f32 0x00000000#32 := rfl

def val_main_v95 : (⟨S8192, .f32⟩ : BufTy).Contents (Elt F) :=
  broadcastInDim S8192 ![] bcast_S_S8192 (val_main_cst_21 (F := F))
abbrev idx_main_v95 (i : S8192.Idx) : S_.Idx := fun a => a.elim0
theorem val_main_v95_apply (i : S8192.Idx) :
    val_main_v95 (F := F) i = val_main_cst_21 (F := F) (idx_main_v95 i) := by
  unfold val_main_v95
  generalize val_main_cst_21 (F := F) = y
  exact broadcastInDim_apply _ bcast_S_S8192 y i (idx_main_v95 i) (fun a => a.elim0)

def val_main_v96 : (⟨S270336x1, .i32⟩ : BufTy).Contents (Elt F) :=
  broadcastInDim S270336x1 ![0] bcast_S270336_S270336x1_0 (val_main_v6 (F := F) x1)
abbrev idx_main_v96 (i : S270336x1.Idx) : S270336.Idx := fun a => match a with
  | ⟨0, _⟩ => ⟨(i 0).val, (i 0).isLt⟩
theorem val_main_v96_apply (i : S270336x1.Idx) :
    val_main_v96 (F := F) x1 i = val_main_v6 (F := F) x1 (idx_main_v96 i) := by
  unfold val_main_v96
  generalize val_main_v6 (F := F) x1 = y
  exact broadcastInDim_apply _ bcast_S270336_S270336x1_0 y i (idx_main_v96 i) (fun a => match a with
    | ⟨0, _⟩ => by show (i 0).val = if (270336 : Nat) = 1 then 0 else (i 0).val; rw [if_neg (by decide)])

def val_main_v97 : (⟨S8192, .f32⟩ : BufTy).Contents (Elt F) :=
  Host.scatterAdd scatter_S8192_S270336x1_S270336_n_0_0_1 (val_main_v95 (F := F)) (val_main_v96 (F := F) x1) (val_main_v94 (F := F))

def val_main_cst_22 : (⟨S_, .f32⟩ : BufTy).Contents (Elt F) :=
  constant S_ .f32 0x00000000#32
theorem val_main_cst_22_apply (i : S_.Idx) :
    val_main_cst_22 (F := F) i = FloatOps.ofBits .f32 0x00000000#32 := rfl

def val_main_v98 : (⟨S8192, .f32⟩ : BufTy).Contents (Elt F) :=
  broadcastInDim S8192 ![] bcast_S_S8192 (val_main_cst_22 (F := F))
abbrev idx_main_v98 (i : S8192.Idx) : S_.Idx := fun a => a.elim0
theorem val_main_v98_apply (i : S8192.Idx) :
    val_main_v98 (F := F) i = val_main_cst_22 (F := F) (idx_main_v98 i) := by
  unfold val_main_v98
  generalize val_main_cst_22 (F := F) = y
  exact broadcastInDim_apply _ bcast_S_S8192 y i (idx_main_v98 i) (fun a => a.elim0)

def val_main_v99 : (⟨S8192, .i1⟩ : BufTy).Contents (Elt F) :=
  cmpf .ogt (val_main_v97 (F := F) x1) (val_main_v98 (F := F))
theorem val_main_v99_apply (i : S8192.Idx) :
    val_main_v99 (F := F) x1 i = FloatOps.cmpf .ogt (val_main_v97 (F := F) x1 i) (val_main_v98 (F := F) i) := rfl

def val_main_v100 : (⟨S8192, .f32⟩ : BufTy).Contents (Elt F) :=
  Host.rsqrt (val_main_v97 (F := F) x1)
theorem val_main_v100_apply (i : S8192.Idx) :
    val_main_v100 (F := F) x1 i = FloatOps.hostUnary .rsqrt (val_main_v97 (F := F) x1 i) := rfl

def val_main_cst_23 : (⟨S_, .f32⟩ : BufTy).Contents (Elt F) :=
  constant S_ .f32 0x00000000#32
theorem val_main_cst_23_apply (i : S_.Idx) :
    val_main_cst_23 (F := F) i = FloatOps.ofBits .f32 0x00000000#32 := rfl

def val_main_call4_v0 : (⟨S_, .f32⟩ : BufTy).Contents (Elt F) :=
  id (val_main_cst_23 (F := F))
theorem val_main_call4_v0_apply (i : S_.Idx) :
    val_main_call4_v0 (F := F) i = (val_main_cst_23 (F := F) i) := rfl

def val_main_call4_v1 : (⟨S8192, .f32⟩ : BufTy).Contents (Elt F) :=
  broadcastInDim S8192 ![] bcast_S_S8192 (val_main_call4_v0 (F := F))
abbrev idx_main_call4_v1 (i : S8192.Idx) : S_.Idx := fun a => a.elim0
theorem val_main_call4_v1_apply (i : S8192.Idx) :
    val_main_call4_v1 (F := F) i = val_main_call4_v0 (F := F) (idx_main_call4_v1 i) := by
  unfold val_main_call4_v1
  generalize val_main_call4_v0 (F := F) = y
  exact broadcastInDim_apply _ bcast_S_S8192 y i (idx_main_call4_v1 i) (fun a => a.elim0)

def val_main_v101 : (⟨S8192, .f32⟩ : BufTy).Contents (Elt F) :=
  select (val_main_v99 (F := F) x1) (val_main_v100 (F := F) x1) (val_main_call4_v1 (F := F))
theorem val_main_v101_apply (i : S8192.Idx) :
    val_main_v101 (F := F) x1 i = Scalar.select (val_main_v99 (F := F) x1 i) (val_main_v100 (F := F) x1 i) (val_main_call4_v1 (F := F) i) := rfl

def val_main_c_24 : (⟨S_, .i32⟩ : BufTy).Contents (Elt F) :=
  constantI S_ 32 0#32
theorem val_main_c_24_apply (i : S_.Idx) :
    val_main_c_24 (F := F) i = 0#32 := rfl

def val_main_v102 : (⟨S270336, .i32⟩ : BufTy).Contents (Elt F) :=
  broadcastInDim S270336 ![] bcast_S_S270336 (val_main_c_24 (F := F))
abbrev idx_main_v102 (i : S270336.Idx) : S_.Idx := fun a => a.elim0
theorem val_main_v102_apply (i : S270336.Idx) :
    val_main_v102 (F := F) i = val_main_c_24 (F := F) (idx_main_v102 i) := by
  unfold val_main_v102
  generalize val_main_c_24 (F := F) = y
  exact broadcastInDim_apply _ bcast_S_S270336 y i (idx_main_v102 i) (fun a => a.elim0)

def val_main_v103 : (⟨S270336, .i1⟩ : BufTy).Contents (Elt F) :=
  cmpi .slt (val_main_v3 (F := F) x1) (val_main_v102 (F := F))
theorem val_main_v103_apply (i : S270336.Idx) :
    val_main_v103 (F := F) x1 i = IntOp.cmpi .slt (val_main_v3 (F := F) x1 i) (val_main_v102 (F := F) i) := rfl

def val_main_c_25 : (⟨S_, .i32⟩ : BufTy).Contents (Elt F) :=
  constantI S_ 32 8192#32
theorem val_main_c_25_apply (i : S_.Idx) :
    val_main_c_25 (F := F) i = 8192#32 := rfl

def val_main_v104 : (⟨S270336, .i32⟩ : BufTy).Contents (Elt F) :=
  broadcastInDim S270336 ![] bcast_S_S270336 (val_main_c_25 (F := F))
abbrev idx_main_v104 (i : S270336.Idx) : S_.Idx := fun a => a.elim0
theorem val_main_v104_apply (i : S270336.Idx) :
    val_main_v104 (F := F) i = val_main_c_25 (F := F) (idx_main_v104 i) := by
  unfold val_main_v104
  generalize val_main_c_25 (F := F) = y
  exact broadcastInDim_apply _ bcast_S_S270336 y i (idx_main_v104 i) (fun a => a.elim0)

def val_main_v105 : (⟨S270336, .i32⟩ : BufTy).Contents (Elt F) :=
  addi (val_main_v3 (F := F) x1) (val_main_v104 (F := F))
theorem val_main_v105_apply (i : S270336.Idx) :
    val_main_v105 (F := F) x1 i = IntOp.addi (val_main_v3 (F := F) x1 i) (val_main_v104 (F := F) i) := rfl

def val_main_v106 : (⟨S270336, .i32⟩ : BufTy).Contents (Elt F) :=
  select (val_main_v103 (F := F) x1) (val_main_v105 (F := F) x1) (val_main_v3 (F := F) x1)
theorem val_main_v106_apply (i : S270336.Idx) :
    val_main_v106 (F := F) x1 i = Scalar.select (val_main_v103 (F := F) x1 i) (val_main_v105 (F := F) x1 i) (val_main_v3 (F := F) x1 i) := rfl

def val_main_v107 : (⟨S270336x1, .i32⟩ : BufTy).Contents (Elt F) :=
  broadcastInDim S270336x1 ![0] bcast_S270336_S270336x1_0 (val_main_v106 (F := F) x1)
abbrev idx_main_v107 (i : S270336x1.Idx) : S270336.Idx := fun a => match a with
  | ⟨0, _⟩ => ⟨(i 0).val, (i 0).isLt⟩
theorem val_main_v107_apply (i : S270336x1.Idx) :
    val_main_v107 (F := F) x1 i = val_main_v106 (F := F) x1 (idx_main_v107 i) := by
  unfold val_main_v107
  generalize val_main_v106 (F := F) x1 = y
  exact broadcastInDim_apply _ bcast_S270336_S270336x1_0 y i (idx_main_v107 i) (fun a => match a with
    | ⟨0, _⟩ => by show (i 0).val = if (270336 : Nat) = 1 then 0 else (i 0).val; rw [if_neg (by decide)])

def val_main_v108 : (⟨S270336, .f32⟩ : BufTy).Contents (Elt F) :=
  Host.gather gather_S8192_S270336x1_S270336_n_0_n_n_0_1_1 (val_main_v101 (F := F) x1) (val_main_v107 (F := F) x1)

def val_main_c_26 : (⟨S_, .i32⟩ : BufTy).Contents (Elt F) :=
  constantI S_ 32 0#32
theorem val_main_c_26_apply (i : S_.Idx) :
    val_main_c_26 (F := F) i = 0#32 := rfl

def val_main_v109 : (⟨S270336, .i32⟩ : BufTy).Contents (Elt F) :=
  broadcastInDim S270336 ![] bcast_S_S270336 (val_main_c_26 (F := F))
abbrev idx_main_v109 (i : S270336.Idx) : S_.Idx := fun a => a.elim0
theorem val_main_v109_apply (i : S270336.Idx) :
    val_main_v109 (F := F) i = val_main_c_26 (F := F) (idx_main_v109 i) := by
  unfold val_main_v109
  generalize val_main_c_26 (F := F) = y
  exact broadcastInDim_apply _ bcast_S_S270336 y i (idx_main_v109 i) (fun a => a.elim0)

def val_main_v110 : (⟨S270336, .i1⟩ : BufTy).Contents (Elt F) :=
  cmpi .slt (val_main_v6 (F := F) x1) (val_main_v109 (F := F))
theorem val_main_v110_apply (i : S270336.Idx) :
    val_main_v110 (F := F) x1 i = IntOp.cmpi .slt (val_main_v6 (F := F) x1 i) (val_main_v109 (F := F) i) := rfl

def val_main_c_27 : (⟨S_, .i32⟩ : BufTy).Contents (Elt F) :=
  constantI S_ 32 8192#32
theorem val_main_c_27_apply (i : S_.Idx) :
    val_main_c_27 (F := F) i = 8192#32 := rfl

def val_main_v111 : (⟨S270336, .i32⟩ : BufTy).Contents (Elt F) :=
  broadcastInDim S270336 ![] bcast_S_S270336 (val_main_c_27 (F := F))
abbrev idx_main_v111 (i : S270336.Idx) : S_.Idx := fun a => a.elim0
theorem val_main_v111_apply (i : S270336.Idx) :
    val_main_v111 (F := F) i = val_main_c_27 (F := F) (idx_main_v111 i) := by
  unfold val_main_v111
  generalize val_main_c_27 (F := F) = y
  exact broadcastInDim_apply _ bcast_S_S270336 y i (idx_main_v111 i) (fun a => a.elim0)

def val_main_v112 : (⟨S270336, .i32⟩ : BufTy).Contents (Elt F) :=
  addi (val_main_v6 (F := F) x1) (val_main_v111 (F := F))
theorem val_main_v112_apply (i : S270336.Idx) :
    val_main_v112 (F := F) x1 i = IntOp.addi (val_main_v6 (F := F) x1 i) (val_main_v111 (F := F) i) := rfl

def val_main_v113 : (⟨S270336, .i32⟩ : BufTy).Contents (Elt F) :=
  select (val_main_v110 (F := F) x1) (val_main_v112 (F := F) x1) (val_main_v6 (F := F) x1)
theorem val_main_v113_apply (i : S270336.Idx) :
    val_main_v113 (F := F) x1 i = Scalar.select (val_main_v110 (F := F) x1 i) (val_main_v112 (F := F) x1 i) (val_main_v6 (F := F) x1 i) := rfl

def val_main_v114 : (⟨S270336x1, .i32⟩ : BufTy).Contents (Elt F) :=
  broadcastInDim S270336x1 ![0] bcast_S270336_S270336x1_0 (val_main_v113 (F := F) x1)
abbrev idx_main_v114 (i : S270336x1.Idx) : S270336.Idx := fun a => match a with
  | ⟨0, _⟩ => ⟨(i 0).val, (i 0).isLt⟩
theorem val_main_v114_apply (i : S270336x1.Idx) :
    val_main_v114 (F := F) x1 i = val_main_v113 (F := F) x1 (idx_main_v114 i) := by
  unfold val_main_v114
  generalize val_main_v113 (F := F) x1 = y
  exact broadcastInDim_apply _ bcast_S270336_S270336x1_0 y i (idx_main_v114 i) (fun a => match a with
    | ⟨0, _⟩ => by show (i 0).val = if (270336 : Nat) = 1 then 0 else (i 0).val; rw [if_neg (by decide)])

def val_main_v115 : (⟨S270336, .f32⟩ : BufTy).Contents (Elt F) :=
  Host.gather gather_S8192_S270336x1_S270336_n_0_n_n_0_1_1 (val_main_v101 (F := F) x1) (val_main_v114 (F := F) x1)

def val_main_v116 : (⟨S270336, .f32⟩ : BufTy).Contents (Elt F) :=
  mulf (val_main_v108 (F := F) x1) (val_main_v115 (F := F) x1)
theorem val_main_v116_apply (i : S270336.Idx) :
    val_main_v116 (F := F) x1 i = FloatOps.mulf (val_main_v108 (F := F) x1 i) (val_main_v115 (F := F) x1 i) := rfl

def val_main_c_28 : (⟨S_, .i32⟩ : BufTy).Contents (Elt F) :=
  constantI S_ 32 0#32
theorem val_main_c_28_apply (i : S_.Idx) :
    val_main_c_28 (F := F) i = 0#32 := rfl

def val_main_v117 : (⟨S270336, .i32⟩ : BufTy).Contents (Elt F) :=
  broadcastInDim S270336 ![] bcast_S_S270336 (val_main_c_28 (F := F))
abbrev idx_main_v117 (i : S270336.Idx) : S_.Idx := fun a => a.elim0
theorem val_main_v117_apply (i : S270336.Idx) :
    val_main_v117 (F := F) i = val_main_c_28 (F := F) (idx_main_v117 i) := by
  unfold val_main_v117
  generalize val_main_c_28 (F := F) = y
  exact broadcastInDim_apply _ bcast_S_S270336 y i (idx_main_v117 i) (fun a => a.elim0)

def val_main_v118 : (⟨S270336, .i1⟩ : BufTy).Contents (Elt F) :=
  cmpi .slt (val_main_v3 (F := F) x1) (val_main_v117 (F := F))
theorem val_main_v118_apply (i : S270336.Idx) :
    val_main_v118 (F := F) x1 i = IntOp.cmpi .slt (val_main_v3 (F := F) x1 i) (val_main_v117 (F := F) i) := rfl

def val_main_c_29 : (⟨S_, .i32⟩ : BufTy).Contents (Elt F) :=
  constantI S_ 32 8192#32
theorem val_main_c_29_apply (i : S_.Idx) :
    val_main_c_29 (F := F) i = 8192#32 := rfl

def val_main_v119 : (⟨S270336, .i32⟩ : BufTy).Contents (Elt F) :=
  broadcastInDim S270336 ![] bcast_S_S270336 (val_main_c_29 (F := F))
abbrev idx_main_v119 (i : S270336.Idx) : S_.Idx := fun a => a.elim0
theorem val_main_v119_apply (i : S270336.Idx) :
    val_main_v119 (F := F) i = val_main_c_29 (F := F) (idx_main_v119 i) := by
  unfold val_main_v119
  generalize val_main_c_29 (F := F) = y
  exact broadcastInDim_apply _ bcast_S_S270336 y i (idx_main_v119 i) (fun a => a.elim0)

def val_main_v120 : (⟨S270336, .i32⟩ : BufTy).Contents (Elt F) :=
  addi (val_main_v3 (F := F) x1) (val_main_v119 (F := F))
theorem val_main_v120_apply (i : S270336.Idx) :
    val_main_v120 (F := F) x1 i = IntOp.addi (val_main_v3 (F := F) x1 i) (val_main_v119 (F := F) i) := rfl

def val_main_v121 : (⟨S270336, .i32⟩ : BufTy).Contents (Elt F) :=
  select (val_main_v118 (F := F) x1) (val_main_v120 (F := F) x1) (val_main_v3 (F := F) x1)
theorem val_main_v121_apply (i : S270336.Idx) :
    val_main_v121 (F := F) x1 i = Scalar.select (val_main_v118 (F := F) x1 i) (val_main_v120 (F := F) x1 i) (val_main_v3 (F := F) x1 i) := rfl

def val_main_v122 : (⟨S270336x1, .i32⟩ : BufTy).Contents (Elt F) :=
  broadcastInDim S270336x1 ![0] bcast_S270336_S270336x1_0 (val_main_v121 (F := F) x1)
abbrev idx_main_v122 (i : S270336x1.Idx) : S270336.Idx := fun a => match a with
  | ⟨0, _⟩ => ⟨(i 0).val, (i 0).isLt⟩
theorem val_main_v122_apply (i : S270336x1.Idx) :
    val_main_v122 (F := F) x1 i = val_main_v121 (F := F) x1 (idx_main_v122 i) := by
  unfold val_main_v122
  generalize val_main_v121 (F := F) x1 = y
  exact broadcastInDim_apply _ bcast_S270336_S270336x1_0 y i (idx_main_v122 i) (fun a => match a with
    | ⟨0, _⟩ => by show (i 0).val = if (270336 : Nat) = 1 then 0 else (i 0).val; rw [if_neg (by decide)])

def val_main_v123 : (⟨S270336x64, .f32⟩ : BufTy).Contents (Elt F) :=
  Host.gather gather_S8192x64_S270336x1_S270336x64_1_0_n_n_0_1_164 (val_main_v93 (F := F) x0 x1 x3 x4 x5 x6 x7 x8 x9) (val_main_v122 (F := F) x1)

def val_main_v124 : (⟨S270336x1, .f32⟩ : BufTy).Contents (Elt F) :=
  broadcastInDim S270336x1 ![0] bcast_S270336_S270336x1_0 (val_main_v116 (F := F) x1)
abbrev idx_main_v124 (i : S270336x1.Idx) : S270336.Idx := fun a => match a with
  | ⟨0, _⟩ => ⟨(i 0).val, (i 0).isLt⟩
theorem val_main_v124_apply (i : S270336x1.Idx) :
    val_main_v124 (F := F) x1 i = val_main_v116 (F := F) x1 (idx_main_v124 i) := by
  unfold val_main_v124
  generalize val_main_v116 (F := F) x1 = y
  exact broadcastInDim_apply _ bcast_S270336_S270336x1_0 y i (idx_main_v124 i) (fun a => match a with
    | ⟨0, _⟩ => by show (i 0).val = if (270336 : Nat) = 1 then 0 else (i 0).val; rw [if_neg (by decide)])

def val_main_v125 : (⟨S270336x64, .f32⟩ : BufTy).Contents (Elt F) :=
  broadcastInDim S270336x64 ![0, 1] bcast_S270336x1_S270336x64_0_1 (val_main_v124 (F := F) x1)
abbrev idx_main_v125 (i : S270336x64.Idx) : S270336x1.Idx := fun a => match a with
  | ⟨0, _⟩ => ⟨(i 0).val, (i 0).isLt⟩
  | ⟨1, _⟩ => ⟨0, Nat.one_pos⟩
theorem val_main_v125_apply (i : S270336x64.Idx) :
    val_main_v125 (F := F) x1 i = val_main_v124 (F := F) x1 (idx_main_v125 i) := by
  unfold val_main_v125
  generalize val_main_v124 (F := F) x1 = y
  exact broadcastInDim_apply _ bcast_S270336x1_S270336x64_0_1 y i (idx_main_v125 i) (fun a => match a with
    | ⟨0, _⟩ => by show (i 0).val = if (270336 : Nat) = 1 then 0 else (i 0).val; rw [if_neg (by decide)]
    | ⟨1, _⟩ => by show 0 = if (1 : Nat) = 1 then 0 else (i 1).val; rw [if_pos rfl])

def val_main_v126 : (⟨S270336x64, .f32⟩ : BufTy).Contents (Elt F) :=
  mulf (val_main_v123 (F := F) x0 x1 x3 x4 x5 x6 x7 x8 x9) (val_main_v125 (F := F) x1)
theorem val_main_v126_apply (i : S270336x64.Idx) :
    val_main_v126 (F := F) x0 x1 x3 x4 x5 x6 x7 x8 x9 i = FloatOps.mulf (val_main_v123 (F := F) x0 x1 x3 x4 x5 x6 x7 x8 x9 i) (val_main_v125 (F := F) x1 i) := rfl

def val_main_cst_30 : (⟨S_, .f32⟩ : BufTy).Contents (Elt F) :=
  constant S_ .f32 0x00000000#32
theorem val_main_cst_30_apply (i : S_.Idx) :
    val_main_cst_30 (F := F) i = FloatOps.ofBits .f32 0x00000000#32 := rfl

def val_main_v127 : (⟨S8192x64, .f32⟩ : BufTy).Contents (Elt F) :=
  broadcastInDim S8192x64 ![] bcast_S_S8192x64 (val_main_cst_30 (F := F))
abbrev idx_main_v127 (i : S8192x64.Idx) : S_.Idx := fun a => a.elim0
theorem val_main_v127_apply (i : S8192x64.Idx) :
    val_main_v127 (F := F) i = val_main_cst_30 (F := F) (idx_main_v127 i) := by
  unfold val_main_v127
  generalize val_main_cst_30 (F := F) = y
  exact broadcastInDim_apply _ bcast_S_S8192x64 y i (idx_main_v127 i) (fun a => a.elim0)

def val_main_v128 : (⟨S270336x1, .i32⟩ : BufTy).Contents (Elt F) :=
  broadcastInDim S270336x1 ![0] bcast_S270336_S270336x1_0 (val_main_v6 (F := F) x1)
abbrev idx_main_v128 (i : S270336x1.Idx) : S270336.Idx := fun a => match a with
  | ⟨0, _⟩ => ⟨(i 0).val, (i 0).isLt⟩
theorem val_main_v128_apply (i : S270336x1.Idx) :
    val_main_v128 (F := F) x1 i = val_main_v6 (F := F) x1 (idx_main_v128 i) := by
  unfold val_main_v128
  generalize val_main_v6 (F := F) x1 = y
  exact broadcastInDim_apply _ bcast_S270336_S270336x1_0 y i (idx_main_v128 i) (fun a => match a with
    | ⟨0, _⟩ => by show (i 0).val = if (270336 : Nat) = 1 then 0 else (i 0).val; rw [if_neg (by decide)])

def val_main_v129 : (⟨S8192x64, .f32⟩ : BufTy).Contents (Elt F) :=
  Host.scatterAdd scatter_S8192x64_S270336x1_S270336x64_1_0_0_1 (val_main_v127 (F := F)) (val_main_v128 (F := F) x1) (val_main_v126 (F := F) x0 x1 x3 x4 x5 x6 x7 x8 x9)

def val_main_v130 : (⟨S1x64, .f32⟩ : BufTy).Contents (Elt F) :=
  broadcastInDim S1x64 ![1] bcast_S64_S1x64_1 (x10)
abbrev idx_main_v130 (i : S1x64.Idx) : S64.Idx := fun a => match a with
  | ⟨0, _⟩ => ⟨(i 1).val, (i 1).isLt⟩
theorem val_main_v130_apply (i : S1x64.Idx) :
    val_main_v130 (F := F) x10 i = x10 (idx_main_v130 i) := by
  unfold val_main_v130
  exact broadcastInDim_apply _ bcast_S64_S1x64_1 x10 i (idx_main_v130 i) (fun a => match a with
    | ⟨0, _⟩ => by show (i 1).val = if (64 : Nat) = 1 then 0 else (i 1).val; rw [if_neg (by decide)])

def val_main_v131 : (⟨S8192x64, .f32⟩ : BufTy).Contents (Elt F) :=
  broadcastInDim S8192x64 ![0, 1] bcast_S1x64_S8192x64_0_1 (val_main_v130 (F := F) x10)
abbrev idx_main_v131 (i : S8192x64.Idx) : S1x64.Idx := fun a => match a with
  | ⟨0, _⟩ => ⟨0, Nat.one_pos⟩
  | ⟨1, _⟩ => ⟨(i 1).val, (i 1).isLt⟩
theorem val_main_v131_apply (i : S8192x64.Idx) :
    val_main_v131 (F := F) x10 i = val_main_v130 (F := F) x10 (idx_main_v131 i) := by
  unfold val_main_v131
  generalize val_main_v130 (F := F) x10 = y
  exact broadcastInDim_apply _ bcast_S1x64_S8192x64_0_1 y i (idx_main_v131 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v132 : (⟨S8192x64, .f32⟩ : BufTy).Contents (Elt F) :=
  addf (val_main_v129 (F := F) x0 x1 x3 x4 x5 x6 x7 x8 x9) (val_main_v131 (F := F) x10)
theorem val_main_v132_apply (i : S8192x64.Idx) :
    val_main_v132 (F := F) x0 x1 x3 x4 x5 x6 x7 x8 x9 x10 i = FloatOps.addf (val_main_v129 (F := F) x0 x1 x3 x4 x5 x6 x7 x8 x9 i) (val_main_v131 (F := F) x10 i) := rfl

def val_main_call5_cst : (⟨S_, .f32⟩ : BufTy).Contents (Elt F) :=
  constant S_ .f32 0x00000000#32
theorem val_main_call5_cst_apply (i : S_.Idx) :
    val_main_call5_cst (F := F) i = FloatOps.ofBits .f32 0x00000000#32 := rfl

def val_main_call5_v0 : (⟨S8192x64, .f32⟩ : BufTy).Contents (Elt F) :=
  broadcastInDim S8192x64 ![] bcast_S_S8192x64 (val_main_call5_cst (F := F))
abbrev idx_main_call5_v0 (i : S8192x64.Idx) : S_.Idx := fun a => a.elim0
theorem val_main_call5_v0_apply (i : S8192x64.Idx) :
    val_main_call5_v0 (F := F) i = val_main_call5_cst (F := F) (idx_main_call5_v0 i) := by
  unfold val_main_call5_v0
  generalize val_main_call5_cst (F := F) = y
  exact broadcastInDim_apply _ bcast_S_S8192x64 y i (idx_main_call5_v0 i) (fun a => a.elim0)

def val_main_v133 : (⟨S8192x64, .f32⟩ : BufTy).Contents (Elt F) :=
  maximumf (val_main_v132 (F := F) x0 x1 x3 x4 x5 x6 x7 x8 x9 x10) (val_main_call5_v0 (F := F))
theorem val_main_v133_apply (i : S8192x64.Idx) :
    val_main_v133 (F := F) x0 x1 x3 x4 x5 x6 x7 x8 x9 x10 i = FloatOps.maximumf (val_main_v132 (F := F) x0 x1 x3 x4 x5 x6 x7 x8 x9 x10 i) (val_main_call5_v0 (F := F) i) := rfl

def val_main_v134 : (⟨S8192x64, .f32⟩ : BufTy).Contents (Elt F) :=
  Host.dotGeneral dot_S8192x256_S256x64_S8192x64_1_0_0_1_n_n none (val_main_v92 (F := F) x0 x1 x3 x4 x5 x6 x7 x8) (x11)
theorem lhs_main_v134_0 (i : S8192x64.Idx) (q : dot_S8192x256_S256x64_S8192x64_1_0_0_1_n_n.contr.Idx) :
    (dot_S8192x256_S256x64_S8192x64_1_0_0_1_n_n.lhsIdx i q 0).val = (i 0).val := by
  unfold DotDims.lhsIdx
  rw [dif_neg (show ¬(0 : Fin S8192x256.rank) ∈ dot_S8192x256_S256x64_S8192x64_1_0_0_1_n_n.lhsBatch by decide), dif_pos (show (0 : Fin S8192x256.rank) ∈ dot_S8192x256_S256x64_S8192x64_1_0_0_1_n_n.lhsNonContracting by decide)]
  rfl
theorem lhs_main_v134_1 (i : S8192x64.Idx) (q : dot_S8192x256_S256x64_S8192x64_1_0_0_1_n_n.contr.Idx) :
    (dot_S8192x256_S256x64_S8192x64_1_0_0_1_n_n.lhsIdx i q 1).val = (q ⟨0, by decide⟩).val :=
  dot_S8192x256_S256x64_S8192x64_1_0_0_1_n_n.lhsIdx_val_of_single rfl i q
theorem rhs_main_v134_0 (i : S8192x64.Idx) (q : dot_S8192x256_S256x64_S8192x64_1_0_0_1_n_n.contr.Idx) :
    (dot_S8192x256_S256x64_S8192x64_1_0_0_1_n_n.rhsIdx i q 0).val = (q ⟨0, by decide⟩).val :=
  dot_S8192x256_S256x64_S8192x64_1_0_0_1_n_n.rhsIdx_val_of_single rfl i q
theorem rhs_main_v134_1 (i : S8192x64.Idx) (q : dot_S8192x256_S256x64_S8192x64_1_0_0_1_n_n.contr.Idx) :
    (dot_S8192x256_S256x64_S8192x64_1_0_0_1_n_n.rhsIdx i q 1).val = (i 1).val := by
  unfold DotDims.rhsIdx
  rw [dif_neg (show ¬(1 : Fin S256x64.rank) ∈ dot_S8192x256_S256x64_S8192x64_1_0_0_1_n_n.rhsBatch by decide), dif_pos (show (1 : Fin S256x64.rank) ∈ dot_S8192x256_S256x64_S8192x64_1_0_0_1_n_n.rhsNonContracting by decide)]
  rfl
abbrev lidx_main_v134 (i : S8192x64.Idx) (k : Fin 256) : S8192x256.Idx := fun a => match a with
  | ⟨0, _⟩ => ⟨(i 0).val, (i 0).isLt⟩
  | ⟨1, _⟩ => ⟨k.val, k.isLt⟩
abbrev ridx_main_v134 (i : S8192x64.Idx) (k : Fin 256) : S256x64.Idx := fun a => match a with
  | ⟨0, _⟩ => ⟨k.val, k.isLt⟩
  | ⟨1, _⟩ => ⟨(i 1).val, (i 1).isLt⟩

theorem val_main_v134_apply (x0 : (⟨S8192x256, .f32⟩ : BufTy).Contents (Elt Ideal)) (x1 : (⟨S2x262144, .i32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x11 : (⟨S256x64, .f32⟩ : BufTy).Contents (Elt Ideal)) (i : S8192x64.Idx) :
    val_main_v134 (F := Ideal) x0 x1 x3 x4 x5 x6 x7 x8 x11 i = ∑ k : Fin 256, (val_main_v92 (F := Ideal) x0 x1 x3 x4 x5 x6 x7 x8) (lidx_main_v134 i k) * x11 (ridx_main_v134 i k) := by
  unfold val_main_v134
  generalize val_main_v92 (F := Ideal) x0 x1 x3 x4 x5 x6 x7 x8 = y0
  simp only [Host.dotGeneral]
  rw [Ideal.dotGeneral_apply, ← Equiv.sum_comp (ValueIdx.contrEquiv1 dot_S8192x256_S256x64_S8192x64_1_0_0_1_n_n 256 rfl rfl).symm]
  refine Finset.sum_congr rfl fun k _ => ?_
  have hk := ValueIdx.contrEquiv1_symm_val dot_S8192x256_S256x64_S8192x64_1_0_0_1_n_n 256 rfl rfl k
  have el : dot_S8192x256_S256x64_S8192x64_1_0_0_1_n_n.lhsIdx i ((ValueIdx.contrEquiv1 dot_S8192x256_S256x64_S8192x64_1_0_0_1_n_n 256 rfl rfl).symm k) = lidx_main_v134 i k := funext fun a => Fin.ext (by
    match a with
    | ⟨0, _⟩ => exact lhs_main_v134_0 _ _
    | ⟨1, _⟩ => exact (lhs_main_v134_1 _ _).trans hk)
  have er : dot_S8192x256_S256x64_S8192x64_1_0_0_1_n_n.rhsIdx i ((ValueIdx.contrEquiv1 dot_S8192x256_S256x64_S8192x64_1_0_0_1_n_n 256 rfl rfl).symm k) = ridx_main_v134 i k := funext fun a => Fin.ext (by
    match a with
    | ⟨0, _⟩ => exact (rhs_main_v134_0 _ _).trans hk
    | ⟨1, _⟩ => exact rhs_main_v134_1 _ _)
  rw [el, er]

def val_main_cst_31 : (⟨S_, .f32⟩ : BufTy).Contents (Elt F) :=
  constant S_ .f32 0x3F800000#32
theorem val_main_cst_31_apply (i : S_.Idx) :
    val_main_cst_31 (F := F) i = FloatOps.ofBits .f32 0x3F800000#32 := rfl

def val_main_v135 : (⟨S270336, .f32⟩ : BufTy).Contents (Elt F) :=
  broadcastInDim S270336 ![] bcast_S_S270336 (val_main_cst_31 (F := F))
abbrev idx_main_v135 (i : S270336.Idx) : S_.Idx := fun a => a.elim0
theorem val_main_v135_apply (i : S270336.Idx) :
    val_main_v135 (F := F) i = val_main_cst_31 (F := F) (idx_main_v135 i) := by
  unfold val_main_v135
  generalize val_main_cst_31 (F := F) = y
  exact broadcastInDim_apply _ bcast_S_S270336 y i (idx_main_v135 i) (fun a => a.elim0)

def val_main_cst_32 : (⟨S_, .f32⟩ : BufTy).Contents (Elt F) :=
  constant S_ .f32 0x00000000#32
theorem val_main_cst_32_apply (i : S_.Idx) :
    val_main_cst_32 (F := F) i = FloatOps.ofBits .f32 0x00000000#32 := rfl

def val_main_v136 : (⟨S8192, .f32⟩ : BufTy).Contents (Elt F) :=
  broadcastInDim S8192 ![] bcast_S_S8192 (val_main_cst_32 (F := F))
abbrev idx_main_v136 (i : S8192.Idx) : S_.Idx := fun a => a.elim0
theorem val_main_v136_apply (i : S8192.Idx) :
    val_main_v136 (F := F) i = val_main_cst_32 (F := F) (idx_main_v136 i) := by
  unfold val_main_v136
  generalize val_main_cst_32 (F := F) = y
  exact broadcastInDim_apply _ bcast_S_S8192 y i (idx_main_v136 i) (fun a => a.elim0)

def val_main_v137 : (⟨S270336x1, .i32⟩ : BufTy).Contents (Elt F) :=
  broadcastInDim S270336x1 ![0] bcast_S270336_S270336x1_0 (val_main_v6 (F := F) x1)
abbrev idx_main_v137 (i : S270336x1.Idx) : S270336.Idx := fun a => match a with
  | ⟨0, _⟩ => ⟨(i 0).val, (i 0).isLt⟩
theorem val_main_v137_apply (i : S270336x1.Idx) :
    val_main_v137 (F := F) x1 i = val_main_v6 (F := F) x1 (idx_main_v137 i) := by
  unfold val_main_v137
  generalize val_main_v6 (F := F) x1 = y
  exact broadcastInDim_apply _ bcast_S270336_S270336x1_0 y i (idx_main_v137 i) (fun a => match a with
    | ⟨0, _⟩ => by show (i 0).val = if (270336 : Nat) = 1 then 0 else (i 0).val; rw [if_neg (by decide)])

def val_main_v138 : (⟨S8192, .f32⟩ : BufTy).Contents (Elt F) :=
  Host.scatterAdd scatter_S8192_S270336x1_S270336_n_0_0_1 (val_main_v136 (F := F)) (val_main_v137 (F := F) x1) (val_main_v135 (F := F))

def val_main_cst_33 : (⟨S_, .f32⟩ : BufTy).Contents (Elt F) :=
  constant S_ .f32 0x00000000#32
theorem val_main_cst_33_apply (i : S_.Idx) :
    val_main_cst_33 (F := F) i = FloatOps.ofBits .f32 0x00000000#32 := rfl

def val_main_v139 : (⟨S8192, .f32⟩ : BufTy).Contents (Elt F) :=
  broadcastInDim S8192 ![] bcast_S_S8192 (val_main_cst_33 (F := F))
abbrev idx_main_v139 (i : S8192.Idx) : S_.Idx := fun a => a.elim0
theorem val_main_v139_apply (i : S8192.Idx) :
    val_main_v139 (F := F) i = val_main_cst_33 (F := F) (idx_main_v139 i) := by
  unfold val_main_v139
  generalize val_main_cst_33 (F := F) = y
  exact broadcastInDim_apply _ bcast_S_S8192 y i (idx_main_v139 i) (fun a => a.elim0)

def val_main_v140 : (⟨S8192, .i1⟩ : BufTy).Contents (Elt F) :=
  cmpf .ogt (val_main_v138 (F := F) x1) (val_main_v139 (F := F))
theorem val_main_v140_apply (i : S8192.Idx) :
    val_main_v140 (F := F) x1 i = FloatOps.cmpf .ogt (val_main_v138 (F := F) x1 i) (val_main_v139 (F := F) i) := rfl

def val_main_v141 : (⟨S8192, .f32⟩ : BufTy).Contents (Elt F) :=
  Host.rsqrt (val_main_v138 (F := F) x1)
theorem val_main_v141_apply (i : S8192.Idx) :
    val_main_v141 (F := F) x1 i = FloatOps.hostUnary .rsqrt (val_main_v138 (F := F) x1 i) := rfl

def val_main_cst_34 : (⟨S_, .f32⟩ : BufTy).Contents (Elt F) :=
  constant S_ .f32 0x00000000#32
theorem val_main_cst_34_apply (i : S_.Idx) :
    val_main_cst_34 (F := F) i = FloatOps.ofBits .f32 0x00000000#32 := rfl

def val_main_call6_v0 : (⟨S_, .f32⟩ : BufTy).Contents (Elt F) :=
  id (val_main_cst_34 (F := F))
theorem val_main_call6_v0_apply (i : S_.Idx) :
    val_main_call6_v0 (F := F) i = (val_main_cst_34 (F := F) i) := rfl

def val_main_call6_v1 : (⟨S8192, .f32⟩ : BufTy).Contents (Elt F) :=
  broadcastInDim S8192 ![] bcast_S_S8192 (val_main_call6_v0 (F := F))
abbrev idx_main_call6_v1 (i : S8192.Idx) : S_.Idx := fun a => a.elim0
theorem val_main_call6_v1_apply (i : S8192.Idx) :
    val_main_call6_v1 (F := F) i = val_main_call6_v0 (F := F) (idx_main_call6_v1 i) := by
  unfold val_main_call6_v1
  generalize val_main_call6_v0 (F := F) = y
  exact broadcastInDim_apply _ bcast_S_S8192 y i (idx_main_call6_v1 i) (fun a => a.elim0)

def val_main_v142 : (⟨S8192, .f32⟩ : BufTy).Contents (Elt F) :=
  select (val_main_v140 (F := F) x1) (val_main_v141 (F := F) x1) (val_main_call6_v1 (F := F))
theorem val_main_v142_apply (i : S8192.Idx) :
    val_main_v142 (F := F) x1 i = Scalar.select (val_main_v140 (F := F) x1 i) (val_main_v141 (F := F) x1 i) (val_main_call6_v1 (F := F) i) := rfl

def val_main_c_35 : (⟨S_, .i32⟩ : BufTy).Contents (Elt F) :=
  constantI S_ 32 0#32
theorem val_main_c_35_apply (i : S_.Idx) :
    val_main_c_35 (F := F) i = 0#32 := rfl

def val_main_v143 : (⟨S270336, .i32⟩ : BufTy).Contents (Elt F) :=
  broadcastInDim S270336 ![] bcast_S_S270336 (val_main_c_35 (F := F))
abbrev idx_main_v143 (i : S270336.Idx) : S_.Idx := fun a => a.elim0
theorem val_main_v143_apply (i : S270336.Idx) :
    val_main_v143 (F := F) i = val_main_c_35 (F := F) (idx_main_v143 i) := by
  unfold val_main_v143
  generalize val_main_c_35 (F := F) = y
  exact broadcastInDim_apply _ bcast_S_S270336 y i (idx_main_v143 i) (fun a => a.elim0)

def val_main_v144 : (⟨S270336, .i1⟩ : BufTy).Contents (Elt F) :=
  cmpi .slt (val_main_v3 (F := F) x1) (val_main_v143 (F := F))
theorem val_main_v144_apply (i : S270336.Idx) :
    val_main_v144 (F := F) x1 i = IntOp.cmpi .slt (val_main_v3 (F := F) x1 i) (val_main_v143 (F := F) i) := rfl

def val_main_c_36 : (⟨S_, .i32⟩ : BufTy).Contents (Elt F) :=
  constantI S_ 32 8192#32
theorem val_main_c_36_apply (i : S_.Idx) :
    val_main_c_36 (F := F) i = 8192#32 := rfl

def val_main_v145 : (⟨S270336, .i32⟩ : BufTy).Contents (Elt F) :=
  broadcastInDim S270336 ![] bcast_S_S270336 (val_main_c_36 (F := F))
abbrev idx_main_v145 (i : S270336.Idx) : S_.Idx := fun a => a.elim0
theorem val_main_v145_apply (i : S270336.Idx) :
    val_main_v145 (F := F) i = val_main_c_36 (F := F) (idx_main_v145 i) := by
  unfold val_main_v145
  generalize val_main_c_36 (F := F) = y
  exact broadcastInDim_apply _ bcast_S_S270336 y i (idx_main_v145 i) (fun a => a.elim0)

def val_main_v146 : (⟨S270336, .i32⟩ : BufTy).Contents (Elt F) :=
  addi (val_main_v3 (F := F) x1) (val_main_v145 (F := F))
theorem val_main_v146_apply (i : S270336.Idx) :
    val_main_v146 (F := F) x1 i = IntOp.addi (val_main_v3 (F := F) x1 i) (val_main_v145 (F := F) i) := rfl

def val_main_v147 : (⟨S270336, .i32⟩ : BufTy).Contents (Elt F) :=
  select (val_main_v144 (F := F) x1) (val_main_v146 (F := F) x1) (val_main_v3 (F := F) x1)
theorem val_main_v147_apply (i : S270336.Idx) :
    val_main_v147 (F := F) x1 i = Scalar.select (val_main_v144 (F := F) x1 i) (val_main_v146 (F := F) x1 i) (val_main_v3 (F := F) x1 i) := rfl

def val_main_v148 : (⟨S270336x1, .i32⟩ : BufTy).Contents (Elt F) :=
  broadcastInDim S270336x1 ![0] bcast_S270336_S270336x1_0 (val_main_v147 (F := F) x1)
abbrev idx_main_v148 (i : S270336x1.Idx) : S270336.Idx := fun a => match a with
  | ⟨0, _⟩ => ⟨(i 0).val, (i 0).isLt⟩
theorem val_main_v148_apply (i : S270336x1.Idx) :
    val_main_v148 (F := F) x1 i = val_main_v147 (F := F) x1 (idx_main_v148 i) := by
  unfold val_main_v148
  generalize val_main_v147 (F := F) x1 = y
  exact broadcastInDim_apply _ bcast_S270336_S270336x1_0 y i (idx_main_v148 i) (fun a => match a with
    | ⟨0, _⟩ => by show (i 0).val = if (270336 : Nat) = 1 then 0 else (i 0).val; rw [if_neg (by decide)])

def val_main_v149 : (⟨S270336, .f32⟩ : BufTy).Contents (Elt F) :=
  Host.gather gather_S8192_S270336x1_S270336_n_0_n_n_0_1_1 (val_main_v142 (F := F) x1) (val_main_v148 (F := F) x1)

def val_main_c_37 : (⟨S_, .i32⟩ : BufTy).Contents (Elt F) :=
  constantI S_ 32 0#32
theorem val_main_c_37_apply (i : S_.Idx) :
    val_main_c_37 (F := F) i = 0#32 := rfl

def val_main_v150 : (⟨S270336, .i32⟩ : BufTy).Contents (Elt F) :=
  broadcastInDim S270336 ![] bcast_S_S270336 (val_main_c_37 (F := F))
abbrev idx_main_v150 (i : S270336.Idx) : S_.Idx := fun a => a.elim0
theorem val_main_v150_apply (i : S270336.Idx) :
    val_main_v150 (F := F) i = val_main_c_37 (F := F) (idx_main_v150 i) := by
  unfold val_main_v150
  generalize val_main_c_37 (F := F) = y
  exact broadcastInDim_apply _ bcast_S_S270336 y i (idx_main_v150 i) (fun a => a.elim0)

def val_main_v151 : (⟨S270336, .i1⟩ : BufTy).Contents (Elt F) :=
  cmpi .slt (val_main_v6 (F := F) x1) (val_main_v150 (F := F))
theorem val_main_v151_apply (i : S270336.Idx) :
    val_main_v151 (F := F) x1 i = IntOp.cmpi .slt (val_main_v6 (F := F) x1 i) (val_main_v150 (F := F) i) := rfl

def val_main_c_38 : (⟨S_, .i32⟩ : BufTy).Contents (Elt F) :=
  constantI S_ 32 8192#32
theorem val_main_c_38_apply (i : S_.Idx) :
    val_main_c_38 (F := F) i = 8192#32 := rfl

def val_main_v152 : (⟨S270336, .i32⟩ : BufTy).Contents (Elt F) :=
  broadcastInDim S270336 ![] bcast_S_S270336 (val_main_c_38 (F := F))
abbrev idx_main_v152 (i : S270336.Idx) : S_.Idx := fun a => a.elim0
theorem val_main_v152_apply (i : S270336.Idx) :
    val_main_v152 (F := F) i = val_main_c_38 (F := F) (idx_main_v152 i) := by
  unfold val_main_v152
  generalize val_main_c_38 (F := F) = y
  exact broadcastInDim_apply _ bcast_S_S270336 y i (idx_main_v152 i) (fun a => a.elim0)

def val_main_v153 : (⟨S270336, .i32⟩ : BufTy).Contents (Elt F) :=
  addi (val_main_v6 (F := F) x1) (val_main_v152 (F := F))
theorem val_main_v153_apply (i : S270336.Idx) :
    val_main_v153 (F := F) x1 i = IntOp.addi (val_main_v6 (F := F) x1 i) (val_main_v152 (F := F) i) := rfl

def val_main_v154 : (⟨S270336, .i32⟩ : BufTy).Contents (Elt F) :=
  select (val_main_v151 (F := F) x1) (val_main_v153 (F := F) x1) (val_main_v6 (F := F) x1)
theorem val_main_v154_apply (i : S270336.Idx) :
    val_main_v154 (F := F) x1 i = Scalar.select (val_main_v151 (F := F) x1 i) (val_main_v153 (F := F) x1 i) (val_main_v6 (F := F) x1 i) := rfl

def val_main_v155 : (⟨S270336x1, .i32⟩ : BufTy).Contents (Elt F) :=
  broadcastInDim S270336x1 ![0] bcast_S270336_S270336x1_0 (val_main_v154 (F := F) x1)
abbrev idx_main_v155 (i : S270336x1.Idx) : S270336.Idx := fun a => match a with
  | ⟨0, _⟩ => ⟨(i 0).val, (i 0).isLt⟩
theorem val_main_v155_apply (i : S270336x1.Idx) :
    val_main_v155 (F := F) x1 i = val_main_v154 (F := F) x1 (idx_main_v155 i) := by
  unfold val_main_v155
  generalize val_main_v154 (F := F) x1 = y
  exact broadcastInDim_apply _ bcast_S270336_S270336x1_0 y i (idx_main_v155 i) (fun a => match a with
    | ⟨0, _⟩ => by show (i 0).val = if (270336 : Nat) = 1 then 0 else (i 0).val; rw [if_neg (by decide)])

def val_main_v156 : (⟨S270336, .f32⟩ : BufTy).Contents (Elt F) :=
  Host.gather gather_S8192_S270336x1_S270336_n_0_n_n_0_1_1 (val_main_v142 (F := F) x1) (val_main_v155 (F := F) x1)

def val_main_v157 : (⟨S270336, .f32⟩ : BufTy).Contents (Elt F) :=
  mulf (val_main_v149 (F := F) x1) (val_main_v156 (F := F) x1)
theorem val_main_v157_apply (i : S270336.Idx) :
    val_main_v157 (F := F) x1 i = FloatOps.mulf (val_main_v149 (F := F) x1 i) (val_main_v156 (F := F) x1 i) := rfl

def val_main_c_39 : (⟨S_, .i32⟩ : BufTy).Contents (Elt F) :=
  constantI S_ 32 0#32
theorem val_main_c_39_apply (i : S_.Idx) :
    val_main_c_39 (F := F) i = 0#32 := rfl

def val_main_v158 : (⟨S270336, .i32⟩ : BufTy).Contents (Elt F) :=
  broadcastInDim S270336 ![] bcast_S_S270336 (val_main_c_39 (F := F))
abbrev idx_main_v158 (i : S270336.Idx) : S_.Idx := fun a => a.elim0
theorem val_main_v158_apply (i : S270336.Idx) :
    val_main_v158 (F := F) i = val_main_c_39 (F := F) (idx_main_v158 i) := by
  unfold val_main_v158
  generalize val_main_c_39 (F := F) = y
  exact broadcastInDim_apply _ bcast_S_S270336 y i (idx_main_v158 i) (fun a => a.elim0)

def val_main_v159 : (⟨S270336, .i1⟩ : BufTy).Contents (Elt F) :=
  cmpi .slt (val_main_v3 (F := F) x1) (val_main_v158 (F := F))
theorem val_main_v159_apply (i : S270336.Idx) :
    val_main_v159 (F := F) x1 i = IntOp.cmpi .slt (val_main_v3 (F := F) x1 i) (val_main_v158 (F := F) i) := rfl

def val_main_c_40 : (⟨S_, .i32⟩ : BufTy).Contents (Elt F) :=
  constantI S_ 32 8192#32
theorem val_main_c_40_apply (i : S_.Idx) :
    val_main_c_40 (F := F) i = 8192#32 := rfl

def val_main_v160 : (⟨S270336, .i32⟩ : BufTy).Contents (Elt F) :=
  broadcastInDim S270336 ![] bcast_S_S270336 (val_main_c_40 (F := F))
abbrev idx_main_v160 (i : S270336.Idx) : S_.Idx := fun a => a.elim0
theorem val_main_v160_apply (i : S270336.Idx) :
    val_main_v160 (F := F) i = val_main_c_40 (F := F) (idx_main_v160 i) := by
  unfold val_main_v160
  generalize val_main_c_40 (F := F) = y
  exact broadcastInDim_apply _ bcast_S_S270336 y i (idx_main_v160 i) (fun a => a.elim0)

def val_main_v161 : (⟨S270336, .i32⟩ : BufTy).Contents (Elt F) :=
  addi (val_main_v3 (F := F) x1) (val_main_v160 (F := F))
theorem val_main_v161_apply (i : S270336.Idx) :
    val_main_v161 (F := F) x1 i = IntOp.addi (val_main_v3 (F := F) x1 i) (val_main_v160 (F := F) i) := rfl

def val_main_v162 : (⟨S270336, .i32⟩ : BufTy).Contents (Elt F) :=
  select (val_main_v159 (F := F) x1) (val_main_v161 (F := F) x1) (val_main_v3 (F := F) x1)
theorem val_main_v162_apply (i : S270336.Idx) :
    val_main_v162 (F := F) x1 i = Scalar.select (val_main_v159 (F := F) x1 i) (val_main_v161 (F := F) x1 i) (val_main_v3 (F := F) x1 i) := rfl

def val_main_v163 : (⟨S270336x1, .i32⟩ : BufTy).Contents (Elt F) :=
  broadcastInDim S270336x1 ![0] bcast_S270336_S270336x1_0 (val_main_v162 (F := F) x1)
abbrev idx_main_v163 (i : S270336x1.Idx) : S270336.Idx := fun a => match a with
  | ⟨0, _⟩ => ⟨(i 0).val, (i 0).isLt⟩
theorem val_main_v163_apply (i : S270336x1.Idx) :
    val_main_v163 (F := F) x1 i = val_main_v162 (F := F) x1 (idx_main_v163 i) := by
  unfold val_main_v163
  generalize val_main_v162 (F := F) x1 = y
  exact broadcastInDim_apply _ bcast_S270336_S270336x1_0 y i (idx_main_v163 i) (fun a => match a with
    | ⟨0, _⟩ => by show (i 0).val = if (270336 : Nat) = 1 then 0 else (i 0).val; rw [if_neg (by decide)])

def val_main_v164 : (⟨S270336x64, .f32⟩ : BufTy).Contents (Elt F) :=
  Host.gather gather_S8192x64_S270336x1_S270336x64_1_0_n_n_0_1_164 (val_main_v134 (F := F) x0 x1 x3 x4 x5 x6 x7 x8 x11) (val_main_v163 (F := F) x1)

def val_main_v165 : (⟨S270336x1, .f32⟩ : BufTy).Contents (Elt F) :=
  broadcastInDim S270336x1 ![0] bcast_S270336_S270336x1_0 (val_main_v157 (F := F) x1)
abbrev idx_main_v165 (i : S270336x1.Idx) : S270336.Idx := fun a => match a with
  | ⟨0, _⟩ => ⟨(i 0).val, (i 0).isLt⟩
theorem val_main_v165_apply (i : S270336x1.Idx) :
    val_main_v165 (F := F) x1 i = val_main_v157 (F := F) x1 (idx_main_v165 i) := by
  unfold val_main_v165
  generalize val_main_v157 (F := F) x1 = y
  exact broadcastInDim_apply _ bcast_S270336_S270336x1_0 y i (idx_main_v165 i) (fun a => match a with
    | ⟨0, _⟩ => by show (i 0).val = if (270336 : Nat) = 1 then 0 else (i 0).val; rw [if_neg (by decide)])

def val_main_v166 : (⟨S270336x64, .f32⟩ : BufTy).Contents (Elt F) :=
  broadcastInDim S270336x64 ![0, 1] bcast_S270336x1_S270336x64_0_1 (val_main_v165 (F := F) x1)
abbrev idx_main_v166 (i : S270336x64.Idx) : S270336x1.Idx := fun a => match a with
  | ⟨0, _⟩ => ⟨(i 0).val, (i 0).isLt⟩
  | ⟨1, _⟩ => ⟨0, Nat.one_pos⟩
theorem val_main_v166_apply (i : S270336x64.Idx) :
    val_main_v166 (F := F) x1 i = val_main_v165 (F := F) x1 (idx_main_v166 i) := by
  unfold val_main_v166
  generalize val_main_v165 (F := F) x1 = y
  exact broadcastInDim_apply _ bcast_S270336x1_S270336x64_0_1 y i (idx_main_v166 i) (fun a => match a with
    | ⟨0, _⟩ => by show (i 0).val = if (270336 : Nat) = 1 then 0 else (i 0).val; rw [if_neg (by decide)]
    | ⟨1, _⟩ => by show 0 = if (1 : Nat) = 1 then 0 else (i 1).val; rw [if_pos rfl])

def val_main_v167 : (⟨S270336x64, .f32⟩ : BufTy).Contents (Elt F) :=
  mulf (val_main_v164 (F := F) x0 x1 x3 x4 x5 x6 x7 x8 x11) (val_main_v166 (F := F) x1)
theorem val_main_v167_apply (i : S270336x64.Idx) :
    val_main_v167 (F := F) x0 x1 x3 x4 x5 x6 x7 x8 x11 i = FloatOps.mulf (val_main_v164 (F := F) x0 x1 x3 x4 x5 x6 x7 x8 x11 i) (val_main_v166 (F := F) x1 i) := rfl

def val_main_cst_41 : (⟨S_, .f32⟩ : BufTy).Contents (Elt F) :=
  constant S_ .f32 0x00000000#32
theorem val_main_cst_41_apply (i : S_.Idx) :
    val_main_cst_41 (F := F) i = FloatOps.ofBits .f32 0x00000000#32 := rfl

def val_main_v168 : (⟨S8192x64, .f32⟩ : BufTy).Contents (Elt F) :=
  broadcastInDim S8192x64 ![] bcast_S_S8192x64 (val_main_cst_41 (F := F))
abbrev idx_main_v168 (i : S8192x64.Idx) : S_.Idx := fun a => a.elim0
theorem val_main_v168_apply (i : S8192x64.Idx) :
    val_main_v168 (F := F) i = val_main_cst_41 (F := F) (idx_main_v168 i) := by
  unfold val_main_v168
  generalize val_main_cst_41 (F := F) = y
  exact broadcastInDim_apply _ bcast_S_S8192x64 y i (idx_main_v168 i) (fun a => a.elim0)

def val_main_v169 : (⟨S270336x1, .i32⟩ : BufTy).Contents (Elt F) :=
  broadcastInDim S270336x1 ![0] bcast_S270336_S270336x1_0 (val_main_v6 (F := F) x1)
abbrev idx_main_v169 (i : S270336x1.Idx) : S270336.Idx := fun a => match a with
  | ⟨0, _⟩ => ⟨(i 0).val, (i 0).isLt⟩
theorem val_main_v169_apply (i : S270336x1.Idx) :
    val_main_v169 (F := F) x1 i = val_main_v6 (F := F) x1 (idx_main_v169 i) := by
  unfold val_main_v169
  generalize val_main_v6 (F := F) x1 = y
  exact broadcastInDim_apply _ bcast_S270336_S270336x1_0 y i (idx_main_v169 i) (fun a => match a with
    | ⟨0, _⟩ => by show (i 0).val = if (270336 : Nat) = 1 then 0 else (i 0).val; rw [if_neg (by decide)])

def val_main_v170 : (⟨S8192x64, .f32⟩ : BufTy).Contents (Elt F) :=
  Host.scatterAdd scatter_S8192x64_S270336x1_S270336x64_1_0_0_1 (val_main_v168 (F := F)) (val_main_v169 (F := F) x1) (val_main_v167 (F := F) x0 x1 x3 x4 x5 x6 x7 x8 x11)

def val_main_v171 : (⟨S1x64, .f32⟩ : BufTy).Contents (Elt F) :=
  broadcastInDim S1x64 ![1] bcast_S64_S1x64_1 (x12)
abbrev idx_main_v171 (i : S1x64.Idx) : S64.Idx := fun a => match a with
  | ⟨0, _⟩ => ⟨(i 1).val, (i 1).isLt⟩
theorem val_main_v171_apply (i : S1x64.Idx) :
    val_main_v171 (F := F) x12 i = x12 (idx_main_v171 i) := by
  unfold val_main_v171
  exact broadcastInDim_apply _ bcast_S64_S1x64_1 x12 i (idx_main_v171 i) (fun a => match a with
    | ⟨0, _⟩ => by show (i 1).val = if (64 : Nat) = 1 then 0 else (i 1).val; rw [if_neg (by decide)])

def val_main_v172 : (⟨S8192x64, .f32⟩ : BufTy).Contents (Elt F) :=
  broadcastInDim S8192x64 ![0, 1] bcast_S1x64_S8192x64_0_1 (val_main_v171 (F := F) x12)
abbrev idx_main_v172 (i : S8192x64.Idx) : S1x64.Idx := fun a => match a with
  | ⟨0, _⟩ => ⟨0, Nat.one_pos⟩
  | ⟨1, _⟩ => ⟨(i 1).val, (i 1).isLt⟩
theorem val_main_v172_apply (i : S8192x64.Idx) :
    val_main_v172 (F := F) x12 i = val_main_v171 (F := F) x12 (idx_main_v172 i) := by
  unfold val_main_v172
  generalize val_main_v171 (F := F) x12 = y
  exact broadcastInDim_apply _ bcast_S1x64_S8192x64_0_1 y i (idx_main_v172 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v173 : (⟨S8192x64, .f32⟩ : BufTy).Contents (Elt F) :=
  addf (val_main_v170 (F := F) x0 x1 x3 x4 x5 x6 x7 x8 x11) (val_main_v172 (F := F) x12)
theorem val_main_v173_apply (i : S8192x64.Idx) :
    val_main_v173 (F := F) x0 x1 x3 x4 x5 x6 x7 x8 x11 x12 i = FloatOps.addf (val_main_v170 (F := F) x0 x1 x3 x4 x5 x6 x7 x8 x11 i) (val_main_v172 (F := F) x12 i) := rfl

def val_main_call7_cst : (⟨S_, .f32⟩ : BufTy).Contents (Elt F) :=
  constant S_ .f32 0x00000000#32
theorem val_main_call7_cst_apply (i : S_.Idx) :
    val_main_call7_cst (F := F) i = FloatOps.ofBits .f32 0x00000000#32 := rfl

def val_main_call7_v0 : (⟨S8192x64, .f32⟩ : BufTy).Contents (Elt F) :=
  broadcastInDim S8192x64 ![] bcast_S_S8192x64 (val_main_call7_cst (F := F))
abbrev idx_main_call7_v0 (i : S8192x64.Idx) : S_.Idx := fun a => a.elim0
theorem val_main_call7_v0_apply (i : S8192x64.Idx) :
    val_main_call7_v0 (F := F) i = val_main_call7_cst (F := F) (idx_main_call7_v0 i) := by
  unfold val_main_call7_v0
  generalize val_main_call7_cst (F := F) = y
  exact broadcastInDim_apply _ bcast_S_S8192x64 y i (idx_main_call7_v0 i) (fun a => a.elim0)

def val_main_v174 : (⟨S8192x64, .f32⟩ : BufTy).Contents (Elt F) :=
  maximumf (val_main_v173 (F := F) x0 x1 x3 x4 x5 x6 x7 x8 x11 x12) (val_main_call7_v0 (F := F))
theorem val_main_v174_apply (i : S8192x64.Idx) :
    val_main_v174 (F := F) x0 x1 x3 x4 x5 x6 x7 x8 x11 x12 i = FloatOps.maximumf (val_main_v173 (F := F) x0 x1 x3 x4 x5 x6 x7 x8 x11 x12 i) (val_main_call7_v0 (F := F) i) := rfl

def val_main_v175 : (⟨S8192x64, .f32⟩ : BufTy).Contents (Elt F) :=
  Host.exp (val_main_v174 (F := F) x0 x1 x3 x4 x5 x6 x7 x8 x11 x12)
theorem val_main_v175_apply (i : S8192x64.Idx) :
    val_main_v175 (F := F) x0 x1 x3 x4 x5 x6 x7 x8 x11 x12 i = FloatOps.hostUnary .exp (val_main_v174 (F := F) x0 x1 x3 x4 x5 x6 x7 x8 x11 x12 i) := rfl

def val_main_v176 : (⟨S8192x64, .f32⟩ : BufTy).Contents (Elt F) :=
  mulf (x2) (val_main_v175 (F := F) x0 x1 x3 x4 x5 x6 x7 x8 x11 x12)
theorem val_main_v176_apply (i : S8192x64.Idx) :
    val_main_v176 (F := F) x0 x1 x2 x3 x4 x5 x6 x7 x8 x11 x12 i = FloatOps.mulf (x2 i) (val_main_v175 (F := F) x0 x1 x3 x4 x5 x6 x7 x8 x11 x12 i) := rfl

def val_main_v177 : (⟨S8192x64, .f32⟩ : BufTy).Contents (Elt F) :=
  addf (val_main_v176 (F := F) x0 x1 x2 x3 x4 x5 x6 x7 x8 x11 x12) (val_main_v133 (F := F) x0 x1 x3 x4 x5 x6 x7 x8 x9 x10)
theorem val_main_v177_apply (i : S8192x64.Idx) :
    val_main_v177 (F := F) x0 x1 x2 x3 x4 x5 x6 x7 x8 x9 x10 x11 x12 i = FloatOps.addf (val_main_v176 (F := F) x0 x1 x2 x3 x4 x5 x6 x7 x8 x11 x12 i) (val_main_v133 (F := F) x0 x1 x3 x4 x5 x6 x7 x8 x9 x10 i) := rfl

def val_main_v178 : (⟨S64x8192, .f32⟩ : BufTy).Contents (Elt F) :=
  transpose S64x8192 [1, 0] (val_main_v177 (F := F) x0 x1 x2 x3 x4 x5 x6 x7 x8 x9 x10 x11 x12) transposes_S8192x64_S64x8192_1_0
abbrev idx_main_v178 (i : S64x8192.Idx) : S8192x64.Idx := fun a => match a with
  | ⟨0, _⟩ => ⟨(i 1).val, (i 1).isLt⟩
  | ⟨1, _⟩ => ⟨(i 0).val, (i 0).isLt⟩
theorem val_main_v178_apply (i : S64x8192.Idx) :
    val_main_v178 (F := F) x0 x1 x2 x3 x4 x5 x6 x7 x8 x9 x10 x11 x12 i = val_main_v177 (F := F) x0 x1 x2 x3 x4 x5 x6 x7 x8 x9 x10 x11 x12 (idx_main_v178 i) := by
  unfold val_main_v178
  generalize val_main_v177 (F := F) x0 x1 x2 x3 x4 x5 x6 x7 x8 x9 x10 x11 x12 = y
  exact transpose_apply [1, 0] y transposes_S8192x64_S64x8192_1_0 i (idx_main_v178 i) (fun b => match b with
    | ⟨0, _⟩ => rfl
    | ⟨1, _⟩ => rfl)

def val_main_v179 : (⟨S8192x8192, .f32⟩ : BufTy).Contents (Elt F) :=
  Host.dotGeneral dot_S8192x64_S64x8192_S8192x8192_1_0_0_1_n_n none (val_main_v177 (F := F) x0 x1 x2 x3 x4 x5 x6 x7 x8 x9 x10 x11 x12) (val_main_v178 (F := F) x0 x1 x2 x3 x4 x5 x6 x7 x8 x9 x10 x11 x12)
theorem lhs_main_v179_0 (i : S8192x8192.Idx) (q : dot_S8192x64_S64x8192_S8192x8192_1_0_0_1_n_n.contr.Idx) :
    (dot_S8192x64_S64x8192_S8192x8192_1_0_0_1_n_n.lhsIdx i q 0).val = (i 0).val := by
  unfold DotDims.lhsIdx
  rw [dif_neg (show ¬(0 : Fin S8192x64.rank) ∈ dot_S8192x64_S64x8192_S8192x8192_1_0_0_1_n_n.lhsBatch by decide), dif_pos (show (0 : Fin S8192x64.rank) ∈ dot_S8192x64_S64x8192_S8192x8192_1_0_0_1_n_n.lhsNonContracting by decide)]
  rfl
theorem lhs_main_v179_1 (i : S8192x8192.Idx) (q : dot_S8192x64_S64x8192_S8192x8192_1_0_0_1_n_n.contr.Idx) :
    (dot_S8192x64_S64x8192_S8192x8192_1_0_0_1_n_n.lhsIdx i q 1).val = (q ⟨0, by decide⟩).val :=
  dot_S8192x64_S64x8192_S8192x8192_1_0_0_1_n_n.lhsIdx_val_of_single rfl i q
theorem rhs_main_v179_0 (i : S8192x8192.Idx) (q : dot_S8192x64_S64x8192_S8192x8192_1_0_0_1_n_n.contr.Idx) :
    (dot_S8192x64_S64x8192_S8192x8192_1_0_0_1_n_n.rhsIdx i q 0).val = (q ⟨0, by decide⟩).val :=
  dot_S8192x64_S64x8192_S8192x8192_1_0_0_1_n_n.rhsIdx_val_of_single rfl i q
theorem rhs_main_v179_1 (i : S8192x8192.Idx) (q : dot_S8192x64_S64x8192_S8192x8192_1_0_0_1_n_n.contr.Idx) :
    (dot_S8192x64_S64x8192_S8192x8192_1_0_0_1_n_n.rhsIdx i q 1).val = (i 1).val := by
  unfold DotDims.rhsIdx
  rw [dif_neg (show ¬(1 : Fin S64x8192.rank) ∈ dot_S8192x64_S64x8192_S8192x8192_1_0_0_1_n_n.rhsBatch by decide), dif_pos (show (1 : Fin S64x8192.rank) ∈ dot_S8192x64_S64x8192_S8192x8192_1_0_0_1_n_n.rhsNonContracting by decide)]
  rfl
abbrev lidx_main_v179 (i : S8192x8192.Idx) (k : Fin 64) : S8192x64.Idx := fun a => match a with
  | ⟨0, _⟩ => ⟨(i 0).val, (i 0).isLt⟩
  | ⟨1, _⟩ => ⟨k.val, k.isLt⟩
abbrev ridx_main_v179 (i : S8192x8192.Idx) (k : Fin 64) : S64x8192.Idx := fun a => match a with
  | ⟨0, _⟩ => ⟨k.val, k.isLt⟩
  | ⟨1, _⟩ => ⟨(i 1).val, (i 1).isLt⟩

theorem val_main_v179_apply (x0 : (⟨S8192x256, .f32⟩ : BufTy).Contents (Elt Ideal)) (x1 : (⟨S2x262144, .i32⟩ : BufTy).Contents (Elt Ideal)) (x2 : (⟨S8192x64, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x64, .f32⟩ : BufTy).Contents (Elt Ideal)) (x10 : (⟨S64, .f32⟩ : BufTy).Contents (Elt Ideal)) (x11 : (⟨S256x64, .f32⟩ : BufTy).Contents (Elt Ideal)) (x12 : (⟨S64, .f32⟩ : BufTy).Contents (Elt Ideal)) (i : S8192x8192.Idx) :
    val_main_v179 (F := Ideal) x0 x1 x2 x3 x4 x5 x6 x7 x8 x9 x10 x11 x12 i = ∑ k : Fin 64, (val_main_v177 (F := Ideal) x0 x1 x2 x3 x4 x5 x6 x7 x8 x9 x10 x11 x12) (lidx_main_v179 i k) * (val_main_v178 (F := Ideal) x0 x1 x2 x3 x4 x5 x6 x7 x8 x9 x10 x11 x12) (ridx_main_v179 i k) := by
  unfold val_main_v179
  generalize val_main_v177 (F := Ideal) x0 x1 x2 x3 x4 x5 x6 x7 x8 x9 x10 x11 x12 = y0
  generalize val_main_v178 (F := Ideal) x0 x1 x2 x3 x4 x5 x6 x7 x8 x9 x10 x11 x12 = y1
  simp only [Host.dotGeneral]
  rw [Ideal.dotGeneral_apply, ← Equiv.sum_comp (ValueIdx.contrEquiv1 dot_S8192x64_S64x8192_S8192x8192_1_0_0_1_n_n 64 rfl rfl).symm]
  refine Finset.sum_congr rfl fun k _ => ?_
  have hk := ValueIdx.contrEquiv1_symm_val dot_S8192x64_S64x8192_S8192x8192_1_0_0_1_n_n 64 rfl rfl k
  have el : dot_S8192x64_S64x8192_S8192x8192_1_0_0_1_n_n.lhsIdx i ((ValueIdx.contrEquiv1 dot_S8192x64_S64x8192_S8192x8192_1_0_0_1_n_n 64 rfl rfl).symm k) = lidx_main_v179 i k := funext fun a => Fin.ext (by
    match a with
    | ⟨0, _⟩ => exact lhs_main_v179_0 _ _
    | ⟨1, _⟩ => exact (lhs_main_v179_1 _ _).trans hk)
  have er : dot_S8192x64_S64x8192_S8192x8192_1_0_0_1_n_n.rhsIdx i ((ValueIdx.contrEquiv1 dot_S8192x64_S64x8192_S8192x8192_1_0_0_1_n_n 64 rfl rfl).symm k) = ridx_main_v179 i k := funext fun a => Fin.ext (by
    match a with
    | ⟨0, _⟩ => exact (rhs_main_v179_0 _ _).trans hk
    | ⟨1, _⟩ => exact rhs_main_v179_1 _ _)
  rw [el, er]

def val_main_v180 : (⟨S8192x8192, .f32⟩ : BufTy).Contents (Elt F) :=
  Host.negf (val_main_v179 (F := F) x0 x1 x2 x3 x4 x5 x6 x7 x8 x9 x10 x11 x12)
theorem val_main_v180_apply (i : S8192x8192.Idx) :
    val_main_v180 (F := F) x0 x1 x2 x3 x4 x5 x6 x7 x8 x9 x10 x11 x12 i = FloatOps.hostNegf (val_main_v179 (F := F) x0 x1 x2 x3 x4 x5 x6 x7 x8 x9 x10 x11 x12 i) := rfl

def val_main_v181 : (⟨S8192x8192, .f32⟩ : BufTy).Contents (Elt F) :=
  Host.exp (val_main_v180 (F := F) x0 x1 x2 x3 x4 x5 x6 x7 x8 x9 x10 x11 x12)
theorem val_main_v181_apply (i : S8192x8192.Idx) :
    val_main_v181 (F := F) x0 x1 x2 x3 x4 x5 x6 x7 x8 x9 x10 x11 x12 i = FloatOps.hostUnary .exp (val_main_v180 (F := F) x0 x1 x2 x3 x4 x5 x6 x7 x8 x9 x10 x11 x12 i) := rfl

def val_main_cst_42 : (⟨S_, .f32⟩ : BufTy).Contents (Elt F) :=
  constant S_ .f32 0x3F800000#32
theorem val_main_cst_42_apply (i : S_.Idx) :
    val_main_cst_42 (F := F) i = FloatOps.ofBits .f32 0x3F800000#32 := rfl

def val_main_v182 : (⟨S8192x8192, .f32⟩ : BufTy).Contents (Elt F) :=
  broadcastInDim S8192x8192 ![] bcast_S_S8192x8192 (val_main_cst_42 (F := F))
abbrev idx_main_v182 (i : S8192x8192.Idx) : S_.Idx := fun a => a.elim0
theorem val_main_v182_apply (i : S8192x8192.Idx) :
    val_main_v182 (F := F) i = val_main_cst_42 (F := F) (idx_main_v182 i) := by
  unfold val_main_v182
  generalize val_main_cst_42 (F := F) = y
  exact broadcastInDim_apply _ bcast_S_S8192x8192 y i (idx_main_v182 i) (fun a => a.elim0)

def val_main_v183 : (⟨S8192x8192, .f32⟩ : BufTy).Contents (Elt F) :=
  addf (val_main_v182 (F := F)) (val_main_v181 (F := F) x0 x1 x2 x3 x4 x5 x6 x7 x8 x9 x10 x11 x12)
theorem val_main_v183_apply (i : S8192x8192.Idx) :
    val_main_v183 (F := F) x0 x1 x2 x3 x4 x5 x6 x7 x8 x9 x10 x11 x12 i = FloatOps.addf (val_main_v182 (F := F) i) (val_main_v181 (F := F) x0 x1 x2 x3 x4 x5 x6 x7 x8 x9 x10 x11 x12 i) := rfl

def val_main_cst_43 : (⟨S_, .f32⟩ : BufTy).Contents (Elt F) :=
  constant S_ .f32 0x3F800000#32
theorem val_main_cst_43_apply (i : S_.Idx) :
    val_main_cst_43 (F := F) i = FloatOps.ofBits .f32 0x3F800000#32 := rfl

def val_main_v184 : (⟨S8192x8192, .f32⟩ : BufTy).Contents (Elt F) :=
  broadcastInDim S8192x8192 ![] bcast_S_S8192x8192 (val_main_cst_43 (F := F))
abbrev idx_main_v184 (i : S8192x8192.Idx) : S_.Idx := fun a => a.elim0
theorem val_main_v184_apply (i : S8192x8192.Idx) :
    val_main_v184 (F := F) i = val_main_cst_43 (F := F) (idx_main_v184 i) := by
  unfold val_main_v184
  generalize val_main_cst_43 (F := F) = y
  exact broadcastInDim_apply _ bcast_S_S8192x8192 y i (idx_main_v184 i) (fun a => a.elim0)

def val_main_v185 : (⟨S8192x8192, .f32⟩ : BufTy).Contents (Elt F) :=
  Host.divf (val_main_v184 (F := F)) (val_main_v183 (F := F) x0 x1 x2 x3 x4 x5 x6 x7 x8 x9 x10 x11 x12)
theorem val_main_v185_apply (i : S8192x8192.Idx) :
    val_main_v185 (F := F) x0 x1 x2 x3 x4 x5 x6 x7 x8 x9 x10 x11 x12 i = FloatOps.hostDivf (val_main_v184 (F := F) i) (val_main_v183 (F := F) x0 x1 x2 x3 x4 x5 x6 x7 x8 x9 x10 x11 x12 i) := rfl

def val_main_call8_v0 : (⟨S8192x8192, .i32⟩ : BufTy).Contents (Elt F) :=
  iotaInDim S8192x8192 32 0
theorem val_main_call8_v0_apply (i : S8192x8192.Idx) :
    val_main_call8_v0 (F := F) i = BitVec.ofNat 32 (i 0).val := rfl

def val_main_call8_c : (⟨S_, .i32⟩ : BufTy).Contents (Elt F) :=
  constantI S_ 32 0#32
theorem val_main_call8_c_apply (i : S_.Idx) :
    val_main_call8_c (F := F) i = 0#32 := rfl

def val_main_call8_v1 : (⟨S8192x8192, .i32⟩ : BufTy).Contents (Elt F) :=
  broadcastInDim S8192x8192 ![] bcast_S_S8192x8192 (val_main_call8_c (F := F))
abbrev idx_main_call8_v1 (i : S8192x8192.Idx) : S_.Idx := fun a => a.elim0
theorem val_main_call8_v1_apply (i : S8192x8192.Idx) :
    val_main_call8_v1 (F := F) i = val_main_call8_c (F := F) (idx_main_call8_v1 i) := by
  unfold val_main_call8_v1
  generalize val_main_call8_c (F := F) = y
  exact broadcastInDim_apply _ bcast_S_S8192x8192 y i (idx_main_call8_v1 i) (fun a => a.elim0)

def val_main_call8_v2 : (⟨S8192x8192, .i32⟩ : BufTy).Contents (Elt F) :=
  addi (val_main_call8_v0 (F := F)) (val_main_call8_v1 (F := F))
theorem val_main_call8_v2_apply (i : S8192x8192.Idx) :
    val_main_call8_v2 (F := F) i = IntOp.addi (val_main_call8_v0 (F := F) i) (val_main_call8_v1 (F := F) i) := rfl

def val_main_call8_v3 : (⟨S8192x8192, .i32⟩ : BufTy).Contents (Elt F) :=
  iotaInDim S8192x8192 32 1
theorem val_main_call8_v3_apply (i : S8192x8192.Idx) :
    val_main_call8_v3 (F := F) i = BitVec.ofNat 32 (i 1).val := rfl

def val_main_call8_v4 : (⟨S8192x8192, .i1⟩ : BufTy).Contents (Elt F) :=
  cmpi .sge (val_main_call8_v2 (F := F)) (val_main_call8_v3 (F := F))
theorem val_main_call8_v4_apply (i : S8192x8192.Idx) :
    val_main_call8_v4 (F := F) i = IntOp.cmpi .sge (val_main_call8_v2 (F := F) i) (val_main_call8_v3 (F := F) i) := rfl

def val_main_call8_cst : (⟨S_, .f32⟩ : BufTy).Contents (Elt F) :=
  constant S_ .f32 0x00000000#32
theorem val_main_call8_cst_apply (i : S_.Idx) :
    val_main_call8_cst (F := F) i = FloatOps.ofBits .f32 0x00000000#32 := rfl

def val_main_call8_v5 : (⟨S8192x8192, .f32⟩ : BufTy).Contents (Elt F) :=
  broadcastInDim S8192x8192 ![] bcast_S_S8192x8192 (val_main_call8_cst (F := F))
abbrev idx_main_call8_v5 (i : S8192x8192.Idx) : S_.Idx := fun a => a.elim0
theorem val_main_call8_v5_apply (i : S8192x8192.Idx) :
    val_main_call8_v5 (F := F) i = val_main_call8_cst (F := F) (idx_main_call8_v5 i) := by
  unfold val_main_call8_v5
  generalize val_main_call8_cst (F := F) = y
  exact broadcastInDim_apply _ bcast_S_S8192x8192 y i (idx_main_call8_v5 i) (fun a => a.elim0)

def val_main_v186 : (⟨S8192x8192, .f32⟩ : BufTy).Contents (Elt F) :=
  select (val_main_call8_v4 (F := F)) (val_main_call8_v5 (F := F)) (val_main_v185 (F := F) x0 x1 x2 x3 x4 x5 x6 x7 x8 x9 x10 x11 x12)
theorem val_main_v186_apply (i : S8192x8192.Idx) :
    val_main_v186 (F := F) x0 x1 x2 x3 x4 x5 x6 x7 x8 x9 x10 x11 x12 i = Scalar.select (val_main_call8_v4 (F := F) i) (val_main_call8_v5 (F := F) i) (val_main_v185 (F := F) x0 x1 x2 x3 x4 x5 x6 x7 x8 x9 x10 x11 x12 i) := rfl

-- The reference's run: every weakly fair execution ends with the result at the last operation's value of the inputs, the inputs unchanged.
open Cert.ReferenceIdeal.ValueP in
set_option maxRecDepth 8192 in
set_option maxHeartbeats 102800000 in

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v186) = val_main_v186 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v186).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl)⟩)
    (run_seq scopedRefs_eq scopedSems_eq defs main (fun _ => ops) main_eq (fun _ => ops_sub) m ρ)

end Cert.ReferenceIdeal.ReadP

end
-- ==== Proof.RefStage.lean ====
import proofs.«407141_j11613591568667_1_alg».proof.Proof.Spec
import proofs.«407141_j11613591568667_1_alg».proof.Proof.Forms
import proofs.«407141_j11613591568667_1_alg».proof.Proof.EdgeIdx
import proofs.«407141_j11613591568667_1_alg».proof.Proof.LibGatherScatter
import Idealize.ShloMosaic.Lib.Pipeline.Value
import Idealize.ShloMosaic.Lib.IdealHost
import Idealize.ShloMosaic.Lib.Affine

noncomputable section

open scoped BigOperators

namespace Cert.Gcn.Stage

open Idealize.ShloMosaic Idealize.ShloMosaic.ValueIdx Cert.Gcn

theorem idx1_eq {n : Nat} (f : (⟨1, ![n]⟩ : Shape).Idx) (e : Fin n) (h : (f 0).val = e.val) : f = ix1 e := by
  funext a
  match a with
  | ⟨0, _⟩ => exact Fin.ext h

theorem idx2_eq {n0 n1 : Nat} (f : (⟨2, ![n0, n1]⟩ : Shape).Idx) (p : Fin n0) (q : Fin n1)
    (h0 : (f 0).val = p.val) (h1 : (f 1).val = q.val) : f = ix2 p q := by
  funext a
  match a with
  | ⟨0, _⟩ => exact Fin.ext h0
  | ⟨1, _⟩ => exact Fin.ext h1

theorem toInt_eq_iff_nodeOf {w : BitVec 32} (h0 : 0 ≤ w.toInt) (h1 : w.toInt < 8192) (i : Fin 8192) :
    w.toInt = (i.val : ℤ) ↔ nodeOf w = i := by
  have hv := nodeOf_val h0 h1
  constructor
  · intro h; apply Fin.ext; omega
  · rintro rfl; exact hv.symm

theorem toInt_eq_iff_nodeOf_val {w : BitVec 32} (h0 : 0 ≤ w.toInt) (h1 : w.toInt < 8192) (i : Fin 8192) :
    w.toInt = (i.val : ℤ) ↔ (nodeOf w).val = i.val := by
  rw [toInt_eq_iff_nodeOf h0 h1 i, Fin.ext_iff]

theorem wrap_eq {w : BitVec 32} (h0 : 0 ≤ w.toInt) :
    Scalar.select (IntOp.cmpi .slt w 0#32) (IntOp.addi w 8192#32) w = w := by
  have hz : (0#32 : BitVec 32).toInt = 0 := by decide
  have hc : ¬ IntOp.cmpi .slt w 0#32 = 1#1 := by rw [IntOp.cmpi_slt, hz]; omega
  rw [eq_zero_of_ne_one hc, select_zero]

theorem concat_apply {α : Type}
    (h : Shape.Concatenates [(⟨1, ![262144]⟩ : Shape), (⟨1, ![8192]⟩ : Shape)] (⟨1, ![270336]⟩ : Shape) 0)
    (a : (⟨1, ![262144]⟩ : Shape).Idx → α) (b : (⟨1, ![8192]⟩ : Shape).Idx → α) (e : Fin 270336) :
    concatenate (⟨1, ![270336]⟩ : Shape) 0 [⟨(⟨1, ![262144]⟩ : Shape), a⟩, ⟨(⟨1, ![8192]⟩ : Shape), b⟩] h (ix1 e)
      = if hlt : e.val < 262144 then a (ix1 ⟨e.val, hlt⟩)
        else b (ix1 ⟨e.val - 262144, by have := e.isLt; omega⟩) := by
  split
  · rename_i hlt
    refine concatenate_pair_apply_left 0 a b h (ix1 e) rfl (ix1 ⟨e.val, hlt⟩) (fun k => ?_)
    have hk : k = 0 := Subsingleton.elim _ _
    subst hk
    rfl
  · rename_i hge
    refine concatenate_pair_apply_right 0 a b h (ix1 e) rfl rfl (ix1 ⟨e.val - 262144, by have := e.isLt; omega⟩)
      (fun k hk => absurd (Subsingleton.elim _ _) hk) ?_
    show (e.val - 262144) + 262144 = e.val
    omega

theorem deg_stage (d : ScatterDims (⟨1, ![8192]⟩ : Shape) (Sh 270336 1) (⟨1, ![270336]⟩ : Shape))
    (hiw : d.insertedWindowDims = [0]) (hsd : d.scatterDimsToOperandDims = [0]) (hivd : d.indexVectorDim = 1)
    {ei : EdgeWords} (hin : InRange ei)
    (z : (⟨1, ![8192]⟩ : Shape).Idx → EReal) (idx : IVec (Sh 270336 1) 32) (o : (⟨1, ![270336]⟩ : Shape).Idx → EReal)
    (hz : ∀ i, z i = 0) (hidx : ∀ e : Fin 270336, idx (ix2 e 0) = wordOf ei 1 e) (ho : ∀ e, o e = 1) (i : Fin 8192) :
    Host.scatterAdd (F := Ideal) (φ := .f32) d z idx o (ix1 i) = deg (dstOf ei) i := by
  show Ideal.hostScatterAdd d z idx o (ix1 i) = _
  rw [Cert.LibGS.scatterAdd_vec_gen d hiw hsd hivd, hz, zero_add]
  unfold deg
  refine Finset.sum_congr ?_ (fun e _ => ho _)
  ext e
  simp only [Finset.mem_filter, Finset.mem_univ, true_and]
  rw [hidx e]
  exact toInt_eq_iff_nodeOf (wordOf_inRange hin 1 e).1 (wordOf_inRange hin 1 e).2 i

theorem dinv_word (x : EReal) :
    Scalar.select (Ideal.cmp .ogt x 0) (Ideal.rsqrt x) 0 = if 0 < x then Ideal.rsqrt x else 0 := by
  by_cases h : 0 < x
  · have hc : Ideal.cmp .ogt x 0 = 1#1 := by unfold Ideal.cmp; simp [h]
    rw [if_pos h, hc, select_one]
  · have hc : Ideal.cmp .ogt x 0 = 0#1 := by unfold Ideal.cmp; simp [h]
    rw [if_neg h, hc, select_zero]

theorem gather_node {α : Type} (d : GatherDims (⟨1, ![8192]⟩ : Shape) (Sh 270336 1) (⟨1, ![270336]⟩ : Shape))
    (hcoll : d.collapsedSliceDims = [0]) (hob : d.operandBatchingDims = [])
    (hsim : d.startIndexMap = [0]) (hivd : d.indexVectorDim = 1)
    (t : (⟨1, ![8192]⟩ : Shape).Idx → α) (idx : IVec (Sh 270336 1) 32) (e : Fin 270336) :
    Host.gather d t idx (ix1 e) = t (ix1 (nodeOf (idx (ix2 e 0)))) :=
  Cert.LibGS.gather_vec_gen (by decide) d hcoll hob hsim hivd t idx e

theorem gather_rows_node {α : Type} {C : Nat} (d : GatherDims (Sh 8192 C) (Sh 270336 1) (Sh 270336 C))
    (hoff : d.offsetDims = [1]) (hcoll : d.collapsedSliceDims = [0]) (hob : d.operandBatchingDims = [])
    (hsim : d.startIndexMap = [0]) (hivd : d.indexVectorDim = 1) (hss : d.sliceSizes = ![1, C])
    (t : (Sh 8192 C).Idx → α) (idx : IVec (Sh 270336 1) 32) (e : Fin 270336) (c : Fin C) :
    Host.gather d t idx (ix2 e c) = t (ix2 (nodeOf (idx (ix2 e 0))) c) :=
  Cert.LibGS.gather_rows_gen d (by decide) hoff hcoll hob hsim hivd hss t idx e c

theorem scatter_rows_stage {C : Nat} (d : ScatterDims (Sh 8192 C) (Sh 270336 1) (Sh 270336 C))
    (huw : d.updateWindowDims = [1]) (hiw : d.insertedWindowDims = [0])
    (hsd : d.scatterDimsToOperandDims = [0]) (hivd : d.indexVectorDim = 1)
    {ei : EdgeWords} (hin : InRange ei)
    (z : RArr 8192 C) (idx : IVec (Sh 270336 1) 32) (u : RArr 270336 C)
    (hz : ∀ j, z j = 0) (hidx : ∀ e : Fin 270336, idx (ix2 e 0) = wordOf ei 1 e) (i : Fin 8192) (c : Fin C) :
    Host.scatterAdd (F := Ideal) (φ := .f32) d z idx u (ix2 i c)
      = ∑ e ∈ Finset.univ.filter (fun e : Fin 270336 => (dstOf ei e).val = i.val), u (ix2 e c) := by
  show Ideal.hostScatterAdd d z idx u (ix2 i c) = _
  rw [Cert.LibGS.scatterAdd_rows_gen d huw hiw hsd hivd, hz, zero_add]
  refine Finset.sum_congr ?_ (fun _ _ => rfl)
  ext e
  simp only [Finset.mem_filter, Finset.mem_univ, true_and]
  rw [hidx e]
  exact toInt_eq_iff_nodeOf_val (wordOf_inRange hin 1 e).1 (wordOf_inRange hin 1 e).2 i

end Cert.Gcn.Stage

end
-- ==== Proof.RefWords.lean ====
import proofs.«407141_j11613591568667_1_alg».proof.Proof.RefRead
import proofs.«407141_j11613591568667_1_alg».proof.Proof.RefStage

noncomputable section

open scoped BigOperators

namespace Cert.ReferenceIdeal.RefValue

open Cert.ReferenceIdeal Cert.ReferenceIdeal.ReadP Cert.Gcn Cert.Gcn.Stage Idealize.ShloMosaic Idealize.ShloMosaic.ValueIdx

theorem v3_word (x1 : (⟨S2x262144, .i32⟩ : BufTy).Contents (Elt Ideal)) (e : Fin 270336) :
    val_main_v3 (F := Ideal) x1 (ix1 e) = wordOf x1 0 e := by
  unfold val_main_v3 wordOf
  refine (concat_apply _ _ _ e).trans ?_
  by_cases hlt : e.val < 262144
  · rw [dif_pos hlt, dif_pos hlt, val_main_v2_apply, val_main_v1_apply]
    refine congrArg x1 (idx2_eq _ 0 ⟨e.val, hlt⟩ rfl ?_)
    exact Nat.mod_eq_of_lt hlt
  · rw [dif_neg hlt, dif_neg hlt, val_main_v0_apply]

theorem v6_word (x1 : (⟨S2x262144, .i32⟩ : BufTy).Contents (Elt Ideal)) (e : Fin 270336) :
    val_main_v6 (F := Ideal) x1 (ix1 e) = wordOf x1 1 e := by
  unfold val_main_v6 wordOf
  refine (concat_apply _ _ _ e).trans ?_
  by_cases hlt : e.val < 262144
  · rw [dif_pos hlt, dif_pos hlt, val_main_v5_apply, val_main_v4_apply]
    refine congrArg x1 (idx2_eq _ 1 ⟨e.val, hlt⟩ rfl ?_)
    exact Nat.mod_eq_of_lt hlt
  · rw [dif_neg hlt, dif_neg hlt, val_main_v0_apply]

end Cert.ReferenceIdeal.RefValue

end
-- ==== Proof.RefL1.lean ====
import proofs.«407141_j11613591568667_1_alg».proof.Proof.RefRead
import proofs.«407141_j11613591568667_1_alg».proof.Proof.RefStage
import proofs.«407141_j11613591568667_1_alg».proof.Proof.RefWords

noncomputable section

open scoped BigOperators

namespace Cert.ReferenceIdeal.RefValue

open Cert.ReferenceIdeal Cert.ReferenceIdeal.ReadP Cert.Gcn Cert.Gcn.Stage Idealize.ShloMosaic Idealize.ShloMosaic.ValueIdx

section Layer1

variable (x0 : (⟨S8192x256, .f32⟩ : BufTy).Contents (Elt Ideal)) (x1 : (⟨S2x262144, .i32⟩ : BufTy).Contents (Elt Ideal))
  (x3 : (⟨S256x256, .f32⟩ : BufTy).Contents (Elt Ideal)) (x4 : (⟨S256, .f32⟩ : BufTy).Contents (Elt Ideal))
  (x5 : (⟨S256x256, .f32⟩ : BufTy).Contents (Elt Ideal)) (x6 : (⟨S256, .f32⟩ : BufTy).Contents (Elt Ideal))

theorem v14_word (e : Fin 270336) : val_main_v14 (F := Ideal) x1 (ix2 e 0) = wordOf x1 1 e := by
  rw [val_main_v14_apply, idx1_eq (idx_main_v14 (ix2 e 0)) e rfl]
  exact v6_word x1 e

theorem v24_word (hin : InRange x1) (e : Fin 270336) : val_main_v24 (F := Ideal) x1 (ix1 e) = wordOf x1 0 e := by
  rw [val_main_v24_apply, val_main_v21_apply, val_main_v23_apply, val_main_v20_apply, val_main_v22_apply,
    val_main_c_apply, val_main_c_3_apply, v3_word]
  exact wrap_eq (wordOf_inRange hin 0 e).1

theorem v25_word (hin : InRange x1) (e : Fin 270336) : val_main_v25 (F := Ideal) x1 (ix2 e 0) = wordOf x1 0 e := by
  rw [val_main_v25_apply, idx1_eq (idx_main_v25 (ix2 e 0)) e rfl]
  exact v24_word x1 hin e

theorem v31_word (hin : InRange x1) (e : Fin 270336) : val_main_v31 (F := Ideal) x1 (ix1 e) = wordOf x1 1 e := by
  rw [val_main_v31_apply, val_main_v28_apply, val_main_v30_apply, val_main_v27_apply, val_main_v29_apply,
    val_main_c_4_apply, val_main_c_5_apply, v6_word]
  exact wrap_eq (wordOf_inRange hin 1 e).1

theorem v32_word (hin : InRange x1) (e : Fin 270336) : val_main_v32 (F := Ideal) x1 (ix2 e 0) = wordOf x1 1 e := by
  rw [val_main_v32_apply, idx1_eq (idx_main_v32 (ix2 e 0)) e rfl]
  exact v31_word x1 hin e

theorem v39_word (hin : InRange x1) (e : Fin 270336) : val_main_v39 (F := Ideal) x1 (ix1 e) = wordOf x1 0 e := by
  rw [val_main_v39_apply, val_main_v36_apply, val_main_v38_apply, val_main_v35_apply, val_main_v37_apply,
    val_main_c_6_apply, val_main_c_7_apply, v3_word]
  exact wrap_eq (wordOf_inRange hin 0 e).1

theorem v40_word (hin : InRange x1) (e : Fin 270336) : val_main_v40 (F := Ideal) x1 (ix2 e 0) = wordOf x1 0 e := by
  rw [val_main_v40_apply, idx1_eq (idx_main_v40 (ix2 e 0)) e rfl]
  exact v39_word x1 hin e

theorem v46_word (e : Fin 270336) : val_main_v46 (F := Ideal) x1 (ix2 e 0) = wordOf x1 1 e := by
  rw [val_main_v46_apply, idx1_eq (idx_main_v46 (ix2 e 0)) e rfl]
  exact v6_word x1 e

theorem v15_deg (hin : InRange x1) (i : Fin 8192) : val_main_v15 (F := Ideal) x1 (ix1 i) = deg (dstOf x1) i := by
  unfold val_main_v15
  refine deg_stage _ rfl rfl rfl hin _ _ _ (fun i => ?_) (v14_word x1) (fun e => ?_) i
  · rw [val_main_v13_apply, val_main_cst_0_apply]
    exact Ideal.ofBits_zero_f32
  · rw [val_main_v12_apply, val_main_cst_apply]
    exact Ideal.ofBits_one_f32

theorem v19_dinv (hin : InRange x1) (i : Fin 8192) : val_main_v19 (F := Ideal) x1 (ix1 i) = dinv (dstOf x1) i := by
  rw [val_main_v19_apply, val_main_v17_apply, val_main_v18_apply, val_main_v16_apply, val_main_cst_1_apply,
    val_main_call0_v1_apply, val_main_call0_v0_apply, val_main_cst_2_apply, v15_deg x1 hin, Ideal.cmpf_def,
    Ideal.hostUnary_rsqrt_def, Ideal.ofBits_def, Ideal.ofBits_zero_f32]
  exact dinv_word _

theorem v34_nrm (hin : InRange x1) (e : Fin 270336) :
    val_main_v34 (F := Ideal) x1 (ix1 e) = nrm (srcOf x1) (dstOf x1) e := by
  rw [val_main_v34_apply]
  unfold val_main_v26 val_main_v33
  rw [gather_node _ rfl rfl rfl rfl, gather_node _ rfl rfl rfl rfl, v25_word x1 hin, v32_word x1 hin,
    v19_dinv x1 hin, v19_dinv x1 hin]
  rfl

theorem v10_lin : val_main_v10 (F := Ideal) x0 x3 x4 = lin x0 x3 (asRow x4) := by
  funext j
  rw [val_main_v10_apply, val_main_v7_apply, val_main_v9_apply, val_main_v8_apply]
  show (∑ k : Fin 256, x0 (lidx_main_v7 j k) * x3 (ridx_main_v7 j k)) + x4 (idx_main_v8 (idx_main_v9 j))
    = (∑ k : Fin 256, x0 (ix2 (j 0) k) * x3 (ix2 k (j 1))) + x4 (ix1 (j 1))
  congr 1
  · refine Finset.sum_congr rfl fun k _ => ?_
    rw [idx2_eq (lidx_main_v7 j k) (j 0) k rfl rfl, idx2_eq (ridx_main_v7 j k) k (j 1) rfl rfl]
  · rw [idx1_eq (idx_main_v8 (idx_main_v9 j)) (j 1) rfl]

theorem v11_mm : val_main_v11 (F := Ideal) x0 x3 x4 x5 = mm (lin x0 x3 (asRow x4)) x5 := by
  funext j
  rw [val_main_v11_apply, v10_lin]
  show (∑ k : Fin 256, lin x0 x3 (asRow x4) (lidx_main_v11 j k) * x5 (ridx_main_v11 j k))
    = ∑ k : Fin 256, lin x0 x3 (asRow x4) (ix2 (j 0) k) * x5 (ix2 k (j 1))
  refine Finset.sum_congr rfl fun k _ => ?_
  rw [idx2_eq (lidx_main_v11 j k) (j 0) k rfl rfl, idx2_eq (ridx_main_v11 j k) k (j 1) rfl rfl]

theorem v44_msg (hin : InRange x1) (e : Fin 270336) (c : Fin 256) :
    val_main_v44 (F := Ideal) x0 x1 x3 x4 x5 (ix2 e c)
      = mm (lin x0 x3 (asRow x4)) x5 (ix2 (srcOf x1 e) c) * nrm (srcOf x1) (dstOf x1) e := by
  rw [val_main_v44_apply]
  unfold val_main_v41
  rw [gather_rows_node _ rfl rfl rfl rfl rfl rfl, v40_word x1 hin, v11_mm, val_main_v43_apply,
    idx2_eq (idx_main_v43 (ix2 e c)) e 0 rfl rfl, val_main_v42_apply, idx1_eq (idx_main_v42 (ix2 e 0)) e rfl,
    v34_nrm x1 hin]
  rfl

theorem v47_sum (hin : InRange x1) (i : Fin 8192) (c : Fin 256) :
    val_main_v47 (F := Ideal) x0 x1 x3 x4 x5 (ix2 i c)
      = ∑ e ∈ Finset.univ.filter (fun e : Fin 270336 => (dstOf x1 e).val = i.val),
          mm (lin x0 x3 (asRow x4)) x5 (ix2 (srcOf x1 e) c) * nrm (srcOf x1) (dstOf x1) e := by
  unfold val_main_v47
  rw [scatter_rows_stage _ rfl rfl rfl rfl hin _ _ _ (fun j => ?_) (v46_word x1) i c]
  · exact Finset.sum_congr rfl fun e _ => v44_msg x0 x1 x3 x4 x5 hin e c
  · rw [val_main_v45_apply, val_main_cst_8_apply]
    exact Ideal.ofBits_zero_f32

theorem layer1 (hin : InRange x1) :
    val_main_v51 (F := Ideal) x0 x1 x3 x4 x5 x6
      = conv (srcOf x1) (dstOf x1) (nrm (srcOf x1) (dstOf x1)) (mm (lin x0 x3 (asRow x4)) x5) (asRow x6) := by
  funext j
  obtain ⟨i, c, rfl⟩ : ∃ (i : Fin 8192) (c : Fin 256), j = ix2 i c := ⟨j 0, j 1, eq_ix2 j⟩
  rw [val_main_v51_apply, val_main_v50_apply, val_main_call1_v0_apply, val_main_call1_cst_apply, val_main_v49_apply,
    val_main_v48_apply, v47_sum x0 x1 x3 x4 x5 hin, idx1_eq (idx_main_v48 (idx_main_v49 (ix2 i c))) c rfl]
  show max (_ + x6 (ix1 c)) (Ideal.ofBits .f32 0x00000000#32) = max (_ + x6 (ix1 c)) 0
  rw [Ideal.ofBits_zero_f32]

end Layer1

end Cert.ReferenceIdeal.RefValue

end
-- ==== Proof.RefL2.lean ====
import proofs.«407141_j11613591568667_1_alg».proof.Proof.RefRead
import proofs.«407141_j11613591568667_1_alg».proof.Proof.EdgeIdx
import proofs.«407141_j11613591568667_1_alg».proof.Proof.Forms
import Idealize.ShloMosaic.Lib.Pipeline.Value
import Idealize.ShloMosaic.Lib.IdealHost

noncomputable section

open scoped BigOperators

namespace Cert.ReferenceIdeal.RefValue.L2

open Cert.ReferenceIdeal Cert.ReferenceIdeal.Gen Cert.ReferenceIdeal.ReadP Cert.Gcn Idealize.ShloMosaic Idealize.ShloMosaic.ValueIdx

theorem wrap_free (w : BitVec 32) (h0 : 0 ≤ w.toInt) :
    Scalar.select (IntOp.cmpi .slt w 0#32) (IntOp.addi w 8192#32) w = w := by
  have hs : w.slt 0#32 = false := by
    rw [BitVec.slt_eq_decide]
    have : (0#32 : BitVec 32).toInt = 0 := by decide
    rw [this]
    exact decide_eq_false (by omega)
  have hc : IntOp.cmpi .slt w 0#32 = 0#1 := by
    show BitVec.ofBool (w.slt 0#32) = 0#1
    rw [hs]; rfl
  rw [hc]
  exact select_zero _ _

theorem word_eq_iff {x1 : EdgeWords} (hin : InRange x1) (row : Fin 2) (e : Fin 270336) (i : Fin 8192) :
    (wordOf x1 row e).toInt = (i.val : ℤ) ↔ nodeOf (wordOf x1 row e) = i := by
  have h := wordOf_inRange hin row e
  have hv := nodeOf_val h.1 h.2
  constructor
  · intro hw
    apply Fin.ext
    omega
  · intro hn
    rw [← hn]
    exact hv.symm

theorem cat_at (a : S262144.Idx → BitVec 32) (b : S8192.Idx → BitVec 32) (e : Fin 270336) :
    concatenate S270336 0 [⟨S262144, a⟩, ⟨S8192, b⟩] concatenates_S262144_S8192_S270336_d0 (ix1 e)
      = if h : e.val < 262144 then a (ix1 ⟨e.val, h⟩) else b (ix1 ⟨e.val - 262144, by have := e.isLt; omega⟩) := by
  split
  · rename_i h
    exact concatenate_pair_apply_left (0 : Fin 1) a _ concatenates_S262144_S8192_S270336_d0 (ix1 e) rfl (ix1 ⟨e.val, h⟩)
      (fun b => by
        match b with
        | ⟨0, _⟩ => rfl)
  · rename_i h
    have he : e.val - 262144 < 8192 := by have := e.isLt; omega
    exact concatenate_pair_apply_right (0 : Fin 1) a b concatenates_S262144_S8192_S270336_d0 (ix1 e) rfl rfl
      (ix1 ⟨e.val - 262144, he⟩)
      (fun b hb => absurd (Subsingleton.elim (α := Fin 1) _ _) hb)
      (by show e.val - 262144 + 262144 = e.val; omega)

theorem deg_stage {x1 : EdgeWords} (hin : InRange x1)
    (zeros : S8192.Idx → EReal) (hz : ∀ i, zeros i = 0)
    (idx : IVec S270336x1 32) (hidx : ∀ e : Fin 270336, idx (ix2 e 0) = wordOf x1 1 e)
    (ones : S270336.Idx → EReal) (ho : ∀ e, ones e = 1) (i : Fin 8192) :
    Ideal.hostScatterAdd scatter_S8192_S270336x1_S270336_n_0_0_1 zeros idx ones (ix1 i) = deg (dstOf x1) i := by
  rw [Cert.LibGS.scatterAdd_vec_gen scatter_S8192_S270336x1_S270336_n_0_0_1 rfl rfl rfl, hz, zero_add]
  unfold deg
  refine Finset.sum_congr ?_ (fun e _ => ho _)
  ext e
  simp only [Finset.mem_filter, Finset.mem_univ, true_and]
  rw [hidx]
  exact word_eq_iff hin 1 e i

theorem dinv_sel (dg : EReal) :
    Scalar.select (FloatOps.cmpf (F := Ideal) (φ := .f32) .ogt dg (FloatOps.ofBits (F := Ideal) .f32 0x00000000#32))
        (FloatOps.hostUnary (F := Ideal) (φ := .f32) .rsqrt dg) (FloatOps.ofBits (F := Ideal) .f32 0x00000000#32)
      = if 0 < dg then Ideal.rsqrt dg else 0 := by
  rw [Ideal.ofBits_def, Ideal.ofBits_zero_f32]
  show (if BitVec.ofBool (decide ((0 : EReal) < dg)) = 1#1 then Ideal.rsqrt dg else 0) = _
  by_cases h : (0 : EReal) < dg
  · rw [if_pos h, decide_eq_true h]; rfl
  · rw [if_neg h, decide_eq_false h]; rfl

theorem gvec_stage {x1 : EdgeWords} (row : Fin 2)
    (t : S8192.Idx → EReal) (idx : IVec S270336x1 32) (hidx : ∀ e : Fin 270336, idx (ix2 e 0) = wordOf x1 row e)
    (e : Fin 270336) :
    Host.gather gather_S8192_S270336x1_S270336_n_0_n_n_0_1_1 t idx (ix1 e) = t (ix1 (nodeOf (wordOf x1 row e))) := by
  rw [Cert.LibGS.gather_vec_gen (by decide) gather_S8192_S270336x1_S270336_n_0_n_n_0_1_1 rfl rfl rfl rfl, hidx]
  rfl

theorem grows_stage {x1 : EdgeWords} (row : Fin 2)
    (t : S8192x256.Idx → EReal) (idx : IVec S270336x1 32) (hidx : ∀ e : Fin 270336, idx (ix2 e 0) = wordOf x1 row e)
    (e : Fin 270336) (c : Fin 256) :
    Host.gather gather_S8192x256_S270336x1_S270336x256_1_0_n_n_0_1_1256 t idx (ix2 e c) = t (ix2 (nodeOf (wordOf x1 row e)) c) := by
  rw [Cert.LibGS.gather_rows_gen gather_S8192x256_S270336x1_S270336x256_1_0_n_n_0_1_1256 (by decide) rfl rfl rfl rfl rfl rfl, hidx]
  rfl

theorem agg_stage {x1 : EdgeWords} (hin : InRange x1)
    (zeros : S8192x256.Idx → EReal) (hz : ∀ i, zeros i = 0)
    (idx : IVec S270336x1 32) (hidx : ∀ e : Fin 270336, idx (ix2 e 0) = wordOf x1 1 e)
    (u : S270336x256.Idx → EReal) (i : Fin 8192) (c : Fin 256) :
    Ideal.hostScatterAdd scatter_S8192x256_S270336x1_S270336x256_1_0_0_1 zeros idx u (ix2 i c)
      = ∑ e ∈ Finset.univ.filter (fun e : Fin 270336 => (dstOf x1 e).val = i.val), u (ix2 e c) := by
  rw [Cert.LibGS.scatterAdd_rows_gen scatter_S8192x256_S270336x1_S270336x256_1_0_0_1 rfl rfl rfl rfl, hz, zero_add]
  refine Finset.sum_congr ?_ (fun e _ => rfl)
  ext e
  simp only [Finset.mem_filter, Finset.mem_univ, true_and]
  rw [hidx, word_eq_iff hin 1 e i, Fin.ext_iff]
  rfl

section Lists

variable (x1 : (⟨S2x262144, .i32⟩ : BufTy).Contents (Elt Ideal))

theorem v3_at (e : Fin 270336) : val_main_v3 (F := Ideal) x1 (ix1 e) = wordOf x1 0 e := by
  unfold val_main_v3
  rw [cat_at]
  unfold wordOf
  split
  · rename_i h
    rw [val_main_v2_apply, val_main_v1_apply]
    refine congrArg x1 (funext fun a => ?_)
    match a with
    | ⟨0, _⟩ => exact Fin.ext rfl
    | ⟨1, _⟩ => exact Fin.ext (Nat.mod_eq_of_lt h)
  · rfl

theorem v6_at (e : Fin 270336) : val_main_v6 (F := Ideal) x1 (ix1 e) = wordOf x1 1 e := by
  unfold val_main_v6
  rw [cat_at]
  unfold wordOf
  split
  · rename_i h
    rw [val_main_v5_apply, val_main_v4_apply]
    refine congrArg x1 (funext fun a => ?_)
    match a with
    | ⟨0, _⟩ => exact Fin.ext rfl
    | ⟨1, _⟩ => exact Fin.ext (Nat.mod_eq_of_lt h)
  · rfl

end Lists

section Columns

variable {x1 : (⟨S2x262144, .i32⟩ : BufTy).Contents (Elt Ideal)} (hin : InRange x1)

theorem col_idx (e : Fin 270336) :
    (fun a => match a with | ⟨0, _⟩ => ⟨((ix2 e (0 : Fin 1) : S270336x1.Idx) 0).val, ((ix2 e (0 : Fin 1) : S270336x1.Idx) 0).isLt⟩ : S270336.Idx)
      = ix1 e :=
  funext fun a => match a with | ⟨0, _⟩ => rfl

theorem v55_at (e : Fin 270336) : val_main_v55 (F := Ideal) x1 (ix2 e 0) = wordOf x1 1 e := by
  rw [val_main_v55_apply]
  exact (congrArg (val_main_v6 (F := Ideal) x1) (col_idx e)).trans (v6_at x1 e)

include hin in

theorem v65_at (e : Fin 270336) : val_main_v65 (F := Ideal) x1 (ix1 e) = wordOf x1 0 e := by
  rw [val_main_v65_apply, val_main_v62_apply, val_main_v64_apply, val_main_v61_apply, val_main_v63_apply,
    val_main_c_13_apply, val_main_c_14_apply, v3_at]
  exact wrap_free _ (wordOf_inRange hin 0 e).1

include hin in
theorem v66_at (e : Fin 270336) : val_main_v66 (F := Ideal) x1 (ix2 e 0) = wordOf x1 0 e := by
  rw [val_main_v66_apply]
  exact (congrArg (val_main_v65 (F := Ideal) x1) (col_idx e)).trans (v65_at hin e)

include hin in

theorem v72_at (e : Fin 270336) : val_main_v72 (F := Ideal) x1 (ix1 e) = wordOf x1 1 e := by
  rw [val_main_v72_apply, val_main_v69_apply, val_main_v71_apply, val_main_v68_apply, val_main_v70_apply,
    val_main_c_15_apply, val_main_c_16_apply, v6_at]
  exact wrap_free _ (wordOf_inRange hin 1 e).1

include hin in
theorem v73_at (e : Fin 270336) : val_main_v73 (F := Ideal) x1 (ix2 e 0) = wordOf x1 1 e := by
  rw [val_main_v73_apply]
  exact (congrArg (val_main_v72 (F := Ideal) x1) (col_idx e)).trans (v72_at hin e)

include hin in
theorem v80_at (e : Fin 270336) : val_main_v80 (F := Ideal) x1 (ix1 e) = wordOf x1 0 e := by
  rw [val_main_v80_apply, val_main_v77_apply, val_main_v79_apply, val_main_v76_apply, val_main_v78_apply,
    val_main_c_17_apply, val_main_c_18_apply, v3_at]
  exact wrap_free _ (wordOf_inRange hin 0 e).1

include hin in
theorem v81_at (e : Fin 270336) : val_main_v81 (F := Ideal) x1 (ix2 e 0) = wordOf x1 0 e := by
  rw [val_main_v81_apply]
  exact (congrArg (val_main_v80 (F := Ideal) x1) (col_idx e)).trans (v80_at hin e)

theorem v87_at (e : Fin 270336) : val_main_v87 (F := Ideal) x1 (ix2 e 0) = wordOf x1 1 e := by
  rw [val_main_v87_apply]
  exact (congrArg (val_main_v6 (F := Ideal) x1) (col_idx e)).trans (v6_at x1 e)

end Columns

section Norm

variable {x1 : (⟨S2x262144, .i32⟩ : BufTy).Contents (Elt Ideal)} (hin : InRange x1)

theorem v53_at (e : S270336.Idx) : val_main_v53 (F := Ideal) e = 1 := by
  rw [val_main_v53_apply, val_main_cst_9_apply, Ideal.ofBits_def, Ideal.ofBits_one_f32]

theorem v54_at (i : S8192.Idx) : val_main_v54 (F := Ideal) i = 0 := by
  rw [val_main_v54_apply, val_main_cst_10_apply, Ideal.ofBits_def, Ideal.ofBits_zero_f32]

include hin in

theorem v56_at (i : Fin 8192) : val_main_v56 (F := Ideal) x1 (ix1 i) = deg (dstOf x1) i := by
  unfold val_main_v56
  exact deg_stage hin _ v54_at _ v55_at _ v53_at i

include hin in

theorem v60_at (i : Fin 8192) : val_main_v60 (F := Ideal) x1 (ix1 i) = dinv (dstOf x1) i := by
  rw [val_main_v60_apply, val_main_v58_apply, val_main_v59_apply, val_main_v57_apply, val_main_cst_11_apply,
    val_main_call2_v1_apply, val_main_call2_v0_apply, val_main_cst_12_apply, v56_at hin]
  exact dinv_sel _

include hin in
theorem v67_at (e : Fin 270336) : val_main_v67 (F := Ideal) x1 (ix1 e) = dinv (dstOf x1) (srcOf x1 e) := by
  unfold val_main_v67
  rw [gvec_stage 0 _ _ (v66_at hin) e]
  exact v60_at hin _

include hin in
theorem v74_at (e : Fin 270336) : val_main_v74 (F := Ideal) x1 (ix1 e) = dinv (dstOf x1) (dstOf x1 e) := by
  unfold val_main_v74
  rw [gvec_stage 1 _ _ (v73_at hin) e]
  exact v60_at hin _

include hin in

theorem v75_at (e : Fin 270336) : val_main_v75 (F := Ideal) x1 (ix1 e) = nrm (srcOf x1) (dstOf x1) e := by
  rw [val_main_v75_apply, v67_at hin, v74_at hin]
  rfl

include hin in

theorem v84_at (e : Fin 270336) (c : Fin 256) : val_main_v84 (F := Ideal) x1 (ix2 e c) = nrm (srcOf x1) (dstOf x1) e := by
  rw [val_main_v84_apply, val_main_v83_apply]
  refine Eq.trans (congrArg (val_main_v75 (F := Ideal) x1) ?_) (v75_at hin e)
  exact funext fun a => match a with | ⟨0, _⟩ => rfl

end Norm

section Layer

variable (x0 : (⟨S8192x256, .f32⟩ : BufTy).Contents (Elt Ideal)) {x1 : (⟨S2x262144, .i32⟩ : BufTy).Contents (Elt Ideal)}
  (x3 : (⟨S256x256, .f32⟩ : BufTy).Contents (Elt Ideal)) (x4 : (⟨S256, .f32⟩ : BufTy).Contents (Elt Ideal))
  (x5 : (⟨S256x256, .f32⟩ : BufTy).Contents (Elt Ideal)) (x6 : (⟨S256, .f32⟩ : BufTy).Contents (Elt Ideal))
  (x7 : (⟨S256x256, .f32⟩ : BufTy).Contents (Elt Ideal)) (x8 : (⟨S256, .f32⟩ : BufTy).Contents (Elt Ideal))
  (hin : InRange x1)

theorem v52_at (i : Fin 8192) (c : Fin 256) :
    val_main_v52 (F := Ideal) x0 x1 x3 x4 x5 x6 x7 (ix2 i c) = mm (val_main_v51 (F := Ideal) x0 x1 x3 x4 x5 x6) x7 (ix2 i c) := by
  rw [val_main_v52_apply]
  generalize val_main_v51 (F := Ideal) x0 x1 x3 x4 x5 x6 = h1
  unfold mm
  refine Finset.sum_congr rfl fun k _ => ?_
  have el : lidx_main_v52 (ix2 i c) k = ix2 i k := funext fun a => match a with | ⟨0, _⟩ => rfl | ⟨1, _⟩ => rfl
  have er : ridx_main_v52 (ix2 i c) k = ix2 k c := funext fun a => match a with | ⟨0, _⟩ => rfl | ⟨1, _⟩ => rfl
  rw [el, er]

include hin in

theorem v85_at (e : Fin 270336) (c : Fin 256) :
    val_main_v85 (F := Ideal) x0 x1 x3 x4 x5 x6 x7 (ix2 e c)
      = mm (val_main_v51 (F := Ideal) x0 x1 x3 x4 x5 x6) x7 (ix2 (srcOf x1 e) c) * nrm (srcOf x1) (dstOf x1) e := by
  rw [val_main_v85_apply, v84_at hin]
  unfold val_main_v82
  rw [grows_stage 0 _ _ (v81_at hin) e c]
  exact congrArg (· * nrm (srcOf x1) (dstOf x1) e) (v52_at x0 x3 x4 x5 x6 x7 _ c)

theorem v86_at (i : S8192x256.Idx) : val_main_v86 (F := Ideal) i = 0 := by
  rw [val_main_v86_apply, val_main_cst_19_apply, Ideal.ofBits_def, Ideal.ofBits_zero_f32]

include hin in

theorem v88_at (i : Fin 8192) (c : Fin 256) :
    val_main_v88 (F := Ideal) x0 x1 x3 x4 x5 x6 x7 (ix2 i c)
      = ∑ e ∈ Finset.univ.filter (fun e : Fin 270336 => (dstOf x1 e).val = i.val),
          mm (val_main_v51 (F := Ideal) x0 x1 x3 x4 x5 x6) x7 (ix2 (srcOf x1 e) c) * nrm (srcOf x1) (dstOf x1) e := by
  unfold val_main_v88
  refine (agg_stage hin _ v86_at _ v87_at _ i c).trans ?_
  exact Finset.sum_congr rfl fun e _ => v85_at x0 x3 x4 x5 x6 x7 hin e c

theorem v90_at (i : Fin 8192) (c : Fin 256) : val_main_v90 (F := Ideal) x8 (ix2 i c) = asRow x8 (ix2 0 c) := by
  rw [val_main_v90_apply, val_main_v89_apply]
  unfold asRow
  exact congrArg x8 (funext fun a => match a with | ⟨0, _⟩ => rfl)

end Layer

end Cert.ReferenceIdeal.RefValue.L2

namespace Cert.ReferenceIdeal.RefValue

open Cert.ReferenceIdeal Cert.ReferenceIdeal.Gen Cert.ReferenceIdeal.ReadP Cert.Gcn Idealize.ShloMosaic Idealize.ShloMosaic.ValueIdx

theorem layer2 (x0 : (⟨S8192x256, .f32⟩ : BufTy).Contents (Elt Ideal)) (x1 : (⟨S2x262144, .i32⟩ : BufTy).Contents (Elt Ideal))
    (x3 : (⟨S256x256, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (hin : InRange x1) :
    val_main_v92 (F := Ideal) x0 x1 x3 x4 x5 x6 x7 x8
      = conv (srcOf x1) (dstOf x1) (nrm (srcOf x1) (dstOf x1)) (mm (val_main_v51 (F := Ideal) x0 x1 x3 x4 x5 x6) x7) (asRow x8) := by
  funext j
  obtain ⟨i, c, rfl⟩ : ∃ (i : Fin 8192) (c : Fin 256), j = ix2 i c := ⟨j 0, j 1, eq_ix2 j⟩
  rw [val_main_v92_apply, val_main_v91_apply, val_main_call3_v0_apply, val_main_call3_cst_apply,
    L2.v88_at x0 x3 x4 x5 x6 x7 hin, L2.v90_at x8, Ideal.ofBits_def, Ideal.ofBits_zero_f32]
  rfl

end Cert.ReferenceIdeal.RefValue

end
-- ==== Proof.RefL3.lean ====
import proofs.«407141_j11613591568667_1_alg».proof.Proof.RefRead
import proofs.«407141_j11613591568667_1_alg».proof.Proof.EdgeIdx
import proofs.«407141_j11613591568667_1_alg».proof.Proof.Forms
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefValue.L3

open Idealize.ShloMosaic Idealize.ShloMosaic.ValueIdx Cert.Gcn

theorem wrap_id (w : BitVec 32) (h0 : 0 ≤ w.toInt) :
    Scalar.select (IntOp.cmpi .slt w 0#32) (IntOp.addi w 8192#32) w = w := by
  unfold Scalar.select
  rw [if_neg]
  intro h
  have h' : BitVec.ofBool (w.slt 0#32) = 1#1 := h
  rw [StableHlo.Predicate.ofBool_eq_one_iff] at h'
  simp only [BitVec.slt, decide_eq_true_eq] at h'
  have : (0#32 : BitVec 32).toInt = 0 := by decide
  omega

theorem dst_iff {x1 : EdgeWords} (hin : InRange x1) (e : Fin 270336) (i : Fin 8192) :
    (wordOf x1 1 e).toInt = (i.val : ℤ) ↔ dstOf x1 e = i := by
  have hr := wordOf_inRange hin 1 e
  have hv : ((dstOf x1 e).val : ℤ) = (wordOf x1 1 e).toInt := nodeOf_val hr.1 hr.2
  constructor
  · intro h
    exact Fin.ext (by have := hv.trans h; exact_mod_cast this)
  · intro h
    rw [← hv, h]

theorem concat_words (h : Shape.Concatenates [(⟨1, ![262144]⟩ : Shape), ⟨1, ![8192]⟩] ⟨1, ![270336]⟩ 0)
    (a : (⟨1, ![262144]⟩ : Shape).Idx → BitVec 32) (b : (⟨1, ![8192]⟩ : Shape).Idx → BitVec 32) (e : Fin 270336) :
    concatenate (⟨1, ![270336]⟩ : Shape) 0 [⟨⟨1, ![262144]⟩, a⟩, ⟨⟨1, ![8192]⟩, b⟩] h (ix1 e)
      = if h' : e.val < 262144 then a (ix1 ⟨e.val, h'⟩) else b (ix1 ⟨e.val - 262144, by have := e.isLt; omega⟩) := by
  split
  · rename_i h'
    exact concatenate_pair_apply_left (0 : Fin 1) a b h (ix1 e) rfl (ix1 ⟨e.val, h'⟩)
      (fun b => match b with | ⟨0, _⟩ => rfl)
  · rename_i h'
    refine concatenate_pair_apply_right (0 : Fin 1) a b h (ix1 e) rfl rfl (ix1 ⟨e.val - 262144, by have := e.isLt; omega⟩)
      (fun b hb => match b, hb with | ⟨0, _⟩, hb => absurd rfl hb) ?_
    show (e.val - 262144) + 262144 = e.val
    omega

theorem deg_scatter (d : ScatterDims (⟨1, ![8192]⟩ : Shape) (Sh 270336 1) ⟨1, ![270336]⟩)
    (hiw : d.insertedWindowDims = [0]) (hsd : d.scatterDimsToOperandDims = [0]) (hivd : d.indexVectorDim = 1)
    {x1 : EdgeWords} (hin : InRange x1)
    (z : (⟨1, ![8192]⟩ : Shape).Idx → EReal) (hz : ∀ i, z i = 0)
    (idx : IVec (Sh 270336 1) 32) (hidx : ∀ e : Fin 270336, idx (ix2 e 0) = wordOf x1 1 e)
    (u : (⟨1, ![270336]⟩ : Shape).Idx → EReal) (hu : ∀ e, u e = 1) (i : Fin 8192) :
    Ideal.hostScatterAdd d z idx u (ix1 i) = deg (dstOf x1) i := by
  rw [Cert.LibGS.scatterAdd_vec_gen d hiw hsd hivd, hz, zero_add]
  unfold deg
  refine Finset.sum_congr (Finset.filter_congr fun e _ => ?_) (fun e _ => hu _)
  rw [hidx]
  exact dst_iff hin e i

theorem dinv_select (x : EReal) :
    Scalar.select (FloatOps.cmpf (F := Ideal) (φ := .f32) .ogt x (0 : EReal)) (Ideal.rsqrt x) (0 : EReal)
      = if 0 < x then Ideal.rsqrt x else 0 := by
  unfold Scalar.select
  by_cases h : 0 < x
  · rw [if_pos h, if_pos]
    show BitVec.ofBool (decide (0 < x)) = 1#1
    rw [StableHlo.Predicate.ofBool_eq_one_iff]
    exact decide_eq_true h
  · rw [if_neg h, if_neg]
    show ¬ BitVec.ofBool (decide (0 < x)) = 1#1
    rw [StableHlo.Predicate.ofBool_eq_one_iff]
    simpa using h

theorem f32_zero : FloatOps.ofBits (F := Ideal) .f32 0x00000000#32 = (0 : EReal) := Ideal.ofBits_zero_f32

theorem f32_one : FloatOps.ofBits (F := Ideal) .f32 0x3F800000#32 = (1 : EReal) := Ideal.ofBits_one_f32

theorem rows_scatter {C : Nat} (d : ScatterDims (Sh 8192 C) (Sh 270336 1) (Sh 270336 C))
    (huw : d.updateWindowDims = [1]) (hiw : d.insertedWindowDims = [0])
    (hsd : d.scatterDimsToOperandDims = [0]) (hivd : d.indexVectorDim = 1)
    {x1 : EdgeWords} (hin : InRange x1)
    (z : RArr 8192 C) (hz : ∀ i, z i = 0)
    (idx : IVec (Sh 270336 1) 32) (hidx : ∀ e : Fin 270336, idx (ix2 e 0) = wordOf x1 1 e)
    (u : RArr 270336 C) (i : Fin 8192) (c : Fin C) :
    Ideal.hostScatterAdd d z idx u (ix2 i c)
      = ∑ e ∈ Finset.univ.filter (fun e : Fin 270336 => (dstOf x1 e).val = i.val), u (ix2 e c) := by
  rw [Cert.LibGS.scatterAdd_rows_gen d huw hiw hsd hivd, hz, zero_add]
  refine Finset.sum_congr (Finset.filter_congr fun e _ => ?_) (fun _ _ => rfl)
  rw [hidx, dst_iff hin e i, Fin.ext_iff]

open Cert.ReferenceIdeal Cert.ReferenceIdeal.ReadP

section Stages

variable (x1 : (⟨S2x262144, .i32⟩ : BufTy).Contents (Elt Ideal))

theorem v3_at (e : Fin 270336) : val_main_v3 (F := Ideal) x1 (ix1 e) = wordOf x1 0 e := by
  unfold val_main_v3
  rw [concat_words]
  unfold wordOf
  split
  · rename_i h
    rw [val_main_v2_apply, val_main_v1_apply]
    exact congrArg x1 (funext fun a => match a with
      | ⟨0, _⟩ => Fin.ext rfl
      | ⟨1, _⟩ => Fin.ext (Nat.mod_eq_of_lt h))
  · rfl

theorem v6_at (e : Fin 270336) : val_main_v6 (F := Ideal) x1 (ix1 e) = wordOf x1 1 e := by
  unfold val_main_v6
  rw [concat_words]
  unfold wordOf
  split
  · rename_i h
    rw [val_main_v5_apply, val_main_v4_apply]
    exact congrArg x1 (funext fun a => match a with
      | ⟨0, _⟩ => Fin.ext rfl
      | ⟨1, _⟩ => Fin.ext (Nat.mod_eq_of_lt h))
  · rfl

theorem v96_at (e : Fin 270336) : val_main_v96 (F := Ideal) x1 (ix2 e 0) = wordOf x1 1 e := by
  rw [val_main_v96_apply, ← v6_at]
  exact congrArg _ (funext fun a => match a with | ⟨0, _⟩ => rfl)

theorem v97_eq : val_main_v97 (F := Ideal) x1
    = Ideal.hostScatterAdd scatter_S8192_S270336x1_S270336_n_0_0_1 (val_main_v95 (F := Ideal)) (val_main_v96 (F := Ideal) x1)
        (val_main_v94 (F := Ideal)) := rfl

theorem v95_at (j : S8192.Idx) : val_main_v95 (F := Ideal) j = 0 := by
  rw [val_main_v95_apply, val_main_cst_21_apply]; exact f32_zero

theorem v94_at (j : S270336.Idx) : val_main_v94 (F := Ideal) j = 1 := by
  rw [val_main_v94_apply, val_main_cst_20_apply]; exact f32_one

theorem scatter_vec_fields : scatter_S8192_S270336x1_S270336_n_0_0_1.insertedWindowDims = [0]
    ∧ scatter_S8192_S270336x1_S270336_n_0_0_1.scatterDimsToOperandDims = [0]
    ∧ scatter_S8192_S270336x1_S270336_n_0_0_1.indexVectorDim = 1 := ⟨rfl, rfl, rfl⟩

theorem v97_at (hin : InRange x1) (i : Fin 8192) : val_main_v97 (F := Ideal) x1 (ix1 i) = deg (dstOf x1) i := by
  rw [v97_eq]
  exact deg_scatter scatter_S8192_S270336x1_S270336_n_0_0_1 scatter_vec_fields.1 scatter_vec_fields.2.1 scatter_vec_fields.2.2
    hin _ v95_at _ (v96_at x1) _ v94_at i

theorem v101_at (hin : InRange x1) (i : Fin 8192) : val_main_v101 (F := Ideal) x1 (ix1 i) = dinv (dstOf x1) i := by
  rw [val_main_v101_apply, val_main_v99_apply, val_main_v100_apply, val_main_v98_apply, val_main_cst_22_apply,
    val_main_call4_v1_apply, val_main_call4_v0_apply, val_main_cst_23_apply, v97_at x1 hin, f32_zero]
  unfold dinv
  generalize deg (dstOf x1) i = x
  exact dinv_select x

theorem v106_at (hin : InRange x1) (e : Fin 270336) : val_main_v106 (F := Ideal) x1 (ix1 e) = wordOf x1 0 e := by
  rw [val_main_v106_apply, val_main_v103_apply, val_main_v105_apply, val_main_v102_apply, val_main_c_24_apply,
    val_main_v104_apply, val_main_c_25_apply, v3_at]
  exact wrap_id _ (wordOf_inRange hin 0 e).1

theorem v107_at (hin : InRange x1) (e : Fin 270336) : val_main_v107 (F := Ideal) x1 (ix2 e 0) = wordOf x1 0 e := by
  rw [val_main_v107_apply, ← v106_at x1 hin]
  exact congrArg _ (funext fun a => match a with | ⟨0, _⟩ => rfl)

theorem v108_at (hin : InRange x1) (e : Fin 270336) :
    val_main_v108 (F := Ideal) x1 (ix1 e) = dinv (dstOf x1) (srcOf x1 e) := by
  unfold val_main_v108
  rw [Cert.LibGS.gather_vec_gen (N := 8192) (n := 270336) (by decide) gather_S8192_S270336x1_S270336_n_0_n_n_0_1_1 rfl rfl rfl rfl,
    v107_at x1 hin]
  exact v101_at x1 hin _

theorem v113_at (hin : InRange x1) (e : Fin 270336) : val_main_v113 (F := Ideal) x1 (ix1 e) = wordOf x1 1 e := by
  rw [val_main_v113_apply, val_main_v110_apply, val_main_v112_apply, val_main_v109_apply, val_main_c_26_apply,
    val_main_v111_apply, val_main_c_27_apply, v6_at]
  exact wrap_id _ (wordOf_inRange hin 1 e).1

theorem v114_at (hin : InRange x1) (e : Fin 270336) : val_main_v114 (F := Ideal) x1 (ix2 e 0) = wordOf x1 1 e := by
  rw [val_main_v114_apply, ← v113_at x1 hin]
  exact congrArg _ (funext fun a => match a with | ⟨0, _⟩ => rfl)

theorem v115_at (hin : InRange x1) (e : Fin 270336) :
    val_main_v115 (F := Ideal) x1 (ix1 e) = dinv (dstOf x1) (dstOf x1 e) := by
  unfold val_main_v115
  rw [Cert.LibGS.gather_vec_gen (N := 8192) (n := 270336) (by decide) gather_S8192_S270336x1_S270336_n_0_n_n_0_1_1 rfl rfl rfl rfl,
    v114_at x1 hin]
  exact v101_at x1 hin _

theorem v116_at (hin : InRange x1) (e : Fin 270336) :
    val_main_v116 (F := Ideal) x1 (ix1 e) = nrm (srcOf x1) (dstOf x1) e := by
  rw [val_main_v116_apply, v108_at x1 hin, v115_at x1 hin]
  rfl

theorem v121_at (hin : InRange x1) (e : Fin 270336) : val_main_v121 (F := Ideal) x1 (ix1 e) = wordOf x1 0 e := by
  rw [val_main_v121_apply, val_main_v118_apply, val_main_v120_apply, val_main_v117_apply, val_main_c_28_apply,
    val_main_v119_apply, val_main_c_29_apply, v3_at]
  exact wrap_id _ (wordOf_inRange hin 0 e).1

theorem v122_at (hin : InRange x1) (e : Fin 270336) : val_main_v122 (F := Ideal) x1 (ix2 e 0) = wordOf x1 0 e := by
  rw [val_main_v122_apply, ← v121_at x1 hin]
  exact congrArg _ (funext fun a => match a with | ⟨0, _⟩ => rfl)

theorem v125_at (hin : InRange x1) (e : Fin 270336) (c : Fin 64) :
    val_main_v125 (F := Ideal) x1 (ix2 e c) = nrm (srcOf x1) (dstOf x1) e := by
  rw [val_main_v125_apply, val_main_v124_apply, ← v116_at x1 hin]
  exact congrArg _ (funext fun a => match a with | ⟨0, _⟩ => rfl)

theorem v128_at (e : Fin 270336) : val_main_v128 (F := Ideal) x1 (ix2 e 0) = wordOf x1 1 e := by
  rw [val_main_v128_apply, ← v6_at]
  exact congrArg _ (funext fun a => match a with | ⟨0, _⟩ => rfl)

variable (x0 : (⟨S8192x256, .f32⟩ : BufTy).Contents (Elt Ideal))
  (x3 : (⟨S256x256, .f32⟩ : BufTy).Contents (Elt Ideal)) (x4 : (⟨S256, .f32⟩ : BufTy).Contents (Elt Ideal))
  (x5 : (⟨S256x256, .f32⟩ : BufTy).Contents (Elt Ideal)) (x6 : (⟨S256, .f32⟩ : BufTy).Contents (Elt Ideal))
  (x7 : (⟨S256x256, .f32⟩ : BufTy).Contents (Elt Ideal)) (x8 : (⟨S256, .f32⟩ : BufTy).Contents (Elt Ideal))
  (x9 : (⟨S256x64, .f32⟩ : BufTy).Contents (Elt Ideal)) (x10 : (⟨S64, .f32⟩ : BufTy).Contents (Elt Ideal))

theorem v93_at (r : Fin 8192) (c : Fin 64) :
    val_main_v93 (F := Ideal) x0 x1 x3 x4 x5 x6 x7 x8 x9 (ix2 r c)
      = mm (val_main_v92 (F := Ideal) x0 x1 x3 x4 x5 x6 x7 x8) x9 (ix2 r c) := by
  rw [val_main_v93_apply]
  refine Finset.sum_congr rfl fun k _ => ?_
  have hl : lidx_main_v93 (ix2 r c) k = ix2 r k := funext fun a => match a with
    | ⟨0, _⟩ => rfl
    | ⟨1, _⟩ => rfl
  have hr : ridx_main_v93 (ix2 r c) k = ix2 k c := funext fun a => match a with
    | ⟨0, _⟩ => rfl
    | ⟨1, _⟩ => rfl
  rw [hl, hr]

theorem v123_at (hin : InRange x1) (e : Fin 270336) (c : Fin 64) :
    val_main_v123 (F := Ideal) x0 x1 x3 x4 x5 x6 x7 x8 x9 (ix2 e c)
      = mm (val_main_v92 (F := Ideal) x0 x1 x3 x4 x5 x6 x7 x8) x9 (ix2 (srcOf x1 e) c) := by
  unfold val_main_v123
  rw [Cert.LibGS.gather_rows_gen (N := 8192) (n := 270336) (C := 64) gather_S8192x64_S270336x1_S270336x64_1_0_n_n_0_1_164
    (by decide) rfl rfl rfl rfl rfl rfl, v122_at x1 hin]
  exact v93_at x1 x0 x3 x4 x5 x6 x7 x8 x9 _ c

theorem v126_at (hin : InRange x1) (e : Fin 270336) (c : Fin 64) :
    val_main_v126 (F := Ideal) x0 x1 x3 x4 x5 x6 x7 x8 x9 (ix2 e c)
      = mm (val_main_v92 (F := Ideal) x0 x1 x3 x4 x5 x6 x7 x8) x9 (ix2 (srcOf x1 e) c) * nrm (srcOf x1) (dstOf x1) e := by
  rw [val_main_v126_apply, v123_at x1 x0 x3 x4 x5 x6 x7 x8 x9 hin, v125_at x1 hin]
  rfl

theorem v129_eq : val_main_v129 (F := Ideal) x0 x1 x3 x4 x5 x6 x7 x8 x9
    = Ideal.hostScatterAdd scatter_S8192x64_S270336x1_S270336x64_1_0_0_1 (val_main_v127 (F := Ideal)) (val_main_v128 (F := Ideal) x1)
        (val_main_v126 (F := Ideal) x0 x1 x3 x4 x5 x6 x7 x8 x9) := rfl

theorem v127_at (j : S8192x64.Idx) : val_main_v127 (F := Ideal) j = 0 := by
  rw [val_main_v127_apply, val_main_cst_30_apply]; exact f32_zero

theorem scatter_rows_fields : scatter_S8192x64_S270336x1_S270336x64_1_0_0_1.updateWindowDims = [1]
    ∧ scatter_S8192x64_S270336x1_S270336x64_1_0_0_1.insertedWindowDims = [0]
    ∧ scatter_S8192x64_S270336x1_S270336x64_1_0_0_1.scatterDimsToOperandDims = [0]
    ∧ scatter_S8192x64_S270336x1_S270336x64_1_0_0_1.indexVectorDim = 1 := ⟨rfl, rfl, rfl, rfl⟩

theorem v129_at (hin : InRange x1) (i : Fin 8192) (c : Fin 64) :
    val_main_v129 (F := Ideal) x0 x1 x3 x4 x5 x6 x7 x8 x9 (ix2 i c)
      = ∑ e ∈ Finset.univ.filter (fun e : Fin 270336 => (dstOf x1 e).val = i.val),
          mm (val_main_v92 (F := Ideal) x0 x1 x3 x4 x5 x6 x7 x8) x9 (ix2 (srcOf x1 e) c) * nrm (srcOf x1) (dstOf x1) e := by
  rw [v129_eq]
  refine (rows_scatter (C := 64) scatter_S8192x64_S270336x1_S270336x64_1_0_0_1 scatter_rows_fields.1 scatter_rows_fields.2.1
    scatter_rows_fields.2.2.1 scatter_rows_fields.2.2.2 hin _ v127_at _ (v128_at x1) _ i c).trans ?_
  exact Finset.sum_congr rfl fun e _ => v126_at x1 x0 x3 x4 x5 x6 x7 x8 x9 hin e c

theorem layer3_aux (hin : InRange x1) :
    val_main_v133 (F := Ideal) x0 x1 x3 x4 x5 x6 x7 x8 x9 x10
      = conv (srcOf x1) (dstOf x1) (nrm (srcOf x1) (dstOf x1)) (mm (val_main_v92 (F := Ideal) x0 x1 x3 x4 x5 x6 x7 x8) x9) (asRow x10) := by
  funext j
  obtain ⟨i, c, rfl⟩ : ∃ i c, j = ix2 i c := ⟨j 0, j 1, eq_ix2 j⟩
  rw [val_main_v133_apply, val_main_v132_apply, val_main_call5_v0_apply, val_main_call5_cst_apply, f32_zero,
    val_main_v131_apply, val_main_v130_apply, v129_at x1 x0 x3 x4 x5 x6 x7 x8 x9 hin]
  have hb : x10 (idx_main_v130 (idx_main_v131 (ix2 i c))) = asRow x10 (ix2 0 c) :=
    congrArg x10 (funext fun a => match a with | ⟨0, _⟩ => rfl)
  rw [hb]
  rfl

end Stages

end Cert.ReferenceIdeal.RefValue.L3

namespace Cert.ReferenceIdeal.RefValue

open Idealize.ShloMosaic Cert.Gcn Cert.ReferenceIdeal Cert.ReferenceIdeal.ReadP

theorem layer3 (x0 : (⟨S8192x256, .f32⟩ : BufTy).Contents (Elt Ideal)) (x1 : (⟨S2x262144, .i32⟩ : BufTy).Contents (Elt Ideal))
    (x3 : (⟨S256x256, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (x9 : (⟨S256x64, .f32⟩ : BufTy).Contents (Elt Ideal)) (x10 : (⟨S64, .f32⟩ : BufTy).Contents (Elt Ideal))
    (hin : InRange x1) :
    val_main_v133 (F := Ideal) x0 x1 x3 x4 x5 x6 x7 x8 x9 x10
      = conv (srcOf x1) (dstOf x1) (nrm (srcOf x1) (dstOf x1)) (mm (val_main_v92 (F := Ideal) x0 x1 x3 x4 x5 x6 x7 x8) x9) (asRow x10) :=
  L3.layer3_aux x1 x0 x3 x4 x5 x6 x7 x8 x9 x10 hin

end Cert.ReferenceIdeal.RefValue

end
-- ==== Proof.RefL4.lean ====
import proofs.«407141_j11613591568667_1_alg».proof.Proof.RefRead
import proofs.«407141_j11613591568667_1_alg».proof.Proof.RefStage
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefValue

open Idealize.ShloMosaic Idealize.ShloMosaic.ValueIdx Cert.Gcn Cert.ReferenceIdeal Cert.ReferenceIdeal.ReadP

namespace L4

theorem zero_bits : FloatOps.ofBits (F := Ideal) .f32 0x00000000#32 = (0 : EReal) := Ideal.ofBits_zero_f32

theorem one_bits : FloatOps.ofBits (F := Ideal) .f32 0x3F800000#32 = (1 : EReal) := Ideal.ofBits_one_f32

section Words

variable (x1 : (⟨S2x262144, .i32⟩ : BufTy).Contents (Elt Ideal))

theorem src_word (e : Fin 270336) : val_main_v3 (F := Ideal) x1 (ix1 e) = wordOf x1 0 e := by
  unfold val_main_v3
  rw [Stage.concat_apply]
  unfold wordOf
  split
  · rename_i h
    rw [val_main_v2_apply, val_main_v1_apply]
    exact congrArg x1 (Stage.idx2_eq _ 0 ⟨e.val, h⟩ rfl (Nat.mod_eq_of_lt h))
  · rfl

theorem dst_word (e : Fin 270336) : val_main_v6 (F := Ideal) x1 (ix1 e) = wordOf x1 1 e := by
  unfold val_main_v6
  rw [Stage.concat_apply]
  unfold wordOf
  split
  · rename_i h
    rw [val_main_v5_apply, val_main_v4_apply]
    exact congrArg x1 (Stage.idx2_eq _ 1 ⟨e.val, h⟩ rfl (Nat.mod_eq_of_lt h))
  · rfl

theorem v137_at (e : Fin 270336) : val_main_v137 (F := Ideal) x1 (ix2 e 0) = wordOf x1 1 e := by
  rw [val_main_v137_apply, Stage.idx1_eq (idx_main_v137 (ix2 e 0)) e rfl]
  exact dst_word x1 e

theorem v169_at (e : Fin 270336) : val_main_v169 (F := Ideal) x1 (ix2 e 0) = wordOf x1 1 e := by
  rw [val_main_v169_apply, Stage.idx1_eq (idx_main_v169 (ix2 e 0)) e rfl]
  exact dst_word x1 e

variable (hin : InRange x1)
include hin

theorem v148_at (e : Fin 270336) : val_main_v148 (F := Ideal) x1 (ix2 e 0) = wordOf x1 0 e := by
  rw [val_main_v148_apply, Stage.idx1_eq (idx_main_v148 (ix2 e 0)) e rfl, val_main_v147_apply, val_main_v144_apply,
    val_main_v146_apply, val_main_v143_apply, val_main_v145_apply, val_main_c_35_apply, val_main_c_36_apply, src_word]
  exact Stage.wrap_eq (wordOf_inRange hin 0 e).1

theorem v155_at (e : Fin 270336) : val_main_v155 (F := Ideal) x1 (ix2 e 0) = wordOf x1 1 e := by
  rw [val_main_v155_apply, Stage.idx1_eq (idx_main_v155 (ix2 e 0)) e rfl, val_main_v154_apply, val_main_v151_apply,
    val_main_v153_apply, val_main_v150_apply, val_main_v152_apply, val_main_c_37_apply, val_main_c_38_apply, dst_word]
  exact Stage.wrap_eq (wordOf_inRange hin 1 e).1

theorem v163_at (e : Fin 270336) : val_main_v163 (F := Ideal) x1 (ix2 e 0) = wordOf x1 0 e := by
  rw [val_main_v163_apply, Stage.idx1_eq (idx_main_v163 (ix2 e 0)) e rfl, val_main_v162_apply, val_main_v159_apply,
    val_main_v161_apply, val_main_v158_apply, val_main_v160_apply, val_main_c_39_apply, val_main_c_40_apply, src_word]
  exact Stage.wrap_eq (wordOf_inRange hin 0 e).1

theorem v138_at (i : Fin 8192) : val_main_v138 (F := Ideal) x1 (ix1 i) = deg (dstOf x1) i := by
  unfold val_main_v138
  exact Stage.deg_stage scatter_S8192_S270336x1_S270336_n_0_0_1 rfl rfl rfl hin _ _ _
    (fun j => by rw [val_main_v136_apply, val_main_cst_32_apply]; exact zero_bits)
    (v137_at x1)
    (fun j => by rw [val_main_v135_apply, val_main_cst_31_apply]; exact one_bits) i

theorem v142_at (i : Fin 8192) : val_main_v142 (F := Ideal) x1 (ix1 i) = dinv (dstOf x1) i := by
  rw [val_main_v142_apply, val_main_v140_apply, val_main_v141_apply, val_main_v139_apply, val_main_cst_33_apply,
    val_main_call6_v1_apply, val_main_call6_v0_apply, val_main_cst_34_apply, v138_at x1 hin, zero_bits]
  unfold dinv
  rw [Ideal.cmpf_def, Ideal.hostUnary_rsqrt_def]
  exact Stage.dinv_word _

theorem v149_at (e : Fin 270336) : val_main_v149 (F := Ideal) x1 (ix1 e) = dinv (dstOf x1) (srcOf x1 e) := by
  unfold val_main_v149
  rw [Stage.gather_node gather_S8192_S270336x1_S270336_n_0_n_n_0_1_1 rfl rfl rfl rfl, v148_at x1 hin]
  exact v142_at x1 hin _

theorem v156_at (e : Fin 270336) : val_main_v156 (F := Ideal) x1 (ix1 e) = dinv (dstOf x1) (dstOf x1 e) := by
  unfold val_main_v156
  rw [Stage.gather_node gather_S8192_S270336x1_S270336_n_0_n_n_0_1_1 rfl rfl rfl rfl, v155_at x1 hin]
  exact v142_at x1 hin _

theorem v157_at (e : Fin 270336) : val_main_v157 (F := Ideal) x1 (ix1 e) = nrm (srcOf x1) (dstOf x1) e := by
  rw [val_main_v157_apply, v149_at x1 hin, v156_at x1 hin]
  rfl

theorem v166_at (e : Fin 270336) (c : Fin 64) : val_main_v166 (F := Ideal) x1 (ix2 e c) = nrm (srcOf x1) (dstOf x1) e := by
  rw [val_main_v166_apply, val_main_v165_apply, Stage.idx1_eq (idx_main_v165 (idx_main_v166 (ix2 e c))) e rfl]
  exact v157_at x1 hin e

end Words

section Rows

variable (x0 : (⟨S8192x256, .f32⟩ : BufTy).Contents (Elt Ideal)) (x1 : (⟨S2x262144, .i32⟩ : BufTy).Contents (Elt Ideal))
  (x3 : (⟨S256x256, .f32⟩ : BufTy).Contents (Elt Ideal)) (x4 : (⟨S256, .f32⟩ : BufTy).Contents (Elt Ideal))
  (x5 : (⟨S256x256, .f32⟩ : BufTy).Contents (Elt Ideal)) (x6 : (⟨S256, .f32⟩ : BufTy).Contents (Elt Ideal))
  (x7 : (⟨S256x256, .f32⟩ : BufTy).Contents (Elt Ideal)) (x8 : (⟨S256, .f32⟩ : BufTy).Contents (Elt Ideal))
  (x11 : (⟨S256x64, .f32⟩ : BufTy).Contents (Elt Ideal))

theorem v134_at (r : Fin 8192) (c : Fin 64) :
    val_main_v134 (F := Ideal) x0 x1 x3 x4 x5 x6 x7 x8 x11 (ix2 r c)
      = mm (val_main_v92 (F := Ideal) x0 x1 x3 x4 x5 x6 x7 x8) x11 (ix2 r c) := by
  rw [val_main_v134_apply]
  refine Finset.sum_congr rfl fun k _ => ?_
  rw [Stage.idx2_eq (lidx_main_v134 (ix2 r c) k) r k rfl rfl, Stage.idx2_eq (ridx_main_v134 (ix2 r c) k) k c rfl rfl]

variable (hin : InRange x1)
include hin

theorem v164_at (e : Fin 270336) (c : Fin 64) :
    val_main_v164 (F := Ideal) x0 x1 x3 x4 x5 x6 x7 x8 x11 (ix2 e c)
      = mm (val_main_v92 (F := Ideal) x0 x1 x3 x4 x5 x6 x7 x8) x11 (ix2 (srcOf x1 e) c) := by
  unfold val_main_v164
  rw [Stage.gather_rows_node gather_S8192x64_S270336x1_S270336x64_1_0_n_n_0_1_164 rfl rfl rfl rfl rfl rfl,
    v163_at x1 hin]
  exact v134_at x0 x1 x3 x4 x5 x6 x7 x8 x11 _ c

theorem v167_at (e : Fin 270336) (c : Fin 64) :
    val_main_v167 (F := Ideal) x0 x1 x3 x4 x5 x6 x7 x8 x11 (ix2 e c)
      = mm (val_main_v92 (F := Ideal) x0 x1 x3 x4 x5 x6 x7 x8) x11 (ix2 (srcOf x1 e) c) * nrm (srcOf x1) (dstOf x1) e := by
  rw [val_main_v167_apply, v164_at x0 x1 x3 x4 x5 x6 x7 x8 x11 hin, v166_at x1 hin]
  rfl

theorem v170_at (i : Fin 8192) (c : Fin 64) :
    val_main_v170 (F := Ideal) x0 x1 x3 x4 x5 x6 x7 x8 x11 (ix2 i c)
      = ∑ e ∈ Finset.univ.filter (fun e : Fin 270336 => (dstOf x1 e).val = i.val),
          mm (val_main_v92 (F := Ideal) x0 x1 x3 x4 x5 x6 x7 x8) x11 (ix2 (srcOf x1 e) c) * nrm (srcOf x1) (dstOf x1) e := by
  unfold val_main_v170
  refine (Stage.scatter_rows_stage scatter_S8192x64_S270336x1_S270336x64_1_0_0_1 rfl rfl rfl rfl hin _ _ _
    (fun j => by rw [val_main_v168_apply, val_main_cst_41_apply]; exact zero_bits) (v169_at x1) i c).trans ?_
  exact Finset.sum_congr rfl fun e _ => v167_at x0 x1 x3 x4 x5 x6 x7 x8 x11 hin e c

end Rows

end L4

theorem layer4 (x0 : (⟨S8192x256, .f32⟩ : BufTy).Contents (Elt Ideal)) (x1 : (⟨S2x262144, .i32⟩ : BufTy).Contents (Elt Ideal))
    (x3 : (⟨S256x256, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (x11 : (⟨S256x64, .f32⟩ : BufTy).Contents (Elt Ideal)) (x12 : (⟨S64, .f32⟩ : BufTy).Contents (Elt Ideal))
    (hin : InRange x1) :
    val_main_v174 (F := Ideal) x0 x1 x3 x4 x5 x6 x7 x8 x11 x12
      = conv (srcOf x1) (dstOf x1) (nrm (srcOf x1) (dstOf x1))
          (mm (val_main_v92 (F := Ideal) x0 x1 x3 x4 x5 x6 x7 x8) x11) (asRow x12) := by
  funext j
  obtain ⟨i, c, rfl⟩ : ∃ i c, j = ix2 i c := ⟨j 0, j 1, eq_ix2 j⟩
  rw [val_main_v174_apply, val_main_call7_v0_apply, val_main_call7_cst_apply, L4.zero_bits, val_main_v173_apply,
    val_main_v172_apply, val_main_v171_apply, L4.v170_at x0 x1 x3 x4 x5 x6 x7 x8 x11 hin,
    Stage.idx1_eq (idx_main_v171 (idx_main_v172 (ix2 i c))) c rfl]
  rfl

end Cert.ReferenceIdeal.RefValue

end
-- ==== Proof.RefTail.lean ====
import proofs.«407141_j11613591568667_1_alg».proof.Proof.RefRead
import proofs.«407141_j11613591568667_1_alg».proof.Proof.Spec
import Idealize.ShloMosaic.Lib.IdealHost
import Idealize.ShloMosaic.Lib.StableHlo.Predicate

noncomputable section

open scoped BigOperators

namespace Cert.ReferenceIdeal.RefValue

open Cert.ReferenceIdeal Cert.ReferenceIdeal.ReadP Cert.Gcn Idealize.ShloMosaic Idealize.ShloMosaic.ValueIdx
open Idealize.ShloMosaic.StableHlo.Predicate

variable (x0 : (⟨S8192x256, .f32⟩ : BufTy).Contents (Elt Ideal)) (x1 : (⟨S2x262144, .i32⟩ : BufTy).Contents (Elt Ideal))
  (x2 : (⟨S8192x64, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x256, .f32⟩ : BufTy).Contents (Elt Ideal))
  (x8 : (⟨S256, .f32⟩ : BufTy).Contents (Elt Ideal)) (x9 : (⟨S256x64, .f32⟩ : BufTy).Contents (Elt Ideal))
  (x10 : (⟨S64, .f32⟩ : BufTy).Contents (Elt Ideal)) (x11 : (⟨S256x64, .f32⟩ : BufTy).Contents (Elt Ideal))
  (x12 : (⟨S64, .f32⟩ : BufTy).Contents (Elt Ideal))

theorem triu_mask (a b : Fin 8192) : val_main_call8_v4 (F := Ideal) (ix2 a b) = 1#1 ↔ b.val ≤ a.val := by
  rw [val_main_call8_v4_apply, val_main_call8_v2_apply, val_main_call8_v0_apply, val_main_call8_v1_apply,
    val_main_call8_c_apply, val_main_call8_v3_apply]
  show IntOp.cmpi .sge (IntOp.addi (BitVec.ofNat 32 a.val) 0#32) (BitVec.ofNat 32 b.val) = 1#1 ↔ b.val ≤ a.val
  have h0 : IntOp.addi (BitVec.ofNat 32 a.val) 0#32 = BitVec.ofNat 32 a.val := by
    unfold IntOp.addi
    exact BitVec.add_zero _
  have ha : (BitVec.ofNat 32 a.val).toNat = a.val := by
    rw [BitVec.toNat_ofNat]; have := a.isLt; omega
  have hb : (BitVec.ofNat 32 b.val).toNat = b.val := by
    rw [BitVec.toNat_ofNat]; have := b.isLt; omega
  rw [h0, sge_iff_toNat (by rw [ha]; have := a.isLt; omega) (by rw [hb]; have := b.isLt; omega), ha, hb]

theorem sample_stage :
    val_main_v177 (F := Ideal) x0 x1 x2 x3 x4 x5 x6 x7 x8 x9 x10 x11 x12
      = sample (N := 8192) (C := 64) x2 (val_main_v133 (F := Ideal) x0 x1 x3 x4 x5 x6 x7 x8 x9 x10)
          (val_main_v174 (F := Ideal) x0 x1 x3 x4 x5 x6 x7 x8 x11 x12) := by
  funext i
  rw [val_main_v177_apply, val_main_v176_apply, val_main_v175_apply]
  generalize val_main_v133 (F := Ideal) x0 x1 x3 x4 x5 x6 x7 x8 x9 x10 = mean
  generalize val_main_v174 (F := Ideal) x0 x1 x3 x4 x5 x6 x7 x8 x11 x12 = ls
  rfl

theorem score_stage (a b : Fin 8192) :
    val_main_v179 (F := Ideal) x0 x1 x2 x3 x4 x5 x6 x7 x8 x9 x10 x11 x12 (ix2 a b)
      = ∑ k : Fin 64, val_main_v177 (F := Ideal) x0 x1 x2 x3 x4 x5 x6 x7 x8 x9 x10 x11 x12 (ix2 a k)
          * val_main_v177 (F := Ideal) x0 x1 x2 x3 x4 x5 x6 x7 x8 x9 x10 x11 x12 (ix2 b k) := by
  rw [val_main_v179_apply]
  refine Finset.sum_congr rfl fun k _ => ?_
  rw [val_main_v178_apply]
  have el : lidx_main_v179 (ix2 a b) k = ix2 a k :=
    funext fun d => match d with | ⟨0, _⟩ => rfl | ⟨1, _⟩ => rfl
  have er : idx_main_v178 (ridx_main_v179 (ix2 a b) k) = ix2 b k :=
    funext fun d => match d with | ⟨0, _⟩ => rfl | ⟨1, _⟩ => rfl
  rw [el, er]

theorem logistic_stage (i : S8192x8192.Idx) :
    val_main_v185 (F := Ideal) x0 x1 x2 x3 x4 x5 x6 x7 x8 x9 x10 x11 x12 i
      = Ideal.logistic (val_main_v179 (F := Ideal) x0 x1 x2 x3 x4 x5 x6 x7 x8 x9 x10 x11 x12 i) := by
  rw [val_main_v185_apply, val_main_v184_apply, val_main_cst_43_apply, val_main_v183_apply, val_main_v182_apply,
    val_main_cst_42_apply, val_main_v181_apply, val_main_v180_apply]
  show Ideal.div (Ideal.ofBits .f32 0x3F800000#32)
      (Ideal.ofBits .f32 0x3F800000#32 + Ideal.exp (-(val_main_v179 (F := Ideal) x0 x1 x2 x3 x4 x5 x6 x7 x8 x9 x10 x11 x12 i)))
    = Ideal.div 1 (1 + Ideal.exp (-(val_main_v179 (F := Ideal) x0 x1 x2 x3 x4 x5 x6 x7 x8 x9 x10 x11 x12 i)))
  rw [Ideal.ofBits_one_f32]

theorem tail :
    val_main_v186 (F := Ideal) x0 x1 x2 x3 x4 x5 x6 x7 x8 x9 x10 x11 x12
      = dec (sample x2 (val_main_v133 (F := Ideal) x0 x1 x3 x4 x5 x6 x7 x8 x9 x10)
          (val_main_v174 (F := Ideal) x0 x1 x3 x4 x5 x6 x7 x8 x11 x12)) := by
  rw [← sample_stage x0 x1 x2 x3 x4 x5 x6 x7 x8 x9 x10 x11 x12]
  funext j
  obtain ⟨a, b, rfl⟩ : ∃ (a : Fin 8192) (b : Fin 8192), j = ix2 a b := ⟨j 0, j 1, eq_ix2 j⟩
  rw [val_main_v186_apply]
  show Scalar.select (val_main_call8_v4 (F := Ideal) (ix2 a b)) (val_main_call8_v5 (F := Ideal) (ix2 a b))
      (val_main_v185 (F := Ideal) x0 x1 x2 x3 x4 x5 x6 x7 x8 x9 x10 x11 x12 (ix2 a b))
    = if a.val < b.val then
        Ideal.logistic (∑ k : Fin 64, val_main_v177 (F := Ideal) x0 x1 x2 x3 x4 x5 x6 x7 x8 x9 x10 x11 x12 (ix2 a k)
          * val_main_v177 (F := Ideal) x0 x1 x2 x3 x4 x5 x6 x7 x8 x9 x10 x11 x12 (ix2 b k))
      else 0
  by_cases h : a.val < b.val
  · have hm : val_main_call8_v4 (F := Ideal) (ix2 a b) = 0#1 :=
      eq_zero_of_ne_one fun h1 => absurd ((triu_mask a b).mp h1) (by omega)
    rw [if_pos h, hm, select_zero, logistic_stage, score_stage]
  · have hm : val_main_call8_v4 (F := Ideal) (ix2 a b) = 1#1 := (triu_mask a b).mpr (by omega)
    rw [if_neg h, hm, select_one, val_main_call8_v5_apply, val_main_call8_cst_apply]
    exact Ideal.ofBits_zero_f32

end Cert.ReferenceIdeal.RefValue

end
-- ==== Proof.RefValue.lean ====
import proofs.«407141_j11613591568667_1_alg».proof.Proof.RefL1
import proofs.«407141_j11613591568667_1_alg».proof.Proof.RefL2
import proofs.«407141_j11613591568667_1_alg».proof.Proof.RefL3
import proofs.«407141_j11613591568667_1_alg».proof.Proof.RefL4
import proofs.«407141_j11613591568667_1_alg».proof.Proof.RefTail
import proofs.«407141_j11613591568667_1_alg».proof.Proof.Forms
import proofs.«407141_j11613591568667_1_alg».proof.Proof.EdgeIdx

noncomputable section

open scoped BigOperators

namespace Cert.ReferenceIdeal.RefValue

open Cert.ReferenceIdeal Cert.ReferenceIdeal.ReadP Cert.Gcn Idealize.ShloMosaic Idealize.ShloMosaic.ValueIdx

variable (x0 : (⟨S8192x256, .f32⟩ : BufTy).Contents (Elt Ideal)) (x1 : (⟨S2x262144, .i32⟩ : BufTy).Contents (Elt Ideal))
  (x2 : (⟨S8192x64, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x256, .f32⟩ : BufTy).Contents (Elt Ideal))
  (x8 : (⟨S256, .f32⟩ : BufTy).Contents (Elt Ideal)) (x9 : (⟨S256x64, .f32⟩ : BufTy).Contents (Elt Ideal))
  (x10 : (⟨S64, .f32⟩ : BufTy).Contents (Elt Ideal)) (x11 : (⟨S256x64, .f32⟩ : BufTy).Contents (Elt Ideal))
  (x12 : (⟨S64, .f32⟩ : BufTy).Contents (Elt Ideal))

theorem ref_value (hin : InRange x1) :
    val_main_v186 (F := Ideal) x0 x1 x2 x3 x4 x5 x6 x7 x8 x9 x10 x11 x12
      = refForm (srcOf x1) (dstOf x1) x0 x2 x3 x4 x5 x6 x7 x8 x9 x10 x11 x12 := by
  rw [tail, layer3 (hin := hin), layer4 (hin := hin), layer2 (hin := hin), layer1 (hin := hin)]
  rfl

end Cert.ReferenceIdeal.RefValue

end
-- ==== Proof.PreIdx.lean ====
import proofs.«407141_j11613591568667_1_alg».proof.Pre_finite_inputs
import proofs.«407141_j11613591568667_1_alg».proof.Proof.EdgeIdx
import Idealize.ShloMosaic.Lib.ReduceAll
import Idealize.ShloMosaic.Lib.ValueIdx

noncomputable section

namespace Cert.Gcn

open Idealize.ShloMosaic
open Cert.Pre_finite_inputs (S8192x256 S2x262144 S8192x64 S256x256 S256 S256x64 S64 S_)

instance subsingleton_scalar_idx : Subsingleton S_.Idx := ⟨fun a b => funext fun d => d.elim0⟩

theorem inRange_of_bit (x : BitVec 32)
    (h : IntOp.andi (IntOp.cmpi .sge x 0#32) (IntOp.cmpi .slt x 8192#32) = 1#1) : 0 ≤ x.toInt ∧ x.toInt < 8192 := by
  obtain ⟨hge, hlt⟩ := IntOp.andi_eq_one.1 h
  have h0 : (0#32 : BitVec 32).toInt = 0 := by decide
  have h8 : (8192#32 : BitVec 32).toInt = 8192 := by decide
  rw [IntOp.cmpi_sge, h0] at hge
  rw [IntOp.cmpi_slt, h8] at hlt
  exact ⟨hge, hlt⟩

theorem inRange_of_pre {F : FTy → Type} [FloatOps F] [Cert.Pre_finite_inputs.Facts]
    (a0 : FVec F S8192x256 .f32) (ei : IVec S2x262144 32) (a2 : FVec F S8192x64 .f32) (a3 : FVec F S256x256 .f32)
    (a4 : FVec F S256 .f32) (a5 : FVec F S256x256 .f32) (a6 : FVec F S256 .f32) (a7 : FVec F S256x256 .f32)
    (a8 : FVec F S256 .f32) (a9 : FVec F S256x64 .f32) (a10 : FVec F S64 .f32) (a11 : FVec F S256x64 .f32)
    (a12 : FVec F S64 .f32)
    (h : Cert.Pre_finite_inputs.fn (F := F) a0 ei a2 a3 a4 a5 a6 a7 a8 a9 a10 a11 a12 = fun _ => 1#1) :
    Cert.Gcn.InRange ei := by
  intro j
  have h0 := congrFun h ValueIdx.ix0
  unfold Cert.Pre_finite_inputs.fn Cert.Pre_finite_inputs.fn_part1 Cert.Pre_finite_inputs.fn_part2
    Cert.Pre_finite_inputs.fn_part3 at h0
  dsimp only at h0

  have h1 := (IntOp.andi_eq_one.1 h0).2

  have h2 := Host.reduce_andi_all _ _ _ _ _ h1 j
  exact inRange_of_bit (ei j) h2

end Cert.Gcn

end
-- ==== Proof.GraphLaw.lean ====
import proofs.«407141_j11613591568667_1_alg».proof.Proof.Spec
import Mathlib.Data.EReal.Operations
import Mathlib.Algebra.BigOperators.Group.Finset.Basic
import Mathlib.Algebra.Order.BigOperators.Group.Finset

noncomputable section

open scoped BigOperators

namespace Cert.Gcn

open Idealize.ShloMosaic Idealize.ShloMosaic.ValueIdx

theorem sum_mul_of_nonneg {ι : Type} (S : Finset ι) (f : ι → EReal) (hf : ∀ e ∈ S, 0 ≤ f e) (c : EReal) :
    (∑ e ∈ S, f e) * c = ∑ e ∈ S, f e * c := by
  classical
  induction S using Finset.induction_on with
  | empty => simp
  | insert a S ha ih =>
    have hS : ∀ e ∈ S, 0 ≤ f e := fun e he => hf e (Finset.mem_insert_of_mem he)
    rw [Finset.sum_insert ha, Finset.sum_insert ha,
      EReal.right_distrib_of_nonneg (hf a (Finset.mem_insert_self a S)) (Finset.sum_nonneg hS), ih hS]

theorem sum_by_source {N E : Nat} (s d : Fin E → Fin N) (i : Fin N) (g : Fin E → EReal) :
    ∑ k : Fin N, ∑ e ∈ Finset.univ.filter (fun e : Fin E => (d e).val = i.val ∧ (s e).val = k.val), g e
      = ∑ e ∈ Finset.univ.filter (fun e : Fin E => (d e).val = i.val), g e := by
  rw [← Finset.sum_fiberwise (Finset.univ.filter (fun e : Fin E => (d e).val = i.val)) s g]
  refine Finset.sum_congr rfl fun k _ => ?_
  rw [Finset.filter_filter]
  refine Finset.sum_congr ?_ fun _ _ => rfl
  ext e
  simp only [Finset.mem_filter, Finset.mem_univ, true_and, Fin.val_inj]

theorem dense_sum_eq_edge_sum {N E C : Nat} (s d : Fin E → Fin N) (n : Fin E → EReal) (hn : ∀ e, 0 ≤ n e)
    (y : RArr N C) (i : Fin N) (c : Fin C) :
    ∑ k : Fin N, (∑ e ∈ Finset.univ.filter (fun e : Fin E => (d e).val = i.val ∧ (s e).val = k.val), n e) * y (ix2 k c)
      = ∑ e ∈ Finset.univ.filter (fun e : Fin E => (d e).val = i.val), y (ix2 (s e) c) * n e := by
  rw [← sum_by_source s d i (fun e => y (ix2 (s e) c) * n e)]
  refine Finset.sum_congr rfl fun k _ => ?_
  rw [sum_mul_of_nonneg _ _ (fun e _ => hn e)]
  refine Finset.sum_congr rfl fun e he => ?_
  have hk : s e = k := Fin.ext (Finset.mem_filter.mp he).2.2
  rw [hk, mul_comm]

theorem agg_adj_eq_conv {N E C : Nat} (s d : Fin E → Fin N) (n : Fin E → EReal) (hn : ∀ e, 0 ≤ n e)
    (y : RArr N C) (b : RArr 1 C) : agg (adj s d n) y b = conv s d n y b := by
  funext j
  obtain ⟨i, c, rfl⟩ : ∃ (i : Fin N) (c : Fin C), j = ix2 i c := ⟨j 0, j 1, eq_ix2 j⟩
  show max ((∑ k : Fin N,
        (∑ e ∈ Finset.univ.filter (fun e : Fin E => (d e).val = i.val ∧ (s e).val = k.val), n e) * y (ix2 k c))
        + b (ix2 0 c)) 0
      = max ((∑ e ∈ Finset.univ.filter (fun e : Fin E => (d e).val = i.val), y (ix2 (s e) c) * n e) + b (ix2 0 c)) 0
  rw [dense_sum_eq_edge_sum s d n hn y i c]

theorem rsqrt_nonneg_of_pos (x : EReal) (hx : 0 < x) : 0 ≤ Ideal.rsqrt x := by
  induction x using EReal.rec with
  | bot => exact absurd hx (not_lt_bot)
  | coe r =>
    have hr : 0 < r := EReal.coe_pos.mp hx
    rw [Ideal.rsqrt_coe, if_neg (not_lt.mpr hr.le), if_neg hr.ne']
    exact EReal.coe_nonneg.mpr (inv_nonneg.mpr (Real.sqrt_nonneg r))
  | top => rw [Ideal.rsqrt_top]

theorem dinv_nonneg {N E : Nat} (d : Fin E → Fin N) (i : Fin N) : 0 ≤ dinv d i := by
  unfold dinv
  split_ifs with h
  · exact rsqrt_nonneg_of_pos _ h
  · exact le_refl 0

theorem nrm_nonneg {N E : Nat} (s d : Fin E → Fin N) (e : Fin E) : 0 ≤ nrm s d e :=
  EReal.mul_nonneg (dinv_nonneg d (s e)) (dinv_nonneg d (d e))

end Cert.Gcn

end
-- ==== Proof.FormsLaw.lean ====
import proofs.«407141_j11613591568667_1_alg».proof.Proof.Forms
import proofs.«407141_j11613591568667_1_alg».proof.Proof.GraphLaw

noncomputable section

open scoped BigOperators

namespace Cert.Gcn

open Idealize.ShloMosaic Idealize.ShloMosaic.ValueIdx

theorem lin_zeroRow {N K C : Nat} (x : RArr N K) (w : RArr K C) : lin x w (zeroRow C) = mm x w := by
  funext j
  show (∑ k : Fin K, x (ix2 (j 0) k) * w (ix2 k (j 1))) + 0 = ∑ k : Fin K, x (ix2 (j 0) k) * w (ix2 k (j 1))
  exact add_zero _

theorem hcat_left {N : Nat} (l r : RArr N 64) (i : Fin N) (c : Fin 128) (hc : c.val < 64) :
    hcat l r (ix2 i c) = l (ix2 i ⟨c.val, hc⟩) := by
  unfold hcat
  exact dif_pos hc

theorem hcat_right {N : Nat} (l r : RArr N 64) (i : Fin N) (c : Fin 128) (hc : ¬ c.val < 64) :
    hcat l r (ix2 i c) = r (ix2 i ⟨c.val - 64, by have := c.isLt; omega⟩) := by
  unfold hcat
  exact dif_neg hc

theorem leftHalf_hcat {N : Nat} (l r : RArr N 64) : leftHalf (hcat l r) = l := by
  funext j
  obtain ⟨i, c, rfl⟩ : ∃ (i : Fin N) (c : Fin 64), j = ix2 i c := ⟨j 0, j 1, eq_ix2 j⟩
  exact hcat_left l r i ⟨c.val, by have := c.isLt; omega⟩ c.isLt

theorem rightHalf_hcat {N : Nat} (l r : RArr N 64) : rightHalf (hcat l r) = r := by
  funext j
  obtain ⟨i, c, rfl⟩ : ∃ (i : Fin N) (c : Fin 64), j = ix2 i c := ⟨j 0, j 1, eq_ix2 j⟩
  have hc : ¬ (c.val + 64 < 64) := by omega
  have e : ∀ p : c.val + 64 - 64 < 64, (⟨c.val + 64 - 64, p⟩ : Fin 64) = c := fun _ => Fin.ext (Nat.add_sub_cancel _ _)
  have := hcat_right l r i ⟨c.val + 64, by have := c.isLt; omega⟩ hc
  rw [e] at this
  exact this

theorem mm_hcat_left {N K : Nat} (h : RArr N K) (wm wl : RArr K 64) (i : Fin N) (c : Fin 128) (hc : c.val < 64) :
    mm h (hcat wm wl) (ix2 i c) = mm h wm (ix2 i ⟨c.val, hc⟩) := by
  show ∑ k : Fin K, h (ix2 i k) * hcat wm wl (ix2 k c) = ∑ k : Fin K, h (ix2 i k) * wm (ix2 k ⟨c.val, hc⟩)
  refine Finset.sum_congr rfl fun k _ => ?_
  rw [hcat_left wm wl k c hc]

theorem mm_hcat_right {N K : Nat} (h : RArr N K) (wm wl : RArr K 64) (i : Fin N) (c : Fin 128) (hc : ¬ c.val < 64) :
    mm h (hcat wm wl) (ix2 i c) = mm h wl (ix2 i ⟨c.val - 64, by have := c.isLt; omega⟩) := by
  show ∑ k : Fin K, h (ix2 i k) * hcat wm wl (ix2 k c)
      = ∑ k : Fin K, h (ix2 i k) * wl (ix2 k ⟨c.val - 64, by have := c.isLt; omega⟩)
  refine Finset.sum_congr rfl fun k _ => ?_
  rw [hcat_right wm wl k c hc]

theorem asRow_vcat_left (bm bl : RVec 64) (c : Fin 128) (hc : c.val < 64) :
    asRow (vcat bm bl) (ix2 0 c) = asRow bm (ix2 0 ⟨c.val, hc⟩) := by
  unfold asRow vcat
  exact dif_pos hc

theorem asRow_vcat_right (bm bl : RVec 64) (c : Fin 128) (hc : ¬ c.val < 64) :
    asRow (vcat bm bl) (ix2 0 c) = asRow bl (ix2 0 ⟨c.val - 64, by have := c.isLt; omega⟩) := by
  unfold asRow vcat
  exact dif_neg hc

theorem agg_hcat {N K : Nat} (a : RArr N N) (h : RArr N K) (wm wl : RArr K 64) (bm bl : RVec 64) :
    agg a (mm h (hcat wm wl)) (asRow (vcat bm bl))
      = hcat (agg a (mm h wm) (asRow bm)) (agg a (mm h wl) (asRow bl)) := by
  funext j
  obtain ⟨i, c, rfl⟩ : ∃ (i : Fin N) (c : Fin 128), j = ix2 i c := ⟨j 0, j 1, eq_ix2 j⟩
  by_cases hc : c.val < 64
  · rw [hcat_left _ _ i c hc]
    show max ((∑ k : Fin N, a (ix2 i k) * mm h (hcat wm wl) (ix2 k c)) + asRow (vcat bm bl) (ix2 0 c)) 0
        = max ((∑ k : Fin N, a (ix2 i k) * mm h wm (ix2 k ⟨c.val, hc⟩)) + asRow bm (ix2 0 ⟨c.val, hc⟩)) 0
    rw [asRow_vcat_left bm bl c hc, Finset.sum_congr rfl fun k _ => by rw [mm_hcat_left h wm wl k c hc]]
  · rw [hcat_right _ _ i c hc]
    show max ((∑ k : Fin N, a (ix2 i k) * mm h (hcat wm wl) (ix2 k c)) + asRow (vcat bm bl) (ix2 0 c)) 0
        = max ((∑ k : Fin N, a (ix2 i k) * mm h wl (ix2 k ⟨c.val - 64, by have := c.isLt; omega⟩))
            + asRow bl (ix2 0 ⟨c.val - 64, by have := c.isLt; omega⟩)) 0
    rw [asRow_vcat_right bm bl c hc, Finset.sum_congr rfl fun k _ => by rw [mm_hcat_right h wm wl k c hc]]

theorem kernelForm_eq_refForm (s d : Fin 270336 → Fin 8192) (x : RArr 8192 256) (noise : RArr 8192 64)
    (mlpW : RArr 256 256) (mlpB : RVec 256) (w1 : RArr 256 256) (b1 : RVec 256) (w2 : RArr 256 256) (b2 : RVec 256)
    (wm : RArr 256 64) (bm : RVec 64) (wl : RArr 256 64) (bl : RVec 64) :
    kernelForm s d x noise mlpW mlpB w1 b1 w2 b2 wm bm wl bl = refForm s d x noise mlpW mlpB w1 b1 w2 b2 wm bm wl bl := by
  have hconv : ∀ {C : Nat} (y : RArr 8192 C) (b : RArr 1 C),
      agg (adj s d (nrm s d)) y b = conv s d (nrm s d) y b :=
    fun y b => agg_adj_eq_conv s d (nrm s d) (nrm_nonneg s d) y b
  unfold kernelForm refForm
  simp only [lin_zeroRow, agg_hcat, leftHalf_hcat, rightHalf_hcat]
  simp only [hconv]

end Cert.Gcn

end
-- ==== Proof.lean ====
import proofs.«407141_j11613591568667_1_alg».proof.Defs
import proofs.«407141_j11613591568667_1_alg».proof.Proof.Gen.Kernel
import proofs.«407141_j11613591568667_1_alg».proof.Proof.Gen.KernelIdeal
import proofs.«407141_j11613591568667_1_alg».proof.Proof.Gen.ReferenceIdeal
import proofs.«407141_j11613591568667_1_alg».proof.Proof.Gen.Pre_finite_inputs
import proofs.«407141_j11613591568667_1_alg».proof.Proof.KB.Claims
import proofs.«407141_j11613591568667_1_alg».proof.Proof.KI.Claims
import proofs.«407141_j11613591568667_1_alg».proof.Proof.KI.KernelValue
import proofs.«407141_j11613591568667_1_alg».proof.Proof.RefValue
import proofs.«407141_j11613591568667_1_alg».proof.Proof.PreIdx
import proofs.«407141_j11613591568667_1_alg».proof.Proof.FormsLaw
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame_run (F := Bits) m ρ

theorem frame_ki : Cert.frame_KernelIdeal := fun m ρ _ => Cert.KernelIdeal.Hand.frame_run (F := Ideal) m ρ

theorem frame_ri : Cert.frame_ReferenceIdeal := fun m ρ _ =>
  (θ_run Cert.ReferenceIdeal.defs _ _).mono (fun _ h c => (h c).2) (Cert.ReferenceIdeal.ReadP.run (F := Ideal) m ρ)

theorem algebraic : Cert.algebraic_KernelIdeal_ReferenceIdeal := by
  intro m ρ m' ρ' hpre hagree
  refine ⟨fun c => Cert.KernelIdeal.Hand.B18 m c (Proc.devRef .tc Cert.KernelIdeal.main_v67),
    Cert.KernelIdeal.Hand.value_run (F := Ideal) m ρ, ?_⟩
  refine (θ_run Cert.ReferenceIdeal.defs _ _).mono (fun _ h c => ⟨(h c).1.trans ?_, (h c).2⟩)
    (Cert.ReferenceIdeal.ReadP.run (F := Ideal) m' ρ')
  have hin := Cert.Gcn.inRange_of_pre _ _ _ _ _ _ _ _ _ _ _ _ _ (hpre c)
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  exact (Cert.ReferenceIdeal.RefValue.ref_value _ _ _ _ _ _ _ _ _ _ _ _ _ hin).trans
    ((Cert.Gcn.kernelForm_eq_refForm _ _ _ _ _ _ _ _ _ _ _ _ _ _).symm.trans (Cert.KernelIdeal.Hand.kernel_value m c hin).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
